-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v140)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v140) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v232) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part4 {F : FTy → Type} [FloatOps F] (main_arg16 : FVec F S10 .f32) (main_v63 : IVec S_ 1) (main_v67 : IVec S_ 1) : IVec S_ 1 :=
  let main_v68 : IVec S_ 1 := andi main_v63 main_v67
  let main_v69 : FVec F S10 .f32 := Host.absf main_arg16
  let main_cst_26 : FVec F S_ .f32 := constant S_ .f32 0x7F800000#32
  let main_v70 : FVec F S10 .f32 := broadcastInDim S10 ![] bcast_S_S10 main_cst_26
  let main_v71 : IVec S10 1 := cmpf .olt main_v69 main_v70
  let main_c_27 : IVec S_ 1 := constantI S_ 1 1#1
  let main_v72 : IVec S_ 1 := (fun x v => Host.reduce IntOp.andi x v reducesTo_S10_S_d0 h_S_) main_v71 main_c_27
  let main_v73 : IVec S_ 1 := andi main_v68 main_v72
  main_v73

def fn_part3 {F : FTy → Type} [FloatOps F] (main_arg13 : FVec F S128 .f32) (main_arg14 : FVec F S128 .f32) (main_arg15 : FVec F S128x10 .f32) (main_arg16 : FVec F S10 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x10 .f32 := Host.absf main_arg15
  let main_cst_24 : FVec F S_ .f32 := constant S_ .f32 0x7F800000#32
  let main_v65 : FVec F S128x10 .f32 := broadcastInDim S128x10 ![] bcast_S_S128x10 main_cst_24
  let main_v66 : IVec S128x10 1 := cmpf .olt main_v64 main_v65
  let main_c_25 : IVec S_ 1 := constantI S_ 1 1#1
  let main_v67 : IVec S_ 1 := (fun x v => Host.reduce IntOp.andi x v reducesTo_S128x10_S_d0_1 h_S_) main_v66 main_c_25
  fn_part4 (F := F) main_arg16 main_v63 main_v67

def fn_part2 {F : FTy → Type} [FloatOps F] (main_arg9 : FVec F S128 .f32) (main_arg10 : FVec F S128 .f32) (main_arg11 : FVec F S128x128 .f32) (main_arg12 : FVec F S128 .f32) (main_arg13 : FVec F S128 .f32) (main_arg14 : FVec F S128 .f32) (main_arg15 : FVec F S128x10 .f32) (main_arg16 : FVec F S10 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_v48 main_v49 main_v50

def fn_part1 {F : FTy → Type} [FloatOps F] (main_arg6 : FVec F S128 .f32) (main_arg7 : FVec F S128x128 .f32) (main_arg8 : FVec F S128 .f32) (main_arg9 : FVec F S128 .f32) (main_arg10 : FVec F S128 .f32) (main_arg11 : FVec F S128x128 .f32) (main_arg12 : FVec F S128 .f32) (main_arg13 : FVec F S128 .f32) (main_arg14 : FVec F S128 .f32) (main_arg15 : FVec F S128x10 .f32) (main_arg16 : FVec F S10 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_v33

def fn {F : FTy → Type} [FloatOps F] (main_arg0 : FVec F S50000x128 .f32) (main_arg1 : IVec S2x800000 32) (main_arg2 : IVec S50000 32) (main_arg3 : FVec F S128x128 .f32) (main_arg4 : FVec F S128 .f32) (main_arg5 : FVec F S128 .f32) (main_arg6 : FVec F S128 .f32) (main_arg7 : FVec F S128x128 .f32) (main_arg8 : FVec F S128 .f32) (main_arg9 : FVec F S128 .f32) (main_arg10 : FVec F S128 .f32) (main_arg11 : FVec F S128x128 .f32) (main_arg12 : FVec F S128 .f32) (main_arg13 : FVec F S128 .f32) (main_arg14 : FVec F S128 .f32) (main_arg15 : FVec F S128x10 .f32) (main_arg16 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S10000x128 : Shape := ⟨2, ![10000, 128]⟩
abbrev S850000x128 : Shape := ⟨2, ![850000, 128]⟩
abbrev S1x128 : Shape := ⟨2, ![1, 128]⟩
abbrev S50000x1 : Shape := ⟨2, ![50000, 1]⟩
abbrev S128x1 : Shape := ⟨2, ![128, 1]⟩
abbrev S1x10 : Shape := ⟨2, ![1, 10]⟩

abbrev nBuf : Space → Nat
  | .hbm => 199
  | .vmem => 66
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S128, .f32⟩
  | 6 => ⟨S128, .f32⟩
  | 7 => ⟨S128x128, .f32⟩
  | 8 => ⟨S128, .f32⟩
  | 9 => ⟨S128, .f32⟩
  | 10 => ⟨S128, .f32⟩
  | 11 => ⟨S128x128, .f32⟩
  | 12 => ⟨S128, .f32⟩
  | 13 => ⟨S128, .f32⟩
  | 14 => ⟨S128, .f32⟩
  | 15 => ⟨S128x10, .f32⟩
  | 16 => ⟨S10, .f32⟩
  | 17 => ⟨S1x800000, .i32⟩
  | 18 => ⟨S800000, .i32⟩
  | 19 => ⟨S1x800000, .i32⟩
  | 20 => ⟨S800000, .i32⟩
  | 21 => ⟨S50000, .i32⟩
  | 22 => ⟨S850000, .i32⟩
  | 23 => ⟨S850000, .i32⟩
  | 24 => ⟨S_, .f32⟩
  | 25 => ⟨S850000, .f32⟩
  | 26 => ⟨S_, .f32⟩
  | 27 => ⟨S50000, .f32⟩
  | 28 => ⟨S850000x1, .i32⟩
  | 29 => ⟨S50000, .f32⟩
  | 30 => ⟨S_, .f32⟩
  | 31 => ⟨S50000, .f32⟩
  | 32 => ⟨S50000, .i1⟩
  | 33 => ⟨S50000, .f32⟩
  | 34 => ⟨S_, .f32⟩
  | 35 => ⟨S50000, .f32⟩
  | 36 => ⟨S50000, .f32⟩
  | 37 => ⟨S_, .f32⟩
  | 38 => ⟨S_, .f32⟩
  | 39 => ⟨S50000, .f32⟩
  | 40 => ⟨S50000, .f32⟩
  | 41 => ⟨S_, .i32⟩
  | 42 => ⟨S850000, .i32⟩
  | 43 => ⟨S850000, .i1⟩
  | 44 => ⟨S_, .i32⟩
  | 45 => ⟨S850000, .i32⟩
  | 46 => ⟨S850000, .i32⟩
  | 47 => ⟨S850000, .i32⟩
  | 48 => ⟨S850000x1, .i32⟩
  | 49 => ⟨S850000, .f32⟩
  | 50 => ⟨S_, .i32⟩
  | 51 => ⟨S850000, .i32⟩
  | 52 => ⟨S850000, .i1⟩
  | 53 => ⟨S_, .i32⟩
  | 54 => ⟨S850000, .i32⟩
  | 55 => ⟨S850000, .i32⟩
  | 56 => ⟨S850000, .i32⟩
  | 57 => ⟨S850000x1, .i32⟩
  | 58 => ⟨S850000, .f32⟩
  | 59 => ⟨S850000, .f32⟩
  | 60 => ⟨S850000x1, .f32⟩
  | 61 => ⟨S50000x128, .f32⟩
  | 62 => ⟨S_, .i32⟩
  | 63 => ⟨S850000, .i32⟩
  | 64 => ⟨S850000, .i1⟩
  | 65 => ⟨S_, .i32⟩
  | 66 => ⟨S850000, .i32⟩
  | 67 => ⟨S850000, .i32⟩
  | 68 => ⟨S850000, .i32⟩
  | 69 => ⟨S850000x1, .i32⟩
  | 70 => ⟨S850000x128, .f32⟩
  | 71 => ⟨S850000x128, .f32⟩
  | 72 => ⟨S850000x128, .f32⟩
  | 73 => ⟨S_, .f32⟩
  | 74 => ⟨S50000x128, .f32⟩
  | 75 => ⟨S850000x1, .i32⟩
  | 76 => ⟨S50000x128, .f32⟩
  | 77 => ⟨S1x128, .f32⟩
  | 78 => ⟨S1x128, .f32⟩
  | 79 => ⟨S1x128, .f32⟩
  | 80 => ⟨S_, .f32⟩
  | 81 => ⟨S1x128, .f32⟩
  | 82 => ⟨S1x128, .f32⟩
  | 83 => ⟨S_, .f32⟩
  | 84 => ⟨S1x128, .f32⟩
  | 85 => ⟨S1x128, .f32⟩
  | 86 => ⟨S1x128, .f32⟩
  | 87 => ⟨S1x128, .f32⟩
  | 88 => ⟨S_, .f32⟩
  | 89 => ⟨S1x128, .f32⟩
  | 90 => ⟨S1x128, .f32⟩
  | 91 => ⟨S1x128, .f32⟩
  | 92 => ⟨S128, .f32⟩
  | 93 => ⟨S128, .f32⟩
  | 94 => ⟨S1x128, .f32⟩
  | 95 => ⟨S1x128, .f32⟩
  | 96 => ⟨S1x128, .f32⟩
  | 97 => ⟨S1x128, .f32⟩
  | 98 => ⟨S1x128, .f32⟩
  | 99 => ⟨S50000x128, .f32⟩
  | 100 => ⟨S50000x128, .f32⟩
  | 101 => ⟨S_, .i32⟩
  | 102 => ⟨S850000, .i32⟩
  | 103 => ⟨S850000, .i1⟩
  | 104 => ⟨S_, .i32⟩
  | 105 => ⟨S850000, .i32⟩
  | 106 => ⟨S850000, .i32⟩
  | 107 => ⟨S850000, .i32⟩
  | 108 => ⟨S850000x1, .i32⟩
  | 109 => ⟨S850000x128, .f32⟩
  | 110 => ⟨S850000x128, .f32⟩
  | 111 => ⟨S850000x128, .f32⟩
  | 112 => ⟨S_, .f32⟩
  | 113 => ⟨S50000x128, .f32⟩
  | 114 => ⟨S850000x1, .i32⟩
  | 115 => ⟨S50000x128, .f32⟩
  | 116 => ⟨S1x128, .f32⟩
  | 117 => ⟨S1x128, .f32⟩
  | 118 => ⟨S1x128, .f32⟩
  | 119 => ⟨S_, .f32⟩
  | 120 => ⟨S1x128, .f32⟩
  | 121 => ⟨S1x128, .f32⟩
  | 122 => ⟨S_, .f32⟩
  | 123 => ⟨S1x128, .f32⟩
  | 124 => ⟨S1x128, .f32⟩
  | 125 => ⟨S1x128, .f32⟩
  | 126 => ⟨S1x128, .f32⟩
  | 127 => ⟨S_, .f32⟩
  | _ => ⟨S50000x128, .f32⟩

abbrev hbmTy0_1 (i : Nat) : BufTy := match i % 128 with
  | 0 => ⟨S1x128, .f32⟩
  | 1 => ⟨S1x128, .f32⟩
  | 2 => ⟨S1x128, .f32⟩
  | 3 => ⟨S128, .f32⟩
  | 4 => ⟨S128, .f32⟩
  | 5 => ⟨S1x128, .f32⟩
  | 6 => ⟨S1x128, .f32⟩
  | 7 => ⟨S1x128, .f32⟩
  | 8 => ⟨S1x128, .f32⟩
  | 9 => ⟨S1x128, .f32⟩
  | 10 => ⟨S50000x128, .f32⟩
  | 11 => ⟨S50000x128, .f32⟩
  | 12 => ⟨S_, .i32⟩
  | 13 => ⟨S850000, .i32⟩
  | 14 => ⟨S850000, .i1⟩
  | 15 => ⟨S_, .i32⟩
  | 16 => ⟨S850000, .i32⟩
  | 17 => ⟨S850000, .i32⟩
  | 18 => ⟨S850000, .i32⟩
  | 19 => ⟨S850000x1, .i32⟩
  | 20 => ⟨S850000x128, .f32⟩
  | 21 => ⟨S850000x128, .f32⟩
  | 22 => ⟨S850000x128, .f32⟩
  | 23 => ⟨S_, .f32⟩
  | 24 => ⟨S50000x128, .f32⟩
  | 25 => ⟨S850000x1, .i32⟩
  | 26 => ⟨S50000x128, .f32⟩
  | 27 => ⟨S1x128, .f32⟩
  | 28 => ⟨S1x128, .f32⟩
  | 29 => ⟨S1x128, .f32⟩
  | 30 => ⟨S_, .f32⟩
  | 31 => ⟨S1x128, .f32⟩
  | 32 => ⟨S1x128, .f32⟩
  | 33 => ⟨S_, .f32⟩
  | 34 => ⟨S1x128, .f32⟩
  | 35 => ⟨S1x128, .f32⟩
  | 36 => ⟨S1x128, .f32⟩
  | 37 => ⟨S1x128, .f32⟩
  | 38 => ⟨S_, .f32⟩
  | 39 => ⟨S1x128, .f32⟩
  | 40 => ⟨S1x128, .f32⟩
  | 41 => ⟨S1x128, .f32⟩
  | 42 => ⟨S128, .f32⟩
  | 43 => ⟨S128, .f32⟩
  | 44 => ⟨S1x128, .f32⟩
  | 45 => ⟨S1x128, .f32⟩
  | 46 => ⟨S1x128, .f32⟩
  | 47 => ⟨S1x128, .f32⟩
  | 48 => ⟨S1x128, .f32⟩
  | 49 => ⟨S50000x128, .f32⟩
  | 50 => ⟨S50000x1, .i32⟩
  | 51 => ⟨S1x128, .i32⟩
  | 52 => ⟨S50000x128, .i32⟩
  | 53 => ⟨S50000x128, .i32⟩
  | 54 => ⟨S50000x128, .i1⟩
  | 55 => ⟨S50000x128, .bf16⟩
  | 56 => ⟨S_, .f32⟩
  | 57 => ⟨S50000, .f32⟩
  | 58 => ⟨S_, .f32⟩
  | 59 => ⟨S128, .f32⟩
  | 60 => ⟨S50000x1, .i32⟩
  | 61 => ⟨S128, .f32⟩
  | 62 => ⟨S_, .f32⟩
  | 63 => ⟨S128, .f32⟩
  | 64 => ⟨S128, .f32⟩
  | 65 => ⟨S_, .f32⟩
  | 66 => ⟨S128, .f32⟩
  | 67 => ⟨S128, .f32⟩
  | 68 => ⟨S128x1, .f32⟩
  | 69 => ⟨S1x10, .f32⟩
  | 70 => ⟨S128x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S10000x128, .f32⟩
  | .local _ .vmem, ⟨11, _⟩ => ⟨S10000x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S10000x128, .f32⟩
  | .local _ .vmem, ⟨18, _⟩ => ⟨S10000x128, .f32⟩
  | .local _ .vmem, ⟨19, _⟩ => ⟨S10000x128, .f32⟩
  | .local _ .vmem, ⟨20, _⟩ => ⟨S10000x128, .f32⟩
  | .local _ .vmem, ⟨21, _⟩ => ⟨S128x128, .f32⟩
  | .local _ .vmem, ⟨22, _⟩ => ⟨S10000x128, .f32⟩
  | .local _ .vmem, ⟨23, _⟩ => ⟨S10000x128, .f32⟩
  | .local _ .vmem, ⟨24, _⟩ => ⟨S10000x128, .f32⟩
  | .local _ .vmem, ⟨25, _⟩ => ⟨S10000x128, .f32⟩
  | .local _ .vmem, ⟨26, _⟩ => ⟨S1x128, .f32⟩
  | .local _ .vmem, ⟨27, _⟩ => ⟨S1x128, .f32⟩
  | .local _ .vmem, ⟨28, _⟩ => ⟨S1x128, .f32⟩
  | .local _ .vmem, ⟨29, _⟩ => ⟨S10000x128, .f32⟩
  | .local _ .vmem, ⟨30, _⟩ => ⟨S10000x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S10000x128, .f32⟩
  | .local _ .vmem, ⟨37, _⟩ => ⟨S10000x128, .f32⟩
  | .local _ .vmem, ⟨38, _⟩ => ⟨S10000x128, .f32⟩
  | .local _ .vmem, ⟨39, _⟩ => ⟨S10000x128, .f32⟩
  | .local _ .vmem, ⟨40, _⟩ => ⟨S128x128, .f32⟩
  | .local _ .vmem, ⟨41, _⟩ => ⟨S10000x128, .f32⟩
  | .local _ .vmem, ⟨42, _⟩ => ⟨S10000x128, .f32⟩
  | .local _ .vmem, ⟨43, _⟩ => ⟨S10000x128, .f32⟩
  | .local _ .vmem, ⟨44, _⟩ => ⟨S10000x128, .f32⟩
  | .local _ .vmem, ⟨45, _⟩ => ⟨S1x128, .f32⟩
  | .local _ .vmem, ⟨46, _⟩ => ⟨S1x128, .f32⟩
  | .local _ .vmem, ⟨47, _⟩ => ⟨S1x128, .f32⟩
  | .local _ .vmem, ⟨48, _⟩ => ⟨S10000x128, .f32⟩
  | .local _ .vmem, ⟨49, _⟩ => ⟨S10000x128, .f32⟩
  | .local _ .vmem, ⟨50, _⟩ => ⟨S1x128, .f32⟩
  | .local _ .vmem, ⟨51, _⟩ => ⟨S1x128, .f32⟩
  | .local _ .vmem, ⟨52, _⟩ => ⟨S1x128, .f32⟩
  | .local _ .vmem, ⟨53, _⟩ => ⟨S1x128, .f32⟩
  | .local _ .vmem, ⟨54, _⟩ => ⟨S1x128, .f32⟩
  | .local _ .vmem, ⟨55, _⟩ => ⟨S10000x128, .f32⟩
  | .local _ .vmem, ⟨56, _⟩ => ⟨S10000x128, .f32⟩
  | .local _ .vmem, ⟨57, _⟩ => ⟨S10000x128, .f32⟩
  | .local _ .vmem, ⟨58, _⟩ => ⟨S10000x128, .f32⟩
  | .local _ .vmem, ⟨59, _⟩ => ⟨S10000x128, .bf16⟩
  | .local _ .vmem, ⟨60, _⟩ => ⟨S10000x128, .bf16⟩
  | .local _ .vmem, ⟨61, _⟩ => ⟨S128x1, .f32⟩
  | .local _ .vmem, ⟨62, _⟩ => ⟨S128x10, .f32⟩
  | .local _ .vmem, ⟨63, _⟩ => ⟨S1x10, .f32⟩
  | .local _ .vmem, ⟨64, _⟩ => ⟨S128x10, .f32⟩
  | .local _ .vmem, ⟨65, _⟩ => ⟨S128x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | _, _ => false

abbrev semScoped : Fin 0 → Bool
  | ⟨_, h⟩ => absurd h (Nat.not_lt_zero _)

abbrev dmaSemScoped : Fin 65 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | _ => false

abbrev sig : RefSig :=
  ofTc nBuf bufTy 0 65 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_cst_0 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_1 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_2 : Ref sig .tc := ⟨.hbm, 34, rfl⟩
abbrev main_v14 : Ref sig .tc := ⟨.hbm, 35, rfl⟩
abbrev main_v15 : Ref sig .tc := ⟨.hbm, 36, rfl⟩
abbrev main_cst_3 : Ref sig .tc := ⟨.hbm, 37, rfl⟩
abbrev main_call0_v0 : Ref sig .tc := ⟨.hbm, 38, rfl⟩
abbrev main_call0_v1 : Ref sig .tc := ⟨.hbm, 39, rfl⟩
abbrev main_v16 : Ref sig .tc := ⟨.hbm, 40, rfl⟩
abbrev main_c : Ref sig .tc := ⟨.hbm, 41, rfl⟩
abbrev main_v17 : Ref sig .tc := ⟨.hbm, 42, rfl⟩
abbrev main_v18 : Ref sig .tc := ⟨.hbm, 43, rfl⟩
abbrev main_c_4 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_c_5 : Ref sig .tc := ⟨.hbm, 50, rfl⟩
abbrev main_v24 : Ref sig .tc := ⟨.hbm, 51, rfl⟩
abbrev main_v25 : Ref sig .tc := ⟨.hbm, 52, rfl⟩
abbrev main_c_6 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_c_7 : Ref sig .tc := ⟨.hbm, 62, rfl⟩
abbrev main_v34 : Ref sig .tc := ⟨.hbm, 63, rfl⟩
abbrev main_v35 : Ref sig .tc := ⟨.hbm, 64, rfl⟩
abbrev main_c_8 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_cst_9 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47_0 : Ref sig .tc := ⟨.hbm, 78, rfl⟩
abbrev main_v47_1 : Ref sig .tc := ⟨.hbm, 79, rfl⟩
abbrev main_cst_10 : Ref sig .tc := ⟨.hbm, 80, rfl⟩
abbrev main_v48 : Ref sig .tc := ⟨.hbm, 81, rfl⟩
abbrev main_v49 : Ref sig .tc := ⟨.hbm, 82, rfl⟩
abbrev main_cst_11 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_cst_12 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_c_13 : Ref sig .tc := ⟨.hbm, 101, rfl⟩
abbrev main_v66 : Ref sig .tc := ⟨.hbm, 102, rfl⟩
abbrev main_v67 : Ref sig .tc := ⟨.hbm, 103, rfl⟩
abbrev main_c_14 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_cst_15 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79_0 : Ref sig .tc := ⟨.hbm, 117, rfl⟩
abbrev main_v79_1 : Ref sig .tc := ⟨.hbm, 118, rfl⟩
abbrev main_cst_16 : Ref sig .tc := ⟨.hbm, 119, rfl⟩
abbrev main_v80 : Ref sig .tc := ⟨.hbm, 120, rfl⟩
abbrev main_v81 : Ref sig .tc := ⟨.hbm, 121, rfl⟩
abbrev main_cst_17 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_cst_18 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_c_19 : Ref sig .tc := ⟨.hbm, 140, rfl⟩
abbrev main_v98 : Ref sig .tc := ⟨.hbm, 141, rfl⟩
abbrev main_v99 : Ref sig .tc := ⟨.hbm, 142, rfl⟩
abbrev main_c_20 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_cst_21 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111_0 : Ref sig .tc := ⟨.hbm, 156, rfl⟩
abbrev main_v111_1 : Ref sig .tc := ⟨.hbm, 157, rfl⟩
abbrev main_cst_22 : Ref sig .tc := ⟨.hbm, 158, rfl⟩
abbrev main_v112 : Ref sig .tc := ⟨.hbm, 159, rfl⟩
abbrev main_v113 : Ref sig .tc := ⟨.hbm, 160, rfl⟩
abbrev main_cst_23 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_cst_24 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_call1_v0 : Ref sig .tc := ⟨.hbm, 178, rfl⟩
abbrev main_call1_v1 : Ref sig .tc := ⟨.hbm, 179, rfl⟩
abbrev main_call1_v2 : Ref sig .tc := ⟨.hbm, 180, rfl⟩
abbrev main_call1_v3 : Ref sig .tc := ⟨.hbm, 181, rfl⟩
abbrev main_call1_v4 : Ref sig .tc := ⟨.hbm, 182, rfl⟩
abbrev main_v129 : Ref sig .tc := ⟨.hbm, 183, rfl⟩
abbrev main_cst_25 : Ref sig .tc := ⟨.hbm, 184, rfl⟩
abbrev main_v130 : Ref sig .tc := ⟨.hbm, 185, rfl⟩
abbrev main_cst_26 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_cst_27 : Ref sig .tc := ⟨.hbm, 190, rfl⟩
abbrev main_v134 : Ref sig .tc := ⟨.hbm, 191, rfl⟩
abbrev main_v135 : Ref sig .tc := ⟨.hbm, 192, rfl⟩
abbrev main_cst_28 : Ref sig .tc := ⟨.hbm, 193, rfl⟩
abbrev main_v136 : Ref sig .tc := ⟨.hbm, 194, rfl⟩
abbrev main_v137 : Ref sig .tc := ⟨.hbm, 195, rfl⟩
abbrev main_v138 : Ref sig .tc := ⟨.hbm, 196, rfl⟩
abbrev main_v139 : Ref sig .tc := ⟨.hbm, 197, rfl⟩
abbrev main_v140 : Ref sig .tc := ⟨.hbm, 198, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg5_0 : Ref sig .tc := ⟨.vmem, 16, rfl⟩
abbrev cc2_stg6_0 : Ref sig .tc := ⟨.vmem, 17, rfl⟩
abbrev cc2_stg6_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg2_0 : Ref sig .tc := ⟨.vmem, 32, rfl⟩
abbrev cc5_stg3_0 : Ref sig .tc := ⟨.vmem, 33, rfl⟩
abbrev cc5_stg4_0 : Ref sig .tc := ⟨.vmem, 34, rfl⟩
abbrev cc5_stg5_0 : Ref sig .tc := ⟨.vmem, 35, rfl⟩
abbrev cc5_stg6_0 : Ref sig .tc := ⟨.vmem, 36, rfl⟩
abbrev cc5_stg6_1 : Ref sig .tc := ⟨.vmem, 37, rfl⟩
abbrev cc6_stg0_0 : Ref sig .tc := ⟨.vmem, 38, rfl⟩
abbrev cc6_stg0_1 : Ref sig .tc := ⟨.vmem, 39, rfl⟩
abbrev cc6_stg1_0 : Ref sig .tc := ⟨.vmem, 40, rfl⟩
abbrev cc6_stg2_0 : Ref sig .tc := ⟨.vmem, 41, rfl⟩
abbrev cc6_stg2_1 : Ref sig .tc := ⟨.vmem, 42, rfl⟩
abbrev cc7_stg0_0 : Ref sig .tc := ⟨.vmem, 43, rfl⟩
abbrev cc7_stg0_1 : Ref sig .tc := ⟨.vmem, 44, rfl⟩
abbrev cc7_stg1_0 : Ref sig .tc := ⟨.vmem, 45, rfl⟩
abbrev cc7_stg2_0 : Ref sig .tc := ⟨.vmem, 46, rfl⟩
abbrev cc7_stg3_0 : Ref sig .tc := ⟨.vmem, 47, rfl⟩
abbrev cc8_stg0_0 : Ref sig .tc := ⟨.vmem, 48, rfl⟩
abbrev cc8_stg0_1 : Ref sig .tc := ⟨.vmem, 49, rfl⟩
abbrev cc8_stg1_0 : Ref sig .tc := ⟨.vmem, 50, rfl⟩
abbrev cc8_stg2_0 : Ref sig .tc := ⟨.vmem, 51, rfl⟩
abbrev cc8_stg3_0 : Ref sig .tc := ⟨.vmem, 52, rfl⟩
abbrev cc8_stg4_0 : Ref sig .tc := ⟨.vmem, 53, rfl⟩
abbrev cc8_stg5_0 : Ref sig .tc := ⟨.vmem, 54, rfl⟩
abbrev cc8_stg6_0 : Ref sig .tc := ⟨.vmem, 55, rfl⟩
abbrev cc8_stg6_1 : Ref sig .tc := ⟨.vmem, 56, rfl⟩
abbrev cc9_stg0_0 : Ref sig .tc := ⟨.vmem, 57, rfl⟩
abbrev cc9_stg0_1 : Ref sig .tc := ⟨.vmem, 58, rfl⟩
abbrev cc9_stg1_0 : Ref sig .tc := ⟨.vmem, 59, rfl⟩
abbrev cc9_stg1_1 : Ref sig .tc := ⟨.vmem, 60, rfl⟩
abbrev cc9_stg2_0 : Ref sig .tc := ⟨.vmem, 61, rfl⟩
abbrev cc9_stg3_0 : Ref sig .tc := ⟨.vmem, 62, rfl⟩
abbrev cc9_stg4_0 : Ref sig .tc := ⟨.vmem, 63, rfl⟩
abbrev cc9_stg5_0 : Ref sig .tc := ⟨.vmem, 64, rfl⟩
abbrev cc9_scratch0 : Ref sig .tc := ⟨.vmem, 65, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem6_0 : DmaSem sig := 17
abbrev cc2_sem6_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc5_sem0_0 : DmaSem sig := 29
abbrev cc5_sem0_1 : DmaSem sig := 30
abbrev cc5_sem1_0 : DmaSem sig := 31
abbrev cc5_sem2_0 : DmaSem sig := 32
abbrev cc5_sem3_0 : DmaSem sig := 33
abbrev cc5_sem4_0 : DmaSem sig := 34
abbrev cc5_sem5_0 : DmaSem sig := 35
abbrev cc5_sem6_0 : DmaSem sig := 36
abbrev cc5_sem6_1 : DmaSem sig := 37
abbrev cc6_sem0_0 : DmaSem sig := 38
abbrev cc6_sem0_1 : DmaSem sig := 39
abbrev cc6_sem1_0 : DmaSem sig := 40
abbrev cc6_sem2_0 : DmaSem sig := 41
abbrev cc6_sem2_1 : DmaSem sig := 42
abbrev cc7_sem0_0 : DmaSem sig := 43
abbrev cc7_sem0_1 : DmaSem sig := 44
abbrev cc7_sem1_0 : DmaSem sig := 45
abbrev cc7_sem2_0 : DmaSem sig := 46
abbrev cc7_sem3_0 : DmaSem sig := 47
abbrev cc8_sem0_0 : DmaSem sig := 48
abbrev cc8_sem0_1 : DmaSem sig := 49
abbrev cc8_sem1_0 : DmaSem sig := 50
abbrev cc8_sem2_0 : DmaSem sig := 51
abbrev cc8_sem3_0 : DmaSem sig := 52
abbrev cc8_sem4_0 : DmaSem sig := 53
abbrev cc8_sem5_0 : DmaSem sig := 54
abbrev cc8_sem6_0 : DmaSem sig := 55
abbrev cc8_sem6_1 : DmaSem sig := 56
abbrev cc9_sem0_0 : DmaSem sig := 57
abbrev cc9_sem0_1 : DmaSem sig := 58
abbrev cc9_sem1_0 : DmaSem sig := 59
abbrev cc9_sem1_1 : DmaSem sig := 60
abbrev cc9_sem2_0 : DmaSem sig := 61
abbrev cc9_sem3_0 : DmaSem sig := 62
abbrev cc9_sem4_0 : DmaSem sig := 63
abbrev cc9_sem5_0 : DmaSem sig := 64

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S10000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S10000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![5], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S10000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![5], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S10000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev grid8 : Pipeline.Grid := ⟨1, ![5], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S10000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S1x128 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 2 → Memref sig .tc .vmem S10000x128 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

abbrev grid9 : Pipeline.Grid := ⟨1, ![5], ![false]⟩

def k9_cond2 (i : grid9.Coords) : BitVec 1 :=
  let arg0 : BitVec 32 := BitVec.ofNat 32 (i 0).val
  let c4_i32 : BitVec 32 := 4#32
  let v14 : BitVec 1 := Scalar.cmpi .eq arg0 c4_i32
  let v15 : BitVec 32 := Scalar.extui v14
  let c0_i32_8 : BitVec 32 := 0#32
  let v16 : BitVec 1 := Scalar.cmpi .ne v15 c0_i32_8
  v16

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 2 → Memref sig .tc .vmem S10000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S10000x128 .bf16 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S128x1 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S128x10 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x10 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S128x10 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  reduces_S10000x128_S128 : S10000x128.Reduces [0] S128
  bcast_S_S1x128 : S_.BroadcastsInDim S1x128 (![] : Fin 0 → Fin S1x128.rank)
  shapeCasts_S1x128_S128 : S1x128.ShapeCasts S128
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S1x128_S50000x128_0_1 : S1x128.BroadcastsInDim S50000x128 (![0, 1] : Fin 2 → Fin S50000x128.rank)
  bcast_S_S128 : S_.BroadcastsInDim S128 (![] : Fin 0 → Fin S128.rank)
  shapeCasts_S128_S128x1 : S128.ShapeCasts S128x1
  shapeCasts_S10_S1x10 : S10.ShapeCasts S1x10
  shapeCasts_S128x128_S128x128 : S128x128.ShapeCasts S128x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x128 : S128x1.Broadcasts S128x128
  inb_S128x10_S128x10_0_0 : ∀ a, (![0, 0] : Fin 2 → Nat) a + S128x10.size a ≤ S128x10.size a
  h_S128x10 : 0 < S128x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S128x10 : S1x10.Broadcasts S128x10
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S10000x128_S128x128_S10000x128_1_0_0_1_n_n_wf : DotDims.WF S10000x128 S128x128 S10000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S128_S50000x1_S50000_n_0_0_1_wf : ScatterDims.WF S128 S50000x1 S50000 [] [0] [0] 1
  dot_S10000x128_S10000x128_S128x128_0_0_1_1_n_n_wf : DotDims.WF S10000x128 S10000x128 S128x128 [0] [0] [1] [1] [] []
  dot_S128x128_S128x10_S128x10_1_0_0_1_n_n_wf : DotDims.WF S128x128 S128x10 S128x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S50000x128.size a
  hwx0_2 : ∀ i : grid0.Coords, EltTy.bits .f32 = 32 ∨ (Rect.block (s := S50000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S50000x128.size a
  hwx2_0 : ∀ i : grid2.Coords, EltTy.bits .f32 = 32 ∨ (Rect.block (s := S50000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S10000x128.size a ≤ S50000x128.size a
  hwx2_6 : ∀ i : grid2.Coords, EltTy.bits .f32 = 32 ∨ (Rect.block (s := S50000x128) S10000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S50000x128.size a
  hwx3_0 : ∀ i : grid3.Coords, EltTy.bits .f32 = 32 ∨ (Rect.block (s := S50000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S50000x128.size a
  hwx3_2 : ∀ i : grid3.Coords, EltTy.bits .f32 = 32 ∨ (Rect.block (s := S50000x128) S10000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S50000x128.size a
  hwx4_0 : ∀ i : grid4.Coords, EltTy.bits .f32 = 32 ∨ (Rect.block (s := S50000x128) S10000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x128.size a ≤ S50000x128.size a
  hwx5_0 : ∀ i : grid5.Coords, EltTy.bits .f32 = 32 ∨ (Rect.block (s := S50000x128) S10000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S10000x128.size a ≤ S50000x128.size a
  hwx5_6 : ∀ i : grid5.Coords, EltTy.bits .f32 = 32 ∨ (Rect.block (s := S50000x128) S10000x128.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x128.size a ≤ S50000x128.size a
  hwx6_0 : ∀ i : grid6.Coords, EltTy.bits .f32 = 32 ∨ (Rect.block (s := S50000x128) S10000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x128.size a ≤ S50000x128.size a
  hwx6_2 : ∀ i : grid6.Coords, EltTy.bits .f32 = 32 ∨ (Rect.block (s := S50000x128) S10000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x128.size a ≤ S50000x128.size a
  hwx7_0 : ∀ i : grid7.Coords, EltTy.bits .f32 = 32 ∨ (Rect.block (s := S50000x128) S10000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x128.size a ≤ S50000x128.size a
  hwx8_0 : ∀ i : grid8.Coords, EltTy.bits .f32 = 32 ∨ (Rect.block (s := S50000x128) S10000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x128.size a ≤ S1x128.size a
  hwx8_1 : ∀ i : grid8.Coords, EltTy.bits .f32 = 32 ∨ (Rect.block (s := S1x128) S1x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S1x128.size a ≤ S1x128.size a
  hwx8_5 : ∀ i : grid8.Coords, EltTy.bits .f32 = 32 ∨ (Rect.block (s := S1x128) S1x128.size (cc8_transform_5 i) (hinb8_5 i)).WholeWords (EltTy.packing .f32)
  hstage8_6 : ∀ j, (stage8_6 j).IsWhole
  nbuf8_6 : grid8.bufCount reads8_6 false = 2
  hreads8_6 : ∀ i i' : grid8.Coords, (∀ a, reads8_6 a = true → i a = i' a) → cc8_transform_6 i = cc8_transform_6 i'
  hinb8_6 : ∀ (i : grid8.Coords) a, (cc8_transform_6 i a + 1) * S10000x128.size a ≤ S50000x128.size a
  hwx8_6 : ∀ i : grid8.Coords, EltTy.bits .f32 = 32 ∨ (Rect.block (s := S50000x128) S10000x128.size (cc8_transform_6 i) (hinb8_6 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S10000x128.size a ≤ S50000x128.size a
  hwx9_0 : ∀ i : grid9.Coords, EltTy.bits .f32 = 32 ∨ (Rect.block (s := S50000x128) S10000x128.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S10000x128.size a ≤ S50000x128.size a
  hwx9_1 : ∀ i : grid9.Coords, EltTy.bits .bf16 = 32 ∨ (Rect.block (s := S50000x128) S10000x128.size (cc9_transform_1 i) (hinb9_1 i)).WholeWords (EltTy.packing .bf16)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S128x1.size a ≤ S128x1.size a
  hwx9_2 : ∀ i : grid9.Coords, EltTy.bits .f32 = 32 ∨ (Rect.block (s := S128x1) S128x1.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S128x10.size a ≤ S128x10.size a
  hwx9_3 : ∀ i : grid9.Coords, EltTy.bits .f32 = 32 ∨ (Rect.block (s := S128x10) S128x10.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x10.size a ≤ S1x10.size a
  hwx9_4 : ∀ i : grid9.Coords, EltTy.bits .f32 = 32 ∨ (Rect.block (s := S1x10) S1x10.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S128x10.size a ≤ S128x10.size a
  hwx9_5 : ∀ i : grid9.Coords, EltTy.bits .f32 = 32 ∨ (Rect.block (s := S128x10) S128x10.size (cc9_transform_5 i) (hinb9_5 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf
def dot_S10000x128_S10000x128_S128x128_0_0_1_1_n_n : DotDims S10000x128 S10000x128 S128x128 where
  lhsContracting := [0]
  rhsContracting := [0]
  lhsNonContracting := [1]
  rhsNonContracting := [1]
  lhsBatch := []
  rhsBatch := []
  wf := dot_S10000x128_S10000x128_S128x128_0_0_1_1_n_n_wf
def dot_S128x128_S128x10_S128x10_1_0_0_1_n_n : DotDims S128x128 S128x10 S128x10 where
  lhsContracting := [1]
  rhsContracting := [0]
  lhsNonContracting := [0]
  rhsNonContracting := [1]
  lhsBatch := []
  rhsBatch := []
  wf := dot_S128x128_S128x10_S128x10_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47_0) S1x128.size cc1_transform_2 reads1_2 true true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47_1) S1x128.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v45) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v60) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v61) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v62) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v63) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v64) S10000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v64) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v65) S10000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v77) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v78) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v79_0) S1x128.size cc4_transform_2 reads4_2 true true 1 stage4_2 sem4_2
    hrank4 hreads4_2 hinb4_2 nbuf4_2 (Memref.isWhole_whole _) hwx4_2 hstage4_2

abbrev win4_3 : Pipeline.Window sig grid4 :=
  Pipeline.Window.ofSpec (Memref.whole main_v79_1) S1x128.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v77) S10000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v91) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v92) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v93) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v94) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v95) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v96) S10000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v96) S10000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg11) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v97) S10000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v109) S10000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v110) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v111_0) S1x128.size cc7_transform_2 reads7_2 true true 1 stage7_2 sem7_2
    hrank7 hreads7_2 hinb7_2 nbuf7_2 (Memref.isWhole_whole _) hwx7_2 hstage7_2

abbrev win7_3 : Pipeline.Window sig grid7 :=
  Pipeline.Window.ofSpec (Memref.whole main_v111_1) S1x128.size cc7_transform_3 reads7_3 true true 1 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v109) S10000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v123) S1x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v124) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v125) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v126) S1x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v127) S1x128.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v128) S10000x128.size cc8_transform_6 reads8_6 true false 2 stage8_6 sem8_6
    hrank8 hreads8_6 hinb8_6 nbuf8_6 (Memref.isWhole_whole _) hwx8_6 hstage8_6

abbrev win8 : Fin 7 → Pipeline.Window sig grid8 := fun | 0 => win8_0 | 1 => win8_1 | 2 => win8_2 | 3 => win8_3 | 4 => win8_4 | 5 => win8_5 | 6 => win8_6 | ⟨_ + 7, h⟩ => absurd h (Nat.not_lt.2 (Nat.le_add_left _ _))
abbrev spec8 : Fin 7 → Pipeline.WinSpec sig grid8.rank := fun w => (win8 w).toWinSpec

abbrev win9_0 : Pipeline.Window sig grid9 :=
  Pipeline.Window.ofSpec (Memref.whole main_v128) S10000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v129) S10000x128.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v138) S128x1.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_arg15) S128x10.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v139) S1x10.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v140) S128x10.size cc9_transform_5 reads9_5 true true 1 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

abbrev idle9 : Fin 6 → grid9.Coords → Bool := fun | 0 => fun _ => false | 1 => fun _ => false | 2 => fun _ => false | 3 => fun _ => false | 4 => fun _ => false | 5 => fun i => !(k9_cond2 i == 1#1) | ⟨_ + 6, h⟩ => absurd h (Nat.not_lt.2 (Nat.le_add_left _ _))

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x1 : Shape := ⟨2, ![50000, 1]⟩
abbrev S128x1 : Shape := ⟨2, ![128, 1]⟩
abbrev S1x10 : Shape := ⟨2, ![1, 10]⟩

abbrev nBuf : Space → Nat
  | .hbm => 317
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S128, .f32⟩
  | 6 => ⟨S128, .f32⟩
  | 7 => ⟨S128x128, .f32⟩
  | 8 => ⟨S128, .f32⟩
  | 9 => ⟨S128, .f32⟩
  | 10 => ⟨S128, .f32⟩
  | 11 => ⟨S128x128, .f32⟩
  | 12 => ⟨S128, .f32⟩
  | 13 => ⟨S128, .f32⟩
  | 14 => ⟨S128, .f32⟩
  | 15 => ⟨S128x10, .f32⟩
  | 16 => ⟨S10, .f32⟩
  | 17 => ⟨S1x800000, .i32⟩
  | 18 => ⟨S800000, .i32⟩
  | 19 => ⟨S1x800000, .i32⟩
  | 20 => ⟨S800000, .i32⟩
  | 21 => ⟨S50000x128, .f32⟩
  | 22 => ⟨S50000, .i32⟩
  | 23 => ⟨S850000, .i32⟩
  | 24 => ⟨S850000, .i32⟩
  | 25 => ⟨S_, .f32⟩
  | 26 => ⟨S850000, .f32⟩
  | 27 => ⟨S_, .f32⟩
  | 28 => ⟨S50000, .f32⟩
  | 29 => ⟨S850000x1, .i32⟩
  | 30 => ⟨S50000, .f32⟩
  | 31 => ⟨S_, .f32⟩
  | 32 => ⟨S50000, .f32⟩
  | 33 => ⟨S50000, .i1⟩
  | 34 => ⟨S50000, .f32⟩
  | 35 => ⟨S_, .f32⟩
  | 36 => ⟨S50000, .f32⟩
  | 37 => ⟨S50000, .f32⟩
  | 38 => ⟨S_, .f32⟩
  | 39 => ⟨S_, .f32⟩
  | 40 => ⟨S50000, .f32⟩
  | 41 => ⟨S50000, .f32⟩
  | 42 => ⟨S_, .i32⟩
  | 43 => ⟨S850000, .i32⟩
  | 44 => ⟨S850000, .i1⟩
  | 45 => ⟨S_, .i32⟩
  | 46 => ⟨S850000, .i32⟩
  | 47 => ⟨S850000, .i32⟩
  | 48 => ⟨S850000, .i32⟩
  | 49 => ⟨S850000x1, .i32⟩
  | 50 => ⟨S850000, .f32⟩
  | 51 => ⟨S_, .i32⟩
  | 52 => ⟨S850000, .i32⟩
  | 53 => ⟨S850000, .i1⟩
  | 54 => ⟨S_, .i32⟩
  | 55 => ⟨S850000, .i32⟩
  | 56 => ⟨S850000, .i32⟩
  | 57 => ⟨S850000, .i32⟩
  | 58 => ⟨S850000x1, .i32⟩
  | 59 => ⟨S850000, .f32⟩
  | 60 => ⟨S850000, .f32⟩
  | 61 => ⟨S_, .i32⟩
  | 62 => ⟨S850000, .i32⟩
  | 63 => ⟨S850000, .i1⟩
  | 64 => ⟨S_, .i32⟩
  | 65 => ⟨S850000, .i32⟩
  | 66 => ⟨S850000, .i32⟩
  | 67 => ⟨S850000, .i32⟩
  | 68 => ⟨S850000x1, .i32⟩
  | 69 => ⟨S850000x128, .f32⟩
  | 70 => ⟨S850000x1, .f32⟩
  | 71 => ⟨S850000x128, .f32⟩
  | 72 => ⟨S850000x128, .f32⟩
  | 73 => ⟨S_, .f32⟩
  | 74 => ⟨S50000x128, .f32⟩
  | 75 => ⟨S850000x1, .i32⟩
  | 76 => ⟨S50000x128, .f32⟩
  | 77 => ⟨S1x128, .f32⟩
  | 78 => ⟨S50000x128, .f32⟩
  | 79 => ⟨S50000x128, .f32⟩
  | 80 => ⟨S_, .f32⟩
  | 81 => ⟨S128, .f32⟩
  | 82 => ⟨S_, .f32⟩
  | 83 => ⟨S128, .f32⟩
  | 84 => ⟨S128, .f32⟩
  | 85 => ⟨S1x128, .f32⟩
  | 86 => ⟨S50000x128, .f32⟩
  | 87 => ⟨S50000x128, .f32⟩
  | 88 => ⟨S50000x128, .f32⟩
  | 89 => ⟨S_, .f32⟩
  | 90 => ⟨S128, .f32⟩
  | 91 => ⟨S_, .f32⟩
  | 92 => ⟨S128, .f32⟩
  | 93 => ⟨S128, .f32⟩
  | 94 => ⟨S1x128, .f32⟩
  | 95 => ⟨S50000x128, .f32⟩
  | 96 => ⟨S50000x128, .f32⟩
  | 97 => ⟨S_, .f32⟩
  | 98 => ⟨S128, .f32⟩
  | 99 => ⟨S128, .f32⟩
  | 100 => ⟨S128, .f32⟩
  | 101 => ⟨S1x128, .f32⟩
  | 102 => ⟨S50000x128, .f32⟩
  | 103 => ⟨S50000x128, .f32⟩
  | 104 => ⟨S1x128, .f32⟩
  | 105 => ⟨S50000x128, .f32⟩
  | 106 => ⟨S50000x128, .f32⟩
  | 107 => ⟨S1x128, .f32⟩
  | 108 => ⟨S50000x128, .f32⟩
  | 109 => ⟨S50000x128, .f32⟩
  | 110 => ⟨S_, .f32⟩
  | 111 => ⟨S50000x128, .f32⟩
  | 112 => ⟨S50000x128, .f32⟩
  | 113 => ⟨S50000x128, .f32⟩
  | 114 => ⟨S50000, .i32⟩
  | 115 => ⟨S850000, .i32⟩
  | 116 => ⟨S850000, .i32⟩
  | 117 => ⟨S_, .f32⟩
  | 118 => ⟨S850000, .f32⟩
  | 119 => ⟨S_, .f32⟩
  | 120 => ⟨S50000, .f32⟩
  | 121 => ⟨S850000x1, .i32⟩
  | 122 => ⟨S50000, .f32⟩
  | 123 => ⟨S_, .f32⟩
  | 124 => ⟨S50000, .f32⟩
  | 125 => ⟨S50000, .i1⟩
  | 126 => ⟨S50000, .f32⟩
  | 127 => ⟨S_, .f32⟩
  | _ => ⟨S50000x128, .f32⟩

abbrev hbmTy0_1 (i : Nat) : BufTy := match i % 128 with
  | 0 => ⟨S50000, .f32⟩
  | 1 => ⟨S50000, .f32⟩
  | 2 => ⟨S_, .f32⟩
  | 3 => ⟨S_, .f32⟩
  | 4 => ⟨S50000, .f32⟩
  | 5 => ⟨S50000, .f32⟩
  | 6 => ⟨S_, .i32⟩
  | 7 => ⟨S850000, .i32⟩
  | 8 => ⟨S850000, .i1⟩
  | 9 => ⟨S_, .i32⟩
  | 10 => ⟨S850000, .i32⟩
  | 11 => ⟨S850000, .i32⟩
  | 12 => ⟨S850000, .i32⟩
  | 13 => ⟨S850000x1, .i32⟩
  | 14 => ⟨S850000, .f32⟩
  | 15 => ⟨S_, .i32⟩
  | 16 => ⟨S850000, .i32⟩
  | 17 => ⟨S850000, .i1⟩
  | 18 => ⟨S_, .i32⟩
  | 19 => ⟨S850000, .i32⟩
  | 20 => ⟨S850000, .i32⟩
  | 21 => ⟨S850000, .i32⟩
  | 22 => ⟨S850000x1, .i32⟩
  | 23 => ⟨S850000, .f32⟩
  | 24 => ⟨S850000, .f32⟩
  | 25 => ⟨S_, .i32⟩
  | 26 => ⟨S850000, .i32⟩
  | 27 => ⟨S850000, .i1⟩
  | 28 => ⟨S_, .i32⟩
  | 29 => ⟨S850000, .i32⟩
  | 30 => ⟨S850000, .i32⟩
  | 31 => ⟨S850000, .i32⟩
  | 32 => ⟨S850000x1, .i32⟩
  | 33 => ⟨S850000x128, .f32⟩
  | 34 => ⟨S850000x1, .f32⟩
  | 35 => ⟨S850000x128, .f32⟩
  | 36 => ⟨S850000x128, .f32⟩
  | 37 => ⟨S_, .f32⟩
  | 38 => ⟨S50000x128, .f32⟩
  | 39 => ⟨S850000x1, .i32⟩
  | 40 => ⟨S50000x128, .f32⟩
  | 41 => ⟨S1x128, .f32⟩
  | 42 => ⟨S50000x128, .f32⟩
  | 43 => ⟨S50000x128, .f32⟩
  | 44 => ⟨S_, .f32⟩
  | 45 => ⟨S128, .f32⟩
  | 46 => ⟨S_, .f32⟩
  | 47 => ⟨S128, .f32⟩
  | 48 => ⟨S128, .f32⟩
  | 49 => ⟨S1x128, .f32⟩
  | 50 => ⟨S50000x128, .f32⟩
  | 51 => ⟨S50000x128, .f32⟩
  | 52 => ⟨S50000x128, .f32⟩
  | 53 => ⟨S_, .f32⟩
  | 54 => ⟨S128, .f32⟩
  | 55 => ⟨S_, .f32⟩
  | 56 => ⟨S128, .f32⟩
  | 57 => ⟨S128, .f32⟩
  | 58 => ⟨S1x128, .f32⟩
  | 59 => ⟨S50000x128, .f32⟩
  | 60 => ⟨S50000x128, .f32⟩
  | 61 => ⟨S_, .f32⟩
  | 62 => ⟨S128, .f32⟩
  | 63 => ⟨S128, .f32⟩
  | 64 => ⟨S128, .f32⟩
  | 65 => ⟨S1x128, .f32⟩
  | 66 => ⟨S50000x128, .f32⟩
  | 67 => ⟨S50000x128, .f32⟩
  | 68 => ⟨S1x128, .f32⟩
  | 69 => ⟨S50000x128, .f32⟩
  | 70 => ⟨S50000x128, .f32⟩
  | 71 => ⟨S1x128, .f32⟩
  | 72 => ⟨S50000x128, .f32⟩
  | 73 => ⟨S50000x128, .f32⟩
  | 74 => ⟨S_, .f32⟩
  | 75 => ⟨S50000x128, .f32⟩
  | 76 => ⟨S50000x128, .f32⟩
  | 77 => ⟨S50000x128, .f32⟩
  | 78 => ⟨S50000, .i32⟩
  | 79 => ⟨S850000, .i32⟩
  | 80 => ⟨S850000, .i32⟩
  | 81 => ⟨S_, .f32⟩
  | 82 => ⟨S850000, .f32⟩
  | 83 => ⟨S_, .f32⟩
  | 84 => ⟨S50000, .f32⟩
  | 85 => ⟨S850000x1, .i32⟩
  | 86 => ⟨S50000, .f32⟩
  | 87 => ⟨S_, .f32⟩
  | 88 => ⟨S50000, .f32⟩
  | 89 => ⟨S50000, .i1⟩
  | 90 => ⟨S50000, .f32⟩
  | 91 => ⟨S_, .f32⟩
  | 92 => ⟨S50000, .f32⟩
  | 93 => ⟨S50000, .f32⟩
  | 94 => ⟨S_, .f32⟩
  | 95 => ⟨S_, .f32⟩
  | 96 => ⟨S50000, .f32⟩
  | 97 => ⟨S50000, .f32⟩
  | 98 => ⟨S_, .i32⟩
  | 99 => ⟨S850000, .i32⟩
  | 100 => ⟨S850000, .i1⟩
  | 101 => ⟨S_, .i32⟩
  | 102 => ⟨S850000, .i32⟩
  | 103 => ⟨S850000, .i32⟩
  | 104 => ⟨S850000, .i32⟩
  | 105 => ⟨S850000x1, .i32⟩
  | 106 => ⟨S850000, .f32⟩
  | 107 => ⟨S_, .i32⟩
  | 108 => ⟨S850000, .i32⟩
  | 109 => ⟨S850000, .i1⟩
  | 110 => ⟨S_, .i32⟩
  | 111 => ⟨S850000, .i32⟩
  | 112 => ⟨S850000, .i32⟩
  | 113 => ⟨S850000, .i32⟩
  | 114 => ⟨S850000x1, .i32⟩
  | 115 => ⟨S850000, .f32⟩
  | 116 => ⟨S850000, .f32⟩
  | 117 => ⟨S_, .i32⟩
  | 118 => ⟨S850000, .i32⟩
  | 119 => ⟨S850000, .i1⟩
  | 120 => ⟨S_, .i32⟩
  | 121 => ⟨S850000, .i32⟩
  | 122 => ⟨S850000, .i32⟩
  | 123 => ⟨S850000, .i32⟩
  | 124 => ⟨S850000x1, .i32⟩
  | 125 => ⟨S850000x128, .f32⟩
  | 126 => ⟨S850000x1, .f32⟩
  | 127 => ⟨S850000x128, .f32⟩
  | _ => ⟨S50000x128, .f32⟩

abbrev hbmTy0_2 (i : Nat) : BufTy := match i % 128 with
  | 0 => ⟨S850000x128, .f32⟩
  | 1 => ⟨S_, .f32⟩
  | 2 => ⟨S50000x128, .f32⟩
  | 3 => ⟨S850000x1, .i32⟩
  | 4 => ⟨S50000x128, .f32⟩
  | 5 => ⟨S1x128, .f32⟩
  | 6 => ⟨S50000x128, .f32⟩
  | 7 => ⟨S50000x128, .f32⟩
  | 8 => ⟨S_, .f32⟩
  | 9 => ⟨S128, .f32⟩
  | 10 => ⟨S_, .f32⟩
  | 11 => ⟨S128, .f32⟩
  | 12 => ⟨S128, .f32⟩
  | 13 => ⟨S1x128, .f32⟩
  | 14 => ⟨S50000x128, .f32⟩
  | 15 => ⟨S50000x128, .f32⟩
  | 16 => ⟨S50000x128, .f32⟩
  | 17 => ⟨S_, .f32⟩
  | 18 => ⟨S128, .f32⟩
  | 19 => ⟨S_, .f32⟩
  | 20 => ⟨S128, .f32⟩
  | 21 => ⟨S128, .f32⟩
  | 22 => ⟨S1x128, .f32⟩
  | 23 => ⟨S50000x128, .f32⟩
  | 24 => ⟨S50000x128, .f32⟩
  | 25 => ⟨S_, .f32⟩
  | 26 => ⟨S128, .f32⟩
  | 27 => ⟨S128, .f32⟩
  | 28 => ⟨S128, .f32⟩
  | 29 => ⟨S1x128, .f32⟩
  | 30 => ⟨S50000x128, .f32⟩
  | 31 => ⟨S50000x128, .f32⟩
  | 32 => ⟨S1x128, .f32⟩
  | 33 => ⟨S50000x128, .f32⟩
  | 34 => ⟨S50000x128, .f32⟩
  | 35 => ⟨S1x128, .f32⟩
  | 36 => ⟨S50000x128, .f32⟩
  | 37 => ⟨S50000x128, .f32⟩
  | 38 => ⟨S_, .f32⟩
  | 39 => ⟨S50000x128, .f32⟩
  | 40 => ⟨S50000x128, .f32⟩
  | 41 => ⟨S_, .f32⟩
  | 42 => ⟨S128x128, .f32⟩
  | 43 => ⟨S50000x1, .i32⟩
  | 44 => ⟨S128x128, .f32⟩
  | 45 => ⟨S_, .f32⟩
  | 46 => ⟨S50000, .f32⟩
  | 47 => ⟨S_, .f32⟩
  | 48 => ⟨S128, .f32⟩
  | 49 => ⟨S50000x1, .i32⟩
  | 50 => ⟨S128, .f32⟩
  | 51 => ⟨S_, .f32⟩
  | 52 => ⟨S128, .f32⟩
  | 53 => ⟨S128, .f32⟩
  | 54 => ⟨S128x1, .f32⟩
  | 55 => ⟨S128x128, .f32⟩
  | 56 => ⟨S128x128, .f32⟩
  | 57 => ⟨S128x10, .f32⟩
  | 58 => ⟨S1x10, .f32⟩
  | 59 => ⟨S128x10, .f32⟩
  | 60 => ⟨S128x10, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst : Ref sig .tc := ⟨.hbm, 25, rfl⟩
abbrev main_v8 : Ref sig .tc := ⟨.hbm, 26, rfl⟩
abbrev main_cst_0 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst_1 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst_2 : Ref sig .tc := ⟨.hbm, 35, rfl⟩
abbrev main_v15 : Ref sig .tc := ⟨.hbm, 36, rfl⟩
abbrev main_v16 : Ref sig .tc := ⟨.hbm, 37, rfl⟩
abbrev main_cst_3 : Ref sig .tc := ⟨.hbm, 38, rfl⟩
abbrev main_call0_v0 : Ref sig .tc := ⟨.hbm, 39, rfl⟩
abbrev main_call0_v1 : Ref sig .tc := ⟨.hbm, 40, rfl⟩
abbrev main_v17 : Ref sig .tc := ⟨.hbm, 41, rfl⟩
abbrev main_c : Ref sig .tc := ⟨.hbm, 42, rfl⟩
abbrev main_v18 : Ref sig .tc := ⟨.hbm, 43, rfl⟩
abbrev main_v19 : Ref sig .tc := ⟨.hbm, 44, rfl⟩
abbrev main_c_4 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_c_5 : Ref sig .tc := ⟨.hbm, 51, rfl⟩
abbrev main_v25 : Ref sig .tc := ⟨.hbm, 52, rfl⟩
abbrev main_v26 : Ref sig .tc := ⟨.hbm, 53, rfl⟩
abbrev main_c_6 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_c_7 : Ref sig .tc := ⟨.hbm, 61, rfl⟩
abbrev main_v33 : Ref sig .tc := ⟨.hbm, 62, rfl⟩
abbrev main_v34 : Ref sig .tc := ⟨.hbm, 63, rfl⟩
abbrev main_c_8 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_cst_9 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_10 : Ref sig .tc := ⟨.hbm, 80, rfl⟩
abbrev main_v49 : Ref sig .tc := ⟨.hbm, 81, rfl⟩
abbrev main_cst_11 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_12 : Ref sig .tc := ⟨.hbm, 89, rfl⟩
abbrev main_v56 : Ref sig .tc := ⟨.hbm, 90, rfl⟩
abbrev main_cst_13 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_cst_14 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_call1_cst : Ref sig .tc := ⟨.hbm, 110, rfl⟩
abbrev main_call1_v0 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_cst_15 : Ref sig .tc := ⟨.hbm, 117, rfl⟩
abbrev main_v79 : Ref sig .tc := ⟨.hbm, 118, rfl⟩
abbrev main_cst_16 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_cst_17 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_cst_18 : Ref sig .tc := ⟨.hbm, 127, rfl⟩
abbrev main_v86 : Ref sig .tc := ⟨.hbm, 128, rfl⟩
abbrev main_v87 : Ref sig .tc := ⟨.hbm, 129, rfl⟩
abbrev main_cst_19 : Ref sig .tc := ⟨.hbm, 130, rfl⟩
abbrev main_call2_v0 : Ref sig .tc := ⟨.hbm, 131, rfl⟩
abbrev main_call2_v1 : Ref sig .tc := ⟨.hbm, 132, rfl⟩
abbrev main_v88 : Ref sig .tc := ⟨.hbm, 133, rfl⟩
abbrev main_c_20 : Ref sig .tc := ⟨.hbm, 134, rfl⟩
abbrev main_v89 : Ref sig .tc := ⟨.hbm, 135, rfl⟩
abbrev main_v90 : Ref sig .tc := ⟨.hbm, 136, rfl⟩
abbrev main_c_21 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_c_22 : Ref sig .tc := ⟨.hbm, 143, rfl⟩
abbrev main_v96 : Ref sig .tc := ⟨.hbm, 144, rfl⟩
abbrev main_v97 : Ref sig .tc := ⟨.hbm, 145, rfl⟩
abbrev main_c_23 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_c_24 : Ref sig .tc := ⟨.hbm, 153, rfl⟩
abbrev main_v104 : Ref sig .tc := ⟨.hbm, 154, rfl⟩
abbrev main_v105 : Ref sig .tc := ⟨.hbm, 155, rfl⟩
abbrev main_c_25 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_cst_26 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_cst_27 : Ref sig .tc := ⟨.hbm, 172, rfl⟩
abbrev main_v120 : Ref sig .tc := ⟨.hbm, 173, rfl⟩
abbrev main_cst_28 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_cst_29 : Ref sig .tc := ⟨.hbm, 181, rfl⟩
abbrev main_v127 : Ref sig .tc := ⟨.hbm, 182, rfl⟩
abbrev main_cst_30 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_cst_31 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_call3_cst : Ref sig .tc := ⟨.hbm, 202, rfl⟩
abbrev main_call3_v0 : Ref sig .tc := ⟨.hbm, 203, rfl⟩
abbrev main_v145 : Ref sig .tc := ⟨.hbm, 204, rfl⟩
abbrev main_v146 : Ref sig .tc := ⟨.hbm, 205, rfl⟩
abbrev main_v147 : Ref sig .tc := ⟨.hbm, 206, rfl⟩
abbrev main_v148 : Ref sig .tc := ⟨.hbm, 207, rfl⟩
abbrev main_v149 : Ref sig .tc := ⟨.hbm, 208, rfl⟩
abbrev main_cst_32 : Ref sig .tc := ⟨.hbm, 209, rfl⟩
abbrev main_v150 : Ref sig .tc := ⟨.hbm, 210, rfl⟩
abbrev main_cst_33 : Ref sig .tc := ⟨.hbm, 211, rfl⟩
abbrev main_v151 : Ref sig .tc := ⟨.hbm, 212, rfl⟩
abbrev main_v152 : Ref sig .tc := ⟨.hbm, 213, rfl⟩
abbrev main_v153 : Ref sig .tc := ⟨.hbm, 214, rfl⟩
abbrev main_cst_34 : Ref sig .tc := ⟨.hbm, 215, rfl⟩
abbrev main_v154 : Ref sig .tc := ⟨.hbm, 216, rfl⟩
abbrev main_v155 : Ref sig .tc := ⟨.hbm, 217, rfl⟩
abbrev main_v156 : Ref sig .tc := ⟨.hbm, 218, rfl⟩
abbrev main_cst_35 : Ref sig .tc := ⟨.hbm, 219, rfl⟩
abbrev main_v157 : Ref sig .tc := ⟨.hbm, 220, rfl⟩
abbrev main_v158 : Ref sig .tc := ⟨.hbm, 221, rfl⟩
abbrev main_cst_36 : Ref sig .tc := ⟨.hbm, 222, rfl⟩
abbrev main_call4_v0 : Ref sig .tc := ⟨.hbm, 223, rfl⟩
abbrev main_call4_v1 : Ref sig .tc := ⟨.hbm, 224, rfl⟩
abbrev main_v159 : Ref sig .tc := ⟨.hbm, 225, rfl⟩
abbrev main_c_37 : Ref sig .tc := ⟨.hbm, 226, rfl⟩
abbrev main_v160 : Ref sig .tc := ⟨.hbm, 227, rfl⟩
abbrev main_v161 : Ref sig .tc := ⟨.hbm, 228, rfl⟩
abbrev main_c_38 : Ref sig .tc := ⟨.hbm, 229, rfl⟩
abbrev main_v162 : Ref sig .tc := ⟨.hbm, 230, rfl⟩
abbrev main_v163 : Ref sig .tc := ⟨.hbm, 231, rfl⟩
abbrev main_v164 : Ref sig .tc := ⟨.hbm, 232, rfl⟩
abbrev main_v165 : Ref sig .tc := ⟨.hbm, 233, rfl⟩
abbrev main_v166 : Ref sig .tc := ⟨.hbm, 234, rfl⟩
abbrev main_c_39 : Ref sig .tc := ⟨.hbm, 235, rfl⟩
abbrev main_v167 : Ref sig .tc := ⟨.hbm, 236, rfl⟩
abbrev main_v168 : Ref sig .tc := ⟨.hbm, 237, rfl⟩
abbrev main_c_40 : Ref sig .tc := ⟨.hbm, 238, rfl⟩
abbrev main_v169 : Ref sig .tc := ⟨.hbm, 239, rfl⟩
abbrev main_v170 : Ref sig .tc := ⟨.hbm, 240, rfl⟩
abbrev main_v171 : Ref sig .tc := ⟨.hbm, 241, rfl⟩
abbrev main_v172 : Ref sig .tc := ⟨.hbm, 242, rfl⟩
abbrev main_v173 : Ref sig .tc := ⟨.hbm, 243, rfl⟩
abbrev main_v174 : Ref sig .tc := ⟨.hbm, 244, rfl⟩
abbrev main_c_41 : Ref sig .tc := ⟨.hbm, 245, rfl⟩
abbrev main_v175 : Ref sig .tc := ⟨.hbm, 246, rfl⟩
abbrev main_v176 : Ref sig .tc := ⟨.hbm, 247, rfl⟩
abbrev main_c_42 : Ref sig .tc := ⟨.hbm, 248, rfl⟩
abbrev main_v177 : Ref sig .tc := ⟨.hbm, 249, rfl⟩
abbrev main_v178 : Ref sig .tc := ⟨.hbm, 250, rfl⟩
abbrev main_v179 : Ref sig .tc := ⟨.hbm, 251, rfl⟩
abbrev main_v180 : Ref sig .tc := ⟨.hbm, 252, rfl⟩
abbrev main_v181 : Ref sig .tc := ⟨.hbm, 253, rfl⟩
abbrev main_v182 : Ref sig .tc := ⟨.hbm, 254, rfl⟩
abbrev main_v183 : Ref sig .tc := ⟨.hbm, 255, rfl⟩
abbrev main_v184 : Ref sig .tc := ⟨.hbm, 256, rfl⟩
abbrev main_cst_43 : Ref sig .tc := ⟨.hbm, 257, rfl⟩
abbrev main_v185 : Ref sig .tc := ⟨.hbm, 258, rfl⟩
abbrev main_v186 : Ref sig .tc := ⟨.hbm, 259, rfl⟩
abbrev main_v187 : Ref sig .tc := ⟨.hbm, 260, rfl⟩
abbrev main_v188 : Ref sig .tc := ⟨.hbm, 261, rfl⟩
abbrev main_v189 : Ref sig .tc := ⟨.hbm, 262, rfl⟩
abbrev main_v190 : Ref sig .tc := ⟨.hbm, 263, rfl⟩
abbrev main_cst_44 : Ref sig .tc := ⟨.hbm, 264, rfl⟩
abbrev main_v191 : Ref sig .tc := ⟨.hbm, 265, rfl⟩
abbrev main_cst_45 : Ref sig .tc := ⟨.hbm, 266, rfl⟩
abbrev main_v192 : Ref sig .tc := ⟨.hbm, 267, rfl⟩
abbrev main_v193 : Ref sig .tc := ⟨.hbm, 268, rfl⟩
abbrev main_v194 : Ref sig .tc := ⟨.hbm, 269, rfl⟩
abbrev main_v195 : Ref sig .tc := ⟨.hbm, 270, rfl⟩
abbrev main_v196 : Ref sig .tc := ⟨.hbm, 271, rfl⟩
abbrev main_v197 : Ref sig .tc := ⟨.hbm, 272, rfl⟩
abbrev main_cst_46 : Ref sig .tc := ⟨.hbm, 273, rfl⟩
abbrev main_v198 : Ref sig .tc := ⟨.hbm, 274, rfl⟩
abbrev main_cst_47 : Ref sig .tc := ⟨.hbm, 275, rfl⟩
abbrev main_v199 : Ref sig .tc := ⟨.hbm, 276, rfl⟩
abbrev main_v200 : Ref sig .tc := ⟨.hbm, 277, rfl⟩
abbrev main_v201 : Ref sig .tc := ⟨.hbm, 278, rfl⟩
abbrev main_v202 : Ref sig .tc := ⟨.hbm, 279, rfl⟩
abbrev main_v203 : Ref sig .tc := ⟨.hbm, 280, rfl⟩
abbrev main_cst_48 : Ref sig .tc := ⟨.hbm, 281, rfl⟩
abbrev main_v204 : Ref sig .tc := ⟨.hbm, 282, rfl⟩
abbrev main_v205 : Ref sig .tc := ⟨.hbm, 283, rfl⟩
abbrev main_v206 : Ref sig .tc := ⟨.hbm, 284, rfl⟩
abbrev main_v207 : Ref sig .tc := ⟨.hbm, 285, rfl⟩
abbrev main_v208 : Ref sig .tc := ⟨.hbm, 286, rfl⟩
abbrev main_v209 : Ref sig .tc := ⟨.hbm, 287, rfl⟩
abbrev main_v210 : Ref sig .tc := ⟨.hbm, 288, rfl⟩
abbrev main_v211 : Ref sig .tc := ⟨.hbm, 289, rfl⟩
abbrev main_v212 : Ref sig .tc := ⟨.hbm, 290, rfl⟩
abbrev main_v213 : Ref sig .tc := ⟨.hbm, 291, rfl⟩
abbrev main_v214 : Ref sig .tc := ⟨.hbm, 292, rfl⟩
abbrev main_v215 : Ref sig .tc := ⟨.hbm, 293, rfl⟩
abbrev main_call5_cst : Ref sig .tc := ⟨.hbm, 294, rfl⟩
abbrev main_call5_v0 : Ref sig .tc := ⟨.hbm, 295, rfl⟩
abbrev main_v216 : Ref sig .tc := ⟨.hbm, 296, rfl⟩
abbrev main_cst_49 : Ref sig .tc := ⟨.hbm, 297, rfl⟩
abbrev main_v217 : Ref sig .tc := ⟨.hbm, 298, rfl⟩
abbrev main_v218 : Ref sig .tc := ⟨.hbm, 299, rfl⟩
abbrev main_v219 : Ref sig .tc := ⟨.hbm, 300, rfl⟩
abbrev main_cst_50 : Ref sig .tc := ⟨.hbm, 301, rfl⟩
abbrev main_v220 : Ref sig .tc := ⟨.hbm, 302, rfl⟩
abbrev main_cst_51 : Ref sig .tc := ⟨.hbm, 303, rfl⟩
abbrev main_v221 : Ref sig .tc := ⟨.hbm, 304, rfl⟩
abbrev main_v222 : Ref sig .tc := ⟨.hbm, 305, rfl⟩
abbrev main_v223 : Ref sig .tc := ⟨.hbm, 306, rfl⟩
abbrev main_cst_52 : Ref sig .tc := ⟨.hbm, 307, rfl⟩
abbrev main_v224 : Ref sig .tc := ⟨.hbm, 308, rfl⟩
abbrev main_v225 : Ref sig .tc := ⟨.hbm, 309, rfl⟩
abbrev main_v226 : Ref sig .tc := ⟨.hbm, 310, rfl⟩
abbrev main_v227 : Ref sig .tc := ⟨.hbm, 311, rfl⟩
abbrev main_v228 : Ref sig .tc := ⟨.hbm, 312, rfl⟩
abbrev main_v229 : Ref sig .tc := ⟨.hbm, 313, rfl⟩
abbrev main_v230 : Ref sig .tc := ⟨.hbm, 314, rfl⟩
abbrev main_v231 : Ref sig .tc := ⟨.hbm, 315, rfl⟩
abbrev main_v232 : Ref sig .tc := ⟨.hbm, 316, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S128x128 : S_.BroadcastsInDim S128x128 (![] : Fin 0 → Fin S128x128.rank)
  bcast_S50000_S50000x1_0 : S50000.BroadcastsInDim S50000x1 (![0] : Fin 1 → Fin S50000x1.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  bcast_S10_S1x10_1 : S10.BroadcastsInDim S1x10 (![1] : Fin 1 → Fin S1x10.rank)
  bcast_S1x10_S128x10_0_1 : S1x10.BroadcastsInDim S128x10 (![0, 1] : Fin 2 → Fin S128x10.rank)
  dot_S50000x128_S128x128_S50000x128_1_0_0_1_n_n_wf : DotDims.WF S50000x128 S128x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S128x128_S50000x1_S50000x128_1_0_0_1_wf : ScatterDims.WF S128x128 S50000x1 S50000x128 [1] [0] [0] 1
  scatter_S128_S50000x1_S50000_n_0_0_1_wf : ScatterDims.WF S128 S50000x1 S50000 [] [0] [0] 1
  dot_S128x128_S128x10_S128x10_1_0_0_1_n_n_wf : DotDims.WF S128x128 S128x10 S128x10 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S128x128_S50000x1_S50000x128_1_0_0_1 : ScatterDims S128x128 S50000x1 S50000x128 where
  updateWindowDims := [1]
  insertedWindowDims := [0]
  scatterDimsToOperandDims := [0]
  indexVectorDim := 1
  wf := scatter_S128x128_S50000x1_S50000x128_1_0_0_1_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf
def dot_S128x128_S128x10_S128x10_1_0_0_1_n_n : DotDims S128x128 S128x10 S128x10 where
  lhsContracting := [1]
  rhsContracting := [0]
  lhsNonContracting := [0]
  rhsNonContracting := [1]
  lhsBatch := []
  rhsBatch := []
  wf := dot_S128x128_S128x10_S128x10_1_0_0_1_n_n_wf

class Facts : Prop extends Facts₀ where

variable [Facts]
-- ==== Proof.Kernel.Reg0.lean ====
import proofs.«425307_j45586782880378_1_alg».proof.Proof.Gen.Kernel.Launch
import proofs.«425307_j45586782880378_1_alg».proof.Proof.Gen.Kernel.Skeleton
import proofs.«425307_j45586782880378_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay1 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = k0_pay1 (iblk0 V c 0 t) (iblk0 V c 1 t) := by dsimp only [dat0]

theorem found0 (c : Dev nD) (w : Fin cfg0.W) (hw : w.val < 2) (t : Fin cfg0.N) (d) :
    (dat0 V c).before w t d = (dat0 V c).fetched w t d := by
  obtain ⟨_ | _ | w, h⟩ := w
  iterate 2 exact (dat0 V c).before_in_eq_fetched _ rfl (fun _ => rfl) (fun _ _ _ => rfl) (fun _ => rfl) t d
  exact absurd hw (Nat.not_lt.mpr (Nat.le_add_left 2 w))

theorem found0_0 (c : Dev nD) (t : Fin cfg0.N) (d) : (dat0 V c).before 0 t d = iblk0 V c 0 t :=
  found0 V c 0 (by decide) t d

theorem found0_1 (c : Dev nD) (t : Fin cfg0.N) (d) : (dat0 V c).before 1 t d = iblk0 V c 1 t :=
  found0 V c 1 (by decide) t d

theorem offsets_zero : (![0, 0] : Fin 2 → Nat) = fun _ => 0 := by
  funext a; fin_cases a <;> rfl

set_option maxHeartbeats 1000000 in

theorem product_body0 (c : Dev nD) (E : Set ℕ) (i : grid0.Coords)
    (arg1 : Memref sig .tc .vmem S10000x128 .f32) (harg1 : arg1.IsWhole)
    (arg2 : Memref sig .tc .vmem S128x128 .f32) (harg2 : arg2.IsWhole)
    (arg3 : Memref sig .tc .vmem S10000x128 .f32) (harg3 : arg3.IsWhole)
    (x : Vec F S10000x128 .f32) (w : Vec F S128x128 .f32) (K : PUnit → sProp 𝕄) :
    iprop(owns (c : Thread nD τ) arg1 fullShare x ∗ owns (c : Thread nD τ) arg2 fullShare w
        ∗ (∃ d, owns (c : Thread nD τ) arg3 fullShare d)
        ∗ (iprop(owns (c : Thread nD τ) arg1 fullShare x ∗ owns (c : Thread nD τ) arg2 fullShare w
            ∗ owns (c : Thread nD τ) arg3 fullShare (k0_pay1 x w)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (fun y => ⟨_, List.mem_singleton_self _,
      View.mem_set_unit_zero offsets_zero inb_S10000x128_S10000x128_0_0 y⟩),
    View.canon_unit_zero offsets_zero, View.readAt_eq_ld, View.readAt_eq_ld,
    View.ld_unit_zero offsets_zero, View.ld_unit_zero offsets_zero]

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [found0_0, found0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (product_body0 c Set.univ _ _ _ _ _ _ _ (iblk0 V c 0 t) (iblk0 V c 1 t) _)
  iframe
  isplitl [H2]; · iexists _; iexact H2
  iintro ⟨H0, H1, H2⟩
  iframe

theorem body_obligation0 (c : Dev nD) : BodyObligation (dat0 (F := F) V c) (defs₀ (F := F)) Variants.none () Set.univ := fun t => by
  rw [bigSep_W0, bigSep_W0]
  exact sound_body0 V c t

end Cert.Kernel.Hand
-- ==== Proof.Kernel.Reg1.lean ====
import proofs.«425307_j45586782880378_1_alg».proof.Proof.Gen.Kernel.Launch
import proofs.«425307_j45586782880378_1_alg».proof.Proof.Gen.Kernel.Skeleton
import proofs.«425307_j45586782880378_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev atFirst1 (i : grid1.Coords) : Prop :=
  (Scalar.cmpi .ne (Scalar.extui (Scalar.cmpi .eq (BitVec.ofNat 32 (i 0).val) 0#32)) 0#32) = 1#1

theorem atFirst1_iff : ∀ t : Fin cfg1.N, atFirst1 (grid1.coords t) ↔ t.val % 5 = 0 :=
  (by decide +kernel : ∀ t : Fin grid1.N, atFirst1 (grid1.coords t) ↔ t.val % 5 = 0)

theorem zero_off1 : (![0, 0] : Fin 2 → ℕ) = fun _ => 0 := by
  funext a; fin_cases a <;> rfl

set_option maxHeartbeats 1000000 in

theorem sound_first1 (c : Dev nD) (E : Set ℕ) (i : grid1.Coords)
    (arg1 : Memref sig .tc .vmem S10000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (hc : atFirst1 i) (x0 : Vec F S10000x128 .f32) (x1 : Vec F S1x128 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (k1_pay4 x0 x1 k1_pay2) ∗ owns (c : Thread nD τ) arg4 fullShare (k1_pay5 x0 x1 k1_pay3)) -∗ K ⟨⟩))
      ⊢ wp frame (wpE (defs₀ (F := F)) Variants.none c none) E (cc1__bn_reduce_kernel i arg1 harg1 arg2 harg2 arg3 harg3 arg4 harg4) K := by
  simp only [cc1__bn_reduce_kernel_eq_skeleton]; unfold cc1__bn_reduce_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [View.read_writes_eq_canon _ _ _ (fun y => ⟨_, List.mem_cons_self, View.mem_set_unit_zero (S := S1x128) zero_off1 inb_S1x128_S1x128_0_0 y⟩)]
    rw [View.canon_cons_unit_zero (S := S1x128) zero_off1]
    simp only [View.readAt_eq_ld, View.ld_unit_zero (S := S1x128) zero_off1, View.ld_unit_zero (S := S10000x128) zero_off1, View.readCov_unit_zero (S := S1x128) _ zero_off1]
  · iexists _; isplitr
    swap; · iexact H3
    ipureintro
    sl_unfold_run_names
    rw [View.read_writes_eq_canon _ _ _ (fun y => ⟨_, List.mem_cons_self, View.mem_set_unit_zero (S := S1x128) zero_off1 inb_S1x128_S1x128_0_0 y⟩)]
    rw [View.canon_cons_unit_zero (S := S1x128) zero_off1]
    simp only [View.readAt_eq_ld, View.ld_unit_zero (S := S1x128) zero_off1, View.ld_unit_zero (S := S10000x128) zero_off1, View.readCov_unit_zero (S := S1x128) _ zero_off1]

set_option maxHeartbeats 1000000 in

theorem sound_later1 (c : Dev nD) (E : Set ℕ) (i : grid1.Coords)
    (arg1 : Memref sig .tc .vmem S10000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (hc : ¬atFirst1 i) (x0 : Vec F S10000x128 .f32) (x1 : Vec F S1x128 .f32) (a b : Vec F S1x128 .f32) (K : PUnit → sProp 𝕄) :
    iprop(owns (c : Thread nD τ) arg1 fullShare x0 ∗ owns (c : Thread nD τ) arg2 fullShare x1
        ∗ owns (c : Thread nD τ) arg3 fullShare a ∗ owns (c : Thread nD τ) arg4 fullShare b
        ∗ (iprop(owns (c : Thread nD τ) arg1 fullShare x0 ∗ owns (c : Thread nD τ) arg2 fullShare x1
            ∗ owns (c : Thread nD τ) arg3 fullShare (k1_pay4 x0 x1 a) ∗ owns (c : Thread nD τ) arg4 fullShare (k1_pay5 x0 x1 b)) -∗ K ⟨⟩))
      ⊢ wp frame (wpE (defs₀ (F := F)) Variants.none c none) E (cc1__bn_reduce_kernel i arg1 harg1 arg2 harg2 arg3 harg3 arg4 harg4) K := by
  simp only [cc1__bn_reduce_kernel_eq_skeleton]; unfold cc1__bn_reduce_kernel_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [View.read_writes_eq_canon _ _ _ (fun y => ⟨_, List.mem_cons_self, View.mem_set_unit_zero (S := S1x128) zero_off1 inb_S1x128_S1x128_0_0 y⟩)]
    rw [View.canon_cons_unit_zero (S := S1x128) zero_off1]
    simp only [View.readAt_eq_ld, View.ld_unit_zero (S := S1x128) zero_off1, View.ld_unit_zero (S := S10000x128) zero_off1, View.readCov_unit_zero (S := S1x128) _ zero_off1]
  · iexists _; isplitr
    swap; · iexact H3
    ipureintro
    sl_unfold_run_names
    rw [View.read_writes_eq_canon _ _ _ (fun y => ⟨_, List.mem_cons_self, View.mem_set_unit_zero (S := S1x128) zero_off1 inb_S1x128_S1x128_0_0 y⟩)]
    rw [View.canon_cons_unit_zero (S := S1x128) zero_off1]
    simp only [View.readAt_eq_ld, View.ld_unit_zero (S := S1x128) zero_off1, View.ld_unit_zero (S := S10000x128) zero_off1, View.readCov_unit_zero (S := S1x128) _ zero_off1]

def acc1 (c : Dev nD) : (n : ℕ) → n < cfg1.N → Vec F S1x128 .f32 × Vec F S1x128 .f32
  | 0, h => (k1_pay4 (iblk1 V c 0 ⟨0, h⟩) (iblk1 V c 1 ⟨0, h⟩) k1_pay2, k1_pay5 (iblk1 V c 0 ⟨0, h⟩) (iblk1 V c 1 ⟨0, h⟩) k1_pay3)
  | n + 1, h =>
    (k1_pay4 (iblk1 V c 0 ⟨n + 1, h⟩) (iblk1 V c 1 ⟨n + 1, h⟩) (acc1 c n (Nat.lt_of_succ_lt h)).1,
     k1_pay5 (iblk1 V c 0 ⟨n + 1, h⟩) (iblk1 V c 1 ⟨n + 1, h⟩) (acc1 c n (Nat.lt_of_succ_lt h)).2)

theorem acc1_zero (c : Dev nD) (h : 0 < cfg1.N) :
    acc1 V c 0 h = (k1_pay4 (iblk1 V c 0 ⟨0, h⟩) (iblk1 V c 1 ⟨0, h⟩) k1_pay2, k1_pay5 (iblk1 V c 0 ⟨0, h⟩) (iblk1 V c 1 ⟨0, h⟩) k1_pay3) := rfl

theorem acc1_succ (c : Dev nD) (n : ℕ) (h : n + 1 < cfg1.N) :
    acc1 V c (n + 1) h = (k1_pay4 (iblk1 V c 0 ⟨n + 1, h⟩) (iblk1 V c 1 ⟨n + 1, h⟩) (acc1 V c n (by omega)).1,
      k1_pay5 (iblk1 V c 0 ⟨n + 1, h⟩) (iblk1 V c 1 ⟨n + 1, h⟩) (acc1 V c n (by omega)).2) := rfl

theorem acc1_first (c : Dev nD) (t : Fin cfg1.N) (h0 : t.val % 5 = 0) :
    acc1 V c t.val t.isLt = (k1_pay4 (iblk1 V c 0 t) (iblk1 V c 1 t) k1_pay2, k1_pay5 (iblk1 V c 0 t) (iblk1 V c 1 t) k1_pay3) := by
  have hN : t.val < 5 := lt_of_lt_of_eq t.isLt (show cfg1.N = 5 from N_1)
  obtain ⟨n, hn⟩ := t
  cases n with
  | zero => exact rfl
  | succ n => exact (by exfalso; dsimp only at h0 hN; omega)

theorem acc1_later (c : Dev nD) (t : Fin cfg1.N) (h0 : ¬t.val % 5 = 0) :
    acc1 V c t.val t.isLt =
      (k1_pay4 (iblk1 V c 0 t) (iblk1 V c 1 t) (acc1 V c (t.val - 1) (Nat.lt_of_le_of_lt (Nat.sub_le _ _) t.isLt)).1,
       k1_pay5 (iblk1 V c 0 t) (iblk1 V c 1 t) (acc1 V c (t.val - 1) (Nat.lt_of_le_of_lt (Nat.sub_le _ _) t.isLt)).2) := by
  obtain ⟨n, hn⟩ := t
  cases n with
  | zero => exact (by exfalso; exact h0 (Nat.zero_mod _))
  | succ n => exact rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (acc1 V c t.val t.isLt).1
    | ⟨3, _⟩ => (acc1 V c t.val t.isLt).2
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (acc1 V c t.val t.isLt).1 := by dsimp only [dat1]
theorem after1_3 (c : Dev nD) (t : Fin cfg1.N) : (dat1 V c).after 3 t = (acc1 V c t.val t.isLt).2 := by dsimp only [dat1]

theorem before1 (c : Dev nD) (w : Fin cfg1.W) (hw : w.val < 2) (t : Fin cfg1.N) (d) :
    (dat1 V c).before w t d = (dat1 V c).fetched w t d := by
  obtain ⟨_ | _ | w, h⟩ := w
  iterate 2 exact (dat1 V c).before_in_eq_fetched _ rfl (fun _ => rfl) (fun _ _ _ => rfl) (fun _ => rfl) t d
  exact absurd hw (Nat.not_lt.mpr (Nat.le_add_left 2 w))

theorem before1_0 (c : Dev nD) (t : Fin cfg1.N) (d) : (dat1 V c).before 0 t d = iblk1 V c 0 t :=
  before1 V c 0 (by decide) t d
theorem before1_1 (c : Dev nD) (t : Fin cfg1.N) (d) : (dat1 V c).before 1 t d = iblk1 V c 1 t :=
  before1 V c 1 (by decide) t d

theorem before1_2_later (c : Dev nD) (t : Fin cfg1.N) (h0 : ¬t.val % 5 = 0) (d) :
    (dat1 V c).before 2 t d = (acc1 V c (t.val - 1) (Nat.lt_of_le_of_lt (Nat.sub_le _ _) t.isLt)).1 := by
  have hN : t.val < 5 := lt_of_lt_of_eq t.isLt (show cfg1.N = 5 from N_1)
  rw [Dat.before_out_kept _ 2 rfl t (by omega) (Bool.eq_false_iff.mpr fun h => by have := (flush1_2 _).mp h; dsimp only at this; omega)
    (fun _ => rfl) (fun _ _ => rfl)]
  dsimp only [dat1]

theorem before1_3_later (c : Dev nD) (t : Fin cfg1.N) (h0 : ¬t.val % 5 = 0) (d) :
    (dat1 V c).before 3 t d = (acc1 V c (t.val - 1) (Nat.lt_of_le_of_lt (Nat.sub_le _ _) t.isLt)).2 := by
  have hN : t.val < 5 := lt_of_lt_of_eq t.isLt (show cfg1.N = 5 from N_1)
  rw [Dat.before_out_kept _ 3 rfl t (by omega) (Bool.eq_false_iff.mpr fun h => by have := (flush1_3 _).mp h; dsimp only at this; omega)
    (fun _ => rfl) (fun _ _ => rfl)]
  dsimp only [dat1]

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

set_option maxHeartbeats 800000 in

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2, after1_3]
  by_cases h0 : t.val % 5 = 0
  · rw [acc1_first V c t h0]
    iintro ⟨HΦ, Ho, ⟨%d0, H0⟩, ⟨%d1, H1⟩, ⟨%d2, H2⟩, ⟨%d3, H3⟩⟩
    iapply (sound_first1 c Set.univ (grid1.coords t) _ _ _ _ _ _ _ _ ((atFirst1_iff t).mpr h0) (iblk1 V c 0 t) (iblk1 V c 1 t) _)
    iframe
    isplitl [H2]; · iexists _; iexact H2
    isplitl [H3]; · iexists _; iexact H3
    iintro ⟨H0, H1, H2, H3⟩
    iframe
  · rw [acc1_later V c t h0]
    simp only [before1_2_later V c t h0, before1_3_later V c t h0]
    iintro ⟨HΦ, Ho, ⟨%d0, H0⟩, ⟨%d1, H1⟩, ⟨%d2, H2⟩, ⟨%d3, H3⟩⟩
    iapply (sound_later1 c Set.univ (grid1.coords t) _ _ _ _ _ _ _ _ (fun h => h0 ((atFirst1_iff t).mp h)) (iblk1 V c 0 t) (iblk1 V c 1 t) _ _ _)
    iframe
    iintro ⟨H0, H1, H2, H3⟩
    iframe

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Kernel.Reg2.lean ====
import proofs.«425307_j45586782880378_1_alg».proof.Proof.Gen.Kernel.Launch
import proofs.«425307_j45586782880378_1_alg».proof.Proof.Gen.Kernel.Skeleton
import proofs.«425307_j45586782880378_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rBlock2 : Rect S10000x128 := Rect.unit (s := S10000x128) ![0, 0] S10000x128.size inb_S10000x128_S10000x128_0_0

theorem zeroOffsets2 : (![0, 0] : Fin 2 → ℕ) = fun _ => 0 := funext fun a => by fin_cases a <;> rfl

theorem cover2_6 (p : Vec F S10000x128 .f32) (y : S10000x128.Idx) :
    ∃ pc ∈ ([⟨rBlock2, p⟩] : List (View.Piece (Elt F) S10000x128 .f32)), y ∈ pc.1.set :=
  ⟨⟨rBlock2, p⟩, List.mem_singleton_self _, View.mem_set_unit_zero zeroOffsets2 inb_S10000x128_S10000x128_0_0 y⟩

set_option maxHeartbeats 1000000 in

theorem sound_kernel2 (c : Dev nD) (E : Set ℕ)
    (arg1 : Memref sig .tc .vmem S10000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S1x128 .f32) (harg6 : arg6.IsWhole)
    (arg7 : Memref sig .tc .vmem S10000x128 .f32) (harg7 : arg7.IsWhole)
    (i : grid2.Coords)
    (x : Vec F S10000x128 .f32) (b μ s γ β : Vec F S1x128 .f32) (K : PUnit → sProp 𝕄) :
    iprop(owns (c : Thread nD τ) arg1 fullShare x ∗ owns (c : Thread nD τ) arg2 fullShare b
        ∗ owns (c : Thread nD τ) arg3 fullShare μ ∗ owns (c : Thread nD τ) arg4 fullShare s
        ∗ owns (c : Thread nD τ) arg5 fullShare γ ∗ owns (c : Thread nD τ) arg6 fullShare β
        ∗ (∃ d, owns (c : Thread nD τ) arg7 fullShare d)
        ∗ (iprop(owns (c : Thread nD τ) arg1 fullShare x ∗ owns (c : Thread nD τ) arg2 fullShare b
            ∗ owns (c : Thread nD τ) arg3 fullShare μ ∗ owns (c : Thread nD τ) arg4 fullShare s
            ∗ owns (c : Thread nD τ) arg5 fullShare γ ∗ owns (c : Thread nD τ) arg6 fullShare β
            ∗ owns (c : Thread nD τ) arg7 fullShare (k2_pay1 x b μ s γ β)) -∗ K ⟨⟩))
      ⊢ wp frame (wpE (defs₀ (F := F)) Variants.none c none) E (cc2__bn_norm_kernel i arg1 harg1 arg2 harg2 arg3 harg3 arg4 harg4 arg5 harg5 arg6 harg6 arg7 harg7) K := by
  simp only [cc2__bn_norm_kernel_eq_skeleton]; unfold cc2__bn_norm_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  rw [View.read_writes_eq_canon _ _ _ (cover2_6 _),
    View.canon_unit_zero zeroOffsets2]
  simp only [View.readAt_eq_ld, View.ld_unit_zero (S := S10000x128) zeroOffsets2, View.ld_unit_zero (S := S1x128) zeroOffsets2]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => k2_pay1 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = k2_pay1 (iblk2 V c 0 t) (iblk2 V c 1 t) (iblk2 V c 2 t) (iblk2 V c 3 t) (iblk2 V c 4 t) (iblk2 V c 5 t) := by dsimp only [dat2]

theorem before2 (c : Dev nD) (w : Fin cfg2.W) (hw : w.val < 6) (t : Fin cfg2.N) (d) :
    (dat2 V c).before w t d = (dat2 V c).fetched w t d := by
  obtain ⟨_ | _ | _ | _ | _ | _ | w, h⟩ := w
  iterate 6 exact (dat2 V c).before_in_eq_fetched _ rfl (fun _ => rfl) (fun _ _ _ => rfl) (fun _ => rfl) t d
  exact absurd hw (Nat.not_lt.mpr (Nat.le_add_left 6 w))

theorem before2_0 (c : Dev nD) (t : Fin cfg2.N) (d) : (dat2 V c).before 0 t d = iblk2 V c 0 t :=
  before2 V c 0 (by decide) t d
theorem before2_1 (c : Dev nD) (t : Fin cfg2.N) (d) : (dat2 V c).before 1 t d = iblk2 V c 1 t :=
  before2 V c 1 (by decide) t d
theorem before2_2 (c : Dev nD) (t : Fin cfg2.N) (d) : (dat2 V c).before 2 t d = iblk2 V c 2 t :=
  before2 V c 2 (by decide) t d
theorem before2_3 (c : Dev nD) (t : Fin cfg2.N) (d) : (dat2 V c).before 3 t d = iblk2 V c 3 t :=
  before2 V c 3 (by decide) t d
theorem before2_4 (c : Dev nD) (t : Fin cfg2.N) (d) : (dat2 V c).before 4 t d = iblk2 V c 4 t :=
  before2 V c 4 (by decide) t d
theorem before2_5 (c : Dev nD) (t : Fin cfg2.N) (d) : (dat2 V c).before 5 t d = iblk2 V c 5 t :=
  before2 V c 5 (by decide) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  iframe
  isplitl [H6]; · iexists _; iexact H6
  iintro ⟨H0, H1, H2, H3, H4, H5, H6⟩
  iframe

theorem body_obligation2 (c : Dev nD) : BodyObligation (dat2 (F := F) V c) (defs₀ (F := F)) Variants.none () Set.univ := fun t => by
  rw [bigSep_W2, bigSep_W2]
  exact sound_body2 V c t

end Cert.Kernel.Hand
-- ==== Proof.Kernel.Reg3.lean ====
import proofs.«425307_j45586782880378_1_alg».proof.Proof.Kernel.Reg0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => k3_pay1 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) :
    (dat3 V c).after 2 t = k3_pay1 (iblk3 V c 0 t) (iblk3 V c 1 t) := by dsimp only [dat3]

theorem found3 (c : Dev nD) (w : Fin cfg3.W) (hw : w.val < 2) (t : Fin cfg3.N) (d) :
    (dat3 V c).before w t d = (dat3 V c).fetched w t d := by
  obtain ⟨_ | _ | w, h⟩ := w
  iterate 2 exact (dat3 V c).before_in_eq_fetched _ rfl (fun _ => rfl) (fun _ _ _ => rfl) (fun _ => rfl) t d
  exact absurd hw (Nat.not_lt.mpr (Nat.le_add_left 2 w))

theorem found3_0 (c : Dev nD) (t : Fin cfg3.N) (d) : (dat3 V c).before 0 t d = iblk3 V c 0 t :=
  found3 V c 0 (by decide) t d

theorem found3_1 (c : Dev nD) (t : Fin cfg3.N) (d) : (dat3 V c).before 1 t d = iblk3 V c 1 t :=
  found3 V c 1 (by decide) t d

theorem pay3_eq : k3_pay1 (F := F) = k0_pay1 := by
  funext x w; unfold k3_pay1 k0_pay1; rw [shapeCast_self]

theorem cc3_eq : cc3__matmul_kernel (F := F) = cc0__matmul_kernel := by
  rw [cc3__matmul_kernel_eq_skeleton, cc0__matmul_kernel_eq_skeleton]
  funext i a1 h1 a2 h2 a3 h3
  unfold cc3__matmul_kernel_skel cc0__matmul_kernel_skel; rw [pay3_eq]

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [found3_0, found3_1]
  rw [show (dat3 V c).Φ t.succ = (dat3 V c).Φ t.castSucc from rfl,
    show (dat3 V c).owesAt () t.succ = (dat3 V c).owesAt () t.castSucc from rfl,
    after3_0, after3_1, after3_2, cc3_eq, pay3_eq]
  iintro ⟨HΦ, Ho, ⟨%d0, H0⟩, ⟨%d1, H1⟩, ⟨%d2, H2⟩⟩
  iapply (product_body0 c Set.univ _ _ _ _ _ _ _ (iblk3 V c 0 t) (iblk3 V c 1 t) _)
  iframe
  isplitl [H2]; · iexists _; iexact H2
  iintro ⟨H0, H1, H2⟩
  iframe

theorem body_obligation3 (c : Dev nD) : BodyObligation (dat3 (F := F) V c) (defs₀ (F := F)) Variants.none () Set.univ := fun t => by
  rw [bigSep_W3, bigSep_W3]
  exact sound_body3 V c t

end Cert.Kernel.Hand
-- ==== Proof.Kernel.Reg4.lean ====
import proofs.«425307_j45586782880378_1_alg».proof.Proof.Kernel.Reg1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem cc4_eq : cc4__bn_reduce_kernel (F := F) = cc1__bn_reduce_kernel := by
  rw [cc4__bn_reduce_kernel_eq_skeleton, cc1__bn_reduce_kernel_eq_skeleton]; rfl

theorem pay4_2 : k4_pay2 (F := F) = k1_pay2 := rfl
theorem pay4_3 : k4_pay3 (F := F) = k1_pay3 := rfl
theorem pay4_4 : k4_pay4 (F := F) = k1_pay4 := rfl
theorem pay4_5 : k4_pay5 (F := F) = k1_pay5 := rfl

def acc4 (c : Dev nD) : (n : ℕ) → n < cfg4.N → Vec F S1x128 .f32 × Vec F S1x128 .f32
  | 0, h => (k4_pay4 (iblk4 V c 0 ⟨0, h⟩) (iblk4 V c 1 ⟨0, h⟩) k4_pay2, k4_pay5 (iblk4 V c 0 ⟨0, h⟩) (iblk4 V c 1 ⟨0, h⟩) k4_pay3)
  | n + 1, h =>
    (k4_pay4 (iblk4 V c 0 ⟨n + 1, h⟩) (iblk4 V c 1 ⟨n + 1, h⟩) (acc4 c n (Nat.lt_of_succ_lt h)).1,
     k4_pay5 (iblk4 V c 0 ⟨n + 1, h⟩) (iblk4 V c 1 ⟨n + 1, h⟩) (acc4 c n (Nat.lt_of_succ_lt h)).2)

theorem acc4_zero (c : Dev nD) (h : 0 < cfg4.N) :
    acc4 V c 0 h = (k4_pay4 (iblk4 V c 0 ⟨0, h⟩) (iblk4 V c 1 ⟨0, h⟩) k4_pay2, k4_pay5 (iblk4 V c 0 ⟨0, h⟩) (iblk4 V c 1 ⟨0, h⟩) k4_pay3) := rfl

theorem acc4_succ (c : Dev nD) (n : ℕ) (h : n + 1 < cfg4.N) :
    acc4 V c (n + 1) h = (k4_pay4 (iblk4 V c 0 ⟨n + 1, h⟩) (iblk4 V c 1 ⟨n + 1, h⟩) (acc4 V c n (by omega)).1,
      k4_pay5 (iblk4 V c 0 ⟨n + 1, h⟩) (iblk4 V c 1 ⟨n + 1, h⟩) (acc4 V c n (by omega)).2) := rfl

theorem acc4_first (c : Dev nD) (t : Fin cfg4.N) (h0 : t.val % 5 = 0) :
    acc4 V c t.val t.isLt = (k4_pay4 (iblk4 V c 0 t) (iblk4 V c 1 t) k4_pay2, k4_pay5 (iblk4 V c 0 t) (iblk4 V c 1 t) k4_pay3) := by
  have hN : t.val < 5 := lt_of_lt_of_eq t.isLt (show cfg4.N = 5 from N_4)
  obtain ⟨n, hn⟩ := t
  cases n with
  | zero => exact rfl
  | succ n => exact (by exfalso; dsimp only at h0 hN; omega)

theorem acc4_later (c : Dev nD) (t : Fin cfg4.N) (h0 : ¬t.val % 5 = 0) :
    acc4 V c t.val t.isLt =
      (k4_pay4 (iblk4 V c 0 t) (iblk4 V c 1 t) (acc4 V c (t.val - 1) (Nat.lt_of_le_of_lt (Nat.sub_le _ _) t.isLt)).1,
       k4_pay5 (iblk4 V c 0 t) (iblk4 V c 1 t) (acc4 V c (t.val - 1) (Nat.lt_of_le_of_lt (Nat.sub_le _ _) t.isLt)).2) := by
  obtain ⟨n, hn⟩ := t
  cases n with
  | zero => exact (by exfalso; exact h0 (Nat.zero_mod _))
  | succ n => exact rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => (acc4 V c t.val t.isLt).1
    | ⟨3, _⟩ => (acc4 V c t.val t.isLt).2
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = (acc4 V c t.val t.isLt).1 := by dsimp only [dat4]
theorem after4_3 (c : Dev nD) (t : Fin cfg4.N) : (dat4 V c).after 3 t = (acc4 V c t.val t.isLt).2 := by dsimp only [dat4]

theorem before4 (c : Dev nD) (w : Fin cfg4.W) (hw : w.val < 2) (t : Fin cfg4.N) (d) :
    (dat4 V c).before w t d = (dat4 V c).fetched w t d := by
  obtain ⟨_ | _ | w, h⟩ := w
  iterate 2 exact (dat4 V c).before_in_eq_fetched _ rfl (fun _ => rfl) (fun _ _ _ => rfl) (fun _ => rfl) t d
  exact absurd hw (Nat.not_lt.mpr (Nat.le_add_left 2 w))

theorem before4_0 (c : Dev nD) (t : Fin cfg4.N) (d) : (dat4 V c).before 0 t d = iblk4 V c 0 t :=
  before4 V c 0 (by decide) t d
theorem before4_1 (c : Dev nD) (t : Fin cfg4.N) (d) : (dat4 V c).before 1 t d = iblk4 V c 1 t :=
  before4 V c 1 (by decide) t d

theorem before4_2_later (c : Dev nD) (t : Fin cfg4.N) (h0 : ¬t.val % 5 = 0) (d) :
    (dat4 V c).before 2 t d = (acc4 V c (t.val - 1) (Nat.lt_of_le_of_lt (Nat.sub_le _ _) t.isLt)).1 := by
  have hN : t.val < 5 := lt_of_lt_of_eq t.isLt (show cfg4.N = 5 from N_4)
  rw [Dat.before_out_kept _ 2 rfl t (by omega) (Bool.eq_false_iff.mpr fun h => by have := (flush4_2 _).mp h; dsimp only at this; omega)
    (fun _ => rfl) (fun _ _ => rfl)]
  dsimp only [dat4]

theorem before4_3_later (c : Dev nD) (t : Fin cfg4.N) (h0 : ¬t.val % 5 = 0) (d) :
    (dat4 V c).before 3 t d = (acc4 V c (t.val - 1) (Nat.lt_of_le_of_lt (Nat.sub_le _ _) t.isLt)).2 := by
  have hN : t.val < 5 := lt_of_lt_of_eq t.isLt (show cfg4.N = 5 from N_4)
  rw [Dat.before_out_kept _ 3 rfl t (by omega) (Bool.eq_false_iff.mpr fun h => by have := (flush4_3 _).mp h; dsimp only at this; omega)
    (fun _ => rfl) (fun _ _ => rfl)]
  dsimp only [dat4]

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

set_option maxHeartbeats 800000 in

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2, after4_3, cc4_eq]
  by_cases h0 : t.val % 5 = 0
  · rw [acc4_first V c t h0, pay4_2, pay4_3, pay4_4, pay4_5]
    iintro ⟨HΦ, Ho, ⟨%d0, H0⟩, ⟨%d1, H1⟩, ⟨%d2, H2⟩, ⟨%d3, H3⟩⟩
    iapply (sound_first1 c Set.univ (grid4.coords t) _ _ _ _ _ _ _ _ ((atFirst1_iff t).mpr h0) (iblk4 V c 0 t) (iblk4 V c 1 t) _)
    iframe
    isplitl [H2]; · iexists _; iexact H2
    isplitl [H3]; · iexists _; iexact H3
    iintro ⟨H0, H1, H2, H3⟩
    iframe
  · rw [acc4_later V c t h0, pay4_4, pay4_5]
    simp only [before4_2_later V c t h0, before4_3_later V c t h0]
    iintro ⟨HΦ, Ho, ⟨%d0, H0⟩, ⟨%d1, H1⟩, ⟨%d2, H2⟩, ⟨%d3, H3⟩⟩
    iapply (sound_later1 c Set.univ (grid4.coords t) _ _ _ _ _ _ _ _ (fun h => h0 ((atFirst1_iff t).mp h)) (iblk4 V c 0 t) (iblk4 V c 1 t) _ _ _)
    iframe
    iintro ⟨H0, H1, H2, H3⟩
    iframe

theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.Kernel.Reg5.lean ====
import proofs.«425307_j45586782880378_1_alg».proof.Proof.Kernel.Reg2

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem cc5_eq : cc5__bn_norm_kernel (F := F) = cc2__bn_norm_kernel := by
  rw [cc5__bn_norm_kernel_eq_skeleton, cc2__bn_norm_kernel_eq_skeleton]; rfl

theorem pay5_eq : k5_pay1 (F := F) = k2_pay1 := rfl

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => k5_pay1 (iblk5 V c 0 t) (iblk5 V c 1 t) (iblk5 V c 2 t) (iblk5 V c 3 t) (iblk5 V c 4 t) (iblk5 V c 5 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = k5_pay1 (iblk5 V c 0 t) (iblk5 V c 1 t) (iblk5 V c 2 t) (iblk5 V c 3 t) (iblk5 V c 4 t) (iblk5 V c 5 t) := by dsimp only [dat5]

theorem before5 (c : Dev nD) (w : Fin cfg5.W) (hw : w.val < 6) (t : Fin cfg5.N) (d) :
    (dat5 V c).before w t d = (dat5 V c).fetched w t d := by
  obtain ⟨_ | _ | _ | _ | _ | _ | w, h⟩ := w
  iterate 6 exact (dat5 V c).before_in_eq_fetched _ rfl (fun _ => rfl) (fun _ _ _ => rfl) (fun _ => rfl) t d
  exact absurd hw (Nat.not_lt.mpr (Nat.le_add_left 6 w))

theorem before5_0 (c : Dev nD) (t : Fin cfg5.N) (d) : (dat5 V c).before 0 t d = iblk5 V c 0 t :=
  before5 V c 0 (by decide) t d
theorem before5_1 (c : Dev nD) (t : Fin cfg5.N) (d) : (dat5 V c).before 1 t d = iblk5 V c 1 t :=
  before5 V c 1 (by decide) t d
theorem before5_2 (c : Dev nD) (t : Fin cfg5.N) (d) : (dat5 V c).before 2 t d = iblk5 V c 2 t :=
  before5 V c 2 (by decide) t d
theorem before5_3 (c : Dev nD) (t : Fin cfg5.N) (d) : (dat5 V c).before 3 t d = iblk5 V c 3 t :=
  before5 V c 3 (by decide) t d
theorem before5_4 (c : Dev nD) (t : Fin cfg5.N) (d) : (dat5 V c).before 4 t d = iblk5 V c 4 t :=
  before5 V c 4 (by decide) t d
theorem before5_5 (c : Dev nD) (t : Fin cfg5.N) (d) : (dat5 V c).before 5 t d = iblk5 V c 5 t :=
  before5 V c 5 (by decide) t d

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, cc5_eq, pay5_eq]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk5 V c 0 t) (iblk5 V c 1 t) (iblk5 V c 2 t) (iblk5 V c 3 t) (iblk5 V c 4 t) (iblk5 V c 5 t) _)
  iframe
  isplitl [H6]; · iexists _; iexact H6
  iintro ⟨H0, H1, H2, H3, H4, H5, H6⟩
  iframe

theorem body_obligation5 (c : Dev nD) : BodyObligation (dat5 (F := F) V c) (defs₀ (F := F)) Variants.none () Set.univ := fun t => by
  rw [bigSep_W5, bigSep_W5]
  exact sound_body5 V c t

end Cert.Kernel.Hand
-- ==== Proof.Kernel.Reg6.lean ====
import proofs.«425307_j45586782880378_1_alg».proof.Proof.Kernel.Reg0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => k6_pay1 (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) :
    (dat6 V c).after 2 t = k6_pay1 (iblk6 V c 0 t) (iblk6 V c 1 t) := by dsimp only [dat6]

theorem found6 (c : Dev nD) (w : Fin cfg6.W) (hw : w.val < 2) (t : Fin cfg6.N) (d) :
    (dat6 V c).before w t d = (dat6 V c).fetched w t d := by
  obtain ⟨_ | _ | w, h⟩ := w
  iterate 2 exact (dat6 V c).before_in_eq_fetched _ rfl (fun _ => rfl) (fun _ _ _ => rfl) (fun _ => rfl) t d
  exact absurd hw (Nat.not_lt.mpr (Nat.le_add_left 2 w))

theorem found6_0 (c : Dev nD) (t : Fin cfg6.N) (d) : (dat6 V c).before 0 t d = iblk6 V c 0 t :=
  found6 V c 0 (by decide) t d

theorem found6_1 (c : Dev nD) (t : Fin cfg6.N) (d) : (dat6 V c).before 1 t d = iblk6 V c 1 t :=
  found6 V c 1 (by decide) t d

theorem pay6_eq : k6_pay1 (F := F) = k0_pay1 := by
  funext x w; unfold k6_pay1 k0_pay1; rw [shapeCast_self]

theorem cc6_eq : cc6__matmul_kernel (F := F) = cc0__matmul_kernel := by
  rw [cc6__matmul_kernel_eq_skeleton, cc0__matmul_kernel_eq_skeleton]
  funext i a1 h1 a2 h2 a3 h3
  unfold cc6__matmul_kernel_skel cc0__matmul_kernel_skel; rw [pay6_eq]

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [found6_0, found6_1]
  rw [show (dat6 V c).Φ t.succ = (dat6 V c).Φ t.castSucc from rfl,
    show (dat6 V c).owesAt () t.succ = (dat6 V c).owesAt () t.castSucc from rfl,
    after6_0, after6_1, after6_2, cc6_eq, pay6_eq]
  iintro ⟨HΦ, Ho, ⟨%d0, H0⟩, ⟨%d1, H1⟩, ⟨%d2, H2⟩⟩
  iapply (product_body0 c Set.univ _ _ _ _ _ _ _ (iblk6 V c 0 t) (iblk6 V c 1 t) _)
  iframe
  isplitl [H2]; · iexists _; iexact H2
  iintro ⟨H0, H1, H2⟩
  iframe

theorem body_obligation6 (c : Dev nD) : BodyObligation (dat6 (F := F) V c) (defs₀ (F := F)) Variants.none () Set.univ := fun t => by
  rw [bigSep_W6, bigSep_W6]
  exact sound_body6 V c t

end Cert.Kernel.Hand
-- ==== Proof.Kernel.Reg7.lean ====
import proofs.«425307_j45586782880378_1_alg».proof.Proof.Kernel.Reg1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

theorem cc7_eq : cc7__bn_reduce_kernel (F := F) = cc1__bn_reduce_kernel := by
  rw [cc7__bn_reduce_kernel_eq_skeleton, cc1__bn_reduce_kernel_eq_skeleton]; rfl

theorem pay7_2 : k7_pay2 (F := F) = k1_pay2 := rfl
theorem pay7_3 : k7_pay3 (F := F) = k1_pay3 := rfl
theorem pay7_4 : k7_pay4 (F := F) = k1_pay4 := rfl
theorem pay7_5 : k7_pay5 (F := F) = k1_pay5 := rfl

def acc7 (c : Dev nD) : (n : ℕ) → n < cfg7.N → Vec F S1x128 .f32 × Vec F S1x128 .f32
  | 0, h => (k7_pay4 (iblk7 V c 0 ⟨0, h⟩) (iblk7 V c 1 ⟨0, h⟩) k7_pay2, k7_pay5 (iblk7 V c 0 ⟨0, h⟩) (iblk7 V c 1 ⟨0, h⟩) k7_pay3)
  | n + 1, h =>
    (k7_pay4 (iblk7 V c 0 ⟨n + 1, h⟩) (iblk7 V c 1 ⟨n + 1, h⟩) (acc7 c n (Nat.lt_of_succ_lt h)).1,
     k7_pay5 (iblk7 V c 0 ⟨n + 1, h⟩) (iblk7 V c 1 ⟨n + 1, h⟩) (acc7 c n (Nat.lt_of_succ_lt h)).2)

theorem acc7_zero (c : Dev nD) (h : 0 < cfg7.N) :
    acc7 V c 0 h = (k7_pay4 (iblk7 V c 0 ⟨0, h⟩) (iblk7 V c 1 ⟨0, h⟩) k7_pay2, k7_pay5 (iblk7 V c 0 ⟨0, h⟩) (iblk7 V c 1 ⟨0, h⟩) k7_pay3) := rfl

theorem acc7_succ (c : Dev nD) (n : ℕ) (h : n + 1 < cfg7.N) :
    acc7 V c (n + 1) h = (k7_pay4 (iblk7 V c 0 ⟨n + 1, h⟩) (iblk7 V c 1 ⟨n + 1, h⟩) (acc7 V c n (by omega)).1,
      k7_pay5 (iblk7 V c 0 ⟨n + 1, h⟩) (iblk7 V c 1 ⟨n + 1, h⟩) (acc7 V c n (by omega)).2) := rfl

theorem acc7_first (c : Dev nD) (t : Fin cfg7.N) (h0 : t.val % 5 = 0) :
    acc7 V c t.val t.isLt = (k7_pay4 (iblk7 V c 0 t) (iblk7 V c 1 t) k7_pay2, k7_pay5 (iblk7 V c 0 t) (iblk7 V c 1 t) k7_pay3) := by
  have hN : t.val < 5 := lt_of_lt_of_eq t.isLt (show cfg7.N = 5 from N_7)
  obtain ⟨n, hn⟩ := t
  cases n with
  | zero => exact rfl
  | succ n => exact (by exfalso; dsimp only at h0 hN; omega)

theorem acc7_later (c : Dev nD) (t : Fin cfg7.N) (h0 : ¬t.val % 5 = 0) :
    acc7 V c t.val t.isLt =
      (k7_pay4 (iblk7 V c 0 t) (iblk7 V c 1 t) (acc7 V c (t.val - 1) (Nat.lt_of_le_of_lt (Nat.sub_le _ _) t.isLt)).1,
       k7_pay5 (iblk7 V c 0 t) (iblk7 V c 1 t) (acc7 V c (t.val - 1) (Nat.lt_of_le_of_lt (Nat.sub_le _ _) t.isLt)).2) := by
  obtain ⟨n, hn⟩ := t
  cases n with
  | zero => exact (by exfalso; exact h0 (Nat.zero_mod _))
  | succ n => exact rfl

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => (acc7 V c t.val t.isLt).1
    | ⟨3, _⟩ => (acc7 V c t.val t.isLt).2
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = (acc7 V c t.val t.isLt).1 := by dsimp only [dat7]
theorem after7_3 (c : Dev nD) (t : Fin cfg7.N) : (dat7 V c).after 3 t = (acc7 V c t.val t.isLt).2 := by dsimp only [dat7]

theorem before7 (c : Dev nD) (w : Fin cfg7.W) (hw : w.val < 2) (t : Fin cfg7.N) (d) :
    (dat7 V c).before w t d = (dat7 V c).fetched w t d := by
  obtain ⟨_ | _ | w, h⟩ := w
  iterate 2 exact (dat7 V c).before_in_eq_fetched _ rfl (fun _ => rfl) (fun _ _ _ => rfl) (fun _ => rfl) t d
  exact absurd hw (Nat.not_lt.mpr (Nat.le_add_left 2 w))

theorem before7_0 (c : Dev nD) (t : Fin cfg7.N) (d) : (dat7 V c).before 0 t d = iblk7 V c 0 t :=
  before7 V c 0 (by decide) t d
theorem before7_1 (c : Dev nD) (t : Fin cfg7.N) (d) : (dat7 V c).before 1 t d = iblk7 V c 1 t :=
  before7 V c 1 (by decide) t d

theorem before7_2_later (c : Dev nD) (t : Fin cfg7.N) (h0 : ¬t.val % 5 = 0) (d) :
    (dat7 V c).before 2 t d = (acc7 V c (t.val - 1) (Nat.lt_of_le_of_lt (Nat.sub_le _ _) t.isLt)).1 := by
  have hN : t.val < 5 := lt_of_lt_of_eq t.isLt (show cfg7.N = 5 from N_7)
  rw [Dat.before_out_kept _ 2 rfl t (by omega) (Bool.eq_false_iff.mpr fun h => by have := (flush7_2 _).mp h; dsimp only at this; omega)
    (fun _ => rfl) (fun _ _ => rfl)]
  dsimp only [dat7]

theorem before7_3_later (c : Dev nD) (t : Fin cfg7.N) (h0 : ¬t.val % 5 = 0) (d) :
    (dat7 V c).before 3 t d = (acc7 V c (t.val - 1) (Nat.lt_of_le_of_lt (Nat.sub_le _ _) t.isLt)).2 := by
  have hN : t.val < 5 := lt_of_lt_of_eq t.isLt (show cfg7.N = 5 from N_7)
  rw [Dat.before_out_kept _ 3 rfl t (by omega) (Bool.eq_false_iff.mpr fun h => by have := (flush7_3 _).mp h; dsimp only at this; omega)
    (fun _ => rfl) (fun _ _ => rfl)]
  dsimp only [dat7]

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t))

set_option maxHeartbeats 800000 in

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).Φ t.succ = (dat7 V c).Φ t.castSucc from rfl,
    show (dat7 V c).owesAt () t.succ = (dat7 V c).owesAt () t.castSucc from rfl,
    after7_0, after7_1, after7_2, after7_3, cc7_eq]
  by_cases h0 : t.val % 5 = 0
  · rw [acc7_first V c t h0, pay7_2, pay7_3, pay7_4, pay7_5]
    iintro ⟨HΦ, Ho, ⟨%d0, H0⟩, ⟨%d1, H1⟩, ⟨%d2, H2⟩, ⟨%d3, H3⟩⟩
    iapply (sound_first1 c Set.univ (grid7.coords t) _ _ _ _ _ _ _ _ ((atFirst1_iff t).mpr h0) (iblk7 V c 0 t) (iblk7 V c 1 t) _)
    iframe
    isplitl [H2]; · iexists _; iexact H2
    isplitl [H3]; · iexists _; iexact H3
    iintro ⟨H0, H1, H2, H3⟩
    iframe
  · rw [acc7_later V c t h0, pay7_4, pay7_5]
    simp only [before7_2_later V c t h0, before7_3_later V c t h0]
    iintro ⟨HΦ, Ho, ⟨%d0, H0⟩, ⟨%d1, H1⟩, ⟨%d2, H2⟩, ⟨%d3, H3⟩⟩
    iapply (sound_later1 c Set.univ (grid7.coords t) _ _ _ _ _ _ _ _ (fun h => h0 ((atFirst1_iff t).mp h)) (iblk7 V c 0 t) (iblk7 V c 1 t) _ _ _)
    iframe
    iintro ⟨H0, H1, H2, H3⟩
    iframe

theorem body_obligation7 (c : Dev nD) : BodyObligation (dat7 (F := F) V c) (defs₀ (F := F)) Variants.none () Set.univ := fun t => by
  rw [bigSep_W7, bigSep_W7]
  exact sound_body7 V c t

end Cert.Kernel.Hand

end
-- ==== Proof.Kernel.Reg8.lean ====
import proofs.«425307_j45586782880378_1_alg».proof.Proof.Kernel.Reg2

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

theorem cc8_eq : cc8__bn_norm_kernel (F := F) = cc2__bn_norm_kernel := by
  rw [cc8__bn_norm_kernel_eq_skeleton, cc2__bn_norm_kernel_eq_skeleton]; rfl

theorem pay8_eq : k8_pay1 (F := F) = k2_pay1 := rfl

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => k8_pay1 (iblk8 V c 0 t) (iblk8 V c 1 t) (iblk8 V c 2 t) (iblk8 V c 3 t) (iblk8 V c 4 t) (iblk8 V c 5 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = iblk8 V c 5 t := by dsimp only [dat8]
theorem after8_6 (c : Dev nD) (t : Fin cfg8.N) : (dat8 V c).after 6 t = k8_pay1 (iblk8 V c 0 t) (iblk8 V c 1 t) (iblk8 V c 2 t) (iblk8 V c 3 t) (iblk8 V c 4 t) (iblk8 V c 5 t) := by dsimp only [dat8]

theorem before8 (c : Dev nD) (w : Fin cfg8.W) (hw : w.val < 6) (t : Fin cfg8.N) (d) :
    (dat8 V c).before w t d = (dat8 V c).fetched w t d := by
  obtain ⟨_ | _ | _ | _ | _ | _ | w, h⟩ := w
  iterate 6 exact (dat8 V c).before_in_eq_fetched _ rfl (fun _ => rfl) (fun _ _ _ => rfl) (fun _ => rfl) t d
  exact absurd hw (Nat.not_lt.mpr (Nat.le_add_left 6 w))

theorem before8_0 (c : Dev nD) (t : Fin cfg8.N) (d) : (dat8 V c).before 0 t d = iblk8 V c 0 t :=
  before8 V c 0 (by decide) t d
theorem before8_1 (c : Dev nD) (t : Fin cfg8.N) (d) : (dat8 V c).before 1 t d = iblk8 V c 1 t :=
  before8 V c 1 (by decide) t d
theorem before8_2 (c : Dev nD) (t : Fin cfg8.N) (d) : (dat8 V c).before 2 t d = iblk8 V c 2 t :=
  before8 V c 2 (by decide) t d
theorem before8_3 (c : Dev nD) (t : Fin cfg8.N) (d) : (dat8 V c).before 3 t d = iblk8 V c 3 t :=
  before8 V c 3 (by decide) t d
theorem before8_4 (c : Dev nD) (t : Fin cfg8.N) (d) : (dat8 V c).before 4 t d = iblk8 V c 4 t :=
  before8 V c 4 (by decide) t d
theorem before8_5 (c : Dev nD) (t : Fin cfg8.N) (d) : (dat8 V c).before 5 t d = iblk8 V c 5 t :=
  before8 V c 5 (by decide) t d

def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d))
    ∗ (∃ d, owns (c : Thread nD τ) (st8_6 t) fullShare ((dat8 V c).before 6 t d)))

def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t)
    ∗ owns (c : Thread nD τ) (st8_6 t) fullShare ((dat8 V c).after 6 t))

theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4, before8_5]
  rw [show (dat8 V c).Φ t.succ = (dat8 V c).Φ t.castSucc from rfl,
    show (dat8 V c).owesAt () t.succ = (dat8 V c).owesAt () t.castSucc from rfl,
    after8_0, after8_1, after8_2, after8_3, after8_4, after8_5, after8_6, cc8_eq, pay8_eq]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk8 V c 0 t) (iblk8 V c 1 t) (iblk8 V c 2 t) (iblk8 V c 3 t) (iblk8 V c 4 t) (iblk8 V c 5 t) _)
  iframe
  isplitl [H6]; · iexists _; iexact H6
  iintro ⟨H0, H1, H2, H3, H4, H5, H6⟩
  iframe

theorem body_obligation8 (c : Dev nD) : BodyObligation (dat8 (F := F) V c) (defs₀ (F := F)) Variants.none () Set.univ := fun t => by
  rw [bigSep_W8, bigSep_W8]
  exact sound_body8 V c t

end Cert.Kernel.Hand
-- ==== Proof.Kernel.Reg9.lean ====
import proofs.«425307_j45586782880378_1_alg».proof.Proof.Gen.Kernel.Launch
import proofs.«425307_j45586782880378_1_alg».proof.Proof.Gen.Kernel.Skeleton
import proofs.«425307_j45586782880378_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

abbrev isFirst9 (i : grid9.Coords) : Prop :=
  (Scalar.cmpi .ne (Scalar.extui (Scalar.cmpi .eq (BitVec.ofNat 32 (i 0).val) 0#32)) 0#32) = 1#1

theorem isFirst9_iff : ∀ t : Fin cfg9.N, isFirst9 (grid9.coords t) ↔ t.val = 0 :=
  (by decide +kernel : ∀ t : Fin grid9.N, isFirst9 (grid9.coords t) ↔ t.val = 0)

theorem isLast9_iff : ∀ t : Fin cfg9.N, k9_cond2 (grid9.coords t) = 1#1 ↔ t.val = 4 :=
  (by decide +kernel : ∀ t : Fin grid9.N, k9_cond2 (grid9.coords t) = 1#1 ↔ t.val = 4)

theorem idle9_5_iff : ∀ t : Fin cfg9.N, cfg9.idle 5 (cfg9.grid.coords t) = true ↔ t.val ≠ 4 :=
  (by decide +kernel : ∀ t : Fin grid9.N, idle9 5 (grid9.coords t) = true ↔ t.val ≠ 4)

theorem zeros2 : (![0, 0] : Fin 2 → Nat) = fun _ => 0 := funext fun a => by fin_cases a <;> rfl

set_option maxHeartbeats 1000000 in

theorem pool_first (c : Dev nD) (E : Set ℕ) (i : grid9.Coords) (h1 : isFirst9 i) (h2 : ¬ k9_cond2 i = 1#1)
    (arg1 : Memref sig .tc .vmem S10000x128 .f32) (harg1 : arg1.IsWhole) (arg2 : Memref sig .tc .vmem S10000x128 .bf16) (harg2 : arg2.IsWhole) (arg3 : Memref sig .tc .vmem S128x1 .f32) (harg3 : arg3.IsWhole) (arg4 : Memref sig .tc .vmem S128x10 .f32) (harg4 : arg4.IsWhole) (arg5 : Memref sig .tc .vmem S1x10 .f32) (harg5 : arg5.IsWhole) (arg6 : Memref sig .tc .vmem S128x10 .f32) (harg6 : arg6.IsWhole) (arg7 : Memref sig .tc .vmem S128x128 .f32) (harg7 : arg7.IsWhole)
    (x0 : Vec F S10000x128 .f32) (x1 : Vec F S10000x128 .bf16) (K : PUnit → sProp 𝕄) :
    iprop(owns (c : Thread nD τ) arg1 fullShare x0 ∗ owns (c : Thread nD τ) arg2 fullShare x1 ∗ (∃ s, owns (c : Thread nD τ) arg7 fullShare s)
        ∗ (iprop(owns (c : Thread nD τ) arg1 fullShare x0 ∗ owns (c : Thread nD τ) arg2 fullShare x1
            ∗ owns (c : Thread nD τ) arg7 fullShare (k9_pay2 x0 x1 k9_pay1)) -∗ K ⟨⟩))
      ⊢ wp frame (wpE (defs₀ (F := F)) Variants.none c none) E (cc9__pool_kernel i arg1 harg1 arg2 harg2 arg3 harg3 arg4 harg4 arg5 harg5 arg6 harg6 arg7 harg7) K := by
  simp only [cc9__pool_kernel_eq_skeleton]; unfold cc9__pool_kernel_skel
  unfold owns
  iintro ⟨⟨%f0, %hf0, H0⟩, ⟨%f1, %hf1, H1⟩, ⟨%s, %f7, -, H7⟩, Hk⟩
  subst hf0; subst hf1
  sl_exec (disch := first | sl_exact h1 | sl_exact h2)
  sl_step
  iapply Hk
  isplitl [H0]
  · iexists f0; isplitr; · ipureintro; rfl
    iexact H0
  isplitl [H1]
  · iexists f1; isplitr; · ipureintro; rfl
    iexact H1
  iexists _; isplitr
  swap; · iexact H7
  ipureintro
  sl_unfold_words
  rw [View.read_writes_eq_canon _ _ _ (fun y => ⟨_, List.mem_cons_self, View.mem_set_unit_zero zeros2 inb_S128x128_S128x128_0_0 y⟩)]
  rw [View.canon_cons_unit_zero (S := S128x128) zeros2, View.readCov_unit_zero (S := S128x128) _ zeros2]
  simp only [View.readAt_eq_ld, View.ld_unit_zero (S := S10000x128) zeros2]

set_option maxHeartbeats 1000000 in

theorem pool_mid (c : Dev nD) (E : Set ℕ) (i : grid9.Coords) (h1 : ¬ isFirst9 i) (h2 : ¬ k9_cond2 i = 1#1)
    (arg1 : Memref sig .tc .vmem S10000x128 .f32) (harg1 : arg1.IsWhole) (arg2 : Memref sig .tc .vmem S10000x128 .bf16) (harg2 : arg2.IsWhole) (arg3 : Memref sig .tc .vmem S128x1 .f32) (harg3 : arg3.IsWhole) (arg4 : Memref sig .tc .vmem S128x10 .f32) (harg4 : arg4.IsWhole) (arg5 : Memref sig .tc .vmem S1x10 .f32) (harg5 : arg5.IsWhole) (arg6 : Memref sig .tc .vmem S128x10 .f32) (harg6 : arg6.IsWhole) (arg7 : Memref sig .tc .vmem S128x128 .f32) (harg7 : arg7.IsWhole)
    (x0 : Vec F S10000x128 .f32) (x1 : Vec F S10000x128 .bf16) (s : Vec F S128x128 .f32) (K : PUnit → sProp 𝕄) :
    iprop(owns (c : Thread nD τ) arg1 fullShare x0 ∗ owns (c : Thread nD τ) arg2 fullShare x1 ∗ owns (c : Thread nD τ) arg7 fullShare s
        ∗ (iprop(owns (c : Thread nD τ) arg1 fullShare x0 ∗ owns (c : Thread nD τ) arg2 fullShare x1
            ∗ owns (c : Thread nD τ) arg7 fullShare (k9_pay2 x0 x1 s)) -∗ K ⟨⟩))
      ⊢ wp frame (wpE (defs₀ (F := F)) Variants.none c none) E (cc9__pool_kernel i arg1 harg1 arg2 harg2 arg3 harg3 arg4 harg4 arg5 harg5 arg6 harg6 arg7 harg7) K := by
  simp only [cc9__pool_kernel_eq_skeleton]; unfold cc9__pool_kernel_skel
  unfold owns
  iintro ⟨⟨%f0, %hf0, H0⟩, ⟨%f1, %hf1, H1⟩, ⟨%f7, %hf7, H7⟩, Hk⟩
  subst hf0; subst hf1; subst hf7
  sl_exec (disch := first | sl_exact h1 | sl_exact h2)
  sl_step
  iapply Hk
  isplitl [H0]
  · iexists f0; isplitr; · ipureintro; rfl
    iexact H0
  isplitl [H1]
  · iexists f1; isplitr; · ipureintro; rfl
    iexact H1
  iexists _; isplitr
  swap; · iexact H7
  ipureintro
  try sl_unfold_words
  rw [View.read_writes_eq_canon _ _ _ (fun y => ⟨_, List.mem_cons_self, View.mem_set_unit_zero zeros2 inb_S128x128_S128x128_0_0 y⟩)]
  rw [View.canon_cons_unit_zero (S := S128x128) zeros2]
  simp only [View.readAt_eq_ld, View.ld_unit_zero (S := S10000x128) zeros2, View.ld_unit_zero (S := S128x128) zeros2]

set_option maxHeartbeats 1000000 in

theorem pool_last (c : Dev nD) (E : Set ℕ) (i : grid9.Coords) (h1 : ¬ isFirst9 i) (h2 : k9_cond2 i = 1#1)
    (arg1 : Memref sig .tc .vmem S10000x128 .f32) (harg1 : arg1.IsWhole) (arg2 : Memref sig .tc .vmem S10000x128 .bf16) (harg2 : arg2.IsWhole) (arg3 : Memref sig .tc .vmem S128x1 .f32) (harg3 : arg3.IsWhole) (arg4 : Memref sig .tc .vmem S128x10 .f32) (harg4 : arg4.IsWhole) (arg5 : Memref sig .tc .vmem S1x10 .f32) (harg5 : arg5.IsWhole) (arg6 : Memref sig .tc .vmem S128x10 .f32) (harg6 : arg6.IsWhole) (arg7 : Memref sig .tc .vmem S128x128 .f32) (harg7 : arg7.IsWhole)
    (x0 : Vec F S10000x128 .f32) (x1 : Vec F S10000x128 .bf16) (x2 : Vec F S128x1 .f32) (x3 : Vec F S128x10 .f32)
    (x4 : Vec F S1x10 .f32) (s : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ owns (c : Thread nD τ) arg7 fullShare s
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (k9_pay3 (k9_pay2 x0 x1 s) x2 x3 x4)
            ∗ owns (c : Thread nD τ) arg7 fullShare (k9_pay2 x0 x1 s)) -∗ K ⟨⟩))
      ⊢ wp frame (wpE (defs₀ (F := F)) Variants.none c none) E (cc9__pool_kernel i arg1 harg1 arg2 harg2 arg3 harg3 arg4 harg4 arg5 harg5 arg6 harg6 arg7 harg7) K := by
  simp only [cc9__pool_kernel_eq_skeleton]; unfold cc9__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%d, %f6, -, H6⟩, ⟨%f7, %hf7, H7⟩, Hk⟩
  subst hf0; subst hf1; subst hf2; subst hf3; subst hf4; subst hf7
  sl_exec (disch := first | sl_exact h1 | sl_exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H6]
  · iexists _; isplitr
    swap; · iexact H6
    ipureintro
    sl_unfold_words
    rw [View.read_writes_eq_canon _ _ _ (fun y => ⟨_, List.mem_cons_self, View.mem_set_unit_zero zeros2 inb_S128x10_S128x10_0_0 y⟩)]
    rw [View.canon_cons_unit_zero (S := S128x10) zeros2, View.readCov_unit_zero (S := S128x128) _ zeros2]
    simp only [View.readAt_eq_ld, View.ld_unit_zero (S := S10000x128) zeros2, View.ld_unit_zero (S := S128x128) zeros2,
      View.ld_unit_zero (S := S128x1) zeros2, View.ld_unit_zero (S := S128x10) zeros2, View.ld_unit_zero (S := S1x10) zeros2]
  iexists _; isplitr
  swap; · iexact H7
  ipureintro
  sl_unfold_words
  rw [View.read_writes_eq_canon _ _ _ (fun y => ⟨_, List.mem_cons_self, View.mem_set_unit_zero zeros2 inb_S128x128_S128x128_0_0 y⟩)]
  rw [View.canon_cons_unit_zero (S := S128x128) zeros2]
  simp only [View.readAt_eq_ld, View.ld_unit_zero (S := S10000x128) zeros2, View.ld_unit_zero (S := S128x128) zeros2]

def acc9 (c : Dev nD) : (n : ℕ) → n < cfg9.N → Vec F S128x128 .f32
  | 0, h => k9_pay2 (iblk9 V c 0 ⟨0, h⟩) (iblk9 V c 1 ⟨0, h⟩) k9_pay1
  | n + 1, h => k9_pay2 (iblk9 V c 0 ⟨n + 1, h⟩) (iblk9 V c 1 ⟨n + 1, h⟩) (acc9 c n (Nat.lt_of_succ_lt h))

theorem acc9_first (c : Dev nD) (t : Fin cfg9.N) (h0 : t.val = 0) :
    acc9 V c t.val t.isLt = k9_pay2 (iblk9 V c 0 t) (iblk9 V c 1 t) k9_pay1 := by
  obtain ⟨n, hn⟩ := t
  cases n with
  | zero => rfl
  | succ n => exact absurd h0 (Nat.succ_ne_zero n)

theorem acc9_later (c : Dev nD) (t : Fin cfg9.N) (h0 : t.val ≠ 0) :
    acc9 V c t.val t.isLt = k9_pay2 (iblk9 V c 0 t) (iblk9 V c 1 t)
      (acc9 V c (t.val - 1) (Nat.lt_of_le_of_lt (Nat.sub_le _ _) t.isLt)) := by
  obtain ⟨n, hn⟩ := t
  cases n with
  | zero => exact absurd rfl h0
  | succ n => rfl

abbrev accAt (c : Dev nD) (v : Vec F S128x128 .f32) : sProp 𝕄 :=
  owns (c : Thread nD τ) (Memref.whole cc9_scratch0 : Memref sig .tc .vmem S128x128 .f32) fullShare v

theorem accAt_of_pointsTo (c : Dev nD) (f : Buf (Elt F) ((c : Thread nD τ).loc cc9_scratch0)) :
    (((c : Thread nD τ).loc cc9_scratch0) ↦{fullShare} f : sProp 𝕄) ⊢ accAt c f :=
  Entails.of_eq (owns_whole (c : Thread nD τ) cc9_scratch0 fullShare f).symm

theorem pointsTo_of_accAt (c : Dev nD) (v : Vec F S128x128 .f32) :
    accAt c v ⊢ (iprop(∃ f : Buf (Elt F) ((c : Thread nD τ).loc cc9_scratch0), ((c : Thread nD τ).loc cc9_scratch0) ↦{fullShare} f) : sProp 𝕄) := by
  iintro H; iexists v
  iapply (Entails.of_eq (owns_whole (c : Thread nD τ) cc9_scratch0 fullShare v)); iexact H

def PhiAcc9 (c : Dev nD) (v : Vec F S128x128 .f32) : sProp 𝕄 :=
  iprop(accAt c v ∗ Pipeline.scopedRestBut (Ix := Unit) (Name := ℕ) (U := UR sig nD τ) (Lvl := ℕ) (Val := Elt F) spec9 c [cc9_scratch0] ∗ ∃ r, prngReg c r)

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => k9_pay3 (acc9 V c t.val t.isLt) (iblk9 V c 2 t) (iblk9 V c 3 t) (iblk9 V c 4 t)
  Φ i := match i with
    | ⟨0, _⟩ => Pipeline.ΦA spec9 c
    | ⟨n + 1, h⟩ => PhiAcc9 c (acc9 V c n (Nat.lt_of_succ_lt_succ h))
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]

theorem after9_5 (c : Dev nD) (t : Fin cfg9.N) :
    (dat9 V c).after 5 t = k9_pay3 (acc9 V c t.val t.isLt) (iblk9 V c 2 t) (iblk9 V c 3 t) (iblk9 V c 4 t) := by dsimp only [dat9]
theorem Phi9_zero (c : Dev nD) : (dat9 V c).Φ 0 = Pipeline.ΦA spec9 c := by dsimp only [dat9]; rfl

theorem Phi9_succ (c : Dev nD) (t : Fin cfg9.N) : (dat9 V c).Φ t.succ = PhiAcc9 c (acc9 V c t.val t.isLt) := by
  dsimp only [dat9]; rfl

theorem Phi9_castSucc_zero (c : Dev nD) (t : Fin cfg9.N) (h0 : t.val = 0) : (dat9 V c).Φ t.castSucc = Pipeline.ΦA spec9 c := by
  obtain ⟨n, hn⟩ := t
  cases n with
  | zero => dsimp only [dat9]; rfl
  | succ n => exact absurd h0 (Nat.succ_ne_zero n)

theorem Phi9_castSucc_pos (c : Dev nD) (t : Fin cfg9.N) (h0 : t.val ≠ 0) :
    (dat9 V c).Φ t.castSucc = PhiAcc9 c (acc9 V c (t.val - 1) (Nat.lt_of_le_of_lt (Nat.sub_le _ _) t.isLt)) := by
  obtain ⟨n, hn⟩ := t
  cases n with
  | zero => exact absurd rfl h0
  | succ n => dsimp only [dat9]; rfl

theorem Phi9_last (c : Dev nD) : (dat9 V c).Φ (Fin.last _) ⊢ Pipeline.ΦA spec9 c := by
  have hl : Fin.last cfg9.N = (t9_4 : Fin cfg9.N).succ := Fin.ext (show cfg9.N = 4 + 1 from N_9)
  rw [hl, Phi9_succ]
  unfold PhiAcc9 Pipeline.ΦA
  rw [scopedRest9_split]
  iintro ⟨HA, HR, HP⟩
  isplitr [HP]
  swap; · iexact HP
  isplitl [HA]
  · iapply (pointsTo_of_accAt c _); iexact HA
  iexact HR

theorem before9_0 (c : Dev nD) (t : Fin cfg9.N) (d) : (dat9 V c).before 0 t d = iblk9 V c 0 t :=
  ((dat9 V c).before_in_eq_fetched 0 rfl (fun _ => rfl) (fun _ _ _ => rfl)
    (fun t => by rw [after9_0]; unfold Dat.blockOf iblk9; rw [A_eq9]; try rfl) t d).trans
    (by unfold Dat.fetched Dat.blockOf iblk9; rw [A_eq9]; try rfl)
theorem before9_1 (c : Dev nD) (t : Fin cfg9.N) (d) : (dat9 V c).before 1 t d = iblk9 V c 1 t :=
  ((dat9 V c).before_in_eq_fetched 1 rfl (fun _ => rfl) (fun _ _ _ => rfl)
    (fun t => by rw [after9_1]; unfold Dat.blockOf iblk9; rw [A_eq9]; try rfl) t d).trans
    (by unfold Dat.fetched Dat.blockOf iblk9; rw [A_eq9]; try rfl)
theorem before9_2 (c : Dev nD) (t : Fin cfg9.N) (d) : (dat9 V c).before 2 t d = iblk9 V c 2 t :=
  ((dat9 V c).before_in_eq_fetched 2 rfl (fun _ => rfl) (fun _ _ _ => rfl)
    (fun t => by rw [after9_2]; unfold Dat.blockOf iblk9; rw [A_eq9]; try rfl) t d).trans
    (by unfold Dat.fetched Dat.blockOf iblk9; rw [A_eq9]; try rfl)
theorem before9_3 (c : Dev nD) (t : Fin cfg9.N) (d) : (dat9 V c).before 3 t d = iblk9 V c 3 t :=
  ((dat9 V c).before_in_eq_fetched 3 rfl (fun _ => rfl) (fun _ _ _ => rfl)
    (fun t => by rw [after9_3]; unfold Dat.blockOf iblk9; rw [A_eq9]; try rfl) t d).trans
    (by unfold Dat.fetched Dat.blockOf iblk9; rw [A_eq9]; try rfl)
theorem before9_4 (c : Dev nD) (t : Fin cfg9.N) (d) : (dat9 V c).before 4 t d = iblk9 V c 4 t :=
  ((dat9 V c).before_in_eq_fetched 4 rfl (fun _ => rfl) (fun _ _ _ => rfl)
    (fun t => by rw [after9_4]; unfold Dat.blockOf iblk9; rw [A_eq9]; try rfl) t d).trans
    (by unfold Dat.fetched Dat.blockOf iblk9; rw [A_eq9]; try rfl)

def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d)))

def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ (dat9 V c).leavesExact 5 t)

set_option maxHeartbeats 1000000 in

theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  have hN : t.val < 5 := lt_of_lt_of_eq t.isLt (show cfg9.N = 5 from N_9)
  by_cases h4 : t.val = 4
  ·
    have h0 : t.val ≠ 0 := by omega
    have hi : cfg9.idle 5 (cfg9.grid.coords t) = false := by
      cases h : cfg9.idle 5 (cfg9.grid.coords t) with
      | false => rfl
      | true => exact absurd h4 ((idle9_5_iff t).mp h)
    rw [show (dat9 V c).leavesExact 5 t = owns (c : Thread nD τ) (st9_5 t) fullShare ((dat9 V c).after 5 t) from by
      unfold Dat.leavesExact; rw [hi]]
    simp only [before9_0, before9_1, before9_2, before9_3, before9_4]
    rw [show (dat9 V c).owesAt () t.succ = (dat9 V c).owesAt () t.castSucc from rfl,
      after9_0, after9_1, after9_2, after9_3, after9_4, after9_5, Phi9_succ, Phi9_castSucc_pos V c t h0, acc9_later V c t h0]
    unfold PhiAcc9
    iintro ⟨⟨Hs, HR, HP⟩, Ho, ⟨%d0, H0⟩, ⟨%d1, H1⟩, ⟨%d2, H2⟩, ⟨%d3, H3⟩, ⟨%d4, H4⟩, ⟨%d5, H5⟩⟩
    iapply (pool_last c Set.univ (grid9.coords t) (fun h => h0 ((isFirst9_iff t).mp h)) ((isLast9_iff t).mpr h4)
      _ _ _ _ _ _ _ _ _ _ _ _ _ _ (iblk9 V c 0 t) (iblk9 V c 1 t) (iblk9 V c 2 t) (iblk9 V c 3 t) (iblk9 V c 4 t) _ _)
    isplitl [H0]; · iexact H0
    isplitl [H1]; · iexact H1
    isplitl [H2]; · iexact H2
    isplitl [H3]; · iexact H3
    isplitl [H4]; · iexact H4
    isplitl [H5]; · iexists _; iexact H5
    isplitl [Hs]; · iexact Hs
    iintro ⟨H0, H1, H2, H3, H4, H5, Hs⟩
    isplitl [Hs HR HP]
    · isplitl [Hs]; · iexact Hs
      isplitl [HR]; · iexact HR
      iexact HP
    isplitl [Ho]; · iexact Ho
    isplitl [H0]; · iexact H0
    isplitl [H1]; · iexact H1
    isplitl [H2]; · iexact H2
    isplitl [H3]; · iexact H3
    isplitl [H4]; · iexact H4
    iexact H5
  ·
    rw [(dat9 V c).leavesExact_idle 5 t ((idle9_5_iff t).mpr h4)
      (Bool.eq_false_iff.mpr fun h => by have := (flush9_5 t).mp h; omega)]
    simp only [before9_0, before9_1, before9_2, before9_3, before9_4]
    rw [show (dat9 V c).owesAt () t.succ = (dat9 V c).owesAt () t.castSucc from rfl,
      after9_0, after9_1, after9_2, after9_3, after9_4, Phi9_succ]
    by_cases h0 : t.val = 0
    ·
      rw [Phi9_castSucc_zero V c t h0, acc9_first V c t h0]
      unfold PhiAcc9 Pipeline.ΦA
      rw [scopedRest9_split]
      iintro ⟨⟨⟨⟨%fs, Hs⟩, HR⟩, HP⟩, Ho, ⟨%d0, H0⟩, ⟨%d1, H1⟩, ⟨%d2, H2⟩, ⟨%d3, H3⟩, ⟨%d4, H4⟩, H5⟩
      iapply (pool_first c Set.univ (grid9.coords t) ((isFirst9_iff t).mpr h0) (fun h => h4 ((isLast9_iff t).mp h))
        _ _ _ _ _ _ _ _ _ _ _ _ _ _ (iblk9 V c 0 t) (iblk9 V c 1 t) _)
      isplitl [H0]; · iexact H0
      isplitl [H1]; · iexact H1
      isplitl [Hs]
      · iexists fs; iapply (accAt_of_pointsTo c fs); iexact Hs
      iintro ⟨H0, H1, Hs⟩
      isplitl [Hs HR HP]
      · isplitl [Hs]; · iexact Hs
        isplitl [HR]; · iexact HR
        iexact HP
      isplitl [Ho]; · iexact Ho
      isplitl [H0]; · iexact H0
      isplitl [H1]; · iexact H1
      isplitl [H2]; · iexact H2
      isplitl [H3]; · iexact H3
      isplitl [H4]; · iexact H4
      iexact H5
    ·
      rw [Phi9_castSucc_pos V c t h0, acc9_later V c t h0]
      unfold PhiAcc9
      iintro ⟨⟨Hs, HR, HP⟩, Ho, ⟨%d0, H0⟩, ⟨%d1, H1⟩, ⟨%d2, H2⟩, ⟨%d3, H3⟩, ⟨%d4, H4⟩, H5⟩
      iapply (pool_mid c Set.univ (grid9.coords t) (fun h => h0 ((isFirst9_iff t).mp h)) (fun h => h4 ((isLast9_iff t).mp h))
        _ _ _ _ _ _ _ _ _ _ _ _ _ _ (iblk9 V c 0 t) (iblk9 V c 1 t) _ _)
      isplitl [H0]; · iexact H0
      isplitl [H1]; · iexact H1
      isplitl [Hs]; · iexact Hs
      iintro ⟨H0, H1, Hs⟩
      isplitl [Hs HR HP]
      · isplitl [Hs]; · iexact Hs
        isplitl [HR]; · iexact HR
        iexact HP
      isplitl [Ho]; · iexact Ho
      isplitl [H0]; · iexact H0
      isplitl [H1]; · iexact H1
      isplitl [H2]; · iexact H2
      isplitl [H3]; · iexact H3
      isplitl [H4]; · iexact H4
      iexact H5

theorem body_obligation9 (c : Dev nD) : BodyObligation (dat9 (F := F) V c) (defs₀ (F := F)) Variants.none () Set.univ := fun t => by
  rw [bigSep_W9, bigSep_W9]
  exact sound_body9 V c t

end Cert.Kernel.Hand

end
-- ==== Proof.Kernel.Chain.lean ====
import proofs.«425307_j45586782880378_1_alg».proof.Proof.Gen.Kernel.Regions
import proofs.«425307_j45586782880378_1_alg».proof.Proof.Kernel.Reg0
import proofs.«425307_j45586782880378_1_alg».proof.Proof.Kernel.Reg1
import proofs.«425307_j45586782880378_1_alg».proof.Proof.Kernel.Reg2
import proofs.«425307_j45586782880378_1_alg».proof.Proof.Kernel.Reg3
import proofs.«425307_j45586782880378_1_alg».proof.Proof.Kernel.Reg4
import proofs.«425307_j45586782880378_1_alg».proof.Proof.Kernel.Reg5
import proofs.«425307_j45586782880378_1_alg».proof.Proof.Kernel.Reg6
import proofs.«425307_j45586782880378_1_alg».proof.Proof.Kernel.Reg7
import proofs.«425307_j45586782880378_1_alg».proof.Proof.Kernel.Reg8
import proofs.«425307_j45586782880378_1_alg».proof.Proof.Kernel.Reg9

set_option maxRecDepth 16384

noncomputable section

namespace Cert.Kernel.Hand

open Idealize.ShloMosaic Idealize.ShloMosaic.TcCoe
open Idealize.SL Idealize.SL.Sem
open Idealize.ShloMosaic.Pipeline (Dat)
open Cert.Kernel Cert.Kernel.Gen

variable {F : FTy → Type} [FloatOps F]
variable (m : (ℓ : Loc nD τ sig) → Buf (Elt F) ℓ)

abbrev atRefs (Z : Dev nD → Valuation τ sig (Elt F)) : (c : Dev nD) → (b : Ref sig .tc) → Buf (Elt F) ((c : Thread nD τ).loc b) := fun c b => Z c b

abbrev Z3 (c : Dev nD) : Valuation τ sig (Elt F) := V3 m c

def Y4 (c : Dev nD) : Valuation τ sig (Elt F) :=
  Pipeline.withArrays spec0 c (Z3 m c) fun w => (dat0 (atRefs (Z3 m)) c).arrAt w cfg0.N

abbrev Z4 (c : Dev nD) : Valuation τ sig (Elt F) := Function.update (Z3 m c) main_v33 (Y4 m c main_v33)

abbrev Z5 (c : Dev nD) : Valuation τ sig (Elt F) := StableHlo.after hostOps1 (Z4 m c)

def Y6 (c : Dev nD) : Valuation τ sig (Elt F) :=
  Pipeline.withArrays spec1 c (Z5 m c) fun w => (dat1 (atRefs (Z5 m)) c).arrAt w cfg1.N

abbrev Z6 (c : Dev nD) : Valuation τ sig (Elt F) := Function.update (Function.update (Z5 m c) main_v47_0 (Y6 m c main_v47_0)) main_v47_1 (Y6 m c main_v47_1)

abbrev Z7 (c : Dev nD) : Valuation τ sig (Elt F) := StableHlo.after hostOps2 (Z6 m c)

def Y8 (c : Dev nD) : Valuation τ sig (Elt F) :=
  Pipeline.withArrays spec2 c (Z7 m c) fun w => (dat2 (atRefs (Z7 m)) c).arrAt w cfg2.N

abbrev Z8 (c : Dev nD) : Valuation τ sig (Elt F) := Function.update (Z7 m c) main_v64 (Y8 m c main_v64)

def Y9 (c : Dev nD) : Valuation τ sig (Elt F) :=
  Pipeline.withArrays spec3 c (Z8 m c) fun w => (dat3 (atRefs (Z8 m)) c).arrAt w cfg3.N

abbrev Z9 (c : Dev nD) : Valuation τ sig (Elt F) := Function.update (Z8 m c) main_v65 (Y9 m c main_v65)

abbrev Z10 (c : Dev nD) : Valuation τ sig (Elt F) := StableHlo.after hostOps4 (Z9 m c)

def Y11 (c : Dev nD) : Valuation τ sig (Elt F) :=
  Pipeline.withArrays spec4 c (Z10 m c) fun w => (dat4 (atRefs (Z10 m)) c).arrAt w cfg4.N

abbrev Z11 (c : Dev nD) : Valuation τ sig (Elt F) := Function.update (Function.update (Z10 m c) main_v79_0 (Y11 m c main_v79_0)) main_v79_1 (Y11 m c main_v79_1)

abbrev Z12 (c : Dev nD) : Valuation τ sig (Elt F) := StableHlo.after hostOps5 (Z11 m c)

def Y13 (c : Dev nD) : Valuation τ sig (Elt F) :=
  Pipeline.withArrays spec5 c (Z12 m c) fun w => (dat5 (atRefs (Z12 m)) c).arrAt w cfg5.N

abbrev Z13 (c : Dev nD) : Valuation τ sig (Elt F) := Function.update (Z12 m c) main_v96 (Y13 m c main_v96)

def Y14 (c : Dev nD) : Valuation τ sig (Elt F) :=
  Pipeline.withArrays spec6 c (Z13 m c) fun w => (dat6 (atRefs (Z13 m)) c).arrAt w cfg6.N

abbrev Z14 (c : Dev nD) : Valuation τ sig (Elt F) := Function.update (Z13 m c) main_v97 (Y14 m c main_v97)

abbrev Z15 (c : Dev nD) : Valuation τ sig (Elt F) := StableHlo.after hostOps7 (Z14 m c)

def Y16 (c : Dev nD) : Valuation τ sig (Elt F) :=
  Pipeline.withArrays spec7 c (Z15 m c) fun w => (dat7 (atRefs (Z15 m)) c).arrAt w cfg7.N

abbrev Z16 (c : Dev nD) : Valuation τ sig (Elt F) := Function.update (Function.update (Z15 m c) main_v111_0 (Y16 m c main_v111_0)) main_v111_1 (Y16 m c main_v111_1)

abbrev Z17 (c : Dev nD) : Valuation τ sig (Elt F) := StableHlo.after hostOps8 (Z16 m c)

def Y18 (c : Dev nD) : Valuation τ sig (Elt F) :=
  Pipeline.withArrays spec8 c (Z17 m c) fun w => (dat8 (atRefs (Z17 m)) c).arrAt w cfg8.N

abbrev Z18 (c : Dev nD) : Valuation τ sig (Elt F) := Function.update (Z17 m c) main_v128 (Y18 m c main_v128)

abbrev Z19 (c : Dev nD) : Valuation τ sig (Elt F) := StableHlo.after hostOps9 (Z18 m c)

abbrev Z20 (c : Dev nD) : Valuation τ sig (Elt F) := StableHlo.after hostOps9_1 (Z19 m c)

def Y21 (c : Dev nD) : Valuation τ sig (Elt F) :=
  Pipeline.withArrays spec9 c (Z20 m c) fun w => (dat9 (atRefs (Z20 m)) c).arrAt w cfg9.N

abbrev Z21 (c : Dev nD) : Valuation τ sig (Elt F) := Function.update (Z20 m c) main_v140 (Y21 m c main_v140)

def outs : Outs (F := F) := fun J r c => match J with
  | 4 => Y4 m c r
  | 6 => Y6 m c r
  | 8 => Y8 m c r
  | 9 => Y9 m c r
  | 11 => Y11 m c r
  | 13 => Y13 m c r
  | 14 => Y14 m c r
  | 16 => Y16 m c r
  | 18 => Y18 m c r
  | 21 => Y21 m c r
  | _ => Z3 m c r

def pdats : (p : Fin 10) → (c : Dev nD) → Dat τ (Elt F) Unit ℕ (UR sig nD τ) ℕ (cfgs p) c
  | ⟨0, _⟩ => fun c => dat0 (atRefs (Z3 m)) c
  | ⟨1, _⟩ => fun c => dat1 (atRefs (Z5 m)) c
  | ⟨2, _⟩ => fun c => dat2 (atRefs (Z7 m)) c
  | ⟨3, _⟩ => fun c => dat3 (atRefs (Z8 m)) c
  | ⟨4, _⟩ => fun c => dat4 (atRefs (Z10 m)) c
  | ⟨5, _⟩ => fun c => dat5 (atRefs (Z12 m)) c
  | ⟨6, _⟩ => fun c => dat6 (atRefs (Z13 m)) c
  | ⟨7, _⟩ => fun c => dat7 (atRefs (Z15 m)) c
  | ⟨8, _⟩ => fun c => dat8 (atRefs (Z17 m)) c
  | ⟨9, _⟩ => fun c => dat9 (atRefs (Z20 m)) c

abbrev Lz : GSem nD τ sig → Finset Unit := fun _ => ∅
abbrev lvz : GSem nD τ sig → Unit → ℕ := fun _ _ => 0

end Cert.Kernel.Hand

end
-- ==== Proof.Kernel.Rider.lean ====
import proofs.«425307_j45586782880378_1_alg».proof.Proof.Kernel.Chain

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

abbrev Rr (c : Dev nD) : sProp 𝕄 := iprop((∃ r, prngReg c r) ∗ ∃ W, owes (c : Thread nD τ) (0 : CellTallies nD τ sig Unit) W)

set_option backward.isDefEq.respectTransparency.types false in
def regOf (p : Fin 10) (launch : Pipeline.LaunchFacts (nD := nD) (τ := τ) cfgs p)
    (Zi Zo : Dev nD → Valuation τ sig (Elt F))
    (hbody : ∀ c, Pipeline.BodyObligationLoose (pdats m p c) (defs₀ (F := F)) Variants.none () Set.univ)
    (hq : ∀ c w, (pdats m p c).q w = fullShare)
    (howed : ∀ c t, (pdats m p c).owed t = 0)
    (hrec : ∀ c x, x ∈ (pdats m p c).recorded 0)
    (hΦ0 : ∀ c, (pdats m p c).Φ 0 = Pipeline.ΦA (cfgs p).spec c)
    (hΦN : ∀ c, (pdats m p c).Φ (Fin.last _) ⊢ Pipeline.ΦA (cfgs p).spec c)
    (hA : ∀ c w, (pdats m p c).A w = atRefs Zi c (Pipeline.arrRef (cfgs p).spec w))
    (hF : ∀ c w, (pdats m p c).arrAt w (cfgs p).N = atRefs Zo c (Pipeline.arrRef (cfgs p).spec w))
    (hrest : ∀ c, ∀ b, b ∉ Finset.univ.image (Pipeline.arrRef (cfgs p).spec) → atRefs Zo c b = atRefs Zi c b) :
    Pipeline.RegionSeg (pcfgs (F := F)) adm (pdats m) () defs₀ Variants.none Lz lvz p where
  win := launch.win.to₀
  block_pos := launch.block_pos
  stage_whole := launch.stage_whole
  K := PEmpty
  osem k := k.elim
  ho := Pipeline.OwnSemFacts.none _
  hbody := hbody
  hwaits := Pipeline.hwaits_of_owed_zero _ _ _ _ Lz lvz p howed
  pre c := iprop(StableHlo.held (c : Thread nD τ) (Pipeline.ucRefs τ sig) (Zi c) ∗ Rr c)
  post c := iprop(StableHlo.held (c : Thread nD τ) (Pipeline.ucRefs τ sig) (Zo c) ∗ Rr c)
  X c := iprop(∃ r, prngReg c r)
  Y c := iprop(∃ r, prngReg c r)
  Z c := Pipeline.unscopedRest (Ix := Unit) (Name := ℕ) (U := UR sig nD τ) (Lvl := ℕ) (cfgs p).spec c (atRefs Zi c)
  hentry c := by
    rw [Pipeline.ownSems0_none]
    have hsplit := Pipeline.arrays_of_unscopedBufs (p := p) (pcfgs (F := F)) adm (pdats m) launch.win launch.arr_whole c
      ((pdats m p c).share_full (hq c)) (atRefs Zi c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed c 0]
      icases HO with ⟨%W, HO⟩; iexists W; isplitr; · ipureintro; exact fun x _ => Or.inl (hrec c x)
      iexact HO
    isplitl [Hp]; · iexact Hp
    iexact Hrest
  hin c := by
    rw [hΦ0 c]; unfold Pipeline.ΦA
    iintro ⟨Hp, -, Hr⟩
    isplitl [Hr]; · iexact Hr
    iexact Hp
  hout c := by
    rw [Pipeline.ownSems0_none]; refine (hΦN c).trans ?_; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      launch.win launch.arr_whole c (pdats m) ((pdats m p c).share_full (hq c))
      (atRefs Zi c) (atRefs Zo c) ((pdats m p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c (Fin.last _)]
    icases HO with ⟨%W, -, HO⟩; iexists W; iexact HO

end Cert.Kernel.Hand

end
-- ==== Proof.Kernel.Seg0.lean ====
import proofs.«425307_j45586782880378_1_alg».proof.Proof.Kernel.Rider

set_option maxRecDepth 16384

noncomputable section

namespace Cert.Kernel.Hand

open Idealize.ShloMosaic Idealize.ShloMosaic.TcCoe Idealize.SL.Sem
open Cert.Kernel Cert.Kernel.Gen

variable {F : FTy → Type} [FloatOps F]

variable (m : (ℓ : Loc nD τ sig) → Buf (Elt F) ℓ)

theorem outAt0_2 (c : Dev nD) : Z4 m c main_v33 = Y4 m c main_v33 := Function.update_self _ _ _

set_option maxHeartbeats 4000000 in

theorem hF0 (c : Dev nD) (w : Fin cfg0.W) : (dat0 (atRefs (Z3 m)) c).arrAt w cfg0.N = atRefs (Z4 m) c (Pipeline.arrRef spec0 w) := by
  fin_cases w
  iterate 2 exact (((dat0 (atRefs (Z3 m)) c).arrAt_in _ rfl _).trans (A_eq0 (atRefs (Z3 m)) c _)).trans (V4_of m (outs m) c _ (by decide)).symm
  exact (Pipeline.withArrays_arr spec0 launch0.win.arr_inj c _ _ (2 : Fin cfg0.W)).symm.trans (outAt0_2 m c).symm

theorem hrest0 (c : Dev nD) : ∀ b, b ∉ Finset.univ.image (Pipeline.arrRef spec0) → atRefs (Z4 m) c b = atRefs (Z3 m) c b :=
  fun b hb => V4_of m (outs m) c b (fun h => hb (by
    simp only [List.mem_cons, List.not_mem_nil, or_false] at h
    rcases h with rfl
    · exact Finset.mem_image.mpr ⟨(2 : Fin cfg0.W), Finset.mem_univ _, rfl⟩))

def reg0 : Pipeline.RegionSeg (pcfgs (F := F)) adm (pdats m) () defs₀ Variants.none Lz lvz 0 :=
  regOf m 0 launch0 (Z3 m) (Z4 m) (fun c => (body_obligation0 (atRefs (Z3 m)) c).loose)
    (fun _ _ => rfl) (fun _ _ => rfl) (fun _ _ => trivial) (fun _ => rfl) (fun _ => .rfl) (fun _ _ => rfl) (hF0 m) (hrest0 m)

end Cert.Kernel.Hand

end
-- ==== Proof.Kernel.Seg1.lean ====
import proofs.«425307_j45586782880378_1_alg».proof.Proof.Kernel.Rider

set_option maxRecDepth 16384

noncomputable section

namespace Cert.Kernel.Hand

open Idealize.ShloMosaic Idealize.ShloMosaic.TcCoe Idealize.SL.Sem
open Cert.Kernel Cert.Kernel.Gen

variable {F : FTy → Type} [FloatOps F]

variable (m : (ℓ : Loc nD τ sig) → Buf (Elt F) ℓ)

theorem outAt1_2 (c : Dev nD) : Z6 m c main_v47_0 = Y6 m c main_v47_0 := (Function.update_of_ne (StableHlo.devRef_ne_of_ne (by decide)) _ _).trans (Function.update_self _ _ _)

theorem outAt1_3 (c : Dev nD) : Z6 m c main_v47_1 = Y6 m c main_v47_1 := Function.update_self _ _ _

set_option maxHeartbeats 4000000 in

theorem hF1 (c : Dev nD) (w : Fin cfg1.W) : (dat1 (atRefs (Z5 m)) c).arrAt w cfg1.N = atRefs (Z6 m) c (Pipeline.arrRef spec1 w) := by
  fin_cases w
  iterate 2 exact (((dat1 (atRefs (Z5 m)) c).arrAt_in _ rfl _).trans (A_eq1 (atRefs (Z5 m)) c _)).trans (V6_of m (outs m) c _ (by decide)).symm
  exact (Pipeline.withArrays_arr spec1 launch1.win.arr_inj c _ _ (2 : Fin cfg1.W)).symm.trans (outAt1_2 m c).symm
  exact (Pipeline.withArrays_arr spec1 launch1.win.arr_inj c _ _ (3 : Fin cfg1.W)).symm.trans (outAt1_3 m c).symm

theorem hrest1 (c : Dev nD) : ∀ b, b ∉ Finset.univ.image (Pipeline.arrRef spec1) → atRefs (Z6 m) c b = atRefs (Z5 m) c b :=
  fun b hb => V6_of m (outs m) c b (fun h => hb (by
    simp only [List.mem_cons, List.not_mem_nil, or_false] at h
    rcases h with rfl | rfl
    · exact Finset.mem_image.mpr ⟨(2 : Fin cfg1.W), Finset.mem_univ _, rfl⟩
    · exact Finset.mem_image.mpr ⟨(3 : Fin cfg1.W), Finset.mem_univ _, rfl⟩))

def reg1 : Pipeline.RegionSeg (pcfgs (F := F)) adm (pdats m) () defs₀ Variants.none Lz lvz 1 :=
  regOf m 1 launch1 (Z5 m) (Z6 m) (fun c => (body_obligation1 (atRefs (Z5 m)) c).loose)
    (fun _ _ => rfl) (fun _ _ => rfl) (fun _ _ => trivial) (fun _ => rfl) (fun _ => .rfl) (fun _ _ => rfl) (hF1 m) (hrest1 m)

end Cert.Kernel.Hand

end
-- ==== Proof.Kernel.Seg2.lean ====
import proofs.«425307_j45586782880378_1_alg».proof.Proof.Kernel.Rider

set_option maxRecDepth 16384

noncomputable section

namespace Cert.Kernel.Hand

open Idealize.ShloMosaic Idealize.ShloMosaic.TcCoe Idealize.SL.Sem
open Cert.Kernel Cert.Kernel.Gen

variable {F : FTy → Type} [FloatOps F]

variable (m : (ℓ : Loc nD τ sig) → Buf (Elt F) ℓ)

theorem outAt2_6 (c : Dev nD) : Z8 m c main_v64 = Y8 m c main_v64 := Function.update_self _ _ _

set_option maxHeartbeats 4000000 in

theorem hF2 (c : Dev nD) (w : Fin cfg2.W) : (dat2 (atRefs (Z7 m)) c).arrAt w cfg2.N = atRefs (Z8 m) c (Pipeline.arrRef spec2 w) := by
  fin_cases w
  iterate 6 exact (((dat2 (atRefs (Z7 m)) c).arrAt_in _ rfl _).trans (A_eq2 (atRefs (Z7 m)) c _)).trans (V8_of m (outs m) c _ (by decide)).symm
  exact (Pipeline.withArrays_arr spec2 launch2.win.arr_inj c _ _ (6 : Fin cfg2.W)).symm.trans (outAt2_6 m c).symm

theorem hrest2 (c : Dev nD) : ∀ b, b ∉ Finset.univ.image (Pipeline.arrRef spec2) → atRefs (Z8 m) c b = atRefs (Z7 m) c b :=
  fun b hb => V8_of m (outs m) c b (fun h => hb (by
    simp only [List.mem_cons, List.not_mem_nil, or_false] at h
    rcases h with rfl
    · exact Finset.mem_image.mpr ⟨(6 : Fin cfg2.W), Finset.mem_univ _, rfl⟩))

def reg2 : Pipeline.RegionSeg (pcfgs (F := F)) adm (pdats m) () defs₀ Variants.none Lz lvz 2 :=
  regOf m 2 launch2 (Z7 m) (Z8 m) (fun c => (body_obligation2 (atRefs (Z7 m)) c).loose)
    (fun _ _ => rfl) (fun _ _ => rfl) (fun _ _ => trivial) (fun _ => rfl) (fun _ => .rfl) (fun _ _ => rfl) (hF2 m) (hrest2 m)

end Cert.Kernel.Hand

end
-- ==== Proof.Kernel.Seg3.lean ====
import proofs.«425307_j45586782880378_1_alg».proof.Proof.Kernel.Rider

set_option maxRecDepth 16384

noncomputable section

namespace Cert.Kernel.Hand

open Idealize.ShloMosaic Idealize.ShloMosaic.TcCoe Idealize.SL.Sem
open Cert.Kernel Cert.Kernel.Gen

variable {F : FTy → Type} [FloatOps F]

variable (m : (ℓ : Loc nD τ sig) → Buf (Elt F) ℓ)

theorem outAt3_2 (c : Dev nD) : Z9 m c main_v65 = Y9 m c main_v65 := Function.update_self _ _ _

set_option maxHeartbeats 4000000 in

theorem hF3 (c : Dev nD) (w : Fin cfg3.W) : (dat3 (atRefs (Z8 m)) c).arrAt w cfg3.N = atRefs (Z9 m) c (Pipeline.arrRef spec3 w) := by
  fin_cases w
  iterate 2 exact (((dat3 (atRefs (Z8 m)) c).arrAt_in _ rfl _).trans (A_eq3 (atRefs (Z8 m)) c _)).trans (V9_of m (outs m) c _ (by decide)).symm
  exact (Pipeline.withArrays_arr spec3 launch3.win.arr_inj c _ _ (2 : Fin cfg3.W)).symm.trans (outAt3_2 m c).symm

theorem hrest3 (c : Dev nD) : ∀ b, b ∉ Finset.univ.image (Pipeline.arrRef spec3) → atRefs (Z9 m) c b = atRefs (Z8 m) c b :=
  fun b hb => V9_of m (outs m) c b (fun h => hb (by
    simp only [List.mem_cons, List.not_mem_nil, or_false] at h
    rcases h with rfl
    · exact Finset.mem_image.mpr ⟨(2 : Fin cfg3.W), Finset.mem_univ _, rfl⟩))

def reg3 : Pipeline.RegionSeg (pcfgs (F := F)) adm (pdats m) () defs₀ Variants.none Lz lvz 3 :=
  regOf m 3 launch3 (Z8 m) (Z9 m) (fun c => (body_obligation3 (atRefs (Z8 m)) c).loose)
    (fun _ _ => rfl) (fun _ _ => rfl) (fun _ _ => trivial) (fun _ => rfl) (fun _ => .rfl) (fun _ _ => rfl) (hF3 m) (hrest3 m)

end Cert.Kernel.Hand

end
-- ==== Proof.Kernel.Seg4.lean ====
import proofs.«425307_j45586782880378_1_alg».proof.Proof.Kernel.Rider

set_option maxRecDepth 16384

noncomputable section

namespace Cert.Kernel.Hand

open Idealize.ShloMosaic Idealize.ShloMosaic.TcCoe Idealize.SL.Sem
open Cert.Kernel Cert.Kernel.Gen

variable {F : FTy → Type} [FloatOps F]

variable (m : (ℓ : Loc nD τ sig) → Buf (Elt F) ℓ)

theorem outAt4_2 (c : Dev nD) : Z11 m c main_v79_0 = Y11 m c main_v79_0 := (Function.update_of_ne (StableHlo.devRef_ne_of_ne (by decide)) _ _).trans (Function.update_self _ _ _)

theorem outAt4_3 (c : Dev nD) : Z11 m c main_v79_1 = Y11 m c main_v79_1 := Function.update_self _ _ _

set_option maxHeartbeats 4000000 in

theorem hF4 (c : Dev nD) (w : Fin cfg4.W) : (dat4 (atRefs (Z10 m)) c).arrAt w cfg4.N = atRefs (Z11 m) c (Pipeline.arrRef spec4 w) := by
  fin_cases w
  iterate 2 exact (((dat4 (atRefs (Z10 m)) c).arrAt_in _ rfl _).trans (A_eq4 (atRefs (Z10 m)) c _)).trans (V11_of m (outs m) c _ (by decide)).symm
  exact (Pipeline.withArrays_arr spec4 launch4.win.arr_inj c _ _ (2 : Fin cfg4.W)).symm.trans (outAt4_2 m c).symm
  exact (Pipeline.withArrays_arr spec4 launch4.win.arr_inj c _ _ (3 : Fin cfg4.W)).symm.trans (outAt4_3 m c).symm

theorem hrest4 (c : Dev nD) : ∀ b, b ∉ Finset.univ.image (Pipeline.arrRef spec4) → atRefs (Z11 m) c b = atRefs (Z10 m) c b :=
  fun b hb => V11_of m (outs m) c b (fun h => hb (by
    simp only [List.mem_cons, List.not_mem_nil, or_false] at h
    rcases h with rfl | rfl
    · exact Finset.mem_image.mpr ⟨(2 : Fin cfg4.W), Finset.mem_univ _, rfl⟩
    · exact Finset.mem_image.mpr ⟨(3 : Fin cfg4.W), Finset.mem_univ _, rfl⟩))

def reg4 : Pipeline.RegionSeg (pcfgs (F := F)) adm (pdats m) () defs₀ Variants.none Lz lvz 4 :=
  regOf m 4 launch4 (Z10 m) (Z11 m) (fun c => (body_obligation4 (atRefs (Z10 m)) c).loose)
    (fun _ _ => rfl) (fun _ _ => rfl) (fun _ _ => trivial) (fun _ => rfl) (fun _ => .rfl) (fun _ _ => rfl) (hF4 m) (hrest4 m)

end Cert.Kernel.Hand

end
-- ==== Proof.Kernel.Seg5.lean ====
import proofs.«425307_j45586782880378_1_alg».proof.Proof.Kernel.Rider

set_option maxRecDepth 16384

noncomputable section

namespace Cert.Kernel.Hand

open Idealize.ShloMosaic Idealize.ShloMosaic.TcCoe Idealize.SL.Sem
open Cert.Kernel Cert.Kernel.Gen

variable {F : FTy → Type} [FloatOps F]

variable (m : (ℓ : Loc nD τ sig) → Buf (Elt F) ℓ)

theorem outAt5_6 (c : Dev nD) : Z13 m c main_v96 = Y13 m c main_v96 := Function.update_self _ _ _

set_option maxHeartbeats 4000000 in

theorem hF5 (c : Dev nD) (w : Fin cfg5.W) : (dat5 (atRefs (Z12 m)) c).arrAt w cfg5.N = atRefs (Z13 m) c (Pipeline.arrRef spec5 w) := by
  fin_cases w
  iterate 6 exact (((dat5 (atRefs (Z12 m)) c).arrAt_in _ rfl _).trans (A_eq5 (atRefs (Z12 m)) c _)).trans (V13_of m (outs m) c _ (by decide)).symm
  exact (Pipeline.withArrays_arr spec5 launch5.win.arr_inj c _ _ (6 : Fin cfg5.W)).symm.trans (outAt5_6 m c).symm

theorem hrest5 (c : Dev nD) : ∀ b, b ∉ Finset.univ.image (Pipeline.arrRef spec5) → atRefs (Z13 m) c b = atRefs (Z12 m) c b :=
  fun b hb => V13_of m (outs m) c b (fun h => hb (by
    simp only [List.mem_cons, List.not_mem_nil, or_false] at h
    rcases h with rfl
    · exact Finset.mem_image.mpr ⟨(6 : Fin cfg5.W), Finset.mem_univ _, rfl⟩))

def reg5 : Pipeline.RegionSeg (pcfgs (F := F)) adm (pdats m) () defs₀ Variants.none Lz lvz 5 :=
  regOf m 5 launch5 (Z12 m) (Z13 m) (fun c => (body_obligation5 (atRefs (Z12 m)) c).loose)
    (fun _ _ => rfl) (fun _ _ => rfl) (fun _ _ => trivial) (fun _ => rfl) (fun _ => .rfl) (fun _ _ => rfl) (hF5 m) (hrest5 m)

end Cert.Kernel.Hand

end
-- ==== Proof.Kernel.Seg6.lean ====
import proofs.«425307_j45586782880378_1_alg».proof.Proof.Kernel.Rider

set_option maxRecDepth 16384

noncomputable section

namespace Cert.Kernel.Hand

open Idealize.ShloMosaic Idealize.ShloMosaic.TcCoe Idealize.SL.Sem
open Cert.Kernel Cert.Kernel.Gen

variable {F : FTy → Type} [FloatOps F]

variable (m : (ℓ : Loc nD τ sig) → Buf (Elt F) ℓ)

theorem outAt6_2 (c : Dev nD) : Z14 m c main_v97 = Y14 m c main_v97 := Function.update_self _ _ _

set_option maxHeartbeats 4000000 in

theorem hF6 (c : Dev nD) (w : Fin cfg6.W) : (dat6 (atRefs (Z13 m)) c).arrAt w cfg6.N = atRefs (Z14 m) c (Pipeline.arrRef spec6 w) := by
  fin_cases w
  iterate 2 exact (((dat6 (atRefs (Z13 m)) c).arrAt_in _ rfl _).trans (A_eq6 (atRefs (Z13 m)) c _)).trans (V14_of m (outs m) c _ (by decide)).symm
  exact (Pipeline.withArrays_arr spec6 launch6.win.arr_inj c _ _ (2 : Fin cfg6.W)).symm.trans (outAt6_2 m c).symm

theorem hrest6 (c : Dev nD) : ∀ b, b ∉ Finset.univ.image (Pipeline.arrRef spec6) → atRefs (Z14 m) c b = atRefs (Z13 m) c b :=
  fun b hb => V14_of m (outs m) c b (fun h => hb (by
    simp only [List.mem_cons, List.not_mem_nil, or_false] at h
    rcases h with rfl
    · exact Finset.mem_image.mpr ⟨(2 : Fin cfg6.W), Finset.mem_univ _, rfl⟩))

def reg6 : Pipeline.RegionSeg (pcfgs (F := F)) adm (pdats m) () defs₀ Variants.none Lz lvz 6 :=
  regOf m 6 launch6 (Z13 m) (Z14 m) (fun c => (body_obligation6 (atRefs (Z13 m)) c).loose)
    (fun _ _ => rfl) (fun _ _ => rfl) (fun _ _ => trivial) (fun _ => rfl) (fun _ => .rfl) (fun _ _ => rfl) (hF6 m) (hrest6 m)

end Cert.Kernel.Hand

end
-- ==== Proof.Kernel.Seg7.lean ====
import proofs.«425307_j45586782880378_1_alg».proof.Proof.Kernel.Rider

set_option maxRecDepth 16384

noncomputable section

namespace Cert.Kernel.Hand

open Idealize.ShloMosaic Idealize.ShloMosaic.TcCoe Idealize.SL.Sem
open Cert.Kernel Cert.Kernel.Gen

variable {F : FTy → Type} [FloatOps F]

variable (m : (ℓ : Loc nD τ sig) → Buf (Elt F) ℓ)

theorem outAt7_2 (c : Dev nD) : Z16 m c main_v111_0 = Y16 m c main_v111_0 := (Function.update_of_ne (StableHlo.devRef_ne_of_ne (by decide)) _ _).trans (Function.update_self _ _ _)

theorem outAt7_3 (c : Dev nD) : Z16 m c main_v111_1 = Y16 m c main_v111_1 := Function.update_self _ _ _

set_option maxHeartbeats 4000000 in

theorem hF7 (c : Dev nD) (w : Fin cfg7.W) : (dat7 (atRefs (Z15 m)) c).arrAt w cfg7.N = atRefs (Z16 m) c (Pipeline.arrRef spec7 w) := by
  fin_cases w
  iterate 2 exact (((dat7 (atRefs (Z15 m)) c).arrAt_in _ rfl _).trans (A_eq7 (atRefs (Z15 m)) c _)).trans (V16_of m (outs m) c _ (by decide)).symm
  exact (Pipeline.withArrays_arr spec7 launch7.win.arr_inj c _ _ (2 : Fin cfg7.W)).symm.trans (outAt7_2 m c).symm
  exact (Pipeline.withArrays_arr spec7 launch7.win.arr_inj c _ _ (3 : Fin cfg7.W)).symm.trans (outAt7_3 m c).symm

theorem hrest7 (c : Dev nD) : ∀ b, b ∉ Finset.univ.image (Pipeline.arrRef spec7) → atRefs (Z16 m) c b = atRefs (Z15 m) c b :=
  fun b hb => V16_of m (outs m) c b (fun h => hb (by
    simp only [List.mem_cons, List.not_mem_nil, or_false] at h
    rcases h with rfl | rfl
    · exact Finset.mem_image.mpr ⟨(2 : Fin cfg7.W), Finset.mem_univ _, rfl⟩
    · exact Finset.mem_image.mpr ⟨(3 : Fin cfg7.W), Finset.mem_univ _, rfl⟩))

def reg7 : Pipeline.RegionSeg (pcfgs (F := F)) adm (pdats m) () defs₀ Variants.none Lz lvz 7 :=
  regOf m 7 launch7 (Z15 m) (Z16 m) (fun c => (body_obligation7 (atRefs (Z15 m)) c).loose)
    (fun _ _ => rfl) (fun _ _ => rfl) (fun _ _ => trivial) (fun _ => rfl) (fun _ => .rfl) (fun _ _ => rfl) (hF7 m) (hrest7 m)

end Cert.Kernel.Hand

end
-- ==== Proof.Kernel.Seg8.lean ====
import proofs.«425307_j45586782880378_1_alg».proof.Proof.Kernel.Rider

set_option maxRecDepth 16384

noncomputable section

namespace Cert.Kernel.Hand

open Idealize.ShloMosaic Idealize.ShloMosaic.TcCoe Idealize.SL.Sem
open Cert.Kernel Cert.Kernel.Gen

variable {F : FTy → Type} [FloatOps F]

variable (m : (ℓ : Loc nD τ sig) → Buf (Elt F) ℓ)

theorem outAt8_6 (c : Dev nD) : Z18 m c main_v128 = Y18 m c main_v128 := Function.update_self _ _ _

set_option maxHeartbeats 4000000 in

theorem hF8 (c : Dev nD) (w : Fin cfg8.W) : (dat8 (atRefs (Z17 m)) c).arrAt w cfg8.N = atRefs (Z18 m) c (Pipeline.arrRef spec8 w) := by
  fin_cases w
  iterate 6 exact (((dat8 (atRefs (Z17 m)) c).arrAt_in _ rfl _).trans (A_eq8 (atRefs (Z17 m)) c _)).trans (V18_of m (outs m) c _ (by decide)).symm
  exact (Pipeline.withArrays_arr spec8 launch8.win.arr_inj c _ _ (6 : Fin cfg8.W)).symm.trans (outAt8_6 m c).symm

theorem hrest8 (c : Dev nD) : ∀ b, b ∉ Finset.univ.image (Pipeline.arrRef spec8) → atRefs (Z18 m) c b = atRefs (Z17 m) c b :=
  fun b hb => V18_of m (outs m) c b (fun h => hb (by
    simp only [List.mem_cons, List.not_mem_nil, or_false] at h
    rcases h with rfl
    · exact Finset.mem_image.mpr ⟨(6 : Fin cfg8.W), Finset.mem_univ _, rfl⟩))

def reg8 : Pipeline.RegionSeg (pcfgs (F := F)) adm (pdats m) () defs₀ Variants.none Lz lvz 8 :=
  regOf m 8 launch8 (Z17 m) (Z18 m) (fun c => (body_obligation8 (atRefs (Z17 m)) c).loose)
    (fun _ _ => rfl) (fun _ _ => rfl) (fun _ _ => trivial) (fun _ => rfl) (fun _ => .rfl) (fun _ _ => rfl) (hF8 m) (hrest8 m)

end Cert.Kernel.Hand

end
-- ==== Proof.Kernel.Seg9.lean ====
import proofs.«425307_j45586782880378_1_alg».proof.Proof.Kernel.Rider

set_option maxRecDepth 16384

noncomputable section

namespace Cert.Kernel.Hand

open Idealize.ShloMosaic Idealize.ShloMosaic.TcCoe Idealize.SL.Sem
open Cert.Kernel Cert.Kernel.Gen

variable {F : FTy → Type} [FloatOps F]

variable (m : (ℓ : Loc nD τ sig) → Buf (Elt F) ℓ)

theorem outAt9_5 (c : Dev nD) : Z21 m c main_v140 = Y21 m c main_v140 := Function.update_self _ _ _

set_option maxHeartbeats 4000000 in

theorem hF9 (c : Dev nD) (w : Fin cfg9.W) : (dat9 (atRefs (Z20 m)) c).arrAt w cfg9.N = atRefs (Z21 m) c (Pipeline.arrRef spec9 w) := by
  fin_cases w
  iterate 5 exact (((dat9 (atRefs (Z20 m)) c).arrAt_in _ rfl _).trans (A_eq9 (atRefs (Z20 m)) c _)).trans (V21_of m (outs m) c _ (by decide)).symm
  exact (Pipeline.withArrays_arr spec9 launch9.win.arr_inj c _ _ (5 : Fin cfg9.W)).symm.trans (outAt9_5 m c).symm

theorem hrest9 (c : Dev nD) : ∀ b, b ∉ Finset.univ.image (Pipeline.arrRef spec9) → atRefs (Z21 m) c b = atRefs (Z20 m) c b :=
  fun b hb => V21_of m (outs m) c b (fun h => hb (by
    simp only [List.mem_cons, List.not_mem_nil, or_false] at h
    rcases h with rfl
    · exact Finset.mem_image.mpr ⟨(5 : Fin cfg9.W), Finset.mem_univ _, rfl⟩))

def reg9 : Pipeline.RegionSeg (pcfgs (F := F)) adm (pdats m) () defs₀ Variants.none Lz lvz 9 :=
  regOf m 9 launch9 (Z20 m) (Z21 m) (fun c => (body_obligation9 (atRefs (Z20 m)) c).loose)
    (fun _ _ => rfl) (fun _ _ => rfl) (fun _ _ => trivial) (Phi9_zero (atRefs (Z20 m))) (Phi9_last (atRefs (Z20 m))) (fun _ _ => rfl) (hF9 m) (hrest9 m)

end Cert.Kernel.Hand

end
-- ==== Proof.Kernel.KRun.lean ====
import proofs.«425307_j45586782880378_1_alg».proof.Proof.Kernel.RunCond
import proofs.«425307_j45586782880378_1_alg».proof.Proof.Kernel.Seg0
import proofs.«425307_j45586782880378_1_alg».proof.Proof.Kernel.Seg1
import proofs.«425307_j45586782880378_1_alg».proof.Proof.Kernel.Seg2
import proofs.«425307_j45586782880378_1_alg».proof.Proof.Kernel.Seg3
import proofs.«425307_j45586782880378_1_alg».proof.Proof.Kernel.Seg4
import proofs.«425307_j45586782880378_1_alg».proof.Proof.Kernel.Seg5
import proofs.«425307_j45586782880378_1_alg».proof.Proof.Kernel.Seg6
import proofs.«425307_j45586782880378_1_alg».proof.Proof.Kernel.Seg7
import proofs.«425307_j45586782880378_1_alg».proof.Proof.Kernel.Seg8
import proofs.«425307_j45586782880378_1_alg».proof.Proof.Kernel.Seg9
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem rider_one (c : Dev nD) : iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))
      ⊢ (Rr (F := F) c : sProp 𝕄) := by
  iintro ⟨-, HO, -, Hp, -⟩
  isplitl [Hp]; · iexists _; iexact Hp
  iexists ∅; iexact HO

theorem rider_init : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts Lz lvz)
      ⊢ (|={Set.univ}=> bigSep Finset.univ (fun c : Dev nD => Rr (F := F) c) : sProp 𝕄) := by
  have hm : (bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
      ⊢ (bigSep Finset.univ (fun c : Dev nD => Rr (F := F) c) : sProp 𝕄) :=
    bigSep_mono fun c _ => rider_one ρ c
  iintro ⟨H, -⟩
  imodintro
  iapply hm
  iexact H

set_option maxHeartbeats 4000000 in
set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem (((c : Thread nD τ)).1, b) = Z21 m c b) :=
  Cert.Kernel.GenP.run_cond m emb₁ () Variants.none Lz lvz (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rr c)
    (hE0 := rider_init ρ)
    (hE10 := fun c => by iintro ⟨-, H⟩; iexact H)
    (R0 := reg0 m) (hpre0 := fun _ => .rfl) (hpost0 := fun _ => .rfl)
    (R1 := reg1 m) (hpre1 := fun _ => .rfl) (hpost1 := fun _ => .rfl)
    (R2 := reg2 m) (hpre2 := fun _ => .rfl) (hpost2 := fun _ => .rfl)
    (R3 := reg3 m) (hpre3 := fun _ => .rfl) (hpost3 := fun _ => .rfl)
    (R4 := reg4 m) (hpre4 := fun _ => .rfl) (hpost4 := fun _ => .rfl)
    (R5 := reg5 m) (hpre5 := fun _ => .rfl) (hpost5 := fun _ => .rfl)
    (R6 := reg6 m) (hpre6 := fun _ => .rfl) (hpost6 := fun _ => .rfl)
    (R7 := reg7 m) (hpre7 := fun _ => .rfl) (hpost7 := fun _ => .rfl)
    (R8 := reg8 m) (hpre8 := fun _ => .rfl) (hpost8 := fun _ => .rfl)
    (R9 := reg9 m) (hpre9 := fun _ => .rfl) (hpost9 := fun _ => .rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option maxHeartbeats 4000000 in

theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => ⟨(h c _ (mem_uc main_arg0 (by decide))).trans (V21_main_arg0 m (outs m) c),
    (h c _ (mem_uc main_arg1 (by decide))).trans (V21_main_arg1 m (outs m) c),
    (h c _ (mem_uc main_arg2 (by decide))).trans (V21_main_arg2 m (outs m) c),
    (h c _ (mem_uc main_arg3 (by decide))).trans (V21_main_arg3 m (outs m) c),
    (h c _ (mem_uc main_arg4 (by decide))).trans (V21_main_arg4 m (outs m) c),
    (h c _ (mem_uc main_arg5 (by decide))).trans (V21_main_arg5 m (outs m) c),
    (h c _ (mem_uc main_arg6 (by decide))).trans (V21_main_arg6 m (outs m) c),
    (h c _ (mem_uc main_arg7 (by decide))).trans (V21_main_arg7 m (outs m) c),
    (h c _ (mem_uc main_arg8 (by decide))).trans (V21_main_arg8 m (outs m) c),
    (h c _ (mem_uc main_arg9 (by decide))).trans (V21_main_arg9 m (outs m) c),
    (h c _ (mem_uc main_arg10 (by decide))).trans (V21_main_arg10 m (outs m) c),
    (h c _ (mem_uc main_arg11 (by decide))).trans (V21_main_arg11 m (outs m) c),
    (h c _ (mem_uc main_arg12 (by decide))).trans (V21_main_arg12 m (outs m) c),
    (h c _ (mem_uc main_arg13 (by decide))).trans (V21_main_arg13 m (outs m) c),
    (h c _ (mem_uc main_arg14 (by decide))).trans (V21_main_arg14 m (outs m) c),
    (h c _ (mem_uc main_arg15 (by decide))).trans (V21_main_arg15 m (outs m) c),
    (h c _ (mem_uc main_arg16 (by decide))).trans (V21_main_arg16 m (outs m) c)⟩) (run_all m ρ)

end Cert.Kernel.Hand

end
-- ==== Proof.KernelIdeal.Reg0.lean ====
import proofs.«425307_j45586782880378_1_alg».proof.Proof.Gen.KernelIdeal.Launch
import proofs.«425307_j45586782880378_1_alg».proof.Proof.Gen.KernelIdeal.Skeleton
import proofs.«425307_j45586782880378_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay1 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = k0_pay1 (iblk0 V c 0 t) (iblk0 V c 1 t) := by dsimp only [dat0]

theorem found0 (c : Dev nD) (w : Fin cfg0.W) (hw : w.val < 2) (t : Fin cfg0.N) (d) :
    (dat0 V c).before w t d = (dat0 V c).fetched w t d := by
  obtain ⟨_ | _ | w, h⟩ := w
  iterate 2 exact (dat0 V c).before_in_eq_fetched _ rfl (fun _ => rfl) (fun _ _ _ => rfl) (fun _ => rfl) t d
  exact absurd hw (Nat.not_lt.mpr (Nat.le_add_left 2 w))

theorem found0_0 (c : Dev nD) (t : Fin cfg0.N) (d) : (dat0 V c).before 0 t d = iblk0 V c 0 t :=
  found0 V c 0 (by decide) t d

theorem found0_1 (c : Dev nD) (t : Fin cfg0.N) (d) : (dat0 V c).before 1 t d = iblk0 V c 1 t :=
  found0 V c 1 (by decide) t d

theorem offsets_zero : (![0, 0] : Fin 2 → Nat) = fun _ => 0 := by
  funext a; fin_cases a <;> rfl

set_option maxHeartbeats 1000000 in

theorem product_body0 (c : Dev nD) (E : Set ℕ) (i : grid0.Coords)
    (arg1 : Memref sig .tc .vmem S10000x128 .f32) (harg1 : arg1.IsWhole)
    (arg2 : Memref sig .tc .vmem S128x128 .f32) (harg2 : arg2.IsWhole)
    (arg3 : Memref sig .tc .vmem S10000x128 .f32) (harg3 : arg3.IsWhole)
    (x : Vec F S10000x128 .f32) (w : Vec F S128x128 .f32) (K : PUnit → sProp 𝕄) :
    iprop(owns (c : Thread nD τ) arg1 fullShare x ∗ owns (c : Thread nD τ) arg2 fullShare w
        ∗ (∃ d, owns (c : Thread nD τ) arg3 fullShare d)
        ∗ (iprop(owns (c : Thread nD τ) arg1 fullShare x ∗ owns (c : Thread nD τ) arg2 fullShare w
            ∗ owns (c : Thread nD τ) arg3 fullShare (k0_pay1 x w)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (fun y => ⟨_, List.mem_singleton_self _,
      View.mem_set_unit_zero offsets_zero inb_S10000x128_S10000x128_0_0 y⟩),
    View.canon_unit_zero offsets_zero, View.readAt_eq_ld, View.readAt_eq_ld,
    View.ld_unit_zero offsets_zero, View.ld_unit_zero offsets_zero]

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [found0_0, found0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (product_body0 c Set.univ _ _ _ _ _ _ _ (iblk0 V c 0 t) (iblk0 V c 1 t) _)
  iframe
  isplitl [H2]; · iexists _; iexact H2
  iintro ⟨H0, H1, H2⟩
  iframe

theorem body_obligation0 (c : Dev nD) : BodyObligation (dat0 (F := F) V c) (defs₀ (F := F)) Variants.none () Set.univ := fun t => by
  rw [bigSep_W0, bigSep_W0]
  exact sound_body0 V c t

end Cert.KernelIdeal.Hand
-- ==== Proof.KernelIdeal.Reg1.lean ====
import proofs.«425307_j45586782880378_1_alg».proof.Proof.Gen.KernelIdeal.Launch
import proofs.«425307_j45586782880378_1_alg».proof.Proof.Gen.KernelIdeal.Skeleton
import proofs.«425307_j45586782880378_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev atFirst1 (i : grid1.Coords) : Prop :=
  (Scalar.cmpi .ne (Scalar.extui (Scalar.cmpi .eq (BitVec.ofNat 32 (i 0).val) 0#32)) 0#32) = 1#1

theorem atFirst1_iff : ∀ t : Fin cfg1.N, atFirst1 (grid1.coords t) ↔ t.val % 5 = 0 :=
  (by decide +kernel : ∀ t : Fin grid1.N, atFirst1 (grid1.coords t) ↔ t.val % 5 = 0)

theorem zero_off1 : (![0, 0] : Fin 2 → ℕ) = fun _ => 0 := by
  funext a; fin_cases a <;> rfl

set_option maxHeartbeats 1000000 in

theorem sound_first1 (c : Dev nD) (E : Set ℕ) (i : grid1.Coords)
    (arg1 : Memref sig .tc .vmem S10000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (hc : atFirst1 i) (x0 : Vec F S10000x128 .f32) (x1 : Vec F S1x128 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (k1_pay4 x0 x1 k1_pay2) ∗ owns (c : Thread nD τ) arg4 fullShare (k1_pay5 x0 x1 k1_pay3)) -∗ K ⟨⟩))
      ⊢ wp frame (wpE (defs₀ (F := F)) Variants.none c none) E (cc1__bn_reduce_kernel i arg1 harg1 arg2 harg2 arg3 harg3 arg4 harg4) K := by
  simp only [cc1__bn_reduce_kernel_eq_skeleton]; unfold cc1__bn_reduce_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [View.read_writes_eq_canon _ _ _ (fun y => ⟨_, List.mem_cons_self, View.mem_set_unit_zero (S := S1x128) zero_off1 inb_S1x128_S1x128_0_0 y⟩)]
    rw [View.canon_cons_unit_zero (S := S1x128) zero_off1]
    simp only [View.readAt_eq_ld, View.ld_unit_zero (S := S1x128) zero_off1, View.ld_unit_zero (S := S10000x128) zero_off1, View.readCov_unit_zero (S := S1x128) _ zero_off1]
  · iexists _; isplitr
    swap; · iexact H3
    ipureintro
    sl_unfold_run_names
    rw [View.read_writes_eq_canon _ _ _ (fun y => ⟨_, List.mem_cons_self, View.mem_set_unit_zero (S := S1x128) zero_off1 inb_S1x128_S1x128_0_0 y⟩)]
    rw [View.canon_cons_unit_zero (S := S1x128) zero_off1]
    simp only [View.readAt_eq_ld, View.ld_unit_zero (S := S1x128) zero_off1, View.ld_unit_zero (S := S10000x128) zero_off1, View.readCov_unit_zero (S := S1x128) _ zero_off1]

set_option maxHeartbeats 1000000 in

theorem sound_later1 (c : Dev nD) (E : Set ℕ) (i : grid1.Coords)
    (arg1 : Memref sig .tc .vmem S10000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (hc : ¬atFirst1 i) (x0 : Vec F S10000x128 .f32) (x1 : Vec F S1x128 .f32) (a b : Vec F S1x128 .f32) (K : PUnit → sProp 𝕄) :
    iprop(owns (c : Thread nD τ) arg1 fullShare x0 ∗ owns (c : Thread nD τ) arg2 fullShare x1
        ∗ owns (c : Thread nD τ) arg3 fullShare a ∗ owns (c : Thread nD τ) arg4 fullShare b
        ∗ (iprop(owns (c : Thread nD τ) arg1 fullShare x0 ∗ owns (c : Thread nD τ) arg2 fullShare x1
            ∗ owns (c : Thread nD τ) arg3 fullShare (k1_pay4 x0 x1 a) ∗ owns (c : Thread nD τ) arg4 fullShare (k1_pay5 x0 x1 b)) -∗ K ⟨⟩))
      ⊢ wp frame (wpE (defs₀ (F := F)) Variants.none c none) E (cc1__bn_reduce_kernel i arg1 harg1 arg2 harg2 arg3 harg3 arg4 harg4) K := by
  simp only [cc1__bn_reduce_kernel_eq_skeleton]; unfold cc1__bn_reduce_kernel_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [View.read_writes_eq_canon _ _ _ (fun y => ⟨_, List.mem_cons_self, View.mem_set_unit_zero (S := S1x128) zero_off1 inb_S1x128_S1x128_0_0 y⟩)]
    rw [View.canon_cons_unit_zero (S := S1x128) zero_off1]
    simp only [View.readAt_eq_ld, View.ld_unit_zero (S := S1x128) zero_off1, View.ld_unit_zero (S := S10000x128) zero_off1, View.readCov_unit_zero (S := S1x128) _ zero_off1]
  · iexists _; isplitr
    swap; · iexact H3
    ipureintro
    sl_unfold_run_names
    rw [View.read_writes_eq_canon _ _ _ (fun y => ⟨_, List.mem_cons_self, View.mem_set_unit_zero (S := S1x128) zero_off1 inb_S1x128_S1x128_0_0 y⟩)]
    rw [View.canon_cons_unit_zero (S := S1x128) zero_off1]
    simp only [View.readAt_eq_ld, View.ld_unit_zero (S := S1x128) zero_off1, View.ld_unit_zero (S := S10000x128) zero_off1, View.readCov_unit_zero (S := S1x128) _ zero_off1]

def acc1 (c : Dev nD) : (n : ℕ) → n < cfg1.N → Vec F S1x128 .f32 × Vec F S1x128 .f32
  | 0, h => (k1_pay4 (iblk1 V c 0 ⟨0, h⟩) (iblk1 V c 1 ⟨0, h⟩) k1_pay2, k1_pay5 (iblk1 V c 0 ⟨0, h⟩) (iblk1 V c 1 ⟨0, h⟩) k1_pay3)
  | n + 1, h =>
    (k1_pay4 (iblk1 V c 0 ⟨n + 1, h⟩) (iblk1 V c 1 ⟨n + 1, h⟩) (acc1 c n (Nat.lt_of_succ_lt h)).1,
     k1_pay5 (iblk1 V c 0 ⟨n + 1, h⟩) (iblk1 V c 1 ⟨n + 1, h⟩) (acc1 c n (Nat.lt_of_succ_lt h)).2)

theorem acc1_zero (c : Dev nD) (h : 0 < cfg1.N) :
    acc1 V c 0 h = (k1_pay4 (iblk1 V c 0 ⟨0, h⟩) (iblk1 V c 1 ⟨0, h⟩) k1_pay2, k1_pay5 (iblk1 V c 0 ⟨0, h⟩) (iblk1 V c 1 ⟨0, h⟩) k1_pay3) := rfl

theorem acc1_succ (c : Dev nD) (n : ℕ) (h : n + 1 < cfg1.N) :
    acc1 V c (n + 1) h = (k1_pay4 (iblk1 V c 0 ⟨n + 1, h⟩) (iblk1 V c 1 ⟨n + 1, h⟩) (acc1 V c n (by omega)).1,
      k1_pay5 (iblk1 V c 0 ⟨n + 1, h⟩) (iblk1 V c 1 ⟨n + 1, h⟩) (acc1 V c n (by omega)).2) := rfl

theorem acc1_first (c : Dev nD) (t : Fin cfg1.N) (h0 : t.val % 5 = 0) :
    acc1 V c t.val t.isLt = (k1_pay4 (iblk1 V c 0 t) (iblk1 V c 1 t) k1_pay2, k1_pay5 (iblk1 V c 0 t) (iblk1 V c 1 t) k1_pay3) := by
  have hN : t.val < 5 := lt_of_lt_of_eq t.isLt (show cfg1.N = 5 from N_1)
  obtain ⟨n, hn⟩ := t
  cases n with
  | zero => exact rfl
  | succ n => exact (by exfalso; dsimp only at h0 hN; omega)

theorem acc1_later (c : Dev nD) (t : Fin cfg1.N) (h0 : ¬t.val % 5 = 0) :
    acc1 V c t.val t.isLt =
      (k1_pay4 (iblk1 V c 0 t) (iblk1 V c 1 t) (acc1 V c (t.val - 1) (Nat.lt_of_le_of_lt (Nat.sub_le _ _) t.isLt)).1,
       k1_pay5 (iblk1 V c 0 t) (iblk1 V c 1 t) (acc1 V c (t.val - 1) (Nat.lt_of_le_of_lt (Nat.sub_le _ _) t.isLt)).2) := by
  obtain ⟨n, hn⟩ := t
  cases n with
  | zero => exact (by exfalso; exact h0 (Nat.zero_mod _))
  | succ n => exact rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (acc1 V c t.val t.isLt).1
    | ⟨3, _⟩ => (acc1 V c t.val t.isLt).2
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (acc1 V c t.val t.isLt).1 := by dsimp only [dat1]
theorem after1_3 (c : Dev nD) (t : Fin cfg1.N) : (dat1 V c).after 3 t = (acc1 V c t.val t.isLt).2 := by dsimp only [dat1]

theorem before1 (c : Dev nD) (w : Fin cfg1.W) (hw : w.val < 2) (t : Fin cfg1.N) (d) :
    (dat1 V c).before w t d = (dat1 V c).fetched w t d := by
  obtain ⟨_ | _ | w, h⟩ := w
  iterate 2 exact (dat1 V c).before_in_eq_fetched _ rfl (fun _ => rfl) (fun _ _ _ => rfl) (fun _ => rfl) t d
  exact absurd hw (Nat.not_lt.mpr (Nat.le_add_left 2 w))

theorem before1_0 (c : Dev nD) (t : Fin cfg1.N) (d) : (dat1 V c).before 0 t d = iblk1 V c 0 t :=
  before1 V c 0 (by decide) t d
theorem before1_1 (c : Dev nD) (t : Fin cfg1.N) (d) : (dat1 V c).before 1 t d = iblk1 V c 1 t :=
  before1 V c 1 (by decide) t d

theorem before1_2_later (c : Dev nD) (t : Fin cfg1.N) (h0 : ¬t.val % 5 = 0) (d) :
    (dat1 V c).before 2 t d = (acc1 V c (t.val - 1) (Nat.lt_of_le_of_lt (Nat.sub_le _ _) t.isLt)).1 := by
  have hN : t.val < 5 := lt_of_lt_of_eq t.isLt (show cfg1.N = 5 from N_1)
  rw [Dat.before_out_kept _ 2 rfl t (by omega) (Bool.eq_false_iff.mpr fun h => by have := (flush1_2 _).mp h; dsimp only at this; omega)
    (fun _ => rfl) (fun _ _ => rfl)]
  dsimp only [dat1]

theorem before1_3_later (c : Dev nD) (t : Fin cfg1.N) (h0 : ¬t.val % 5 = 0) (d) :
    (dat1 V c).before 3 t d = (acc1 V c (t.val - 1) (Nat.lt_of_le_of_lt (Nat.sub_le _ _) t.isLt)).2 := by
  have hN : t.val < 5 := lt_of_lt_of_eq t.isLt (show cfg1.N = 5 from N_1)
  rw [Dat.before_out_kept _ 3 rfl t (by omega) (Bool.eq_false_iff.mpr fun h => by have := (flush1_3 _).mp h; dsimp only at this; omega)
    (fun _ => rfl) (fun _ _ => rfl)]
  dsimp only [dat1]

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

set_option maxHeartbeats 800000 in

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2, after1_3]
  by_cases h0 : t.val % 5 = 0
  · rw [acc1_first V c t h0]
    iintro ⟨HΦ, Ho, ⟨%d0, H0⟩, ⟨%d1, H1⟩, ⟨%d2, H2⟩, ⟨%d3, H3⟩⟩
    iapply (sound_first1 c Set.univ (grid1.coords t) _ _ _ _ _ _ _ _ ((atFirst1_iff t).mpr h0) (iblk1 V c 0 t) (iblk1 V c 1 t) _)
    iframe
    isplitl [H2]; · iexists _; iexact H2
    isplitl [H3]; · iexists _; iexact H3
    iintro ⟨H0, H1, H2, H3⟩
    iframe
  · rw [acc1_later V c t h0]
    simp only [before1_2_later V c t h0, before1_3_later V c t h0]
    iintro ⟨HΦ, Ho, ⟨%d0, H0⟩, ⟨%d1, H1⟩, ⟨%d2, H2⟩, ⟨%d3, H3⟩⟩
    iapply (sound_later1 c Set.univ (grid1.coords t) _ _ _ _ _ _ _ _ (fun h => h0 ((atFirst1_iff t).mp h)) (iblk1 V c 0 t) (iblk1 V c 1 t) _ _ _)
    iframe
    iintro ⟨H0, H1, H2, H3⟩
    iframe

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KernelIdeal.Reg2.lean ====
import proofs.«425307_j45586782880378_1_alg».proof.Proof.Gen.KernelIdeal.Launch
import proofs.«425307_j45586782880378_1_alg».proof.Proof.Gen.KernelIdeal.Skeleton
import proofs.«425307_j45586782880378_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rBlock2 : Rect S10000x128 := Rect.unit (s := S10000x128) ![0, 0] S10000x128.size inb_S10000x128_S10000x128_0_0

theorem zeroOffsets2 : (![0, 0] : Fin 2 → ℕ) = fun _ => 0 := funext fun a => by fin_cases a <;> rfl

theorem cover2_6 (p : Vec F S10000x128 .f32) (y : S10000x128.Idx) :
    ∃ pc ∈ ([⟨rBlock2, p⟩] : List (View.Piece (Elt F) S10000x128 .f32)), y ∈ pc.1.set :=
  ⟨⟨rBlock2, p⟩, List.mem_singleton_self _, View.mem_set_unit_zero zeroOffsets2 inb_S10000x128_S10000x128_0_0 y⟩

set_option maxHeartbeats 1000000 in

theorem sound_kernel2 (c : Dev nD) (E : Set ℕ)
    (arg1 : Memref sig .tc .vmem S10000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S1x128 .f32) (harg6 : arg6.IsWhole)
    (arg7 : Memref sig .tc .vmem S10000x128 .f32) (harg7 : arg7.IsWhole)
    (i : grid2.Coords)
    (x : Vec F S10000x128 .f32) (b μ s γ β : Vec F S1x128 .f32) (K : PUnit → sProp 𝕄) :
    iprop(owns (c : Thread nD τ) arg1 fullShare x ∗ owns (c : Thread nD τ) arg2 fullShare b
        ∗ owns (c : Thread nD τ) arg3 fullShare μ ∗ owns (c : Thread nD τ) arg4 fullShare s
        ∗ owns (c : Thread nD τ) arg5 fullShare γ ∗ owns (c : Thread nD τ) arg6 fullShare β
        ∗ (∃ d, owns (c : Thread nD τ) arg7 fullShare d)
        ∗ (iprop(owns (c : Thread nD τ) arg1 fullShare x ∗ owns (c : Thread nD τ) arg2 fullShare b
            ∗ owns (c : Thread nD τ) arg3 fullShare μ ∗ owns (c : Thread nD τ) arg4 fullShare s
            ∗ owns (c : Thread nD τ) arg5 fullShare γ ∗ owns (c : Thread nD τ) arg6 fullShare β
            ∗ owns (c : Thread nD τ) arg7 fullShare (k2_pay1 x b μ s γ β)) -∗ K ⟨⟩))
      ⊢ wp frame (wpE (defs₀ (F := F)) Variants.none c none) E (cc2__bn_norm_kernel i arg1 harg1 arg2 harg2 arg3 harg3 arg4 harg4 arg5 harg5 arg6 harg6 arg7 harg7) K := by
  simp only [cc2__bn_norm_kernel_eq_skeleton]; unfold cc2__bn_norm_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  rw [View.read_writes_eq_canon _ _ _ (cover2_6 _),
    View.canon_unit_zero zeroOffsets2]
  simp only [View.readAt_eq_ld, View.ld_unit_zero (S := S10000x128) zeroOffsets2, View.ld_unit_zero (S := S1x128) zeroOffsets2]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => k2_pay1 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = k2_pay1 (iblk2 V c 0 t) (iblk2 V c 1 t) (iblk2 V c 2 t) (iblk2 V c 3 t) (iblk2 V c 4 t) (iblk2 V c 5 t) := by dsimp only [dat2]

theorem before2 (c : Dev nD) (w : Fin cfg2.W) (hw : w.val < 6) (t : Fin cfg2.N) (d) :
    (dat2 V c).before w t d = (dat2 V c).fetched w t d := by
  obtain ⟨_ | _ | _ | _ | _ | _ | w, h⟩ := w
  iterate 6 exact (dat2 V c).before_in_eq_fetched _ rfl (fun _ => rfl) (fun _ _ _ => rfl) (fun _ => rfl) t d
  exact absurd hw (Nat.not_lt.mpr (Nat.le_add_left 6 w))

theorem before2_0 (c : Dev nD) (t : Fin cfg2.N) (d) : (dat2 V c).before 0 t d = iblk2 V c 0 t :=
  before2 V c 0 (by decide) t d
theorem before2_1 (c : Dev nD) (t : Fin cfg2.N) (d) : (dat2 V c).before 1 t d = iblk2 V c 1 t :=
  before2 V c 1 (by decide) t d
theorem before2_2 (c : Dev nD) (t : Fin cfg2.N) (d) : (dat2 V c).before 2 t d = iblk2 V c 2 t :=
  before2 V c 2 (by decide) t d
theorem before2_3 (c : Dev nD) (t : Fin cfg2.N) (d) : (dat2 V c).before 3 t d = iblk2 V c 3 t :=
  before2 V c 3 (by decide) t d
theorem before2_4 (c : Dev nD) (t : Fin cfg2.N) (d) : (dat2 V c).before 4 t d = iblk2 V c 4 t :=
  before2 V c 4 (by decide) t d
theorem before2_5 (c : Dev nD) (t : Fin cfg2.N) (d) : (dat2 V c).before 5 t d = iblk2 V c 5 t :=
  before2 V c 5 (by decide) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  iframe
  isplitl [H6]; · iexists _; iexact H6
  iintro ⟨H0, H1, H2, H3, H4, H5, H6⟩
  iframe

theorem body_obligation2 (c : Dev nD) : BodyObligation (dat2 (F := F) V c) (defs₀ (F := F)) Variants.none () Set.univ := fun t => by
  rw [bigSep_W2, bigSep_W2]
  exact sound_body2 V c t

end Cert.KernelIdeal.Hand
-- ==== Proof.KernelIdeal.Reg3.lean ====
import proofs.«425307_j45586782880378_1_alg».proof.Proof.KernelIdeal.Reg0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => k3_pay1 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) :
    (dat3 V c).after 2 t = k3_pay1 (iblk3 V c 0 t) (iblk3 V c 1 t) := by dsimp only [dat3]

theorem found3 (c : Dev nD) (w : Fin cfg3.W) (hw : w.val < 2) (t : Fin cfg3.N) (d) :
    (dat3 V c).before w t d = (dat3 V c).fetched w t d := by
  obtain ⟨_ | _ | w, h⟩ := w
  iterate 2 exact (dat3 V c).before_in_eq_fetched _ rfl (fun _ => rfl) (fun _ _ _ => rfl) (fun _ => rfl) t d
  exact absurd hw (Nat.not_lt.mpr (Nat.le_add_left 2 w))

theorem found3_0 (c : Dev nD) (t : Fin cfg3.N) (d) : (dat3 V c).before 0 t d = iblk3 V c 0 t :=
  found3 V c 0 (by decide) t d

theorem found3_1 (c : Dev nD) (t : Fin cfg3.N) (d) : (dat3 V c).before 1 t d = iblk3 V c 1 t :=
  found3 V c 1 (by decide) t d

theorem pay3_eq : k3_pay1 (F := F) = k0_pay1 := by
  funext x w; unfold k3_pay1 k0_pay1; rw [shapeCast_self]

theorem cc3_eq : cc3__matmul_kernel (F := F) = cc0__matmul_kernel := by
  rw [cc3__matmul_kernel_eq_skeleton, cc0__matmul_kernel_eq_skeleton]
  funext i a1 h1 a2 h2 a3 h3
  unfold cc3__matmul_kernel_skel cc0__matmul_kernel_skel; rw [pay3_eq]

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [found3_0, found3_1]
  rw [show (dat3 V c).Φ t.succ = (dat3 V c).Φ t.castSucc from rfl,
    show (dat3 V c).owesAt () t.succ = (dat3 V c).owesAt () t.castSucc from rfl,
    after3_0, after3_1, after3_2, cc3_eq, pay3_eq]
  iintro ⟨HΦ, Ho, ⟨%d0, H0⟩, ⟨%d1, H1⟩, ⟨%d2, H2⟩⟩
  iapply (product_body0 c Set.univ _ _ _ _ _ _ _ (iblk3 V c 0 t) (iblk3 V c 1 t) _)
  iframe
  isplitl [H2]; · iexists _; iexact H2
  iintro ⟨H0, H1, H2⟩
  iframe

theorem body_obligation3 (c : Dev nD) : BodyObligation (dat3 (F := F) V c) (defs₀ (F := F)) Variants.none () Set.univ := fun t => by
  rw [bigSep_W3, bigSep_W3]
  exact sound_body3 V c t

end Cert.KernelIdeal.Hand
-- ==== Proof.KernelIdeal.Reg4.lean ====
import proofs.«425307_j45586782880378_1_alg».proof.Proof.KernelIdeal.Reg1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem cc4_eq : cc4__bn_reduce_kernel (F := F) = cc1__bn_reduce_kernel := by
  rw [cc4__bn_reduce_kernel_eq_skeleton, cc1__bn_reduce_kernel_eq_skeleton]; rfl

theorem pay4_2 : k4_pay2 (F := F) = k1_pay2 := rfl
theorem pay4_3 : k4_pay3 (F := F) = k1_pay3 := rfl
theorem pay4_4 : k4_pay4 (F := F) = k1_pay4 := rfl
theorem pay4_5 : k4_pay5 (F := F) = k1_pay5 := rfl

def acc4 (c : Dev nD) : (n : ℕ) → n < cfg4.N → Vec F S1x128 .f32 × Vec F S1x128 .f32
  | 0, h => (k4_pay4 (iblk4 V c 0 ⟨0, h⟩) (iblk4 V c 1 ⟨0, h⟩) k4_pay2, k4_pay5 (iblk4 V c 0 ⟨0, h⟩) (iblk4 V c 1 ⟨0, h⟩) k4_pay3)
  | n + 1, h =>
    (k4_pay4 (iblk4 V c 0 ⟨n + 1, h⟩) (iblk4 V c 1 ⟨n + 1, h⟩) (acc4 c n (Nat.lt_of_succ_lt h)).1,
     k4_pay5 (iblk4 V c 0 ⟨n + 1, h⟩) (iblk4 V c 1 ⟨n + 1, h⟩) (acc4 c n (Nat.lt_of_succ_lt h)).2)

theorem acc4_zero (c : Dev nD) (h : 0 < cfg4.N) :
    acc4 V c 0 h = (k4_pay4 (iblk4 V c 0 ⟨0, h⟩) (iblk4 V c 1 ⟨0, h⟩) k4_pay2, k4_pay5 (iblk4 V c 0 ⟨0, h⟩) (iblk4 V c 1 ⟨0, h⟩) k4_pay3) := rfl

theorem acc4_succ (c : Dev nD) (n : ℕ) (h : n + 1 < cfg4.N) :
    acc4 V c (n + 1) h = (k4_pay4 (iblk4 V c 0 ⟨n + 1, h⟩) (iblk4 V c 1 ⟨n + 1, h⟩) (acc4 V c n (by omega)).1,
      k4_pay5 (iblk4 V c 0 ⟨n + 1, h⟩) (iblk4 V c 1 ⟨n + 1, h⟩) (acc4 V c n (by omega)).2) := rfl

theorem acc4_first (c : Dev nD) (t : Fin cfg4.N) (h0 : t.val % 5 = 0) :
    acc4 V c t.val t.isLt = (k4_pay4 (iblk4 V c 0 t) (iblk4 V c 1 t) k4_pay2, k4_pay5 (iblk4 V c 0 t) (iblk4 V c 1 t) k4_pay3) := by
  have hN : t.val < 5 := lt_of_lt_of_eq t.isLt (show cfg4.N = 5 from N_4)
  obtain ⟨n, hn⟩ := t
  cases n with
  | zero => exact rfl
  | succ n => exact (by exfalso; dsimp only at h0 hN; omega)

theorem acc4_later (c : Dev nD) (t : Fin cfg4.N) (h0 : ¬t.val % 5 = 0) :
    acc4 V c t.val t.isLt =
      (k4_pay4 (iblk4 V c 0 t) (iblk4 V c 1 t) (acc4 V c (t.val - 1) (Nat.lt_of_le_of_lt (Nat.sub_le _ _) t.isLt)).1,
       k4_pay5 (iblk4 V c 0 t) (iblk4 V c 1 t) (acc4 V c (t.val - 1) (Nat.lt_of_le_of_lt (Nat.sub_le _ _) t.isLt)).2) := by
  obtain ⟨n, hn⟩ := t
  cases n with
  | zero => exact (by exfalso; exact h0 (Nat.zero_mod _))
  | succ n => exact rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => (acc4 V c t.val t.isLt).1
    | ⟨3, _⟩ => (acc4 V c t.val t.isLt).2
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = (acc4 V c t.val t.isLt).1 := by dsimp only [dat4]
theorem after4_3 (c : Dev nD) (t : Fin cfg4.N) : (dat4 V c).after 3 t = (acc4 V c t.val t.isLt).2 := by dsimp only [dat4]

theorem before4 (c : Dev nD) (w : Fin cfg4.W) (hw : w.val < 2) (t : Fin cfg4.N) (d) :
    (dat4 V c).before w t d = (dat4 V c).fetched w t d := by
  obtain ⟨_ | _ | w, h⟩ := w
  iterate 2 exact (dat4 V c).before_in_eq_fetched _ rfl (fun _ => rfl) (fun _ _ _ => rfl) (fun _ => rfl) t d
  exact absurd hw (Nat.not_lt.mpr (Nat.le_add_left 2 w))

theorem before4_0 (c : Dev nD) (t : Fin cfg4.N) (d) : (dat4 V c).before 0 t d = iblk4 V c 0 t :=
  before4 V c 0 (by decide) t d
theorem before4_1 (c : Dev nD) (t : Fin cfg4.N) (d) : (dat4 V c).before 1 t d = iblk4 V c 1 t :=
  before4 V c 1 (by decide) t d

theorem before4_2_later (c : Dev nD) (t : Fin cfg4.N) (h0 : ¬t.val % 5 = 0) (d) :
    (dat4 V c).before 2 t d = (acc4 V c (t.val - 1) (Nat.lt_of_le_of_lt (Nat.sub_le _ _) t.isLt)).1 := by
  have hN : t.val < 5 := lt_of_lt_of_eq t.isLt (show cfg4.N = 5 from N_4)
  rw [Dat.before_out_kept _ 2 rfl t (by omega) (Bool.eq_false_iff.mpr fun h => by have := (flush4_2 _).mp h; dsimp only at this; omega)
    (fun _ => rfl) (fun _ _ => rfl)]
  dsimp only [dat4]

theorem before4_3_later (c : Dev nD) (t : Fin cfg4.N) (h0 : ¬t.val % 5 = 0) (d) :
    (dat4 V c).before 3 t d = (acc4 V c (t.val - 1) (Nat.lt_of_le_of_lt (Nat.sub_le _ _) t.isLt)).2 := by
  have hN : t.val < 5 := lt_of_lt_of_eq t.isLt (show cfg4.N = 5 from N_4)
  rw [Dat.before_out_kept _ 3 rfl t (by omega) (Bool.eq_false_iff.mpr fun h => by have := (flush4_3 _).mp h; dsimp only at this; omega)
    (fun _ => rfl) (fun _ _ => rfl)]
  dsimp only [dat4]

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

set_option maxHeartbeats 800000 in

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2, after4_3, cc4_eq]
  by_cases h0 : t.val % 5 = 0
  · rw [acc4_first V c t h0, pay4_2, pay4_3, pay4_4, pay4_5]
    iintro ⟨HΦ, Ho, ⟨%d0, H0⟩, ⟨%d1, H1⟩, ⟨%d2, H2⟩, ⟨%d3, H3⟩⟩
    iapply (sound_first1 c Set.univ (grid4.coords t) _ _ _ _ _ _ _ _ ((atFirst1_iff t).mpr h0) (iblk4 V c 0 t) (iblk4 V c 1 t) _)
    iframe
    isplitl [H2]; · iexists _; iexact H2
    isplitl [H3]; · iexists _; iexact H3
    iintro ⟨H0, H1, H2, H3⟩
    iframe
  · rw [acc4_later V c t h0, pay4_4, pay4_5]
    simp only [before4_2_later V c t h0, before4_3_later V c t h0]
    iintro ⟨HΦ, Ho, ⟨%d0, H0⟩, ⟨%d1, H1⟩, ⟨%d2, H2⟩, ⟨%d3, H3⟩⟩
    iapply (sound_later1 c Set.univ (grid4.coords t) _ _ _ _ _ _ _ _ (fun h => h0 ((atFirst1_iff t).mp h)) (iblk4 V c 0 t) (iblk4 V c 1 t) _ _ _)
    iframe
    iintro ⟨H0, H1, H2, H3⟩
    iframe

theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KernelIdeal.Reg5.lean ====
import proofs.«425307_j45586782880378_1_alg».proof.Proof.KernelIdeal.Reg2

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem cc5_eq : cc5__bn_norm_kernel (F := F) = cc2__bn_norm_kernel := by
  rw [cc5__bn_norm_kernel_eq_skeleton, cc2__bn_norm_kernel_eq_skeleton]; rfl

theorem pay5_eq : k5_pay1 (F := F) = k2_pay1 := rfl

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => k5_pay1 (iblk5 V c 0 t) (iblk5 V c 1 t) (iblk5 V c 2 t) (iblk5 V c 3 t) (iblk5 V c 4 t) (iblk5 V c 5 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = k5_pay1 (iblk5 V c 0 t) (iblk5 V c 1 t) (iblk5 V c 2 t) (iblk5 V c 3 t) (iblk5 V c 4 t) (iblk5 V c 5 t) := by dsimp only [dat5]

theorem before5 (c : Dev nD) (w : Fin cfg5.W) (hw : w.val < 6) (t : Fin cfg5.N) (d) :
    (dat5 V c).before w t d = (dat5 V c).fetched w t d := by
  obtain ⟨_ | _ | _ | _ | _ | _ | w, h⟩ := w
  iterate 6 exact (dat5 V c).before_in_eq_fetched _ rfl (fun _ => rfl) (fun _ _ _ => rfl) (fun _ => rfl) t d
  exact absurd hw (Nat.not_lt.mpr (Nat.le_add_left 6 w))

theorem before5_0 (c : Dev nD) (t : Fin cfg5.N) (d) : (dat5 V c).before 0 t d = iblk5 V c 0 t :=
  before5 V c 0 (by decide) t d
theorem before5_1 (c : Dev nD) (t : Fin cfg5.N) (d) : (dat5 V c).before 1 t d = iblk5 V c 1 t :=
  before5 V c 1 (by decide) t d
theorem before5_2 (c : Dev nD) (t : Fin cfg5.N) (d) : (dat5 V c).before 2 t d = iblk5 V c 2 t :=
  before5 V c 2 (by decide) t d
theorem before5_3 (c : Dev nD) (t : Fin cfg5.N) (d) : (dat5 V c).before 3 t d = iblk5 V c 3 t :=
  before5 V c 3 (by decide) t d
theorem before5_4 (c : Dev nD) (t : Fin cfg5.N) (d) : (dat5 V c).before 4 t d = iblk5 V c 4 t :=
  before5 V c 4 (by decide) t d
theorem before5_5 (c : Dev nD) (t : Fin cfg5.N) (d) : (dat5 V c).before 5 t d = iblk5 V c 5 t :=
  before5 V c 5 (by decide) t d

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, cc5_eq, pay5_eq]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk5 V c 0 t) (iblk5 V c 1 t) (iblk5 V c 2 t) (iblk5 V c 3 t) (iblk5 V c 4 t) (iblk5 V c 5 t) _)
  iframe
  isplitl [H6]; · iexists _; iexact H6
  iintro ⟨H0, H1, H2, H3, H4, H5, H6⟩
  iframe

theorem body_obligation5 (c : Dev nD) : BodyObligation (dat5 (F := F) V c) (defs₀ (F := F)) Variants.none () Set.univ := fun t => by
  rw [bigSep_W5, bigSep_W5]
  exact sound_body5 V c t

end Cert.KernelIdeal.Hand
-- ==== Proof.KernelIdeal.Reg6.lean ====
import proofs.«425307_j45586782880378_1_alg».proof.Proof.KernelIdeal.Reg0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => k6_pay1 (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) :
    (dat6 V c).after 2 t = k6_pay1 (iblk6 V c 0 t) (iblk6 V c 1 t) := by dsimp only [dat6]

theorem found6 (c : Dev nD) (w : Fin cfg6.W) (hw : w.val < 2) (t : Fin cfg6.N) (d) :
    (dat6 V c).before w t d = (dat6 V c).fetched w t d := by
  obtain ⟨_ | _ | w, h⟩ := w
  iterate 2 exact (dat6 V c).before_in_eq_fetched _ rfl (fun _ => rfl) (fun _ _ _ => rfl) (fun _ => rfl) t d
  exact absurd hw (Nat.not_lt.mpr (Nat.le_add_left 2 w))

theorem found6_0 (c : Dev nD) (t : Fin cfg6.N) (d) : (dat6 V c).before 0 t d = iblk6 V c 0 t :=
  found6 V c 0 (by decide) t d

theorem found6_1 (c : Dev nD) (t : Fin cfg6.N) (d) : (dat6 V c).before 1 t d = iblk6 V c 1 t :=
  found6 V c 1 (by decide) t d

theorem pay6_eq : k6_pay1 (F := F) = k0_pay1 := by
  funext x w; unfold k6_pay1 k0_pay1; rw [shapeCast_self]

theorem cc6_eq : cc6__matmul_kernel (F := F) = cc0__matmul_kernel := by
  rw [cc6__matmul_kernel_eq_skeleton, cc0__matmul_kernel_eq_skeleton]
  funext i a1 h1 a2 h2 a3 h3
  unfold cc6__matmul_kernel_skel cc0__matmul_kernel_skel; rw [pay6_eq]

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [found6_0, found6_1]
  rw [show (dat6 V c).Φ t.succ = (dat6 V c).Φ t.castSucc from rfl,
    show (dat6 V c).owesAt () t.succ = (dat6 V c).owesAt () t.castSucc from rfl,
    after6_0, after6_1, after6_2, cc6_eq, pay6_eq]
  iintro ⟨HΦ, Ho, ⟨%d0, H0⟩, ⟨%d1, H1⟩, ⟨%d2, H2⟩⟩
  iapply (product_body0 c Set.univ _ _ _ _ _ _ _ (iblk6 V c 0 t) (iblk6 V c 1 t) _)
  iframe
  isplitl [H2]; · iexists _; iexact H2
  iintro ⟨H0, H1, H2⟩
  iframe

theorem body_obligation6 (c : Dev nD) : BodyObligation (dat6 (F := F) V c) (defs₀ (F := F)) Variants.none () Set.univ := fun t => by
  rw [bigSep_W6, bigSep_W6]
  exact sound_body6 V c t

end Cert.KernelIdeal.Hand
-- ==== Proof.KernelIdeal.Reg7.lean ====
import proofs.«425307_j45586782880378_1_alg».proof.Proof.KernelIdeal.Reg1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

theorem cc7_eq : cc7__bn_reduce_kernel (F := F) = cc1__bn_reduce_kernel := by
  rw [cc7__bn_reduce_kernel_eq_skeleton, cc1__bn_reduce_kernel_eq_skeleton]; rfl

theorem pay7_2 : k7_pay2 (F := F) = k1_pay2 := rfl
theorem pay7_3 : k7_pay3 (F := F) = k1_pay3 := rfl
theorem pay7_4 : k7_pay4 (F := F) = k1_pay4 := rfl
theorem pay7_5 : k7_pay5 (F := F) = k1_pay5 := rfl

def acc7 (c : Dev nD) : (n : ℕ) → n < cfg7.N → Vec F S1x128 .f32 × Vec F S1x128 .f32
  | 0, h => (k7_pay4 (iblk7 V c 0 ⟨0, h⟩) (iblk7 V c 1 ⟨0, h⟩) k7_pay2, k7_pay5 (iblk7 V c 0 ⟨0, h⟩) (iblk7 V c 1 ⟨0, h⟩) k7_pay3)
  | n + 1, h =>
    (k7_pay4 (iblk7 V c 0 ⟨n + 1, h⟩) (iblk7 V c 1 ⟨n + 1, h⟩) (acc7 c n (Nat.lt_of_succ_lt h)).1,
     k7_pay5 (iblk7 V c 0 ⟨n + 1, h⟩) (iblk7 V c 1 ⟨n + 1, h⟩) (acc7 c n (Nat.lt_of_succ_lt h)).2)

theorem acc7_zero (c : Dev nD) (h : 0 < cfg7.N) :
    acc7 V c 0 h = (k7_pay4 (iblk7 V c 0 ⟨0, h⟩) (iblk7 V c 1 ⟨0, h⟩) k7_pay2, k7_pay5 (iblk7 V c 0 ⟨0, h⟩) (iblk7 V c 1 ⟨0, h⟩) k7_pay3) := rfl

theorem acc7_succ (c : Dev nD) (n : ℕ) (h : n + 1 < cfg7.N) :
    acc7 V c (n + 1) h = (k7_pay4 (iblk7 V c 0 ⟨n + 1, h⟩) (iblk7 V c 1 ⟨n + 1, h⟩) (acc7 V c n (by omega)).1,
      k7_pay5 (iblk7 V c 0 ⟨n + 1, h⟩) (iblk7 V c 1 ⟨n + 1, h⟩) (acc7 V c n (by omega)).2) := rfl

theorem acc7_first (c : Dev nD) (t : Fin cfg7.N) (h0 : t.val % 5 = 0) :
    acc7 V c t.val t.isLt = (k7_pay4 (iblk7 V c 0 t) (iblk7 V c 1 t) k7_pay2, k7_pay5 (iblk7 V c 0 t) (iblk7 V c 1 t) k7_pay3) := by
  have hN : t.val < 5 := lt_of_lt_of_eq t.isLt (show cfg7.N = 5 from N_7)
  obtain ⟨n, hn⟩ := t
  cases n with
  | zero => exact rfl
  | succ n => exact (by exfalso; dsimp only at h0 hN; omega)

theorem acc7_later (c : Dev nD) (t : Fin cfg7.N) (h0 : ¬t.val % 5 = 0) :
    acc7 V c t.val t.isLt =
      (k7_pay4 (iblk7 V c 0 t) (iblk7 V c 1 t) (acc7 V c (t.val - 1) (Nat.lt_of_le_of_lt (Nat.sub_le _ _) t.isLt)).1,
       k7_pay5 (iblk7 V c 0 t) (iblk7 V c 1 t) (acc7 V c (t.val - 1) (Nat.lt_of_le_of_lt (Nat.sub_le _ _) t.isLt)).2) := by
  obtain ⟨n, hn⟩ := t
  cases n with
  | zero => exact (by exfalso; exact h0 (Nat.zero_mod _))
  | succ n => exact rfl

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => (acc7 V c t.val t.isLt).1
    | ⟨3, _⟩ => (acc7 V c t.val t.isLt).2
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = (acc7 V c t.val t.isLt).1 := by dsimp only [dat7]
theorem after7_3 (c : Dev nD) (t : Fin cfg7.N) : (dat7 V c).after 3 t = (acc7 V c t.val t.isLt).2 := by dsimp only [dat7]

theorem before7 (c : Dev nD) (w : Fin cfg7.W) (hw : w.val < 2) (t : Fin cfg7.N) (d) :
    (dat7 V c).before w t d = (dat7 V c).fetched w t d := by
  obtain ⟨_ | _ | w, h⟩ := w
  iterate 2 exact (dat7 V c).before_in_eq_fetched _ rfl (fun _ => rfl) (fun _ _ _ => rfl) (fun _ => rfl) t d
  exact absurd hw (Nat.not_lt.mpr (Nat.le_add_left 2 w))

theorem before7_0 (c : Dev nD) (t : Fin cfg7.N) (d) : (dat7 V c).before 0 t d = iblk7 V c 0 t :=
  before7 V c 0 (by decide) t d
theorem before7_1 (c : Dev nD) (t : Fin cfg7.N) (d) : (dat7 V c).before 1 t d = iblk7 V c 1 t :=
  before7 V c 1 (by decide) t d

theorem before7_2_later (c : Dev nD) (t : Fin cfg7.N) (h0 : ¬t.val % 5 = 0) (d) :
    (dat7 V c).before 2 t d = (acc7 V c (t.val - 1) (Nat.lt_of_le_of_lt (Nat.sub_le _ _) t.isLt)).1 := by
  have hN : t.val < 5 := lt_of_lt_of_eq t.isLt (show cfg7.N = 5 from N_7)
  rw [Dat.before_out_kept _ 2 rfl t (by omega) (Bool.eq_false_iff.mpr fun h => by have := (flush7_2 _).mp h; dsimp only at this; omega)
    (fun _ => rfl) (fun _ _ => rfl)]
  dsimp only [dat7]

theorem before7_3_later (c : Dev nD) (t : Fin cfg7.N) (h0 : ¬t.val % 5 = 0) (d) :
    (dat7 V c).before 3 t d = (acc7 V c (t.val - 1) (Nat.lt_of_le_of_lt (Nat.sub_le _ _) t.isLt)).2 := by
  have hN : t.val < 5 := lt_of_lt_of_eq t.isLt (show cfg7.N = 5 from N_7)
  rw [Dat.before_out_kept _ 3 rfl t (by omega) (Bool.eq_false_iff.mpr fun h => by have := (flush7_3 _).mp h; dsimp only at this; omega)
    (fun _ => rfl) (fun _ _ => rfl)]
  dsimp only [dat7]

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t))

set_option maxHeartbeats 800000 in

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).Φ t.succ = (dat7 V c).Φ t.castSucc from rfl,
    show (dat7 V c).owesAt () t.succ = (dat7 V c).owesAt () t.castSucc from rfl,
    after7_0, after7_1, after7_2, after7_3, cc7_eq]
  by_cases h0 : t.val % 5 = 0
  · rw [acc7_first V c t h0, pay7_2, pay7_3, pay7_4, pay7_5]
    iintro ⟨HΦ, Ho, ⟨%d0, H0⟩, ⟨%d1, H1⟩, ⟨%d2, H2⟩, ⟨%d3, H3⟩⟩
    iapply (sound_first1 c Set.univ (grid7.coords t) _ _ _ _ _ _ _ _ ((atFirst1_iff t).mpr h0) (iblk7 V c 0 t) (iblk7 V c 1 t) _)
    iframe
    isplitl [H2]; · iexists _; iexact H2
    isplitl [H3]; · iexists _; iexact H3
    iintro ⟨H0, H1, H2, H3⟩
    iframe
  · rw [acc7_later V c t h0, pay7_4, pay7_5]
    simp only [before7_2_later V c t h0, before7_3_later V c t h0]
    iintro ⟨HΦ, Ho, ⟨%d0, H0⟩, ⟨%d1, H1⟩, ⟨%d2, H2⟩, ⟨%d3, H3⟩⟩
    iapply (sound_later1 c Set.univ (grid7.coords t) _ _ _ _ _ _ _ _ (fun h => h0 ((atFirst1_iff t).mp h)) (iblk7 V c 0 t) (iblk7 V c 1 t) _ _ _)
    iframe
    iintro ⟨H0, H1, H2, H3⟩
    iframe

theorem body_obligation7 (c : Dev nD) : BodyObligation (dat7 (F := F) V c) (defs₀ (F := F)) Variants.none () Set.univ := fun t => by
  rw [bigSep_W7, bigSep_W7]
  exact sound_body7 V c t

end Cert.KernelIdeal.Hand

end
-- ==== Proof.KernelIdeal.Reg8.lean ====
import proofs.«425307_j45586782880378_1_alg».proof.Proof.KernelIdeal.Reg2

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

theorem cc8_eq : cc8__bn_norm_kernel (F := F) = cc2__bn_norm_kernel := by
  rw [cc8__bn_norm_kernel_eq_skeleton, cc2__bn_norm_kernel_eq_skeleton]; rfl

theorem pay8_eq : k8_pay1 (F := F) = k2_pay1 := rfl

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => k8_pay1 (iblk8 V c 0 t) (iblk8 V c 1 t) (iblk8 V c 2 t) (iblk8 V c 3 t) (iblk8 V c 4 t) (iblk8 V c 5 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = iblk8 V c 5 t := by dsimp only [dat8]
theorem after8_6 (c : Dev nD) (t : Fin cfg8.N) : (dat8 V c).after 6 t = k8_pay1 (iblk8 V c 0 t) (iblk8 V c 1 t) (iblk8 V c 2 t) (iblk8 V c 3 t) (iblk8 V c 4 t) (iblk8 V c 5 t) := by dsimp only [dat8]

theorem before8 (c : Dev nD) (w : Fin cfg8.W) (hw : w.val < 6) (t : Fin cfg8.N) (d) :
    (dat8 V c).before w t d = (dat8 V c).fetched w t d := by
  obtain ⟨_ | _ | _ | _ | _ | _ | w, h⟩ := w
  iterate 6 exact (dat8 V c).before_in_eq_fetched _ rfl (fun _ => rfl) (fun _ _ _ => rfl) (fun _ => rfl) t d
  exact absurd hw (Nat.not_lt.mpr (Nat.le_add_left 6 w))

theorem before8_0 (c : Dev nD) (t : Fin cfg8.N) (d) : (dat8 V c).before 0 t d = iblk8 V c 0 t :=
  before8 V c 0 (by decide) t d
theorem before8_1 (c : Dev nD) (t : Fin cfg8.N) (d) : (dat8 V c).before 1 t d = iblk8 V c 1 t :=
  before8 V c 1 (by decide) t d
theorem before8_2 (c : Dev nD) (t : Fin cfg8.N) (d) : (dat8 V c).before 2 t d = iblk8 V c 2 t :=
  before8 V c 2 (by decide) t d
theorem before8_3 (c : Dev nD) (t : Fin cfg8.N) (d) : (dat8 V c).before 3 t d = iblk8 V c 3 t :=
  before8 V c 3 (by decide) t d
theorem before8_4 (c : Dev nD) (t : Fin cfg8.N) (d) : (dat8 V c).before 4 t d = iblk8 V c 4 t :=
  before8 V c 4 (by decide) t d
theorem before8_5 (c : Dev nD) (t : Fin cfg8.N) (d) : (dat8 V c).before 5 t d = iblk8 V c 5 t :=
  before8 V c 5 (by decide) t d

def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d))
    ∗ (∃ d, owns (c : Thread nD τ) (st8_6 t) fullShare ((dat8 V c).before 6 t d)))

def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t)
    ∗ owns (c : Thread nD τ) (st8_6 t) fullShare ((dat8 V c).after 6 t))

theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4, before8_5]
  rw [show (dat8 V c).Φ t.succ = (dat8 V c).Φ t.castSucc from rfl,
    show (dat8 V c).owesAt () t.succ = (dat8 V c).owesAt () t.castSucc from rfl,
    after8_0, after8_1, after8_2, after8_3, after8_4, after8_5, after8_6, cc8_eq, pay8_eq]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk8 V c 0 t) (iblk8 V c 1 t) (iblk8 V c 2 t) (iblk8 V c 3 t) (iblk8 V c 4 t) (iblk8 V c 5 t) _)
  iframe
  isplitl [H6]; · iexists _; iexact H6
  iintro ⟨H0, H1, H2, H3, H4, H5, H6⟩
  iframe

theorem body_obligation8 (c : Dev nD) : BodyObligation (dat8 (F := F) V c) (defs₀ (F := F)) Variants.none () Set.univ := fun t => by
  rw [bigSep_W8, bigSep_W8]
  exact sound_body8 V c t

end Cert.KernelIdeal.Hand
-- ==== Proof.KernelIdeal.Reg9.lean ====
import proofs.«425307_j45586782880378_1_alg».proof.Proof.Gen.KernelIdeal.Launch
import proofs.«425307_j45586782880378_1_alg».proof.Proof.Gen.KernelIdeal.Skeleton
import proofs.«425307_j45586782880378_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

abbrev isFirst9 (i : grid9.Coords) : Prop :=
  (Scalar.cmpi .ne (Scalar.extui (Scalar.cmpi .eq (BitVec.ofNat 32 (i 0).val) 0#32)) 0#32) = 1#1

theorem isFirst9_iff : ∀ t : Fin cfg9.N, isFirst9 (grid9.coords t) ↔ t.val = 0 :=
  (by decide +kernel : ∀ t : Fin grid9.N, isFirst9 (grid9.coords t) ↔ t.val = 0)

theorem isLast9_iff : ∀ t : Fin cfg9.N, k9_cond2 (grid9.coords t) = 1#1 ↔ t.val = 4 :=
  (by decide +kernel : ∀ t : Fin grid9.N, k9_cond2 (grid9.coords t) = 1#1 ↔ t.val = 4)

theorem idle9_5_iff : ∀ t : Fin cfg9.N, cfg9.idle 5 (cfg9.grid.coords t) = true ↔ t.val ≠ 4 :=
  (by decide +kernel : ∀ t : Fin grid9.N, idle9 5 (grid9.coords t) = true ↔ t.val ≠ 4)

theorem zeros2 : (![0, 0] : Fin 2 → Nat) = fun _ => 0 := funext fun a => by fin_cases a <;> rfl

set_option maxHeartbeats 1000000 in

theorem pool_first (c : Dev nD) (E : Set ℕ) (i : grid9.Coords) (h1 : isFirst9 i) (h2 : ¬ k9_cond2 i = 1#1)
    (arg1 : Memref sig .tc .vmem S10000x128 .f32) (harg1 : arg1.IsWhole) (arg2 : Memref sig .tc .vmem S10000x128 .bf16) (harg2 : arg2.IsWhole) (arg3 : Memref sig .tc .vmem S128x1 .f32) (harg3 : arg3.IsWhole) (arg4 : Memref sig .tc .vmem S128x10 .f32) (harg4 : arg4.IsWhole) (arg5 : Memref sig .tc .vmem S1x10 .f32) (harg5 : arg5.IsWhole) (arg6 : Memref sig .tc .vmem S128x10 .f32) (harg6 : arg6.IsWhole) (arg7 : Memref sig .tc .vmem S128x128 .f32) (harg7 : arg7.IsWhole)
    (x0 : Vec F S10000x128 .f32) (x1 : Vec F S10000x128 .bf16) (K : PUnit → sProp 𝕄) :
    iprop(owns (c : Thread nD τ) arg1 fullShare x0 ∗ owns (c : Thread nD τ) arg2 fullShare x1 ∗ (∃ s, owns (c : Thread nD τ) arg7 fullShare s)
        ∗ (iprop(owns (c : Thread nD τ) arg1 fullShare x0 ∗ owns (c : Thread nD τ) arg2 fullShare x1
            ∗ owns (c : Thread nD τ) arg7 fullShare (k9_pay2 x0 x1 k9_pay1)) -∗ K ⟨⟩))
      ⊢ wp frame (wpE (defs₀ (F := F)) Variants.none c none) E (cc9__pool_kernel i arg1 harg1 arg2 harg2 arg3 harg3 arg4 harg4 arg5 harg5 arg6 harg6 arg7 harg7) K := by
  simp only [cc9__pool_kernel_eq_skeleton]; unfold cc9__pool_kernel_skel
  unfold owns
  iintro ⟨⟨%f0, %hf0, H0⟩, ⟨%f1, %hf1, H1⟩, ⟨%s, %f7, -, H7⟩, Hk⟩
  subst hf0; subst hf1
  sl_exec (disch := first | sl_exact h1 | sl_exact h2)
  sl_step
  iapply Hk
  isplitl [H0]
  · iexists f0; isplitr; · ipureintro; rfl
    iexact H0
  isplitl [H1]
  · iexists f1; isplitr; · ipureintro; rfl
    iexact H1
  iexists _; isplitr
  swap; · iexact H7
  ipureintro
  sl_unfold_words
  rw [View.read_writes_eq_canon _ _ _ (fun y => ⟨_, List.mem_cons_self, View.mem_set_unit_zero zeros2 inb_S128x128_S128x128_0_0 y⟩)]
  rw [View.canon_cons_unit_zero (S := S128x128) zeros2, View.readCov_unit_zero (S := S128x128) _ zeros2]
  simp only [View.readAt_eq_ld, View.ld_unit_zero (S := S10000x128) zeros2]

set_option maxHeartbeats 1000000 in

theorem pool_mid (c : Dev nD) (E : Set ℕ) (i : grid9.Coords) (h1 : ¬ isFirst9 i) (h2 : ¬ k9_cond2 i = 1#1)
    (arg1 : Memref sig .tc .vmem S10000x128 .f32) (harg1 : arg1.IsWhole) (arg2 : Memref sig .tc .vmem S10000x128 .bf16) (harg2 : arg2.IsWhole) (arg3 : Memref sig .tc .vmem S128x1 .f32) (harg3 : arg3.IsWhole) (arg4 : Memref sig .tc .vmem S128x10 .f32) (harg4 : arg4.IsWhole) (arg5 : Memref sig .tc .vmem S1x10 .f32) (harg5 : arg5.IsWhole) (arg6 : Memref sig .tc .vmem S128x10 .f32) (harg6 : arg6.IsWhole) (arg7 : Memref sig .tc .vmem S128x128 .f32) (harg7 : arg7.IsWhole)
    (x0 : Vec F S10000x128 .f32) (x1 : Vec F S10000x128 .bf16) (s : Vec F S128x128 .f32) (K : PUnit → sProp 𝕄) :
    iprop(owns (c : Thread nD τ) arg1 fullShare x0 ∗ owns (c : Thread nD τ) arg2 fullShare x1 ∗ owns (c : Thread nD τ) arg7 fullShare s
        ∗ (iprop(owns (c : Thread nD τ) arg1 fullShare x0 ∗ owns (c : Thread nD τ) arg2 fullShare x1
            ∗ owns (c : Thread nD τ) arg7 fullShare (k9_pay2 x0 x1 s)) -∗ K ⟨⟩))
      ⊢ wp frame (wpE (defs₀ (F := F)) Variants.none c none) E (cc9__pool_kernel i arg1 harg1 arg2 harg2 arg3 harg3 arg4 harg4 arg5 harg5 arg6 harg6 arg7 harg7) K := by
  simp only [cc9__pool_kernel_eq_skeleton]; unfold cc9__pool_kernel_skel
  unfold owns
  iintro ⟨⟨%f0, %hf0, H0⟩, ⟨%f1, %hf1, H1⟩, ⟨%f7, %hf7, H7⟩, Hk⟩
  subst hf0; subst hf1; subst hf7
  sl_exec (disch := first | sl_exact h1 | sl_exact h2)
  sl_step
  iapply Hk
  isplitl [H0]
  · iexists f0; isplitr; · ipureintro; rfl
    iexact H0
  isplitl [H1]
  · iexists f1; isplitr; · ipureintro; rfl
    iexact H1
  iexists _; isplitr
  swap; · iexact H7
  ipureintro
  try sl_unfold_words
  rw [View.read_writes_eq_canon _ _ _ (fun y => ⟨_, List.mem_cons_self, View.mem_set_unit_zero zeros2 inb_S128x128_S128x128_0_0 y⟩)]
  rw [View.canon_cons_unit_zero (S := S128x128) zeros2]
  simp only [View.readAt_eq_ld, View.ld_unit_zero (S := S10000x128) zeros2, View.ld_unit_zero (S := S128x128) zeros2]

set_option maxHeartbeats 1000000 in

theorem pool_last (c : Dev nD) (E : Set ℕ) (i : grid9.Coords) (h1 : ¬ isFirst9 i) (h2 : k9_cond2 i = 1#1)
    (arg1 : Memref sig .tc .vmem S10000x128 .f32) (harg1 : arg1.IsWhole) (arg2 : Memref sig .tc .vmem S10000x128 .bf16) (harg2 : arg2.IsWhole) (arg3 : Memref sig .tc .vmem S128x1 .f32) (harg3 : arg3.IsWhole) (arg4 : Memref sig .tc .vmem S128x10 .f32) (harg4 : arg4.IsWhole) (arg5 : Memref sig .tc .vmem S1x10 .f32) (harg5 : arg5.IsWhole) (arg6 : Memref sig .tc .vmem S128x10 .f32) (harg6 : arg6.IsWhole) (arg7 : Memref sig .tc .vmem S128x128 .f32) (harg7 : arg7.IsWhole)
    (x0 : Vec F S10000x128 .f32) (x1 : Vec F S10000x128 .bf16) (x2 : Vec F S128x1 .f32) (x3 : Vec F S128x10 .f32)
    (x4 : Vec F S1x10 .f32) (s : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ owns (c : Thread nD τ) arg7 fullShare s
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (k9_pay3 (k9_pay2 x0 x1 s) x2 x3 x4)
            ∗ owns (c : Thread nD τ) arg7 fullShare (k9_pay2 x0 x1 s)) -∗ K ⟨⟩))
      ⊢ wp frame (wpE (defs₀ (F := F)) Variants.none c none) E (cc9__pool_kernel i arg1 harg1 arg2 harg2 arg3 harg3 arg4 harg4 arg5 harg5 arg6 harg6 arg7 harg7) K := by
  simp only [cc9__pool_kernel_eq_skeleton]; unfold cc9__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%d, %f6, -, H6⟩, ⟨%f7, %hf7, H7⟩, Hk⟩
  subst hf0; subst hf1; subst hf2; subst hf3; subst hf4; subst hf7
  sl_exec (disch := first | sl_exact h1 | sl_exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H6]
  · iexists _; isplitr
    swap; · iexact H6
    ipureintro
    sl_unfold_words
    rw [View.read_writes_eq_canon _ _ _ (fun y => ⟨_, List.mem_cons_self, View.mem_set_unit_zero zeros2 inb_S128x10_S128x10_0_0 y⟩)]
    rw [View.canon_cons_unit_zero (S := S128x10) zeros2, View.readCov_unit_zero (S := S128x128) _ zeros2]
    simp only [View.readAt_eq_ld, View.ld_unit_zero (S := S10000x128) zeros2, View.ld_unit_zero (S := S128x128) zeros2,
      View.ld_unit_zero (S := S128x1) zeros2, View.ld_unit_zero (S := S128x10) zeros2, View.ld_unit_zero (S := S1x10) zeros2]
  iexists _; isplitr
  swap; · iexact H7
  ipureintro
  sl_unfold_words
  rw [View.read_writes_eq_canon _ _ _ (fun y => ⟨_, List.mem_cons_self, View.mem_set_unit_zero zeros2 inb_S128x128_S128x128_0_0 y⟩)]
  rw [View.canon_cons_unit_zero (S := S128x128) zeros2]
  simp only [View.readAt_eq_ld, View.ld_unit_zero (S := S10000x128) zeros2, View.ld_unit_zero (S := S128x128) zeros2]

def acc9 (c : Dev nD) : (n : ℕ) → n < cfg9.N → Vec F S128x128 .f32
  | 0, h => k9_pay2 (iblk9 V c 0 ⟨0, h⟩) (iblk9 V c 1 ⟨0, h⟩) k9_pay1
  | n + 1, h => k9_pay2 (iblk9 V c 0 ⟨n + 1, h⟩) (iblk9 V c 1 ⟨n + 1, h⟩) (acc9 c n (Nat.lt_of_succ_lt h))

theorem acc9_first (c : Dev nD) (t : Fin cfg9.N) (h0 : t.val = 0) :
    acc9 V c t.val t.isLt = k9_pay2 (iblk9 V c 0 t) (iblk9 V c 1 t) k9_pay1 := by
  obtain ⟨n, hn⟩ := t
  cases n with
  | zero => rfl
  | succ n => exact absurd h0 (Nat.succ_ne_zero n)

theorem acc9_later (c : Dev nD) (t : Fin cfg9.N) (h0 : t.val ≠ 0) :
    acc9 V c t.val t.isLt = k9_pay2 (iblk9 V c 0 t) (iblk9 V c 1 t)
      (acc9 V c (t.val - 1) (Nat.lt_of_le_of_lt (Nat.sub_le _ _) t.isLt)) := by
  obtain ⟨n, hn⟩ := t
  cases n with
  | zero => exact absurd rfl h0
  | succ n => rfl

abbrev accAt (c : Dev nD) (v : Vec F S128x128 .f32) : sProp 𝕄 :=
  owns (c : Thread nD τ) (Memref.whole cc9_scratch0 : Memref sig .tc .vmem S128x128 .f32) fullShare v

theorem accAt_of_pointsTo (c : Dev nD) (f : Buf (Elt F) ((c : Thread nD τ).loc cc9_scratch0)) :
    (((c : Thread nD τ).loc cc9_scratch0) ↦{fullShare} f : sProp 𝕄) ⊢ accAt c f :=
  Entails.of_eq (owns_whole (c : Thread nD τ) cc9_scratch0 fullShare f).symm

theorem pointsTo_of_accAt (c : Dev nD) (v : Vec F S128x128 .f32) :
    accAt c v ⊢ (iprop(∃ f : Buf (Elt F) ((c : Thread nD τ).loc cc9_scratch0), ((c : Thread nD τ).loc cc9_scratch0) ↦{fullShare} f) : sProp 𝕄) := by
  iintro H; iexists v
  iapply (Entails.of_eq (owns_whole (c : Thread nD τ) cc9_scratch0 fullShare v)); iexact H

def PhiAcc9 (c : Dev nD) (v : Vec F S128x128 .f32) : sProp 𝕄 :=
  iprop(accAt c v ∗ Pipeline.scopedRestBut (Ix := Unit) (Name := ℕ) (U := UR sig nD τ) (Lvl := ℕ) (Val := Elt F) spec9 c [cc9_scratch0] ∗ ∃ r, prngReg c r)

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => k9_pay3 (acc9 V c t.val t.isLt) (iblk9 V c 2 t) (iblk9 V c 3 t) (iblk9 V c 4 t)
  Φ i := match i with
    | ⟨0, _⟩ => Pipeline.ΦA spec9 c
    | ⟨n + 1, h⟩ => PhiAcc9 c (acc9 V c n (Nat.lt_of_succ_lt_succ h))
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]

theorem after9_5 (c : Dev nD) (t : Fin cfg9.N) :
    (dat9 V c).after 5 t = k9_pay3 (acc9 V c t.val t.isLt) (iblk9 V c 2 t) (iblk9 V c 3 t) (iblk9 V c 4 t) := by dsimp only [dat9]
theorem Phi9_zero (c : Dev nD) : (dat9 V c).Φ 0 = Pipeline.ΦA spec9 c := by dsimp only [dat9]; rfl

theorem Phi9_succ (c : Dev nD) (t : Fin cfg9.N) : (dat9 V c).Φ t.succ = PhiAcc9 c (acc9 V c t.val t.isLt) := by
  dsimp only [dat9]; rfl

theorem Phi9_castSucc_zero (c : Dev nD) (t : Fin cfg9.N) (h0 : t.val = 0) : (dat9 V c).Φ t.castSucc = Pipeline.ΦA spec9 c := by
  obtain ⟨n, hn⟩ := t
  cases n with
  | zero => dsimp only [dat9]; rfl
  | succ n => exact absurd h0 (Nat.succ_ne_zero n)

theorem Phi9_castSucc_pos (c : Dev nD) (t : Fin cfg9.N) (h0 : t.val ≠ 0) :
    (dat9 V c).Φ t.castSucc = PhiAcc9 c (acc9 V c (t.val - 1) (Nat.lt_of_le_of_lt (Nat.sub_le _ _) t.isLt)) := by
  obtain ⟨n, hn⟩ := t
  cases n with
  | zero => exact absurd rfl h0
  | succ n => dsimp only [dat9]; rfl

theorem Phi9_last (c : Dev nD) : (dat9 V c).Φ (Fin.last _) ⊢ Pipeline.ΦA spec9 c := by
  have hl : Fin.last cfg9.N = (t9_4 : Fin cfg9.N).succ := Fin.ext (show cfg9.N = 4 + 1 from N_9)
  rw [hl, Phi9_succ]
  unfold PhiAcc9 Pipeline.ΦA
  rw [scopedRest9_split]
  iintro ⟨HA, HR, HP⟩
  isplitr [HP]
  swap; · iexact HP
  isplitl [HA]
  · iapply (pointsTo_of_accAt c _); iexact HA
  iexact HR

theorem before9_0 (c : Dev nD) (t : Fin cfg9.N) (d) : (dat9 V c).before 0 t d = iblk9 V c 0 t :=
  ((dat9 V c).before_in_eq_fetched 0 rfl (fun _ => rfl) (fun _ _ _ => rfl)
    (fun t => by rw [after9_0]; unfold Dat.blockOf iblk9; rw [A_eq9]; try rfl) t d).trans
    (by unfold Dat.fetched Dat.blockOf iblk9; rw [A_eq9]; try rfl)
theorem before9_1 (c : Dev nD) (t : Fin cfg9.N) (d) : (dat9 V c).before 1 t d = iblk9 V c 1 t :=
  ((dat9 V c).before_in_eq_fetched 1 rfl (fun _ => rfl) (fun _ _ _ => rfl)
    (fun t => by rw [after9_1]; unfold Dat.blockOf iblk9; rw [A_eq9]; try rfl) t d).trans
    (by unfold Dat.fetched Dat.blockOf iblk9; rw [A_eq9]; try rfl)
theorem before9_2 (c : Dev nD) (t : Fin cfg9.N) (d) : (dat9 V c).before 2 t d = iblk9 V c 2 t :=
  ((dat9 V c).before_in_eq_fetched 2 rfl (fun _ => rfl) (fun _ _ _ => rfl)
    (fun t => by rw [after9_2]; unfold Dat.blockOf iblk9; rw [A_eq9]; try rfl) t d).trans
    (by unfold Dat.fetched Dat.blockOf iblk9; rw [A_eq9]; try rfl)
theorem before9_3 (c : Dev nD) (t : Fin cfg9.N) (d) : (dat9 V c).before 3 t d = iblk9 V c 3 t :=
  ((dat9 V c).before_in_eq_fetched 3 rfl (fun _ => rfl) (fun _ _ _ => rfl)
    (fun t => by rw [after9_3]; unfold Dat.blockOf iblk9; rw [A_eq9]; try rfl) t d).trans
    (by unfold Dat.fetched Dat.blockOf iblk9; rw [A_eq9]; try rfl)
theorem before9_4 (c : Dev nD) (t : Fin cfg9.N) (d) : (dat9 V c).before 4 t d = iblk9 V c 4 t :=
  ((dat9 V c).before_in_eq_fetched 4 rfl (fun _ => rfl) (fun _ _ _ => rfl)
    (fun t => by rw [after9_4]; unfold Dat.blockOf iblk9; rw [A_eq9]; try rfl) t d).trans
    (by unfold Dat.fetched Dat.blockOf iblk9; rw [A_eq9]; try rfl)

def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d)))

def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ (dat9 V c).leavesExact 5 t)

set_option maxHeartbeats 1000000 in

theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  have hN : t.val < 5 := lt_of_lt_of_eq t.isLt (show cfg9.N = 5 from N_9)
  by_cases h4 : t.val = 4
  ·
    have h0 : t.val ≠ 0 := by omega
    have hi : cfg9.idle 5 (cfg9.grid.coords t) = false := by
      cases h : cfg9.idle 5 (cfg9.grid.coords t) with
      | false => rfl
      | true => exact absurd h4 ((idle9_5_iff t).mp h)
    rw [show (dat9 V c).leavesExact 5 t = owns (c : Thread nD τ) (st9_5 t) fullShare ((dat9 V c).after 5 t) from by
      unfold Dat.leavesExact; rw [hi]]
    simp only [before9_0, before9_1, before9_2, before9_3, before9_4]
    rw [show (dat9 V c).owesAt () t.succ = (dat9 V c).owesAt () t.castSucc from rfl,
      after9_0, after9_1, after9_2, after9_3, after9_4, after9_5, Phi9_succ, Phi9_castSucc_pos V c t h0, acc9_later V c t h0]
    unfold PhiAcc9
    iintro ⟨⟨Hs, HR, HP⟩, Ho, ⟨%d0, H0⟩, ⟨%d1, H1⟩, ⟨%d2, H2⟩, ⟨%d3, H3⟩, ⟨%d4, H4⟩, ⟨%d5, H5⟩⟩
    iapply (pool_last c Set.univ (grid9.coords t) (fun h => h0 ((isFirst9_iff t).mp h)) ((isLast9_iff t).mpr h4)
      _ _ _ _ _ _ _ _ _ _ _ _ _ _ (iblk9 V c 0 t) (iblk9 V c 1 t) (iblk9 V c 2 t) (iblk9 V c 3 t) (iblk9 V c 4 t) _ _)
    isplitl [H0]; · iexact H0
    isplitl [H1]; · iexact H1
    isplitl [H2]; · iexact H2
    isplitl [H3]; · iexact H3
    isplitl [H4]; · iexact H4
    isplitl [H5]; · iexists _; iexact H5
    isplitl [Hs]; · iexact Hs
    iintro ⟨H0, H1, H2, H3, H4, H5, Hs⟩
    isplitl [Hs HR HP]
    · isplitl [Hs]; · iexact Hs
      isplitl [HR]; · iexact HR
      iexact HP
    isplitl [Ho]; · iexact Ho
    isplitl [H0]; · iexact H0
    isplitl [H1]; · iexact H1
    isplitl [H2]; · iexact H2
    isplitl [H3]; · iexact H3
    isplitl [H4]; · iexact H4
    iexact H5
  ·
    rw [(dat9 V c).leavesExact_idle 5 t ((idle9_5_iff t).mpr h4)
      (Bool.eq_false_iff.mpr fun h => by have := (flush9_5 t).mp h; omega)]
    simp only [before9_0, before9_1, before9_2, before9_3, before9_4]
    rw [show (dat9 V c).owesAt () t.succ = (dat9 V c).owesAt () t.castSucc from rfl,
      after9_0, after9_1, after9_2, after9_3, after9_4, Phi9_succ]
    by_cases h0 : t.val = 0
    ·
      rw [Phi9_castSucc_zero V c t h0, acc9_first V c t h0]
      unfold PhiAcc9 Pipeline.ΦA
      rw [scopedRest9_split]
      iintro ⟨⟨⟨⟨%fs, Hs⟩, HR⟩, HP⟩, Ho, ⟨%d0, H0⟩, ⟨%d1, H1⟩, ⟨%d2, H2⟩, ⟨%d3, H3⟩, ⟨%d4, H4⟩, H5⟩
      iapply (pool_first c Set.univ (grid9.coords t) ((isFirst9_iff t).mpr h0) (fun h => h4 ((isLast9_iff t).mp h))
        _ _ _ _ _ _ _ _ _ _ _ _ _ _ (iblk9 V c 0 t) (iblk9 V c 1 t) _)
      isplitl [H0]; · iexact H0
      isplitl [H1]; · iexact H1
      isplitl [Hs]
      · iexists fs; iapply (accAt_of_pointsTo c fs); iexact Hs
      iintro ⟨H0, H1, Hs⟩
      isplitl [Hs HR HP]
      · isplitl [Hs]; · iexact Hs
        isplitl [HR]; · iexact HR
        iexact HP
      isplitl [Ho]; · iexact Ho
      isplitl [H0]; · iexact H0
      isplitl [H1]; · iexact H1
      isplitl [H2]; · iexact H2
      isplitl [H3]; · iexact H3
      isplitl [H4]; · iexact H4
      iexact H5
    ·
      rw [Phi9_castSucc_pos V c t h0, acc9_later V c t h0]
      unfold PhiAcc9
      iintro ⟨⟨Hs, HR, HP⟩, Ho, ⟨%d0, H0⟩, ⟨%d1, H1⟩, ⟨%d2, H2⟩, ⟨%d3, H3⟩, ⟨%d4, H4⟩, H5⟩
      iapply (pool_mid c Set.univ (grid9.coords t) (fun h => h0 ((isFirst9_iff t).mp h)) (fun h => h4 ((isLast9_iff t).mp h))
        _ _ _ _ _ _ _ _ _ _ _ _ _ _ (iblk9 V c 0 t) (iblk9 V c 1 t) _ _)
      isplitl [H0]; · iexact H0
      isplitl [H1]; · iexact H1
      isplitl [Hs]; · iexact Hs
      iintro ⟨H0, H1, Hs⟩
      isplitl [Hs HR HP]
      · isplitl [Hs]; · iexact Hs
        isplitl [HR]; · iexact HR
        iexact HP
      isplitl [Ho]; · iexact Ho
      isplitl [H0]; · iexact H0
      isplitl [H1]; · iexact H1
      isplitl [H2]; · iexact H2
      isplitl [H3]; · iexact H3
      isplitl [H4]; · iexact H4
      iexact H5

theorem body_obligation9 (c : Dev nD) : BodyObligation (dat9 (F := F) V c) (defs₀ (F := F)) Variants.none () Set.univ := fun t => by
  rw [bigSep_W9, bigSep_W9]
  exact sound_body9 V c t

end Cert.KernelIdeal.Hand

end
-- ==== Proof.KernelIdeal.Chain.lean ====
import proofs.«425307_j45586782880378_1_alg».proof.Proof.Gen.KernelIdeal.Regions
import proofs.«425307_j45586782880378_1_alg».proof.Proof.KernelIdeal.Reg0
import proofs.«425307_j45586782880378_1_alg».proof.Proof.KernelIdeal.Reg1
import proofs.«425307_j45586782880378_1_alg».proof.Proof.KernelIdeal.Reg2
import proofs.«425307_j45586782880378_1_alg».proof.Proof.KernelIdeal.Reg3
import proofs.«425307_j45586782880378_1_alg».proof.Proof.KernelIdeal.Reg4
import proofs.«425307_j45586782880378_1_alg».proof.Proof.KernelIdeal.Reg5
import proofs.«425307_j45586782880378_1_alg».proof.Proof.KernelIdeal.Reg6
import proofs.«425307_j45586782880378_1_alg».proof.Proof.KernelIdeal.Reg7
import proofs.«425307_j45586782880378_1_alg».proof.Proof.KernelIdeal.Reg8
import proofs.«425307_j45586782880378_1_alg».proof.Proof.KernelIdeal.Reg9

set_option maxRecDepth 16384

noncomputable section

namespace Cert.KernelIdeal.Hand

open Idealize.ShloMosaic Idealize.ShloMosaic.TcCoe
open Idealize.SL Idealize.SL.Sem
open Idealize.ShloMosaic.Pipeline (Dat)
open Cert.KernelIdeal Cert.KernelIdeal.Gen

variable {F : FTy → Type} [FloatOps F]
variable (m : (ℓ : Loc nD τ sig) → Buf (Elt F) ℓ)

abbrev atRefs (Z : Dev nD → Valuation τ sig (Elt F)) : (c : Dev nD) → (b : Ref sig .tc) → Buf (Elt F) ((c : Thread nD τ).loc b) := fun c b => Z c b

abbrev Z3 (c : Dev nD) : Valuation τ sig (Elt F) := V3 m c

def Y4 (c : Dev nD) : Valuation τ sig (Elt F) :=
  Pipeline.withArrays spec0 c (Z3 m c) fun w => (dat0 (atRefs (Z3 m)) c).arrAt w cfg0.N

abbrev Z4 (c : Dev nD) : Valuation τ sig (Elt F) := Function.update (Z3 m c) main_v33 (Y4 m c main_v33)

abbrev Z5 (c : Dev nD) : Valuation τ sig (Elt F) := StableHlo.after hostOps1 (Z4 m c)

def Y6 (c : Dev nD) : Valuation τ sig (Elt F) :=
  Pipeline.withArrays spec1 c (Z5 m c) fun w => (dat1 (atRefs (Z5 m)) c).arrAt w cfg1.N

abbrev Z6 (c : Dev nD) : Valuation τ sig (Elt F) := Function.update (Function.update (Z5 m c) main_v47_0 (Y6 m c main_v47_0)) main_v47_1 (Y6 m c main_v47_1)

abbrev Z7 (c : Dev nD) : Valuation τ sig (Elt F) := StableHlo.after hostOps2 (Z6 m c)

def Y8 (c : Dev nD) : Valuation τ sig (Elt F) :=
  Pipeline.withArrays spec2 c (Z7 m c) fun w => (dat2 (atRefs (Z7 m)) c).arrAt w cfg2.N

abbrev Z8 (c : Dev nD) : Valuation τ sig (Elt F) := Function.update (Z7 m c) main_v64 (Y8 m c main_v64)

def Y9 (c : Dev nD) : Valuation τ sig (Elt F) :=
  Pipeline.withArrays spec3 c (Z8 m c) fun w => (dat3 (atRefs (Z8 m)) c).arrAt w cfg3.N

abbrev Z9 (c : Dev nD) : Valuation τ sig (Elt F) := Function.update (Z8 m c) main_v65 (Y9 m c main_v65)

abbrev Z10 (c : Dev nD) : Valuation τ sig (Elt F) := StableHlo.after hostOps4 (Z9 m c)

def Y11 (c : Dev nD) : Valuation τ sig (Elt F) :=
  Pipeline.withArrays spec4 c (Z10 m c) fun w => (dat4 (atRefs (Z10 m)) c).arrAt w cfg4.N

abbrev Z11 (c : Dev nD) : Valuation τ sig (Elt F) := Function.update (Function.update (Z10 m c) main_v79_0 (Y11 m c main_v79_0)) main_v79_1 (Y11 m c main_v79_1)

abbrev Z12 (c : Dev nD) : Valuation τ sig (Elt F) := StableHlo.after hostOps5 (Z11 m c)

def Y13 (c : Dev nD) : Valuation τ sig (Elt F) :=
  Pipeline.withArrays spec5 c (Z12 m c) fun w => (dat5 (atRefs (Z12 m)) c).arrAt w cfg5.N

abbrev Z13 (c : Dev nD) : Valuation τ sig (Elt F) := Function.update (Z12 m c) main_v96 (Y13 m c main_v96)

def Y14 (c : Dev nD) : Valuation τ sig (Elt F) :=
  Pipeline.withArrays spec6 c (Z13 m c) fun w => (dat6 (atRefs (Z13 m)) c).arrAt w cfg6.N

abbrev Z14 (c : Dev nD) : Valuation τ sig (Elt F) := Function.update (Z13 m c) main_v97 (Y14 m c main_v97)

abbrev Z15 (c : Dev nD) : Valuation τ sig (Elt F) := StableHlo.after hostOps7 (Z14 m c)

def Y16 (c : Dev nD) : Valuation τ sig (Elt F) :=
  Pipeline.withArrays spec7 c (Z15 m c) fun w => (dat7 (atRefs (Z15 m)) c).arrAt w cfg7.N

abbrev Z16 (c : Dev nD) : Valuation τ sig (Elt F) := Function.update (Function.update (Z15 m c) main_v111_0 (Y16 m c main_v111_0)) main_v111_1 (Y16 m c main_v111_1)

abbrev Z17 (c : Dev nD) : Valuation τ sig (Elt F) := StableHlo.after hostOps8 (Z16 m c)

def Y18 (c : Dev nD) : Valuation τ sig (Elt F) :=
  Pipeline.withArrays spec8 c (Z17 m c) fun w => (dat8 (atRefs (Z17 m)) c).arrAt w cfg8.N

abbrev Z18 (c : Dev nD) : Valuation τ sig (Elt F) := Function.update (Z17 m c) main_v128 (Y18 m c main_v128)

abbrev Z19 (c : Dev nD) : Valuation τ sig (Elt F) := StableHlo.after hostOps9 (Z18 m c)

abbrev Z20 (c : Dev nD) : Valuation τ sig (Elt F) := StableHlo.after hostOps9_1 (Z19 m c)

def Y21 (c : Dev nD) : Valuation τ sig (Elt F) :=
  Pipeline.withArrays spec9 c (Z20 m c) fun w => (dat9 (atRefs (Z20 m)) c).arrAt w cfg9.N

abbrev Z21 (c : Dev nD) : Valuation τ sig (Elt F) := Function.update (Z20 m c) main_v140 (Y21 m c main_v140)

def outs : Outs (F := F) := fun J r c => match J with
  | 4 => Y4 m c r
  | 6 => Y6 m c r
  | 8 => Y8 m c r
  | 9 => Y9 m c r
  | 11 => Y11 m c r
  | 13 => Y13 m c r
  | 14 => Y14 m c r
  | 16 => Y16 m c r
  | 18 => Y18 m c r
  | 21 => Y21 m c r
  | _ => Z3 m c r

def pdats : (p : Fin 10) → (c : Dev nD) → Dat τ (Elt F) Unit ℕ (UR sig nD τ) ℕ (cfgs p) c
  | ⟨0, _⟩ => fun c => dat0 (atRefs (Z3 m)) c
  | ⟨1, _⟩ => fun c => dat1 (atRefs (Z5 m)) c
  | ⟨2, _⟩ => fun c => dat2 (atRefs (Z7 m)) c
  | ⟨3, _⟩ => fun c => dat3 (atRefs (Z8 m)) c
  | ⟨4, _⟩ => fun c => dat4 (atRefs (Z10 m)) c
  | ⟨5, _⟩ => fun c => dat5 (atRefs (Z12 m)) c
  | ⟨6, _⟩ => fun c => dat6 (atRefs (Z13 m)) c
  | ⟨7, _⟩ => fun c => dat7 (atRefs (Z15 m)) c
  | ⟨8, _⟩ => fun c => dat8 (atRefs (Z17 m)) c
  | ⟨9, _⟩ => fun c => dat9 (atRefs (Z20 m)) c

abbrev Lz : GSem nD τ sig → Finset Unit := fun _ => ∅
abbrev lvz : GSem nD τ sig → Unit → ℕ := fun _ _ => 0

end Cert.KernelIdeal.Hand

end
-- ==== Proof.KernelIdeal.Rider.lean ====
import proofs.«425307_j45586782880378_1_alg».proof.Proof.KernelIdeal.Chain

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

abbrev Rr (c : Dev nD) : sProp 𝕄 := iprop((∃ r, prngReg c r) ∗ ∃ W, owes (c : Thread nD τ) (0 : CellTallies nD τ sig Unit) W)

set_option backward.isDefEq.respectTransparency.types false in
def regOf (p : Fin 10) (launch : Pipeline.LaunchFacts (nD := nD) (τ := τ) cfgs p)
    (Zi Zo : Dev nD → Valuation τ sig (Elt F))
    (hbody : ∀ c, Pipeline.BodyObligationLoose (pdats m p c) (defs₀ (F := F)) Variants.none () Set.univ)
    (hq : ∀ c w, (pdats m p c).q w = fullShare)
    (howed : ∀ c t, (pdats m p c).owed t = 0)
    (hrec : ∀ c x, x ∈ (pdats m p c).recorded 0)
    (hΦ0 : ∀ c, (pdats m p c).Φ 0 = Pipeline.ΦA (cfgs p).spec c)
    (hΦN : ∀ c, (pdats m p c).Φ (Fin.last _) ⊢ Pipeline.ΦA (cfgs p).spec c)
    (hA : ∀ c w, (pdats m p c).A w = atRefs Zi c (Pipeline.arrRef (cfgs p).spec w))
    (hF : ∀ c w, (pdats m p c).arrAt w (cfgs p).N = atRefs Zo c (Pipeline.arrRef (cfgs p).spec w))
    (hrest : ∀ c, ∀ b, b ∉ Finset.univ.image (Pipeline.arrRef (cfgs p).spec) → atRefs Zo c b = atRefs Zi c b) :
    Pipeline.RegionSeg (pcfgs (F := F)) adm (pdats m) () defs₀ Variants.none Lz lvz p where
  win := launch.win.to₀
  block_pos := launch.block_pos
  stage_whole := launch.stage_whole
  K := PEmpty
  osem k := k.elim
  ho := Pipeline.OwnSemFacts.none _
  hbody := hbody
  hwaits := Pipeline.hwaits_of_owed_zero _ _ _ _ Lz lvz p howed
  pre c := iprop(StableHlo.held (c : Thread nD τ) (Pipeline.ucRefs τ sig) (Zi c) ∗ Rr c)
  post c := iprop(StableHlo.held (c : Thread nD τ) (Pipeline.ucRefs τ sig) (Zo c) ∗ Rr c)
  X c := iprop(∃ r, prngReg c r)
  Y c := iprop(∃ r, prngReg c r)
  Z c := Pipeline.unscopedRest (Ix := Unit) (Name := ℕ) (U := UR sig nD τ) (Lvl := ℕ) (cfgs p).spec c (atRefs Zi c)
  hentry c := by
    rw [Pipeline.ownSems0_none]
    have hsplit := Pipeline.arrays_of_unscopedBufs (p := p) (pcfgs (F := F)) adm (pdats m) launch.win launch.arr_whole c
      ((pdats m p c).share_full (hq c)) (atRefs Zi c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed c 0]
      icases HO with ⟨%W, HO⟩; iexists W; isplitr; · ipureintro; exact fun x _ => Or.inl (hrec c x)
      iexact HO
    isplitl [Hp]; · iexact Hp
    iexact Hrest
  hin c := by
    rw [hΦ0 c]; unfold Pipeline.ΦA
    iintro ⟨Hp, -, Hr⟩
    isplitl [Hr]; · iexact Hr
    iexact Hp
  hout c := by
    rw [Pipeline.ownSems0_none]; refine (hΦN c).trans ?_; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      launch.win launch.arr_whole c (pdats m) ((pdats m p c).share_full (hq c))
      (atRefs Zi c) (atRefs Zo c) ((pdats m p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c (Fin.last _)]
    icases HO with ⟨%W, -, HO⟩; iexists W; iexact HO

end Cert.KernelIdeal.Hand

end
-- ==== Proof.KernelIdeal.Seg0.lean ====
import proofs.«425307_j45586782880378_1_alg».proof.Proof.KernelIdeal.Rider

set_option maxRecDepth 16384

noncomputable section

namespace Cert.KernelIdeal.Hand

open Idealize.ShloMosaic Idealize.ShloMosaic.TcCoe Idealize.SL.Sem
open Cert.KernelIdeal Cert.KernelIdeal.Gen

variable {F : FTy → Type} [FloatOps F]

variable (m : (ℓ : Loc nD τ sig) → Buf (Elt F) ℓ)

theorem outAt0_2 (c : Dev nD) : Z4 m c main_v33 = Y4 m c main_v33 := Function.update_self _ _ _

set_option maxHeartbeats 4000000 in

theorem hF0 (c : Dev nD) (w : Fin cfg0.W) : (dat0 (atRefs (Z3 m)) c).arrAt w cfg0.N = atRefs (Z4 m) c (Pipeline.arrRef spec0 w) := by
  fin_cases w
  iterate 2 exact (((dat0 (atRefs (Z3 m)) c).arrAt_in _ rfl _).trans (A_eq0 (atRefs (Z3 m)) c _)).trans (V4_of m (outs m) c _ (by decide)).symm
  exact (Pipeline.withArrays_arr spec0 launch0.win.arr_inj c _ _ (2 : Fin cfg0.W)).symm.trans (outAt0_2 m c).symm

theorem hrest0 (c : Dev nD) : ∀ b, b ∉ Finset.univ.image (Pipeline.arrRef spec0) → atRefs (Z4 m) c b = atRefs (Z3 m) c b :=
  fun b hb => V4_of m (outs m) c b (fun h => hb (by
    simp only [List.mem_cons, List.not_mem_nil, or_false] at h
    rcases h with rfl
    · exact Finset.mem_image.mpr ⟨(2 : Fin cfg0.W), Finset.mem_univ _, rfl⟩))

def reg0 : Pipeline.RegionSeg (pcfgs (F := F)) adm (pdats m) () defs₀ Variants.none Lz lvz 0 :=
  regOf m 0 launch0 (Z3 m) (Z4 m) (fun c => (body_obligation0 (atRefs (Z3 m)) c).loose)
    (fun _ _ => rfl) (fun _ _ => rfl) (fun _ _ => trivial) (fun _ => rfl) (fun _ => .rfl) (fun _ _ => rfl) (hF0 m) (hrest0 m)

end Cert.KernelIdeal.Hand

end
-- ==== Proof.KernelIdeal.Seg1.lean ====
import proofs.«425307_j45586782880378_1_alg».proof.Proof.KernelIdeal.Rider

set_option maxRecDepth 16384

noncomputable section

namespace Cert.KernelIdeal.Hand

open Idealize.ShloMosaic Idealize.ShloMosaic.TcCoe Idealize.SL.Sem
open Cert.KernelIdeal Cert.KernelIdeal.Gen

variable {F : FTy → Type} [FloatOps F]

variable (m : (ℓ : Loc nD τ sig) → Buf (Elt F) ℓ)

theorem outAt1_2 (c : Dev nD) : Z6 m c main_v47_0 = Y6 m c main_v47_0 := (Function.update_of_ne (StableHlo.devRef_ne_of_ne (by decide)) _ _).trans (Function.update_self _ _ _)

theorem outAt1_3 (c : Dev nD) : Z6 m c main_v47_1 = Y6 m c main_v47_1 := Function.update_self _ _ _

set_option maxHeartbeats 4000000 in

theorem hF1 (c : Dev nD) (w : Fin cfg1.W) : (dat1 (atRefs (Z5 m)) c).arrAt w cfg1.N = atRefs (Z6 m) c (Pipeline.arrRef spec1 w) := by
  fin_cases w
  iterate 2 exact (((dat1 (atRefs (Z5 m)) c).arrAt_in _ rfl _).trans (A_eq1 (atRefs (Z5 m)) c _)).trans (V6_of m (outs m) c _ (by decide)).symm
  exact (Pipeline.withArrays_arr spec1 launch1.win.arr_inj c _ _ (2 : Fin cfg1.W)).symm.trans (outAt1_2 m c).symm
  exact (Pipeline.withArrays_arr spec1 launch1.win.arr_inj c _ _ (3 : Fin cfg1.W)).symm.trans (outAt1_3 m c).symm

theorem hrest1 (c : Dev nD) : ∀ b, b ∉ Finset.univ.image (Pipeline.arrRef spec1) → atRefs (Z6 m) c b = atRefs (Z5 m) c b :=
  fun b hb => V6_of m (outs m) c b (fun h => hb (by
    simp only [List.mem_cons, List.not_mem_nil, or_false] at h
    rcases h with rfl | rfl
    · exact Finset.mem_image.mpr ⟨(2 : Fin cfg1.W), Finset.mem_univ _, rfl⟩
    · exact Finset.mem_image.mpr ⟨(3 : Fin cfg1.W), Finset.mem_univ _, rfl⟩))

def reg1 : Pipeline.RegionSeg (pcfgs (F := F)) adm (pdats m) () defs₀ Variants.none Lz lvz 1 :=
  regOf m 1 launch1 (Z5 m) (Z6 m) (fun c => (body_obligation1 (atRefs (Z5 m)) c).loose)
    (fun _ _ => rfl) (fun _ _ => rfl) (fun _ _ => trivial) (fun _ => rfl) (fun _ => .rfl) (fun _ _ => rfl) (hF1 m) (hrest1 m)

end Cert.KernelIdeal.Hand

end
-- ==== Proof.KernelIdeal.Seg2.lean ====
import proofs.«425307_j45586782880378_1_alg».proof.Proof.KernelIdeal.Rider

set_option maxRecDepth 16384

noncomputable section

namespace Cert.KernelIdeal.Hand

open Idealize.ShloMosaic Idealize.ShloMosaic.TcCoe Idealize.SL.Sem
open Cert.KernelIdeal Cert.KernelIdeal.Gen

variable {F : FTy → Type} [FloatOps F]

variable (m : (ℓ : Loc nD τ sig) → Buf (Elt F) ℓ)

theorem outAt2_6 (c : Dev nD) : Z8 m c main_v64 = Y8 m c main_v64 := Function.update_self _ _ _

set_option maxHeartbeats 4000000 in

theorem hF2 (c : Dev nD) (w : Fin cfg2.W) : (dat2 (atRefs (Z7 m)) c).arrAt w cfg2.N = atRefs (Z8 m) c (Pipeline.arrRef spec2 w) := by
  fin_cases w
  iterate 6 exact (((dat2 (atRefs (Z7 m)) c).arrAt_in _ rfl _).trans (A_eq2 (atRefs (Z7 m)) c _)).trans (V8_of m (outs m) c _ (by decide)).symm
  exact (Pipeline.withArrays_arr spec2 launch2.win.arr_inj c _ _ (6 : Fin cfg2.W)).symm.trans (outAt2_6 m c).symm

theorem hrest2 (c : Dev nD) : ∀ b, b ∉ Finset.univ.image (Pipeline.arrRef spec2) → atRefs (Z8 m) c b = atRefs (Z7 m) c b :=
  fun b hb => V8_of m (outs m) c b (fun h => hb (by
    simp only [List.mem_cons, List.not_mem_nil, or_false] at h
    rcases h with rfl
    · exact Finset.mem_image.mpr ⟨(6 : Fin cfg2.W), Finset.mem_univ _, rfl⟩))

def reg2 : Pipeline.RegionSeg (pcfgs (F := F)) adm (pdats m) () defs₀ Variants.none Lz lvz 2 :=
  regOf m 2 launch2 (Z7 m) (Z8 m) (fun c => (body_obligation2 (atRefs (Z7 m)) c).loose)
    (fun _ _ => rfl) (fun _ _ => rfl) (fun _ _ => trivial) (fun _ => rfl) (fun _ => .rfl) (fun _ _ => rfl) (hF2 m) (hrest2 m)

end Cert.KernelIdeal.Hand

end
-- ==== Proof.KernelIdeal.Seg3.lean ====
import proofs.«425307_j45586782880378_1_alg».proof.Proof.KernelIdeal.Rider

set_option maxRecDepth 16384

noncomputable section

namespace Cert.KernelIdeal.Hand

open Idealize.ShloMosaic Idealize.ShloMosaic.TcCoe Idealize.SL.Sem
open Cert.KernelIdeal Cert.KernelIdeal.Gen

variable {F : FTy → Type} [FloatOps F]

variable (m : (ℓ : Loc nD τ sig) → Buf (Elt F) ℓ)

theorem outAt3_2 (c : Dev nD) : Z9 m c main_v65 = Y9 m c main_v65 := Function.update_self _ _ _

set_option maxHeartbeats 4000000 in

theorem hF3 (c : Dev nD) (w : Fin cfg3.W) : (dat3 (atRefs (Z8 m)) c).arrAt w cfg3.N = atRefs (Z9 m) c (Pipeline.arrRef spec3 w) := by
  fin_cases w
  iterate 2 exact (((dat3 (atRefs (Z8 m)) c).arrAt_in _ rfl _).trans (A_eq3 (atRefs (Z8 m)) c _)).trans (V9_of m (outs m) c _ (by decide)).symm
  exact (Pipeline.withArrays_arr spec3 launch3.win.arr_inj c _ _ (2 : Fin cfg3.W)).symm.trans (outAt3_2 m c).symm

theorem hrest3 (c : Dev nD) : ∀ b, b ∉ Finset.univ.image (Pipeline.arrRef spec3) → atRefs (Z9 m) c b = atRefs (Z8 m) c b :=
  fun b hb => V9_of m (outs m) c b (fun h => hb (by
    simp only [List.mem_cons, List.not_mem_nil, or_false] at h
    rcases h with rfl
    · exact Finset.mem_image.mpr ⟨(2 : Fin cfg3.W), Finset.mem_univ _, rfl⟩))

def reg3 : Pipeline.RegionSeg (pcfgs (F := F)) adm (pdats m) () defs₀ Variants.none Lz lvz 3 :=
  regOf m 3 launch3 (Z8 m) (Z9 m) (fun c => (body_obligation3 (atRefs (Z8 m)) c).loose)
    (fun _ _ => rfl) (fun _ _ => rfl) (fun _ _ => trivial) (fun _ => rfl) (fun _ => .rfl) (fun _ _ => rfl) (hF3 m) (hrest3 m)

end Cert.KernelIdeal.Hand

end
-- ==== Proof.KernelIdeal.Seg4.lean ====
import proofs.«425307_j45586782880378_1_alg».proof.Proof.KernelIdeal.Rider

set_option maxRecDepth 16384

noncomputable section

namespace Cert.KernelIdeal.Hand

open Idealize.ShloMosaic Idealize.ShloMosaic.TcCoe Idealize.SL.Sem
open Cert.KernelIdeal Cert.KernelIdeal.Gen

variable {F : FTy → Type} [FloatOps F]

variable (m : (ℓ : Loc nD τ sig) → Buf (Elt F) ℓ)

theorem outAt4_2 (c : Dev nD) : Z11 m c main_v79_0 = Y11 m c main_v79_0 := (Function.update_of_ne (StableHlo.devRef_ne_of_ne (by decide)) _ _).trans (Function.update_self _ _ _)

theorem outAt4_3 (c : Dev nD) : Z11 m c main_v79_1 = Y11 m c main_v79_1 := Function.update_self _ _ _

set_option maxHeartbeats 4000000 in

theorem hF4 (c : Dev nD) (w : Fin cfg4.W) : (dat4 (atRefs (Z10 m)) c).arrAt w cfg4.N = atRefs (Z11 m) c (Pipeline.arrRef spec4 w) := by
  fin_cases w
  iterate 2 exact (((dat4 (atRefs (Z10 m)) c).arrAt_in _ rfl _).trans (A_eq4 (atRefs (Z10 m)) c _)).trans (V11_of m (outs m) c _ (by decide)).symm
  exact (Pipeline.withArrays_arr spec4 launch4.win.arr_inj c _ _ (2 : Fin cfg4.W)).symm.trans (outAt4_2 m c).symm
  exact (Pipeline.withArrays_arr spec4 launch4.win.arr_inj c _ _ (3 : Fin cfg4.W)).symm.trans (outAt4_3 m c).symm

theorem hrest4 (c : Dev nD) : ∀ b, b ∉ Finset.univ.image (Pipeline.arrRef spec4) → atRefs (Z11 m) c b = atRefs (Z10 m) c b :=
  fun b hb => V11_of m (outs m) c b (fun h => hb (by
    simp only [List.mem_cons, List.not_mem_nil, or_false] at h
    rcases h with rfl | rfl
    · exact Finset.mem_image.mpr ⟨(2 : Fin cfg4.W), Finset.mem_univ _, rfl⟩
    · exact Finset.mem_image.mpr ⟨(3 : Fin cfg4.W), Finset.mem_univ _, rfl⟩))

def reg4 : Pipeline.RegionSeg (pcfgs (F := F)) adm (pdats m) () defs₀ Variants.none Lz lvz 4 :=
  regOf m 4 launch4 (Z10 m) (Z11 m) (fun c => (body_obligation4 (atRefs (Z10 m)) c).loose)
    (fun _ _ => rfl) (fun _ _ => rfl) (fun _ _ => trivial) (fun _ => rfl) (fun _ => .rfl) (fun _ _ => rfl) (hF4 m) (hrest4 m)

end Cert.KernelIdeal.Hand

end
-- ==== Proof.KernelIdeal.Seg5.lean ====
import proofs.«425307_j45586782880378_1_alg».proof.Proof.KernelIdeal.Rider

set_option maxRecDepth 16384

noncomputable section

namespace Cert.KernelIdeal.Hand

open Idealize.ShloMosaic Idealize.ShloMosaic.TcCoe Idealize.SL.Sem
open Cert.KernelIdeal Cert.KernelIdeal.Gen

variable {F : FTy → Type} [FloatOps F]

variable (m : (ℓ : Loc nD τ sig) → Buf (Elt F) ℓ)

theorem outAt5_6 (c : Dev nD) : Z13 m c main_v96 = Y13 m c main_v96 := Function.update_self _ _ _

set_option maxHeartbeats 4000000 in

theorem hF5 (c : Dev nD) (w : Fin cfg5.W) : (dat5 (atRefs (Z12 m)) c).arrAt w cfg5.N = atRefs (Z13 m) c (Pipeline.arrRef spec5 w) := by
  fin_cases w
  iterate 6 exact (((dat5 (atRefs (Z12 m)) c).arrAt_in _ rfl _).trans (A_eq5 (atRefs (Z12 m)) c _)).trans (V13_of m (outs m) c _ (by decide)).symm
  exact (Pipeline.withArrays_arr spec5 launch5.win.arr_inj c _ _ (6 : Fin cfg5.W)).symm.trans (outAt5_6 m c).symm

theorem hrest5 (c : Dev nD) : ∀ b, b ∉ Finset.univ.image (Pipeline.arrRef spec5) → atRefs (Z13 m) c b = atRefs (Z12 m) c b :=
  fun b hb => V13_of m (outs m) c b (fun h => hb (by
    simp only [List.mem_cons, List.not_mem_nil, or_false] at h
    rcases h with rfl
    · exact Finset.mem_image.mpr ⟨(6 : Fin cfg5.W), Finset.mem_univ _, rfl⟩))

def reg5 : Pipeline.RegionSeg (pcfgs (F := F)) adm (pdats m) () defs₀ Variants.none Lz lvz 5 :=
  regOf m 5 launch5 (Z12 m) (Z13 m) (fun c => (body_obligation5 (atRefs (Z12 m)) c).loose)
    (fun _ _ => rfl) (fun _ _ => rfl) (fun _ _ => trivial) (fun _ => rfl) (fun _ => .rfl) (fun _ _ => rfl) (hF5 m) (hrest5 m)

end Cert.KernelIdeal.Hand

end
-- ==== Proof.KernelIdeal.Seg6.lean ====
import proofs.«425307_j45586782880378_1_alg».proof.Proof.KernelIdeal.Rider

set_option maxRecDepth 16384

noncomputable section

namespace Cert.KernelIdeal.Hand

open Idealize.ShloMosaic Idealize.ShloMosaic.TcCoe Idealize.SL.Sem
open Cert.KernelIdeal Cert.KernelIdeal.Gen

variable {F : FTy → Type} [FloatOps F]

variable (m : (ℓ : Loc nD τ sig) → Buf (Elt F) ℓ)

theorem outAt6_2 (c : Dev nD) : Z14 m c main_v97 = Y14 m c main_v97 := Function.update_self _ _ _

set_option maxHeartbeats 4000000 in

theorem hF6 (c : Dev nD) (w : Fin cfg6.W) : (dat6 (atRefs (Z13 m)) c).arrAt w cfg6.N = atRefs (Z14 m) c (Pipeline.arrRef spec6 w) := by
  fin_cases w
  iterate 2 exact (((dat6 (atRefs (Z13 m)) c).arrAt_in _ rfl _).trans (A_eq6 (atRefs (Z13 m)) c _)).trans (V14_of m (outs m) c _ (by decide)).symm
  exact (Pipeline.withArrays_arr spec6 launch6.win.arr_inj c _ _ (2 : Fin cfg6.W)).symm.trans (outAt6_2 m c).symm

theorem hrest6 (c : Dev nD) : ∀ b, b ∉ Finset.univ.image (Pipeline.arrRef spec6) → atRefs (Z14 m) c b = atRefs (Z13 m) c b :=
  fun b hb => V14_of m (outs m) c b (fun h => hb (by
    simp only [List.mem_cons, List.not_mem_nil, or_false] at h
    rcases h with rfl
    · exact Finset.mem_image.mpr ⟨(2 : Fin cfg6.W), Finset.mem_univ _, rfl⟩))

def reg6 : Pipeline.RegionSeg (pcfgs (F := F)) adm (pdats m) () defs₀ Variants.none Lz lvz 6 :=
  regOf m 6 launch6 (Z13 m) (Z14 m) (fun c => (body_obligation6 (atRefs (Z13 m)) c).loose)
    (fun _ _ => rfl) (fun _ _ => rfl) (fun _ _ => trivial) (fun _ => rfl) (fun _ => .rfl) (fun _ _ => rfl) (hF6 m) (hrest6 m)

end Cert.KernelIdeal.Hand

end
-- ==== Proof.KernelIdeal.Seg7.lean ====
import proofs.«425307_j45586782880378_1_alg».proof.Proof.KernelIdeal.Rider

set_option maxRecDepth 16384

noncomputable section

namespace Cert.KernelIdeal.Hand

open Idealize.ShloMosaic Idealize.ShloMosaic.TcCoe Idealize.SL.Sem
open Cert.KernelIdeal Cert.KernelIdeal.Gen

variable {F : FTy → Type} [FloatOps F]

variable (m : (ℓ : Loc nD τ sig) → Buf (Elt F) ℓ)

theorem outAt7_2 (c : Dev nD) : Z16 m c main_v111_0 = Y16 m c main_v111_0 := (Function.update_of_ne (StableHlo.devRef_ne_of_ne (by decide)) _ _).trans (Function.update_self _ _ _)

theorem outAt7_3 (c : Dev nD) : Z16 m c main_v111_1 = Y16 m c main_v111_1 := Function.update_self _ _ _

set_option maxHeartbeats 4000000 in

theorem hF7 (c : Dev nD) (w : Fin cfg7.W) : (dat7 (atRefs (Z15 m)) c).arrAt w cfg7.N = atRefs (Z16 m) c (Pipeline.arrRef spec7 w) := by
  fin_cases w
  iterate 2 exact (((dat7 (atRefs (Z15 m)) c).arrAt_in _ rfl _).trans (A_eq7 (atRefs (Z15 m)) c _)).trans (V16_of m (outs m) c _ (by decide)).symm
  exact (Pipeline.withArrays_arr spec7 launch7.win.arr_inj c _ _ (2 : Fin cfg7.W)).symm.trans (outAt7_2 m c).symm
  exact (Pipeline.withArrays_arr spec7 launch7.win.arr_inj c _ _ (3 : Fin cfg7.W)).symm.trans (outAt7_3 m c).symm

theorem hrest7 (c : Dev nD) : ∀ b, b ∉ Finset.univ.image (Pipeline.arrRef spec7) → atRefs (Z16 m) c b = atRefs (Z15 m) c b :=
  fun b hb => V16_of m (outs m) c b (fun h => hb (by
    simp only [List.mem_cons, List.not_mem_nil, or_false] at h
    rcases h with rfl | rfl
    · exact Finset.mem_image.mpr ⟨(2 : Fin cfg7.W), Finset.mem_univ _, rfl⟩
    · exact Finset.mem_image.mpr ⟨(3 : Fin cfg7.W), Finset.mem_univ _, rfl⟩))

def reg7 : Pipeline.RegionSeg (pcfgs (F := F)) adm (pdats m) () defs₀ Variants.none Lz lvz 7 :=
  regOf m 7 launch7 (Z15 m) (Z16 m) (fun c => (body_obligation7 (atRefs (Z15 m)) c).loose)
    (fun _ _ => rfl) (fun _ _ => rfl) (fun _ _ => trivial) (fun _ => rfl) (fun _ => .rfl) (fun _ _ => rfl) (hF7 m) (hrest7 m)

end Cert.KernelIdeal.Hand

end
-- ==== Proof.KernelIdeal.Seg8.lean ====
import proofs.«425307_j45586782880378_1_alg».proof.Proof.KernelIdeal.Rider

set_option maxRecDepth 16384

noncomputable section

namespace Cert.KernelIdeal.Hand

open Idealize.ShloMosaic Idealize.ShloMosaic.TcCoe Idealize.SL.Sem
open Cert.KernelIdeal Cert.KernelIdeal.Gen

variable {F : FTy → Type} [FloatOps F]

variable (m : (ℓ : Loc nD τ sig) → Buf (Elt F) ℓ)

theorem outAt8_6 (c : Dev nD) : Z18 m c main_v128 = Y18 m c main_v128 := Function.update_self _ _ _

set_option maxHeartbeats 4000000 in

theorem hF8 (c : Dev nD) (w : Fin cfg8.W) : (dat8 (atRefs (Z17 m)) c).arrAt w cfg8.N = atRefs (Z18 m) c (Pipeline.arrRef spec8 w) := by
  fin_cases w
  iterate 6 exact (((dat8 (atRefs (Z17 m)) c).arrAt_in _ rfl _).trans (A_eq8 (atRefs (Z17 m)) c _)).trans (V18_of m (outs m) c _ (by decide)).symm
  exact (Pipeline.withArrays_arr spec8 launch8.win.arr_inj c _ _ (6 : Fin cfg8.W)).symm.trans (outAt8_6 m c).symm

theorem hrest8 (c : Dev nD) : ∀ b, b ∉ Finset.univ.image (Pipeline.arrRef spec8) → atRefs (Z18 m) c b = atRefs (Z17 m) c b :=
  fun b hb => V18_of m (outs m) c b (fun h => hb (by
    simp only [List.mem_cons, List.not_mem_nil, or_false] at h
    rcases h with rfl
    · exact Finset.mem_image.mpr ⟨(6 : Fin cfg8.W), Finset.mem_univ _, rfl⟩))

def reg8 : Pipeline.RegionSeg (pcfgs (F := F)) adm (pdats m) () defs₀ Variants.none Lz lvz 8 :=
  regOf m 8 launch8 (Z17 m) (Z18 m) (fun c => (body_obligation8 (atRefs (Z17 m)) c).loose)
    (fun _ _ => rfl) (fun _ _ => rfl) (fun _ _ => trivial) (fun _ => rfl) (fun _ => .rfl) (fun _ _ => rfl) (hF8 m) (hrest8 m)

end Cert.KernelIdeal.Hand

end
-- ==== Proof.KernelIdeal.Seg9.lean ====
import proofs.«425307_j45586782880378_1_alg».proof.Proof.KernelIdeal.Rider

set_option maxRecDepth 16384

noncomputable section

namespace Cert.KernelIdeal.Hand

open Idealize.ShloMosaic Idealize.ShloMosaic.TcCoe Idealize.SL.Sem
open Cert.KernelIdeal Cert.KernelIdeal.Gen

variable {F : FTy → Type} [FloatOps F]

variable (m : (ℓ : Loc nD τ sig) → Buf (Elt F) ℓ)

theorem outAt9_5 (c : Dev nD) : Z21 m c main_v140 = Y21 m c main_v140 := Function.update_self _ _ _

set_option maxHeartbeats 4000000 in

theorem hF9 (c : Dev nD) (w : Fin cfg9.W) : (dat9 (atRefs (Z20 m)) c).arrAt w cfg9.N = atRefs (Z21 m) c (Pipeline.arrRef spec9 w) := by
  fin_cases w
  iterate 5 exact (((dat9 (atRefs (Z20 m)) c).arrAt_in _ rfl _).trans (A_eq9 (atRefs (Z20 m)) c _)).trans (V21_of m (outs m) c _ (by decide)).symm
  exact (Pipeline.withArrays_arr spec9 launch9.win.arr_inj c _ _ (5 : Fin cfg9.W)).symm.trans (outAt9_5 m c).symm

theorem hrest9 (c : Dev nD) : ∀ b, b ∉ Finset.univ.image (Pipeline.arrRef spec9) → atRefs (Z21 m) c b = atRefs (Z20 m) c b :=
  fun b hb => V21_of m (outs m) c b (fun h => hb (by
    simp only [List.mem_cons, List.not_mem_nil, or_false] at h
    rcases h with rfl
    · exact Finset.mem_image.mpr ⟨(5 : Fin cfg9.W), Finset.mem_univ _, rfl⟩))

def reg9 : Pipeline.RegionSeg (pcfgs (F := F)) adm (pdats m) () defs₀ Variants.none Lz lvz 9 :=
  regOf m 9 launch9 (Z20 m) (Z21 m) (fun c => (body_obligation9 (atRefs (Z20 m)) c).loose)
    (fun _ _ => rfl) (fun _ _ => rfl) (fun _ _ => trivial) (Phi9_zero (atRefs (Z20 m))) (Phi9_last (atRefs (Z20 m))) (fun _ _ => rfl) (hF9 m) (hrest9 m)

end Cert.KernelIdeal.Hand

end
-- ==== Proof.KernelIdeal.KRun.lean ====
import proofs.«425307_j45586782880378_1_alg».proof.Proof.KernelIdeal.RunCond
import proofs.«425307_j45586782880378_1_alg».proof.Proof.KernelIdeal.Seg0
import proofs.«425307_j45586782880378_1_alg».proof.Proof.KernelIdeal.Seg1
import proofs.«425307_j45586782880378_1_alg».proof.Proof.KernelIdeal.Seg2
import proofs.«425307_j45586782880378_1_alg».proof.Proof.KernelIdeal.Seg3
import proofs.«425307_j45586782880378_1_alg».proof.Proof.KernelIdeal.Seg4
import proofs.«425307_j45586782880378_1_alg».proof.Proof.KernelIdeal.Seg5
import proofs.«425307_j45586782880378_1_alg».proof.Proof.KernelIdeal.Seg6
import proofs.«425307_j45586782880378_1_alg».proof.Proof.KernelIdeal.Seg7
import proofs.«425307_j45586782880378_1_alg».proof.Proof.KernelIdeal.Seg8
import proofs.«425307_j45586782880378_1_alg».proof.Proof.KernelIdeal.Seg9
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem rider_one (c : Dev nD) : iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))
      ⊢ (Rr (F := F) c : sProp 𝕄) := by
  iintro ⟨-, HO, -, Hp, -⟩
  isplitl [Hp]; · iexists _; iexact Hp
  iexists ∅; iexact HO

theorem rider_init : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts Lz lvz)
      ⊢ (|={Set.univ}=> bigSep Finset.univ (fun c : Dev nD => Rr (F := F) c) : sProp 𝕄) := by
  have hm : (bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
      ⊢ (bigSep Finset.univ (fun c : Dev nD => Rr (F := F) c) : sProp 𝕄) :=
    bigSep_mono fun c _ => rider_one ρ c
  iintro ⟨H, -⟩
  imodintro
  iapply hm
  iexact H

set_option maxHeartbeats 4000000 in
set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem (((c : Thread nD τ)).1, b) = Z21 m c b) :=
  Cert.KernelIdeal.GenP.run_cond m emb₁ () Variants.none Lz lvz (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rr c)
    (hE0 := rider_init ρ)
    (hE10 := fun c => by iintro ⟨-, H⟩; iexact H)
    (R0 := reg0 m) (hpre0 := fun _ => .rfl) (hpost0 := fun _ => .rfl)
    (R1 := reg1 m) (hpre1 := fun _ => .rfl) (hpost1 := fun _ => .rfl)
    (R2 := reg2 m) (hpre2 := fun _ => .rfl) (hpost2 := fun _ => .rfl)
    (R3 := reg3 m) (hpre3 := fun _ => .rfl) (hpost3 := fun _ => .rfl)
    (R4 := reg4 m) (hpre4 := fun _ => .rfl) (hpost4 := fun _ => .rfl)
    (R5 := reg5 m) (hpre5 := fun _ => .rfl) (hpost5 := fun _ => .rfl)
    (R6 := reg6 m) (hpre6 := fun _ => .rfl) (hpost6 := fun _ => .rfl)
    (R7 := reg7 m) (hpre7 := fun _ => .rfl) (hpost7 := fun _ => .rfl)
    (R8 := reg8 m) (hpre8 := fun _ => .rfl) (hpost8 := fun _ => .rfl)
    (R9 := reg9 m) (hpre9 := fun _ => .rfl) (hpost9 := fun _ => .rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option maxHeartbeats 4000000 in

theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => ⟨(h c _ (mem_uc main_arg0 (by decide))).trans (V21_main_arg0 m (outs m) c),
    (h c _ (mem_uc main_arg1 (by decide))).trans (V21_main_arg1 m (outs m) c),
    (h c _ (mem_uc main_arg2 (by decide))).trans (V21_main_arg2 m (outs m) c),
    (h c _ (mem_uc main_arg3 (by decide))).trans (V21_main_arg3 m (outs m) c),
    (h c _ (mem_uc main_arg4 (by decide))).trans (V21_main_arg4 m (outs m) c),
    (h c _ (mem_uc main_arg5 (by decide))).trans (V21_main_arg5 m (outs m) c),
    (h c _ (mem_uc main_arg6 (by decide))).trans (V21_main_arg6 m (outs m) c),
    (h c _ (mem_uc main_arg7 (by decide))).trans (V21_main_arg7 m (outs m) c),
    (h c _ (mem_uc main_arg8 (by decide))).trans (V21_main_arg8 m (outs m) c),
    (h c _ (mem_uc main_arg9 (by decide))).trans (V21_main_arg9 m (outs m) c),
    (h c _ (mem_uc main_arg10 (by decide))).trans (V21_main_arg10 m (outs m) c),
    (h c _ (mem_uc main_arg11 (by decide))).trans (V21_main_arg11 m (outs m) c),
    (h c _ (mem_uc main_arg12 (by decide))).trans (V21_main_arg12 m (outs m) c),
    (h c _ (mem_uc main_arg13 (by decide))).trans (V21_main_arg13 m (outs m) c),
    (h c _ (mem_uc main_arg14 (by decide))).trans (V21_main_arg14 m (outs m) c),
    (h c _ (mem_uc main_arg15 (by decide))).trans (V21_main_arg15 m (outs m) c),
    (h c _ (mem_uc main_arg16 (by decide))).trans (V21_main_arg16 m (outs m) c)⟩) (run_all m ρ)

end Cert.KernelIdeal.Hand

end
-- ==== Proof.Spec.lean ====
import Idealize.ShloMosaic.PureOps.Ideal
import Idealize.ShloMosaic.Lib.ValueIdx

noncomputable section

open scoped BigOperators

namespace Cert.Spec

open Idealize.ShloMosaic

abbrev Mat (a b : ℕ) : Type := Fin a → Fin b → EReal

def ofMat {a b : ℕ} (f : Mat a b) : (⟨2, ![a, b]⟩ : Shape).Idx → EReal := fun i => f (i 0) (i 1)

theorem ofMat_ix2 {a b : ℕ} (f : Mat a b) (r : Fin a) (j : Fin b) : ofMat f (ValueIdx.ix2 r j) = f r j := rfl

def toMat {a b : ℕ} (v : (⟨2, ![a, b]⟩ : Shape).Idx → EReal) : Mat a b := fun r j => v (ValueIdx.ix2 r j)

abbrev nNodes : EReal := Ideal.ofBits .f32 0x47435000#32

abbrev bnEps : EReal := Ideal.ofBits .f32 0x3727C5AC#32

def mm {a b c : ℕ} (x : Mat a b) (w : Mat b c) : Mat a c := fun r j => ∑ k, x r k * w k j

def colMean {n h : ℕ} (A : Mat n h) (b : Fin h → EReal) (j : Fin h) : EReal :=
  Ideal.div (∑ r, (A r j + b j)) nNodes

def varRef {n h : ℕ} (A : Mat n h) (b : Fin h → EReal) (j : Fin h) : EReal :=
  Ideal.div (∑ r, ((A r j + b j) - colMean A b j) * ((A r j + b j) - colMean A b j)) nNodes

def varKer {n h : ℕ} (A : Mat n h) (b : Fin h → EReal) (j : Fin h) : EReal :=
  Ideal.div (∑ r, (A r j + b j) * (A r j + b j)) nNodes - colMean A b j * colMean A b j

def bnWith {n h : ℕ} (var : Fin h → EReal) (A : Mat n h) (b g be : Fin h → EReal) : Mat n h := fun r j =>
  max ((((A r j + b j) - colMean A b j) * Ideal.rsqrt (var j + bnEps)) * g j + be j) 0

def bnRef {n h : ℕ} (A : Mat n h) (b g be : Fin h → EReal) : Mat n h := bnWith (varRef A b) A b g be

def bnKer {n h : ℕ} (A : Mat n h) (b g be : Fin h → EReal) : Mat n h := bnWith (varKer A b) A b g be

def FinMat {a b : ℕ} (f : Mat a b) : Prop := ∀ r j, ∃ x : ℝ, f r j = (x : EReal)

def FinVec {a : ℕ} (f : Fin a → EReal) : Prop := ∀ j, ∃ x : ℝ, f j = (x : EReal)

def poolKer {n g h c : ℕ} (H : Mat n h) (oh : Mat n g) (ic : Fin g → EReal) (wc : Mat h c) (bc : Fin c → EReal) : Mat g c :=
  fun p k => (∑ q, ((∑ i, oh i p * H i q) * ic p) * wc q k) + bc k

def poolRef {n g h c : ℕ} (H : Mat n h) (sel : Fin n → Fin g → Prop) [∀ i p, Decidable (sel i p)] (d : Fin g → EReal)
    (wc : Mat h c) (bc : Fin c → EReal) : Mat g c :=
  fun p k => (∑ q, Ideal.div (∑ i ∈ Finset.univ.filter (fun i => sel i p), H i q) (d p) * wc q k) + bc k

end Cert.Spec

end
-- ==== Proof.BnAlgebra.lean ====
import proofs.«425307_j45586782880378_1_alg».proof.Proof.Spec
import Mathlib.Algebra.BigOperators.Ring.Finset
import Mathlib.Algebra.Order.BigOperators.Ring.Finset
import Mathlib.Tactic.Ring
import Mathlib.Tactic.FieldSimp
import Mathlib.Tactic.Positivity
import Mathlib.Tactic.NormNum

noncomputable section

open scoped BigOperators

namespace Cert.Spec

open Idealize.ShloMosaic

theorem nNodes_eq : nNodes = ((50000 : ℝ) : EReal) := by
  simp [nNodes, Ideal.ofBits, Ideal.ieee, -EReal.coe_mul]; norm_num

theorem bnEps_pos : ∃ e : ℝ, 0 < e ∧ bnEps = (e : EReal) := by
  refine ⟨(10995116 : ℝ) * (2 : ℝ) ^ (-40 : ℤ), by positivity, ?_⟩
  simp [bnEps, Ideal.ofBits, Ideal.ieee, -EReal.coe_mul]

theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem coe_max' (x y : ℝ) : max (x : EReal) (y : EReal) = ((max x y : ℝ) : EReal) :=
  (EReal.coe_strictMono.monotone.map_max).symm

theorem real_var_identity {n : ℕ} (v : Fin n → ℝ) (N : ℝ) (hN : (n : ℝ) = N) (hN0 : N ≠ 0) :
    (∑ r, v r * v r) * (1 / N) - ((∑ r, v r) * (1 / N)) * ((∑ r, v r) * (1 / N))
      = (∑ r, (v r - (∑ r, v r) * (1 / N)) * (v r - (∑ r, v r) * (1 / N))) * (1 / N) := by
  set S := ∑ r, v r with hS
  set m := S * (1 / N) with hm
  have h1 : ∑ r, (v r - m) * (v r - m) = (∑ r, v r * v r) - 2 * m * S + N * (m * m) := by
    have h2 : ∀ r, (v r - m) * (v r - m) = v r * v r - 2 * m * v r + m * m := by intro r; ring
    simp only [h2, Finset.sum_add_distrib, Finset.sum_sub_distrib, ← Finset.mul_sum, Finset.sum_const,
      Finset.card_univ, Fintype.card_fin, nsmul_eq_mul, hN, ← hS]
    ring
  rw [h1, hm]; field_simp; ring

section Witnessed

variable {n h : ℕ} (A : Mat n h) (b : Fin h → EReal) (a : Fin n → Fin h → ℝ) (β : Fin h → ℝ)

theorem colMean_coe (hA : ∀ r j, A r j = (a r j : EReal)) (hb : ∀ j, b j = (β j : EReal)) (j : Fin h) :
    colMean A b j = (((∑ r, (a r j + β j)) * (1 / 50000) : ℝ) : EReal) := by
  rw [colMean, nNodes_eq, Ideal.div_coe (by norm_num)]
  simp only [hA, hb, ← EReal.coe_add, coe_sum, ← EReal.coe_mul]

theorem varRef_coe (hA : ∀ r j, A r j = (a r j : EReal)) (hb : ∀ j, b j = (β j : EReal)) (j : Fin h) :
    varRef A b j = (((∑ r, ((a r j + β j) - (∑ r, (a r j + β j)) * (1 / 50000))
      * ((a r j + β j) - (∑ r, (a r j + β j)) * (1 / 50000))) * (1 / 50000) : ℝ) : EReal) := by
  rw [varRef, colMean_coe A b a β hA hb, nNodes_eq, Ideal.div_coe (by norm_num)]
  simp only [hA, hb, ← EReal.coe_add, ← EReal.coe_sub, coe_sum, ← EReal.coe_mul]

theorem varKer_coe (hA : ∀ r j, A r j = (a r j : EReal)) (hb : ∀ j, b j = (β j : EReal)) (j : Fin h) :
    varKer A b j = (((∑ r, (a r j + β j) * (a r j + β j)) * (1 / 50000)
      - ((∑ r, (a r j + β j)) * (1 / 50000)) * ((∑ r, (a r j + β j)) * (1 / 50000)) : ℝ) : EReal) := by
  rw [varKer, colMean_coe A b a β hA hb, nNodes_eq, Ideal.div_coe (by norm_num)]
  simp only [hA, hb, ← EReal.coe_add, ← EReal.coe_sub, coe_sum, ← EReal.coe_mul]

end Witnessed

theorem colMean_fin {n h : ℕ} (A : Mat n h) (b : Fin h → EReal) (hA : FinMat A) (hb : FinVec b) (j : Fin h) :
    ∃ x : ℝ, colMean A b j = x := by
  choose a ha using hA
  choose β hβ using hb
  exact ⟨_, colMean_coe A b a β ha hβ j⟩

theorem varKer_eq_varRef {h : ℕ} (A : Mat 50000 h) (b : Fin h → EReal) (hA : FinMat A) (hb : FinVec b) (j : Fin h) :
    varKer A b j = varRef A b j := by
  choose a ha using hA
  choose β hβ using hb
  rw [varKer_coe A b a β ha hβ, varRef_coe A b a β ha hβ]
  exact congrArg _ (real_var_identity (fun r => a r j + β j) 50000 (by norm_num) (by norm_num))

theorem bnKer_eq_bnRef {h : ℕ} (A : Mat 50000 h) (b g be : Fin h → EReal) (hA : FinMat A) (hb : FinVec b) :
    bnKer A b g be = bnRef A b g be := by
  have hv : varKer A b = varRef A b := funext (varKer_eq_varRef A b hA hb)
  rw [bnKer, bnRef, hv]

theorem varRef_nonneg_fin {h : ℕ} (A : Mat 50000 h) (b : Fin h → EReal) (hA : FinMat A) (hb : FinVec b) (j : Fin h) :
    ∃ x : ℝ, 0 ≤ x ∧ varRef A b j = x := by
  choose a ha using hA
  choose β hβ using hb
  refine ⟨_, ?_, varRef_coe A b a β ha hβ j⟩
  exact mul_nonneg (Finset.sum_nonneg (fun r _ => mul_self_nonneg _)) (by norm_num)

theorem rsqrt_coe_pos {x : ℝ} (hx : 0 < x) : Ideal.rsqrt (x : EReal) = (((Real.sqrt x)⁻¹ : ℝ) : EReal) := by
  rw [Ideal.rsqrt_coe, if_neg (not_lt.mpr hx.le), if_neg hx.ne']

theorem coe_max_zero (x : ℝ) : max (x : EReal) 0 = ((max x 0 : ℝ) : EReal) := by
  rw [← EReal.coe_zero, coe_max']

theorem bnRef_fin {h : ℕ} (A : Mat 50000 h) (b g be : Fin h → EReal) (hA : FinMat A) (hb : FinVec b)
    (hg : FinVec g) (hbe : FinVec be) : FinMat (bnRef A b g be) := by
  intro r j
  obtain ⟨v, hv0, hv⟩ := varRef_nonneg_fin A b hA hb j
  obtain ⟨e, he0, he⟩ := bnEps_pos
  obtain ⟨m, hm⟩ := colMean_fin A b hA hb j
  obtain ⟨x, hx⟩ := hA r j
  obtain ⟨β, hβ⟩ := hb j
  obtain ⟨γ, hγ⟩ := hg j
  obtain ⟨δ, hδ⟩ := hbe j
  have hpos : 0 < v + e := add_pos_of_nonneg_of_pos hv0 he0
  refine ⟨max ((((x + β) - m) * (Real.sqrt (v + e))⁻¹) * γ + δ) 0, ?_⟩
  simp only [bnRef, bnWith, hv, he, hm, hx, hβ, hγ, hδ, ← EReal.coe_add, rsqrt_coe_pos hpos, ← EReal.coe_sub,
    ← EReal.coe_mul, coe_max_zero]

theorem mm_fin {a b c : ℕ} (x : Mat a b) (w : Mat b c) (hx : FinMat x) (hw : FinMat w) : FinMat (mm x w) := by
  choose xr hxr using hx
  choose wr hwr using hw
  intro r j
  refine ⟨∑ k, xr r k * wr k j, ?_⟩
  simp only [mm, hxr, hwr, ← EReal.coe_mul, coe_sum]

end Cert.Spec

end
-- ==== Proof.RefLayer.lean ====
import proofs.«425307_j45586782880378_1_alg».proof.Proof.Gen.ReferenceIdeal
import proofs.«425307_j45586782880378_1_alg».proof.Proof.Spec
import proofs.«425307_j45586782880378_1_alg».proof.Proof.BnAlgebra
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run

noncomputable section

open scoped BigOperators

namespace Cert.ReferenceIdeal.Layer

open Cert.ReferenceIdeal Cert.ReferenceIdeal.Gen Idealize.ShloMosaic Idealize.ShloMosaic.ValueIdx

section Terms

variable {F : FTy → Type} [FloatOps F]

abbrev FArr (F : FTy → Type) [FloatOps F] (s : Shape) : Type := (⟨s, .f32⟩ : BufTy).Contents (Elt F)

abbrev IArr (F : FTy → Type) [FloatOps F] (s : Shape) : Type := (⟨s, .i32⟩ : BufTy).Contents (Elt F)

def srcEdges (e : IArr F S2x800000) : IArr F S800000 :=
  (shapeCast _ (extractStridedSlice S1x800000 ![0, 0] e slices_S2x800000_S1x800000_0_0) shapeCasts_S1x800000_S800000)

def dstEdges (e : IArr F S2x800000) : IArr F S800000 :=
  (shapeCast _ (extractStridedSlice S1x800000 ![1, 0] e slices_S2x800000_S1x800000_1_0) shapeCasts_S1x800000_S800000)

def withLoops (a : IArr F S800000) : IArr F S850000 :=
  (concatenate S850000 0 [⟨S800000, a⟩, ⟨S50000, (iotaInDim S50000 32 0)⟩] concatenates_S800000_S50000_S850000_d0)

def wrapIdx (i : IArr F S850000) : IArr F S850000x1 :=
  (broadcastInDim S850000x1 ![0] bcast_S850000_S850000x1_0 (select (cmpi .slt i (broadcastInDim S850000 ![] bcast_S_S850000 (constantI S_ 32 0#32))) (addi i (broadcastInDim S850000 ![] bcast_S_S850000 (constantI S_ 32 50000#32))) i))

def degRef (e : IArr F S2x800000) : FArr F S50000 :=
  (Host.scatterAdd scatter_S50000_S850000x1_S850000_n_0_0_1 (broadcastInDim S50000 ![] bcast_S_S50000 (constant S_ .f32 0x00000000#32)) (broadcastInDim S850000x1 ![0] bcast_S850000_S850000x1_0 (withLoops (dstEdges e))) (broadcastInDim S850000 ![] bcast_S_S850000 (constant S_ .f32 0x3F800000#32)))

def dinvRef (e : IArr F S2x800000) : FArr F S50000 :=
  (select (cmpf .ogt (degRef e) (broadcastInDim S50000 ![] bcast_S_S50000 (constant S_ .f32 0x00000000#32))) (Host.divf (broadcastInDim S50000 ![] bcast_S_S50000 (constant S_ .f32 0x3F800000#32)) (Host.sqrt (degRef e))) (broadcastInDim S50000 ![] bcast_S_S50000 (id (constant S_ .f32 0x00000000#32))))

def normRef (e : IArr F S2x800000) : FArr F S850000 :=
  (mulf (Host.gather gather_S50000_S850000x1_S850000_n_0_n_n_0_1_1 (dinvRef e) (wrapIdx (withLoops (srcEdges e)))) (Host.gather gather_S50000_S850000x1_S850000_n_0_n_n_0_1_1 (dinvRef e) (wrapIdx (withLoops (dstEdges e)))))

def aggRef (e : IArr F S2x800000) (xw : FArr F S50000x128) : FArr F S50000x128 :=
  (Host.scatterAdd scatter_S50000x128_S850000x1_S850000x128_1_0_0_1 (broadcastInDim S50000x128 ![] bcast_S_S50000x128 (constant S_ .f32 0x00000000#32)) (broadcastInDim S850000x1 ![0] bcast_S850000_S850000x1_0 (withLoops (dstEdges e))) (mulf (Host.gather gather_S50000x128_S850000x1_S850000x128_1_0_n_n_0_1_1128 xw (wrapIdx (withLoops (srcEdges e)))) (broadcastInDim S850000x128 ![0, 1] bcast_S850000x1_S850000x128_0_1 (broadcastInDim S850000x1 ![0] bcast_S850000_S850000x1_0 (normRef e)))))

def colRep (v : FArr F S128) : FArr F S50000x128 :=
  (broadcastInDim S50000x128 ![0, 1] bcast_S1x128_S50000x128_0_1 (broadcastInDim S1x128 ![1] bcast_S128_S1x128_1 v))

def colMeanVec (x : FArr F S50000x128) : FArr F S128 :=
  (Host.divf (Host.reduceAdd x (constant S_ .f32 0x00000000#32) reducesTo_S50000x128_S128_d0 h_S_) (broadcastInDim S128 ![] bcast_S_S128 (constant S_ .f32 0x47435000#32)))

def biased (a : FArr F S50000x128) (b : FArr F S128) : FArr F S50000x128 := (addf a (colRep b))

def centred (z : FArr F S50000x128) : FArr F S50000x128 := (subf z (colRep (colMeanVec z)))

def invStd (z : FArr F S50000x128) : FArr F S128 :=
  (Host.rsqrt (addf (colMeanVec (mulf (centred z) (centred z))) (broadcastInDim S128 ![] bcast_S_S128 (constant S_ .f32 0x3727C5AC#32))))

def bnReluVec (z : FArr F S50000x128) (g be : FArr F S128) : FArr F S50000x128 :=
  (maximumf (addf (mulf (mulf (centred z) (colRep (invStd z))) (colRep g)) (colRep be)) (broadcastInDim S50000x128 ![] bcast_S_S50000x128 (constant S_ .f32 0x00000000#32)))

def layerRefVec (e : IArr F S2x800000) (h : FArr F S50000x128) (w : FArr F S128x128) (b g be : FArr F S128) :
    FArr F S50000x128 :=
  bnReluVec (biased (aggRef e (Host.dotGeneral dot_S50000x128_S128x128_S50000x128_1_0_0_1_n_n none h w)) b) g be

def cntRefVec (bt : IArr F S50000) : FArr F S128 :=
  (maximumf (Host.scatterAdd scatter_S128_S50000x1_S50000_n_0_0_1 (broadcastInDim S128 ![] bcast_S_S128 (constant S_ .f32 0x00000000#32)) (broadcastInDim S50000x1 ![0] bcast_S50000_S50000x1_0 bt) (broadcastInDim S50000 ![] bcast_S_S50000 (constant S_ .f32 0x3F800000#32))) (broadcastInDim S128 ![] bcast_S_S128 (constant S_ .f32 0x3F800000#32)))

def sumRefVec (bt : IArr F S50000) (H : FArr F S50000x128) : FArr F S128x128 :=
  (Host.scatterAdd scatter_S128x128_S50000x1_S50000x128_1_0_0_1 (broadcastInDim S128x128 ![] bcast_S_S128x128 (constant S_ .f32 0x00000000#32)) (broadcastInDim S50000x1 ![0] bcast_S50000_S50000x1_0 bt) H)

def poolRefVec (bt : IArr F S50000) (H : FArr F S50000x128) (wc : FArr F S128x10) (bc : FArr F S10) : FArr F S128x10 :=
  (addf (Host.dotGeneral dot_S128x128_S128x10_S128x10_1_0_0_1_n_n none (Host.divf (sumRefVec bt H) (broadcastInDim S128x128 ![0, 1] bcast_S128x1_S128x128_0_1 (broadcastInDim S128x1 ![0] bcast_S128_S128x1_0 (cntRefVec bt)))) wc) (broadcastInDim S128x10 ![0, 1] bcast_S1x10_S128x10_0_1 (broadcastInDim S1x10 ![1] bcast_S10_S1x10_1 bc)))

end Terms
section AtIdeal

open Cert.Spec

theorem hostDivf_apply {s : Shape} {φ : FTy} (a b : FVec Ideal s φ) (i : s.Idx) : Host.divf a b i = Ideal.div (a i) (b i) := rfl

theorem hostRsqrt_apply {s : Shape} {φ : FTy} (a : FVec Ideal s φ) (i : s.Idx) : Host.rsqrt a i = Ideal.rsqrt (a i) := rfl

theorem colRep_apply (v : FArr Ideal S128) (i : S50000x128.Idx) : colRep v i = v (ix1 (i 1)) := by
  unfold colRep
  have h2 : ∀ (y : FArr Ideal S1x128), broadcastInDim S50000x128 ![0, 1] bcast_S1x128_S50000x128_0_1 y i
      = y (ix2 (0 : Fin 1) (i 1)) := fun y =>
    broadcastInDim_apply _ bcast_S1x128_S50000x128_0_1 y i (ix2 (0 : Fin 1) (i 1)) (fun a => match a with
      | ⟨0, _⟩ => by show 0 = if (1 : Nat) = 1 then 0 else (i 0).val; rw [if_pos rfl]
      | ⟨1, _⟩ => by show (i 1).val = if (128 : Nat) = 1 then 0 else (i 1).val; rw [if_neg (by decide)])
  rw [h2]
  exact broadcastInDim_apply _ bcast_S128_S1x128_1 v (ix2 (0 : Fin 1) (i 1)) (ix1 (i 1)) (fun a => match a with
    | ⟨0, _⟩ => by show (i 1).val = if (128 : Nat) = 1 then 0 else (i 1).val; rw [if_neg (by decide)])

theorem scalarRep_apply (c : FArr Ideal S_) (j : S128.Idx) : broadcastInDim S128 ![] bcast_S_S128 c j = c ix0 :=
  broadcastInDim_apply _ bcast_S_S128 c j ix0 (fun a => a.elim0)

theorem scalarRep2_apply (c : FArr Ideal S_) (i : S50000x128.Idx) :
    broadcastInDim S50000x128 ![] bcast_S_S50000x128 c i = c ix0 :=
  broadcastInDim_apply _ bcast_S_S50000x128 c i ix0 (fun a => a.elim0)

theorem colMeanVec_apply (x : FArr Ideal S50000x128) (j : Fin 128) :
    colMeanVec x (ix1 j) = Ideal.div (∑ r : Fin 50000, x (ix2 r j)) nNodes := by
  have hs : Host.reduceAdd (F := Ideal) (φ := .f32) x (constant S_ .f32 0x00000000#32) reducesTo_S50000x128_S128_d0 h_S_ (ix1 j)
      = ∑ r : Fin 50000, x (ix2 r j) := by
    simp only [Host.reduceAdd, Ideal.hostReduceAdd_def]
    rw [Ideal.hostReduceAdd_single reducesTo_S50000x128_S128_d0 (by decide), constant_apply, Ideal.ofBits_zero_f32,
      zero_add]
    refine Finset.sum_congr rfl fun k _ => ?_
    exact congrArg x (funext fun a => Fin.ext (by match a with | ⟨0, _⟩ => rfl | ⟨1, _⟩ => rfl))
  unfold colMeanVec
  rw [hostDivf_apply, scalarRep_apply, constant_apply, hs]

theorem lhs_row (i : S50000x128.Idx) (q : dot_S50000x128_S128x128_S50000x128_1_0_0_1_n_n.contr.Idx) : (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch by decide),
    dif_pos (show (0 : Fin S50000x128.rank) ∈ dot_S50000x128_S128x128_S50000x128_1_0_0_1_n_n.lhsNonContracting by decide)]
  rfl

theorem lhs_col (i : S50000x128.Idx) (q : dot_S50000x128_S128x128_S50000x128_1_0_0_1_n_n.contr.Idx) : (dot_S50000x128_S128x128_S50000x128_1_0_0_1_n_n.lhsIdx i q 1).val = (q ⟨0, by decide⟩).val :=
  dot_S50000x128_S128x128_S50000x128_1_0_0_1_n_n.lhsIdx_val_of_single rfl i q

theorem rhs_row (i : S50000x128.Idx) (q : dot_S50000x128_S128x128_S50000x128_1_0_0_1_n_n.contr.Idx) : (dot_S50000x128_S128x128_S50000x128_1_0_0_1_n_n.rhsIdx i q 0).val = (q ⟨0, by decide⟩).val :=
  dot_S50000x128_S128x128_S50000x128_1_0_0_1_n_n.rhsIdx_val_of_single rfl i q

theorem rhs_col (i : S50000x128.Idx) (q : dot_S50000x128_S128x128_S50000x128_1_0_0_1_n_n.contr.Idx) : (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch by decide),
    dif_pos (show (1 : Fin S128x128.rank) ∈ dot_S50000x128_S128x128_S50000x128_1_0_0_1_n_n.rhsNonContracting by decide)]
  rfl

theorem dot_eq_mm (h : FArr Ideal S50000x128) (w : FArr Ideal S128x128) :
    Host.dotGeneral (F := Ideal) (φ₁ := .f32) (φ₂ := .f32) dot_S50000x128_S128x128_S50000x128_1_0_0_1_n_n none h w = ofMat (mm (toMat h) (toMat w)) := by
  funext i
  simp only [Host.dotGeneral]
  rw [Ideal.dotGeneral_apply, ← Equiv.sum_comp (contrEquiv1 dot_S50000x128_S128x128_S50000x128_1_0_0_1_n_n 128 rfl rfl).symm]
  show _ = ∑ k : Fin 128, h (ix2 (i 0) k) * w (ix2 k (i 1))
  refine Finset.sum_congr rfl fun k _ => ?_
  have hk := contrEquiv1_symm_val dot_S50000x128_S128x128_S50000x128_1_0_0_1_n_n 128 rfl rfl k
  have el : dot_S50000x128_S128x128_S50000x128_1_0_0_1_n_n.lhsIdx i ((contrEquiv1 dot_S50000x128_S128x128_S50000x128_1_0_0_1_n_n 128 rfl rfl).symm k) = ix2 (i 0) k := funext fun a => Fin.ext (by
    match a with
    | ⟨0, _⟩ => exact lhs_row _ _
    | ⟨1, _⟩ => exact (lhs_col _ _).trans hk)
  have er : dot_S50000x128_S128x128_S50000x128_1_0_0_1_n_n.rhsIdx i ((contrEquiv1 dot_S50000x128_S128x128_S50000x128_1_0_0_1_n_n 128 rfl rfl).symm k) = ix2 k (i 1) := funext fun a => Fin.ext (by
    match a with
    | ⟨0, _⟩ => exact (rhs_row _ _).trans hk
    | ⟨1, _⟩ => exact rhs_col _ _)
  rw [el, er]
  rfl

section Bn

variable (a : FArr Ideal S50000x128) (b g be : FArr Ideal S128)

theorem colRep_ix2 (v : FArr Ideal S128) (r : Fin 50000) (j : Fin 128) : colRep v (ix2 r j) = v (ix1 j) :=
  colRep_apply v (ix2 r j)

theorem biased_apply (r : Fin 50000) (j : Fin 128) : biased a b (ix2 r j) = a (ix2 r j) + b (ix1 j) := by
  unfold biased
  rw [addf_apply, colRep_ix2]

theorem mean_biased (j : Fin 128) :
    colMeanVec (biased a b) (ix1 j) = colMean (toMat a) (fun j => b (ix1 j)) j := by
  rw [colMeanVec_apply]
  unfold colMean
  simp only [biased_apply]
  rfl

theorem centred_apply (r : Fin 50000) (j : Fin 128) :
    centred (biased a b) (ix2 r j) = (a (ix2 r j) + b (ix1 j)) - colMean (toMat a) (fun j => b (ix1 j)) j := by
  unfold centred
  rw [subf_apply, colRep_ix2, mean_biased, biased_apply]

theorem var_biased (j : Fin 128) :
    colMeanVec (mulf (centred (biased a b)) (centred (biased a b))) (ix1 j) = varRef (toMat a) (fun j => b (ix1 j)) j := by
  rw [colMeanVec_apply]
  unfold varRef
  simp only [mulf_apply, centred_apply]
  rfl

theorem invStd_apply (j : Fin 128) :
    invStd (biased a b) (ix1 j) = Ideal.rsqrt (varRef (toMat a) (fun j => b (ix1 j)) j + bnEps) := by
  unfold invStd
  rw [hostRsqrt_apply, addf_apply, var_biased, scalarRep_apply, constant_apply]

theorem bnReluVec_apply (r : Fin 50000) (j : Fin 128) :
    bnReluVec (biased a b) g be (ix2 r j)
      = bnRef (toMat a) (fun j => b (ix1 j)) (fun j => g (ix1 j)) (fun j => be (ix1 j)) r j := by
  unfold bnReluVec
  rw [maximumf_apply, addf_apply, mulf_apply, mulf_apply, centred_apply, colRep_ix2, colRep_ix2, colRep_ix2,
    invStd_apply, scalarRep2_apply, constant_apply, Ideal.ofBits_zero_f32]
  rfl

end Bn

theorem layerRef_apply (e : IArr Ideal S2x800000) (h : FArr Ideal S50000x128) (w : FArr Ideal S128x128)
    (b g be : FArr Ideal S128) (r : Fin 50000) (j : Fin 128) :
    layerRefVec (F := Ideal) e h w b g be (ix2 r j)
      = bnRef (toMat (aggRef e (ofMat (mm (toMat h) (toMat w))))) (fun j => b (ix1 j)) (fun j => g (ix1 j))
          (fun j => be (ix1 j)) r j := by
  unfold layerRefVec
  rw [dot_eq_mm]
  exact bnReluVec_apply _ b g be r j

end AtIdeal

end Cert.ReferenceIdeal.Layer

end
-- ==== Proof.RefStages.lean ====
import proofs.«425307_j45586782880378_1_alg».proof.Proof.RefRun
import proofs.«425307_j45586782880378_1_alg».proof.Proof.RefLayer
import Idealize.ShloMosaic.Lib.Pipeline.Frame

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

abbrev seg (i n : Nat) : List (HloOp τ sig (Elt F)) := List.take n (List.drop i ops)

abbrev LP : List (HloOp τ sig (Elt F)) := List.drop 190 ops

theorem after_seg (i n : Nat) (V : Valuation τ sig (Elt F)) :
    StableHlo.after (List.drop i ops) V = StableHlo.after (List.drop (i + n) ops) (StableHlo.after (List.take n (List.drop i ops)) V) := by
  rw [← StableHlo.after_append, ← List.drop_drop, List.take_append_drop]

def W1 (V : Valuation τ sig (Elt F)) : Valuation τ sig (Elt F) := StableHlo.after (seg 6 92) (StableHlo.after (seg 0 6) V)

def W2 (V : Valuation τ sig (Elt F)) : Valuation τ sig (Elt F) := StableHlo.after (seg 98 92) (W1 V)

def W3 (V : Valuation τ sig (Elt F)) : Valuation τ sig (Elt F) := StableHlo.after LP (W2 V)

theorem after_ops (V : Valuation τ sig (Elt F)) : StableHlo.after ops V = W3 V :=
  (after_seg 0 6 V).trans <| (after_seg 6 92 _).trans (after_seg 98 92 _)

abbrev argRefs : List (Ref sig .tc) := [main_arg0, main_arg1, main_arg2, main_arg3, main_arg4, main_arg5, main_arg6, main_arg7, main_arg8, main_arg9, main_arg10, main_arg11, main_arg12, main_arg13, main_arg14, main_arg15, main_arg16]

abbrev keptRefs : List (Ref sig .tc) := [main_arg0, main_arg1, main_arg2, main_arg3, main_arg4, main_arg5, main_arg6, main_arg7, main_arg8, main_arg9, main_arg10, main_arg11, main_arg12, main_arg13, main_arg14, main_arg15, main_arg16, main_v1, main_v3]

theorem argRefs_sub : ∀ b ∈ argRefs, b ∈ keptRefs := by decide

set_option maxRecDepth 8192 in
set_option maxHeartbeats 4000000 in
theorem keeps0 (W : Valuation τ sig (Elt F)) :
    ∀ b ∈ argRefs, StableHlo.after (seg 0 6 (F := F)) W (Proc.devRef .tc b) = W (Proc.devRef .tc b) := by
  simp only [seg, LP, ops, List.take, List.drop]
  intro b hb
  fin_cases hb
  all_goals after_results_simp

set_option maxRecDepth 8192 in
set_option maxHeartbeats 4000000 in
theorem keeps1 (W : Valuation τ sig (Elt F)) :
    ∀ b ∈ keptRefs, StableHlo.after (seg 6 92 (F := F)) W (Proc.devRef .tc b) = W (Proc.devRef .tc b) := by
  simp only [seg, LP, ops, List.take, List.drop]
  intro b hb
  fin_cases hb
  all_goals after_results_simp

set_option maxRecDepth 8192 in
set_option maxHeartbeats 4000000 in
theorem keeps2 (W : Valuation τ sig (Elt F)) :
    ∀ b ∈ keptRefs, StableHlo.after (seg 98 92 (F := F)) W (Proc.devRef .tc b) = W (Proc.devRef .tc b) := by
  simp only [seg, LP, ops, List.take, List.drop]
  intro b hb
  fin_cases hb
  all_goals after_results_simp

set_option maxRecDepth 8192 in
set_option maxHeartbeats 4000000 in
theorem keeps3 (W : Valuation τ sig (Elt F)) :
    ∀ b ∈ keptRefs, StableHlo.after (LP (F := F)) W (Proc.devRef .tc b) = W (Proc.devRef .tc b) := by
  simp only [seg, LP, ops, List.take, List.drop]
  intro b hb
  fin_cases hb
  all_goals after_results_simp

set_option maxRecDepth 8192 in
theorem vals0 (W : Valuation τ sig (Elt F)) :
    StableHlo.after (seg 0 6 (F := F)) W (Proc.devRef .tc main_v1) = Layer.srcEdges (W (Proc.devRef .tc main_arg1))
    ∧ StableHlo.after (seg 0 6 (F := F)) W (Proc.devRef .tc main_v3) = Layer.dstEdges (W (Proc.devRef .tc main_arg1))
    ∧ StableHlo.after (seg 0 6 (F := F)) W (Proc.devRef .tc main_v4) = Host.dotGeneral dot_S50000x128_S128x128_S50000x128_1_0_0_1_n_n none (W (Proc.devRef .tc main_arg0)) (W (Proc.devRef .tc main_arg3))
    ∧ StableHlo.after (seg 0 6 (F := F)) W (Proc.devRef .tc main_v5) = iotaInDim S50000 32 0 := by
  simp only [seg, LP, ops, List.take, List.drop]
  refine ⟨?_, ?_, ?_, ?_⟩
  all_goals after_results_simp
  all_goals rfl

set_option maxRecDepth 8192 in
set_option maxHeartbeats 4000000 in
theorem val1 (W : Valuation τ sig (Elt F)) (e : Layer.IArr F S2x800000)
    (h1 : W (Proc.devRef .tc main_v1) = Layer.srcEdges e) (h3 : W (Proc.devRef .tc main_v3) = Layer.dstEdges e)
    (h5 : W (Proc.devRef .tc main_v5) = iotaInDim S50000 32 0) :
    StableHlo.after (seg 6 92 (F := F)) W (Proc.devRef .tc main_v75)
      = Host.dotGeneral dot_S50000x128_S128x128_S50000x128_1_0_0_1_n_n none (Layer.bnReluVec (Layer.biased (Layer.aggRef e (W (Proc.devRef .tc main_v4))) (W (Proc.devRef .tc main_arg4))) (W (Proc.devRef .tc main_arg5)) (W (Proc.devRef .tc main_arg6))) (W (Proc.devRef .tc main_arg7))
    ∧ StableHlo.after (seg 6 92 (F := F)) W (Proc.devRef .tc main_v76) = iotaInDim S50000 32 0 := by
  simp only [seg, LP, ops, List.take, List.drop]
  refine ⟨?_, by after_results_simp⟩
  after_results_simp
  (rw [binary_result_ne]; rotate_left; decide)
  (rw [binary_result_ne]; rotate_left; decide)
  rw [h1, h3, h5]
  rfl

set_option maxRecDepth 8192 in
set_option maxHeartbeats 4000000 in
theorem val2 (W : Valuation τ sig (Elt F)) (e : Layer.IArr F S2x800000)
    (h1 : W (Proc.devRef .tc main_v1) = Layer.srcEdges e) (h3 : W (Proc.devRef .tc main_v3) = Layer.dstEdges e)
    (h5 : W (Proc.devRef .tc main_v76) = iotaInDim S50000 32 0) :
    StableHlo.after (seg 98 92 (F := F)) W (Proc.devRef .tc main_v146)
      = Host.dotGeneral dot_S50000x128_S128x128_S50000x128_1_0_0_1_n_n none (Layer.bnReluVec (Layer.biased (Layer.aggRef e (W (Proc.devRef .tc main_v75))) (W (Proc.devRef .tc main_arg8))) (W (Proc.devRef .tc main_arg9)) (W (Proc.devRef .tc main_arg10))) (W (Proc.devRef .tc main_arg11))
    ∧ StableHlo.after (seg 98 92 (F := F)) W (Proc.devRef .tc main_v147) = iotaInDim S50000 32 0 := by
  simp only [seg, LP, ops, List.take, List.drop]
  refine ⟨?_, by after_results_simp⟩
  after_results_simp
  (rw [binary_result_ne]; rotate_left; decide)
  (rw [binary_result_ne]; rotate_left; decide)
  rw [h1, h3, h5]
  rfl

set_option maxRecDepth 8192 in
set_option maxHeartbeats 4000000 in
theorem val3 (W : Valuation τ sig (Elt F)) (e : Layer.IArr F S2x800000)
    (h1 : W (Proc.devRef .tc main_v1) = Layer.srcEdges e) (h3 : W (Proc.devRef .tc main_v3) = Layer.dstEdges e)
    (h5 : W (Proc.devRef .tc main_v147) = iotaInDim S50000 32 0) :
    StableHlo.after (LP (F := F)) W (Proc.devRef .tc main_v232)
      = Layer.poolRefVec (W (Proc.devRef .tc main_arg2)) (Layer.bnReluVec (Layer.biased (Layer.aggRef e (W (Proc.devRef .tc main_v146))) (W (Proc.devRef .tc main_arg12))) (W (Proc.devRef .tc main_arg13)) (W (Proc.devRef .tc main_arg14))) (W (Proc.devRef .tc main_arg15)) (W (Proc.devRef .tc main_arg16)) := by
  simp only [seg, LP, ops, List.take, List.drop]
  after_results_simp
  (rw [binary_result_ne]; rotate_left; decide)
  (rw [binary_result_ne]; rotate_left; decide)
  rw [h1, h3, h5]
  rfl

structure Inv (W V : Valuation τ sig (Elt F)) : Prop where
  arg : ∀ b ∈ argRefs, W (Proc.devRef .tc b) = V (Proc.devRef .tc b)
  src : W (Proc.devRef .tc main_v1) = Layer.srcEdges (V (Proc.devRef .tc main_arg1))
  dst : W (Proc.devRef .tc main_v3) = Layer.dstEdges (V (Proc.devRef .tc main_arg1))

theorem Inv.next {W V : Valuation τ sig (Elt F)} (h : Inv W V) (s : List (HloOp τ sig (Elt F)))
    (hk : ∀ b ∈ keptRefs, StableHlo.after s W (Proc.devRef .tc b) = W (Proc.devRef .tc b)) : Inv (StableHlo.after s W) V :=
  ⟨fun b hb => (hk b (argRefs_sub b hb)).trans (h.arg b hb), (hk main_v1 (by decide)).trans h.src,
    (hk main_v3 (by decide)).trans h.dst⟩

theorem W3_val (V : Valuation τ sig (Elt F)) : Inv (W3 V) V ∧ W3 V (Proc.devRef .tc main_v232) = Layer.poolRefVec (V (Proc.devRef .tc main_arg2)) (Layer.layerRefVec (V (Proc.devRef .tc main_arg1)) (Layer.layerRefVec (V (Proc.devRef .tc main_arg1)) (Layer.layerRefVec (V (Proc.devRef .tc main_arg1)) (V (Proc.devRef .tc main_arg0)) (V (Proc.devRef .tc main_arg3)) (V (Proc.devRef .tc main_arg4)) (V (Proc.devRef .tc main_arg5)) (V (Proc.devRef .tc main_arg6))) (V (Proc.devRef .tc main_arg7)) (V (Proc.devRef .tc main_arg8)) (V (Proc.devRef .tc main_arg9)) (V (Proc.devRef .tc main_arg10))) (V (Proc.devRef .tc main_arg11)) (V (Proc.devRef .tc main_arg12)) (V (Proc.devRef .tc main_arg13)) (V (Proc.devRef .tc main_arg14))) (V (Proc.devRef .tc main_arg15)) (V (Proc.devRef .tc main_arg16)) := by
  obtain ⟨e1, e3, e4, e5⟩ := vals0 V
  have i0 : Inv (StableHlo.after (seg 0 6) V) V := ⟨keeps0 V, e1, e3⟩
  obtain ⟨o1, j1⟩ := val1 _ (V (Proc.devRef .tc main_arg1)) i0.src i0.dst e5
  have i1 := i0.next _ (keeps1 _)
  obtain ⟨o2, j2⟩ := val2 _ (V (Proc.devRef .tc main_arg1)) i1.src i1.dst j1
  have i2 := i1.next _ (keeps2 _)
  refine ⟨i2.next _ (keeps3 _), ?_⟩
  rw [W3, W2, W1, val3 _ (V (Proc.devRef .tc main_arg1)) i2.src i2.dst j2, o2, o1, e4,
    i2.arg main_arg2 (by decide), i2.arg main_arg15 (by decide), i2.arg main_arg16 (by decide), i2.arg main_arg12 (by decide), i2.arg main_arg13 (by decide), i2.arg main_arg14 (by decide),
    i1.arg main_arg8 (by decide), i1.arg main_arg9 (by decide), i1.arg main_arg10 (by decide), i1.arg main_arg11 (by decide),
    i0.arg main_arg4 (by decide), i0.arg main_arg5 (by decide), i0.arg main_arg6 (by decide), i0.arg main_arg7 (by decide)]
  rfl

theorem ops_keeps (V : Valuation τ sig (Elt F)) (b : Ref sig .tc) (hb : b ∈ argRefs) :
    StableHlo.after ops V (Proc.devRef .tc b) = V (Proc.devRef .tc b) := by
  rw [after_ops, (W3_val V).1.arg b hb]

def refResult (m : (ℓ : Loc nD τ sig) → Buf (Elt F) ℓ) (c : Dev nD) : Buf (Elt F) ((c.tc : Thread nD τ).loc main_v232) :=
  Layer.poolRefVec (m ((c.tc : Thread nD τ).loc main_arg2))
    (Layer.layerRefVec (m ((c.tc : Thread nD τ).loc main_arg1))
      (Layer.layerRefVec (m ((c.tc : Thread nD τ).loc main_arg1))
        (Layer.layerRefVec (m ((c.tc : Thread nD τ).loc main_arg1)) (m ((c.tc : Thread nD τ).loc main_arg0)) (m ((c.tc : Thread nD τ).loc main_arg3))
          (m ((c.tc : Thread nD τ).loc main_arg4)) (m ((c.tc : Thread nD τ).loc main_arg5)) (m ((c.tc : Thread nD τ).loc main_arg6)))
        (m ((c.tc : Thread nD τ).loc main_arg7)) (m ((c.tc : Thread nD τ).loc main_arg8)) (m ((c.tc : Thread nD τ).loc main_arg9)) (m ((c.tc : Thread nD τ).loc main_arg10)))
      (m ((c.tc : Thread nD τ).loc main_arg11)) (m ((c.tc : Thread nD τ).loc main_arg12)) (m ((c.tc : Thread nD τ).loc main_arg13)) (m ((c.tc : Thread nD τ).loc main_arg14)))
    (m ((c.tc : Thread nD τ).loc main_arg15)) (m ((c.tc : Thread nD τ).loc main_arg16))

theorem after_ops_result (m : (ℓ : Loc nD τ sig) → Buf (Elt F) ℓ) (c : Dev nD) :
    StableHlo.after ops (fun b => m (c, b)) (Proc.devRef .tc main_v232) = refResult m c := by
  rw [after_ops, (W3_val _).2]
  rfl

theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v232) = refResult m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun r h c =>
    have k : ∀ b ∈ argRefs, r.2.mem ((c.tc : Thread nD τ).loc b) = m ((c.tc : Thread nD τ).loc b) :=
      fun b hb => (h c b).trans (ops_keeps _ b hb)
    ⟨(h c main_v232).trans (after_ops_result m c), k main_arg0 (by decide), k main_arg1 (by decide), k main_arg2 (by decide), k main_arg3 (by decide), k main_arg4 (by decide), k main_arg5 (by decide), k main_arg6 (by decide), k main_arg7 (by decide), k main_arg8 (by decide), k main_arg9 (by decide), k main_arg10 (by decide), k main_arg11 (by decide), k main_arg12 (by decide), k main_arg13 (by decide), k main_arg14 (by decide), k main_arg15 (by decide), k main_arg16 (by decide)⟩)
    (run_after m ρ)

end Cert.ReferenceIdeal.ValueP

end
-- ==== Proof.KernelIdeal.ArgsKept.lean ====
import proofs.«425307_j45586782880378_1_alg».proof.Proof.KernelIdeal.Chain

set_option maxRecDepth 16384

noncomputable section

namespace Cert.KernelIdeal.Hand

open Idealize.ShloMosaic Idealize.ShloMosaic.TcCoe
open Idealize.SL Idealize.SL.Sem
open Cert.KernelIdeal Cert.KernelIdeal.Gen

variable {F : FTy → Type} [FloatOps F]
variable (m : (ℓ : Loc nD τ sig) → Buf (Elt F) ℓ)

def argRefs : List (Ref sig .tc) :=
  [main_arg0, main_arg1, main_arg2, main_arg3, main_arg4, main_arg5, main_arg6, main_arg7, main_arg8, main_arg9,
   main_arg10, main_arg11, main_arg12, main_arg13, main_arg14, main_arg15, main_arg16]

theorem args_unwritten1 : ∀ r ∈ argRefs, r ∉ hostOps0_W := by decide

theorem args_unwritten2 : ∀ r ∈ argRefs, r ∉ hostOps0_1_W := by decide

theorem args_unwritten3 : ∀ r ∈ argRefs, r ∉ hostOps0_2_W := by decide

theorem args_unwritten4 : ∀ r ∈ argRefs, r ∉ ([main_v33] : List (Ref sig .tc)) := by decide

theorem args_unwritten5 : ∀ r ∈ argRefs, r ∉ hostOps1_W := by decide

theorem args_unwritten6 : ∀ r ∈ argRefs, r ∉ ([main_v47_0, main_v47_1] : List (Ref sig .tc)) := by decide

theorem args_unwritten7 : ∀ r ∈ argRefs, r ∉ hostOps2_W := by decide

theorem args_unwritten8 : ∀ r ∈ argRefs, r ∉ ([main_v64] : List (Ref sig .tc)) := by decide

theorem args_unwritten9 : ∀ r ∈ argRefs, r ∉ ([main_v65] : List (Ref sig .tc)) := by decide

theorem args_unwritten10 : ∀ r ∈ argRefs, r ∉ hostOps4_W := by decide

theorem args_unwritten11 : ∀ r ∈ argRefs, r ∉ ([main_v79_0, main_v79_1] : List (Ref sig .tc)) := by decide

theorem args_unwritten12 : ∀ r ∈ argRefs, r ∉ hostOps5_W := by decide

theorem args_unwritten13 : ∀ r ∈ argRefs, r ∉ ([main_v96] : List (Ref sig .tc)) := by decide

theorem kept0 (c : Dev nD) (r : Ref sig .tc) (hr : r ∈ argRefs) : V0 m c r = m ((c.tc : Thread nD τ).loc r) := rfl

theorem kept1 (c : Dev nD) (r : Ref sig .tc) (hr : r ∈ argRefs) : V1 m c r = m ((c.tc : Thread nD τ).loc r) :=
  (V1_of m c r (args_unwritten1 r hr)).trans (kept0 m c r hr)

theorem kept2 (c : Dev nD) (r : Ref sig .tc) (hr : r ∈ argRefs) : V2 m c r = m ((c.tc : Thread nD τ).loc r) :=
  (V2_of m c r (args_unwritten2 r hr)).trans (kept1 m c r hr)

theorem kept3 (c : Dev nD) (r : Ref sig .tc) (hr : r ∈ argRefs) : Z3 m c r = m ((c.tc : Thread nD τ).loc r) :=
  (V3_of m c r (args_unwritten3 r hr)).trans (kept2 m c r hr)

theorem kept4 (c : Dev nD) (r : Ref sig .tc) (hr : r ∈ argRefs) : Z4 m c r = m ((c.tc : Thread nD τ).loc r) :=
  (V4_of m (outs m) c r (args_unwritten4 r hr)).trans (kept3 m c r hr)

theorem kept5 (c : Dev nD) (r : Ref sig .tc) (hr : r ∈ argRefs) : Z5 m c r = m ((c.tc : Thread nD τ).loc r) :=
  (V5_of m (outs m) c r (args_unwritten5 r hr)).trans (kept4 m c r hr)

theorem kept6 (c : Dev nD) (r : Ref sig .tc) (hr : r ∈ argRefs) : Z6 m c r = m ((c.tc : Thread nD τ).loc r) :=
  (V6_of m (outs m) c r (args_unwritten6 r hr)).trans (kept5 m c r hr)

theorem kept7 (c : Dev nD) (r : Ref sig .tc) (hr : r ∈ argRefs) : Z7 m c r = m ((c.tc : Thread nD τ).loc r) :=
  (V7_of m (outs m) c r (args_unwritten7 r hr)).trans (kept6 m c r hr)

theorem kept8 (c : Dev nD) (r : Ref sig .tc) (hr : r ∈ argRefs) : Z8 m c r = m ((c.tc : Thread nD τ).loc r) :=
  (V8_of m (outs m) c r (args_unwritten8 r hr)).trans (kept7 m c r hr)

theorem kept9 (c : Dev nD) (r : Ref sig .tc) (hr : r ∈ argRefs) : Z9 m c r = m ((c.tc : Thread nD τ).loc r) :=
  (V9_of m (outs m) c r (args_unwritten9 r hr)).trans (kept8 m c r hr)

theorem kept10 (c : Dev nD) (r : Ref sig .tc) (hr : r ∈ argRefs) : Z10 m c r = m ((c.tc : Thread nD τ).loc r) :=
  (V10_of m (outs m) c r (args_unwritten10 r hr)).trans (kept9 m c r hr)

theorem kept11 (c : Dev nD) (r : Ref sig .tc) (hr : r ∈ argRefs) : Z11 m c r = m ((c.tc : Thread nD τ).loc r) :=
  (V11_of m (outs m) c r (args_unwritten11 r hr)).trans (kept10 m c r hr)

theorem kept12 (c : Dev nD) (r : Ref sig .tc) (hr : r ∈ argRefs) : Z12 m c r = m ((c.tc : Thread nD τ).loc r) :=
  (V12_of m (outs m) c r (args_unwritten12 r hr)).trans (kept11 m c r hr)

theorem kept13 (c : Dev nD) (r : Ref sig .tc) (hr : r ∈ argRefs) : Z13 m c r = m ((c.tc : Thread nD τ).loc r) :=
  (V13_of m (outs m) c r (args_unwritten13 r hr)).trans (kept12 m c r hr)

end Cert.KernelIdeal.Hand

end
-- ==== Proof.KernelIdeal.HostAgg.lean ====
import proofs.«425307_j45586782880378_1_alg».proof.Proof.Gen.KernelIdeal.Launch
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.HostVal

open Cert.KernelIdeal Cert.KernelIdeal.Gen Idealize.ShloMosaic Idealize.ShloMosaic.TcCoe Idealize.ShloMosaic.ValueIdx

variable {F : FTy → Type} [FloatOps F]

def wrapIdx (i : (⟨S850000, .i32⟩ : BufTy).Contents (Elt F)) : (⟨S850000, .i32⟩ : BufTy).Contents (Elt F) :=
  select (cmpi .slt i (broadcastInDim S850000 ![] bcast_S_S850000 (constantI S_ 32 0#32)))
    (addi i (broadcastInDim S850000 ![] bcast_S_S850000 (constantI S_ 32 50000#32))) i

def aggOf (src dst : (⟨S850000, .i32⟩ : BufTy).Contents (Elt F)) (nrm : (⟨S850000x1, .f32⟩ : BufTy).Contents (Elt F))
    (xw : (⟨S50000x128, .f32⟩ : BufTy).Contents (Elt F)) : (⟨S50000x128, .f32⟩ : BufTy).Contents (Elt F) :=
  Host.scatterAdd scatter_S50000x128_S850000x1_S850000x128_1_0_0_1
    (broadcastInDim S50000x128 ![] bcast_S_S50000x128 (constant S_ .f32 0x00000000#32))
    (broadcastInDim S850000x1 ![0] bcast_S850000_S850000x1_0 dst)
    (mulf
      (Host.gather gather_S50000x128_S850000x1_S850000x128_1_0_n_n_0_1_1128 xw
        (broadcastInDim S850000x1 ![0] bcast_S850000_S850000x1_0 (wrapIdx src)))
      (broadcastInDim S850000x128 ![0, 1] bcast_S850000x1_S850000x128_0_1 nrm))

theorem host1_v45 (W : Valuation τ sig (Elt F)) :
    StableHlo.after hostOps1 W (Proc.devRef .tc main_v45)
      = aggOf (W (Proc.devRef .tc main_v5)) (W (Proc.devRef .tc main_v6)) (W (Proc.devRef .tc main_v32)) (W (Proc.devRef .tc main_v33)) := by
  after_results_simp
  rfl

theorem host4_v77 (W : Valuation τ sig (Elt F)) :
    StableHlo.after hostOps4 W (Proc.devRef .tc main_v77)
      = aggOf (W (Proc.devRef .tc main_v5)) (W (Proc.devRef .tc main_v6)) (W (Proc.devRef .tc main_v32)) (W (Proc.devRef .tc main_v65)) := by
  after_results_simp
  rfl

theorem host7_v109 (W : Valuation τ sig (Elt F)) :
    StableHlo.after hostOps7 W (Proc.devRef .tc main_v109)
      = aggOf (W (Proc.devRef .tc main_v5)) (W (Proc.devRef .tc main_v6)) (W (Proc.devRef .tc main_v32)) (W (Proc.devRef .tc main_v97)) := by
  after_results_simp
  rfl

theorem host1_v46 (W : Valuation τ sig (Elt F)) (j : Fin 128) :
    StableHlo.after hostOps1 W (Proc.devRef .tc main_v46) (ix2 (0 : Fin 1) j) = W (Proc.devRef .tc main_arg4) (ix1 j) := by
  have e : StableHlo.after hostOps1 W (Proc.devRef .tc main_v46)
      = shapeCast S1x128 (W (Proc.devRef .tc main_arg4)) shapeCasts_S128_S1x128 := by
    after_results_simp
    rfl
  rw [e]
  exact shapeCast_a_1a_apply _ shapeCasts_S128_S1x128 0 j

theorem host4_v78 (W : Valuation τ sig (Elt F)) (j : Fin 128) :
    StableHlo.after hostOps4 W (Proc.devRef .tc main_v78) (ix2 (0 : Fin 1) j) = W (Proc.devRef .tc main_arg8) (ix1 j) := by
  have e : StableHlo.after hostOps4 W (Proc.devRef .tc main_v78)
      = shapeCast S1x128 (W (Proc.devRef .tc main_arg8)) shapeCasts_S128_S1x128 := by
    after_results_simp
    rfl
  rw [e]
  exact shapeCast_a_1a_apply _ shapeCasts_S128_S1x128 0 j

theorem host7_v110 (W : Valuation τ sig (Elt F)) (j : Fin 128) :
    StableHlo.after hostOps7 W (Proc.devRef .tc main_v110) (ix2 (0 : Fin 1) j) = W (Proc.devRef .tc main_arg12) (ix1 j) := by
  have e : StableHlo.after hostOps7 W (Proc.devRef .tc main_v110)
      = shapeCast S1x128 (W (Proc.devRef .tc main_arg12)) shapeCasts_S128_S1x128 := by
    after_results_simp
    rfl
  rw [e]
  exact shapeCast_a_1a_apply _ shapeCasts_S128_S1x128 0 j

def withLoops (row : (⟨S800000, .i32⟩ : BufTy).Contents (Elt F)) : (⟨S850000, .i32⟩ : BufTy).Contents (Elt F) :=
  concatenate S850000 0 [⟨S800000, row⟩, ⟨S50000, iotaInDim S50000 32 0⟩] concatenates_S800000_S50000_S850000_d0

def srcOf (e : (⟨S2x800000, .i32⟩ : BufTy).Contents (Elt F)) : (⟨S850000, .i32⟩ : BufTy).Contents (Elt F) :=
  withLoops (shapeCast S800000 (extractStridedSlice S1x800000 ![0, 0] e slices_S2x800000_S1x800000_0_0) shapeCasts_S1x800000_S800000)

def dstOf (e : (⟨S2x800000, .i32⟩ : BufTy).Contents (Elt F)) : (⟨S850000, .i32⟩ : BufTy).Contents (Elt F) :=
  withLoops (shapeCast S800000 (extractStridedSlice S1x800000 ![1, 0] e slices_S2x800000_S1x800000_1_0) shapeCasts_S1x800000_S800000)

def degOf (dst : (⟨S850000, .i32⟩ : BufTy).Contents (Elt F)) : (⟨S50000, .f32⟩ : BufTy).Contents (Elt F) :=
  Host.scatterAdd scatter_S50000_S850000x1_S850000_n_0_0_1
    (broadcastInDim S50000 ![] bcast_S_S50000 (constant S_ .f32 0x00000000#32))
    (broadcastInDim S850000x1 ![0] bcast_S850000_S850000x1_0 dst)
    (broadcastInDim S850000 ![] bcast_S_S850000 (constant S_ .f32 0x3F800000#32))

def dinvOf (dst : (⟨S850000, .i32⟩ : BufTy).Contents (Elt F)) : (⟨S50000, .f32⟩ : BufTy).Contents (Elt F) :=
  select (cmpf .ogt (degOf dst) (broadcastInDim S50000 ![] bcast_S_S50000 (constant S_ .f32 0x00000000#32)))
    (Host.divf (broadcastInDim S50000 ![] bcast_S_S50000 (constant S_ .f32 0x3F800000#32)) (Host.sqrt (degOf dst)))
    (broadcastInDim S50000 ![] bcast_S_S50000 (constant S_ .f32 0x00000000#32))

def edgeNorm (src dst : (⟨S850000, .i32⟩ : BufTy).Contents (Elt F)) : (⟨S850000x1, .f32⟩ : BufTy).Contents (Elt F) :=
  broadcastInDim S850000x1 ![0] bcast_S850000_S850000x1_0
    (mulf
      (Host.gather gather_S50000_S850000x1_S850000_n_0_n_n_0_1_1 (dinvOf dst)
        (broadcastInDim S850000x1 ![0] bcast_S850000_S850000x1_0 (wrapIdx src)))
      (Host.gather gather_S50000_S850000x1_S850000_n_0_n_n_0_1_1 (dinvOf dst)
        (broadcastInDim S850000x1 ![0] bcast_S850000_S850000x1_0 (wrapIdx dst))))

def nrmOf (e : (⟨S2x800000, .i32⟩ : BufTy).Contents (Elt F)) : (⟨S850000x1, .f32⟩ : BufTy).Contents (Elt F) :=
  edgeNorm (srcOf e) (dstOf e)

theorem pre_v5 (W : Valuation τ sig (Elt F)) :
    StableHlo.after hostOps0_2 (StableHlo.after hostOps0_1 (StableHlo.after hostOps0 W)) (Proc.devRef .tc main_v5)
      = srcOf (W (Proc.devRef .tc main_arg1)) := by
  after_results_simp
  rfl

theorem pre_v6 (W : Valuation τ sig (Elt F)) :
    StableHlo.after hostOps0_2 (StableHlo.after hostOps0_1 (StableHlo.after hostOps0 W)) (Proc.devRef .tc main_v6)
      = dstOf (W (Proc.devRef .tc main_arg1)) := by
  after_results_simp
  rfl

theorem pre_v32 (W : Valuation τ sig (Elt F)) :
    StableHlo.after hostOps0_2 (StableHlo.after hostOps0_1 (StableHlo.after hostOps0 W)) (Proc.devRef .tc main_v32)
      = nrmOf (W (Proc.devRef .tc main_arg1)) := by
  after_results_simp <;> (try simp only [StableHlo.TRef.ofBuf, StableHlo.TRef.toBuf, cast_eq]) <;> rfl

end Cert.KernelIdeal.HostVal
-- ==== Proof.KernelIdeal.HostStats.lean ====
import proofs.«425307_j45586782880378_1_alg».proof.Proof.Gen.KernelIdeal.Launch
import proofs.«425307_j45586782880378_1_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

set_option maxRecDepth 16384

noncomputable section

namespace Cert.KernelIdeal.HostVal

open Cert.KernelIdeal Cert.KernelIdeal.Gen Idealize.ShloMosaic Idealize.ShloMosaic.TcCoe Idealize.ShloMosaic.ValueIdx
open Idealize.ShloMosaic.StableHlo

theorem hostRsqrt_apply {s : Shape} {φ : FTy} (a : FVec Ideal s φ) (i : s.Idx) :
    Host.rsqrt a i = Ideal.rsqrt (a i) := rfl

theorem divf_const_apply {T : Shape} (h : (⟨0, ![]⟩ : Shape).BroadcastsInDim T ![]) (x : FVec Ideal T .f32)
    (n : BitVec FTy.f32.bits) (i : T.Idx) :
    Host.divf x (broadcastInDim T ![] h (constant (F := Ideal) ⟨0, ![]⟩ .f32 n)) i = Ideal.div (x i) (Ideal.ofBits .f32 n) := by
  rw [hostDivf_apply, broadcastInDim_scalar_apply, constant_apply]

theorem invStd_apply {T : Shape} (h : (⟨0, ![]⟩ : Shape).BroadcastsInDim T ![]) (s1 s2 : FVec Ideal T .f32)
    (n e : BitVec FTy.f32.bits) (i : T.Idx) :
    Host.rsqrt (addf
        (subf (Host.divf s2 (broadcastInDim T ![] h (constant (F := Ideal) ⟨0, ![]⟩ .f32 n)))
          (mulf (Host.divf s1 (broadcastInDim T ![] h (constant (F := Ideal) ⟨0, ![]⟩ .f32 n)))
            (Host.divf s1 (broadcastInDim T ![] h (constant (F := Ideal) ⟨0, ![]⟩ .f32 n)))))
        (broadcastInDim T ![] h (constant (F := Ideal) ⟨0, ![]⟩ .f32 e))) i
      = Ideal.rsqrt ((Ideal.div (s2 i) (Ideal.ofBits .f32 n)
          - Ideal.div (s1 i) (Ideal.ofBits .f32 n) * Ideal.div (s1 i) (Ideal.ofBits .f32 n)) + Ideal.ofBits .f32 e) := by
  rw [hostRsqrt_apply, addf_apply, subf_apply, mulf_apply, divf_const_apply, divf_const_apply,
    broadcastInDim_scalar_apply, constant_apply]

variable (W : Valuation τ sig (Elt Ideal)) (j : Fin 128)

theorem host2_v59 :
    StableHlo.after hostOps2 W (Proc.devRef .tc main_v59) (ix2 0 j) = W main_arg4 (ix1 j) := by
  after_results
  exact shapeCast_a_1a_apply _ shapeCasts_S128_S1x128 0 j

theorem host2_v62 :
    StableHlo.after hostOps2 W (Proc.devRef .tc main_v62) (ix2 0 j) = W main_arg5 (ix1 j) := by
  after_results
  exact shapeCast_a_1a_apply _ shapeCasts_S128_S1x128 0 j

theorem host2_v63 :
    StableHlo.after hostOps2 W (Proc.devRef .tc main_v63) (ix2 0 j) = W main_arg6 (ix1 j) := by
  after_results
  exact shapeCast_a_1a_apply _ shapeCasts_S128_S1x128 0 j

theorem host2_v60 :
    StableHlo.after hostOps2 W (Proc.devRef .tc main_v60) (ix2 0 j)
      = Ideal.div (W main_v47_0 (ix2 0 j)) Cert.Spec.nNodes := by
  after_results
  refine (shapeCast_a_1a_apply _ shapeCasts_S128_S1x128 0 j).trans ?_
  refine (shapeCast_1a_a_apply _ shapeCasts_S1x128_S128 j).trans ?_
  exact divf_const_apply bcast_S_S1x128 (W main_v47_0) _ (ix2 0 j)

theorem host2_v61 :
    StableHlo.after hostOps2 W (Proc.devRef .tc main_v61) (ix2 0 j)
      = Ideal.rsqrt ((Ideal.div (W main_v47_1 (ix2 0 j)) Cert.Spec.nNodes
          - Ideal.div (W main_v47_0 (ix2 0 j)) Cert.Spec.nNodes * Ideal.div (W main_v47_0 (ix2 0 j)) Cert.Spec.nNodes)
          + Cert.Spec.bnEps) := by
  after_results
  refine (shapeCast_a_1a_apply _ shapeCasts_S128_S1x128 0 j).trans ?_
  refine (shapeCast_1a_a_apply _ shapeCasts_S1x128_S128 j).trans ?_
  exact invStd_apply bcast_S_S1x128 (W main_v47_0) (W main_v47_1) _ _ (ix2 0 j)

theorem host5_v91 :
    StableHlo.after hostOps5 W (Proc.devRef .tc main_v91) (ix2 0 j) = W main_arg8 (ix1 j) := by
  after_results
  exact shapeCast_a_1a_apply _ shapeCasts_S128_S1x128 0 j

theorem host5_v94 :
    StableHlo.after hostOps5 W (Proc.devRef .tc main_v94) (ix2 0 j) = W main_arg9 (ix1 j) := by
  after_results
  exact shapeCast_a_1a_apply _ shapeCasts_S128_S1x128 0 j

theorem host5_v95 :
    StableHlo.after hostOps5 W (Proc.devRef .tc main_v95) (ix2 0 j) = W main_arg10 (ix1 j) := by
  after_results
  exact shapeCast_a_1a_apply _ shapeCasts_S128_S1x128 0 j

theorem host5_v92 :
    StableHlo.after hostOps5 W (Proc.devRef .tc main_v92) (ix2 0 j)
      = Ideal.div (W main_v79_0 (ix2 0 j)) Cert.Spec.nNodes := by
  after_results
  refine (shapeCast_a_1a_apply _ shapeCasts_S128_S1x128 0 j).trans ?_
  refine (shapeCast_1a_a_apply _ shapeCasts_S1x128_S128 j).trans ?_
  exact divf_const_apply bcast_S_S1x128 (W main_v79_0) _ (ix2 0 j)

theorem host5_v93 :
    StableHlo.after hostOps5 W (Proc.devRef .tc main_v93) (ix2 0 j)
      = Ideal.rsqrt ((Ideal.div (W main_v79_1 (ix2 0 j)) Cert.Spec.nNodes
          - Ideal.div (W main_v79_0 (ix2 0 j)) Cert.Spec.nNodes * Ideal.div (W main_v79_0 (ix2 0 j)) Cert.Spec.nNodes)
          + Cert.Spec.bnEps) := by
  after_results
  refine (shapeCast_a_1a_apply _ shapeCasts_S128_S1x128 0 j).trans ?_
  refine (shapeCast_1a_a_apply _ shapeCasts_S1x128_S128 j).trans ?_
  exact invStd_apply bcast_S_S1x128 (W main_v79_0) (W main_v79_1) _ _ (ix2 0 j)

theorem host8_v123 :
    StableHlo.after hostOps8 W (Proc.devRef .tc main_v123) (ix2 0 j) = W main_arg12 (ix1 j) := by
  after_results
  exact shapeCast_a_1a_apply _ shapeCasts_S128_S1x128 0 j

theorem host8_v126 :
    StableHlo.after hostOps8 W (Proc.devRef .tc main_v126) (ix2 0 j) = W main_arg13 (ix1 j) := by
  after_results
  exact shapeCast_a_1a_apply _ shapeCasts_S128_S1x128 0 j

theorem host8_v127 :
    StableHlo.after hostOps8 W (Proc.devRef .tc main_v127) (ix2 0 j) = W main_arg14 (ix1 j) := by
  after_results
  exact shapeCast_a_1a_apply _ shapeCasts_S128_S1x128 0 j

theorem host8_v124 :
    StableHlo.after hostOps8 W (Proc.devRef .tc main_v124) (ix2 0 j)
      = Ideal.div (W main_v111_0 (ix2 0 j)) Cert.Spec.nNodes := by
  after_results
  refine (shapeCast_a_1a_apply _ shapeCasts_S128_S1x128 0 j).trans ?_
  refine (shapeCast_1a_a_apply _ shapeCasts_S1x128_S128 j).trans ?_
  exact divf_const_apply bcast_S_S1x128 (W main_v111_0) _ (ix2 0 j)

theorem host8_v125 :
    StableHlo.after hostOps8 W (Proc.devRef .tc main_v125) (ix2 0 j)
      = Ideal.rsqrt ((Ideal.div (W main_v111_1 (ix2 0 j)) Cert.Spec.nNodes
          - Ideal.div (W main_v111_0 (ix2 0 j)) Cert.Spec.nNodes * Ideal.div (W main_v111_0 (ix2 0 j)) Cert.Spec.nNodes)
          + Cert.Spec.bnEps) := by
  after_results
  refine (shapeCast_a_1a_apply _ shapeCasts_S128_S1x128 0 j).trans ?_
  refine (shapeCast_1a_a_apply _ shapeCasts_S1x128_S128 j).trans ?_
  exact invStd_apply bcast_S_S1x128 (W main_v111_0) (W main_v111_1) _ _ (ix2 0 j)

end Cert.KernelIdeal.HostVal
-- ==== Proof.KernelIdeal.Val0.lean ====
import proofs.«425307_j45586782880378_1_alg».proof.Proof.KernelIdeal.Reg0
import Idealize.ShloMosaic.Lib.Pipeline.Value
import Idealize.ShloMosaic.Lib.ValueIdx
import Idealize.ShloMosaic.Lib.StackMember
import Idealize.ShloMosaic.PureOps.Ideal.Laws

set_option maxRecDepth 16384

noncomputable section

namespace Cert.KernelIdeal.Val

open Cert.KernelIdeal Cert.KernelIdeal.Gen Cert.KernelIdeal.Hand Idealize.ShloMosaic Idealize.ShloMosaic.TcCoe
  Idealize.ShloMosaic.ValueIdx
open Idealize.ShloMosaic.Pipeline (Dat)

variable (V : (c : Dev nD) → (b : Ref sig .tc) → Buf (Elt Ideal) ((c : Thread nD τ).loc b))

theorem product0_apply (x : Vec Ideal S10000x128 .f32) (w : Vec Ideal S128x128 .f32) (y : Fin 10000) (j : Fin 128) :
    k0_pay1 x w (ix2 y j) = ∑ k : Fin 128, x (ix2 y k) * w (ix2 k j) := by
  unfold k0_pay1
  refine (Ideal.matmul_constant_zero_apply dot_S10000x128_S128x128_S10000x128_1_0_0_1_n_n none _ _ (ix2 y j)).trans ?_
  refine ((Ideal.dotGeneral_apply dot_S10000x128_S128x128_S10000x128_1_0_0_1_n_n none .single _ _ (ix2 y j)).symm.trans
    (StackMember.dotGeneral_plain_apply (m := 10000) (n := 128) none _ _ y j)).trans ?_
  simp only [truncf_apply, shapeCast_self]

abbrev arr0_0 (c : Dev nD) : Vec Ideal S50000x128 .f32 := V c (Pipeline.arrRef spec0 0)
abbrev arr0_1 (c : Dev nD) : Vec Ideal S128x128 .f32 := V c (Pipeline.arrRef spec0 1)

abbrev product0 (X : Vec Ideal S50000x128 .f32) (W : Vec Ideal S128x128 .f32) : Vec Ideal S50000x128 .f32 :=
  fun i => ∑ k : Fin 128, X (ix2 (i 0) k) * W (ix2 k (i 1))

theorem index_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem rowBlock0_apply (c : Dev nD) (t : Fin cfg0.N) (x : S10000x128.Idx) (i : S50000x128.Idx)
    (h0 : (i 0).val = t.val * 10000 + (x 0).val) (h1 : (i 1).val = (x 1).val) :
    (iblk0 V c 0 t : Vec Ideal S10000x128 .f32) x = arr0_0 V c i := by
  obtain ⟨e0, e1, -, -, -, -⟩ := index_facts0 t
  have h : (((cfg0.win 0).blk t).view.emb x : S50000x128.Idx) = i := by
    funext a
    apply Fin.ext
    match a with
    | ⟨0, _⟩ => show win0_0.index t (0 : Fin 2) * 10000 + 1 * (x 0).val = (i 0).val; omega
    | ⟨1, _⟩ => show win0_0.index t (1 : Fin 2) * 128 + 1 * (x 1).val = (i 1).val; omega
  unfold iblk0
  rw [View.read_apply]
  exact congrArg (arr0_0 V c) h

theorem weightBlock0_apply (c : Dev nD) (t : Fin cfg0.N) (x : S128x128.Idx) :
    (iblk0 V c 1 t : Vec Ideal S128x128 .f32) x = arr0_1 V c x := by
  obtain ⟨-, -, e0, e1, -, -⟩ := index_facts0 t
  have h : (((cfg0.win 1).blk t).view.emb x : S128x128.Idx) = x := by
    funext a
    apply Fin.ext
    match a with
    | ⟨0, _⟩ => show win0_1.index t (0 : Fin 2) * 128 + 1 * (x 0).val = (x 0).val; omega
    | ⟨1, _⟩ => show win0_1.index t (1 : Fin 2) * 128 + 1 * (x 1).val = (x 1).val; omega
  unfold iblk0
  rw [View.read_apply]
  exact congrArg (arr0_1 V c) h

theorem flushed0_eq (c : Dev nD) (t : Fin cfg0.N) :
    (dat0 V c).flushed 2 t = ((cfg0.win 2).blk t).view.read (Elt Ideal)
      (product0 (arr0_0 V c) (arr0_1 V c)) := by
  show (cfg0.win 2).cut (grid0.coords t) ((dat0 V c).after 2 t) = _
  rw [after0_2]
  obtain ⟨-, -, -, -, e0, e1⟩ := index_facts0 t
  funext y
  obtain ⟨p, q, rfl⟩ : ∃ (p : Fin 10000) (q : Fin 128), y = ix2 p q := ⟨y 0, y 1, eq_ix2 y⟩
  show k0_pay1 (iblk0 V c 0 t) (iblk0 V c 1 t) (ix2 p q)
    = ∑ k : Fin 128, arr0_0 V c (ix2 ((((cfg0.win 2).blk t).view.emb (ix2 p q)) 0) k)
        * arr0_1 V c (ix2 k ((((cfg0.win 2).blk t).view.emb (ix2 p q)) 1))
  rw [product0_apply]
  refine Finset.sum_congr rfl fun k _ => ?_
  have hr : ((((cfg0.win 2).blk t).view.emb (ix2 p q)) 0).val = t.val * 10000 + p.val := by
    show win0_2.index t (0 : Fin 2) * 10000 + 1 * p.val = _; omega
  have hc : ((((cfg0.win 2).blk t).view.emb (ix2 p q)) 1) = q := Fin.ext (by
    show win0_2.index t (1 : Fin 2) * 128 + 1 * q.val = _; omega)
  rw [rowBlock0_apply V c t (ix2 p k) (ix2 ((((cfg0.win 2).blk t).view.emb (ix2 p q)) 0) k) hr rfl,
    weightBlock0_apply V c t (ix2 k q), hc]

theorem mem_outBlock0 (t : Fin cfg0.N) (i : S50000x128.Idx) :
    i ∈ ((cfg0.win 2).blk t).view.set ↔ ∀ a : Fin 2, win0_2.index t a * S10000x128.size a ≤ (i a).val
      ∧ (i a).val < win0_2.index t a * S10000x128.size a + S10000x128.size a := by
  show i ∈ ((View.whole (Pipeline.arrRef spec0 2)).slice (win0_2.rect t)).set ↔ _
  rw [View.set_slice_whole, Rect.mem_set_unit]
  exact Iff.rfl

theorem coverRows {N : ℕ} (hN : N = 5) {ix : Fin N → Fin 2 → ℕ} (h : ∀ t, ix t 0 = t.val ∧ ix t 1 = 0)
    (i : S50000x128.Idx) : ∃ t : Fin N, ∀ a : Fin 2,
      ix t a * S10000x128.size a ≤ (i a).val ∧ (i a).val < ix t a * S10000x128.size a + S10000x128.size a := by
  have hi0 : (i 0).val < 50000 := (i 0).isLt
  have hi1 : (i 1).val < 128 := (i 1).isLt
  let t : Fin N := ⟨(i 0).val / 10000, by omega⟩
  have ht : t.val = (i 0).val / 10000 := rfl
  obtain ⟨e0, e1⟩ := h t
  refine ⟨t, fun a => ?_⟩
  match a with
  | ⟨0, _⟩ => show ix t 0 * 10000 ≤ (i 0).val ∧ (i 0).val < ix t 0 * 10000 + 10000; omega
  | ⟨1, _⟩ => show ix t 1 * 128 ≤ (i 1).val ∧ (i 1).val < ix t 1 * 128 + 128; omega

theorem covered0 (i : S50000x128.Idx) :
    ∃ t : Fin cfg0.N, (cfg0.win 2).flush t = true ∧ i ∈ ((cfg0.win 2).blk t).view.set :=
  (coverRows N_0 (ix := win0_2.index) (fun t => (index_facts0 t).2.2.2.2) i).imp fun t h =>
    ⟨flush0_2 t, (mem_outBlock0 t i).mpr h⟩

theorem final0 (c : Dev nD) : (dat0 V c).arrAt 2 cfg0.N
    = product0 (arr0_0 V c) (arr0_1 V c) :=
  (dat0 V c).arrAt_eq_of_cover 2 _ (fun t _ => flushed0_eq V c t) covered0

theorem val0 (c : Dev nD) (r : Fin 50000) (j : Fin 128) :
    (dat0 V c).arrAt 2 cfg0.N (ix2 r j)
      = (∑ k : Fin 128, arr0_0 V c (ix2 r k) * arr0_1 V c (ix2 k j) : EReal) := by
  rw [final0]

end Cert.KernelIdeal.Val
-- ==== Proof.PoolAlgebra.lean ====
import proofs.«425307_j45586782880378_1_alg».proof.Proof.Spec
import Mathlib.Algebra.BigOperators.Fin
import Mathlib.Logic.Equiv.Fin.Basic

noncomputable section

open scoped BigOperators

namespace Cert.Spec

open Idealize.ShloMosaic

theorem sum_indicator_mul {n : ℕ} (s : Fin n → Prop) [DecidablePred s] (x : Fin n → EReal) :
    (∑ i, (if s i then (1 : EReal) else 0) * x i) = ∑ i ∈ Finset.univ.filter s, x i := by
  rw [Finset.sum_filter]
  refine Finset.sum_congr rfl fun i _ => ?_
  by_cases hs : s i
  · rw [if_pos hs, if_pos hs, one_mul]
  · rw [if_neg hs, if_neg hs, zero_mul]

theorem mul_div_one_eq_div (s d : EReal) (hd : ∃ x : ℝ, 1 ≤ x ∧ d = (x : EReal)) :
    s * Ideal.div 1 d = Ideal.div s d := by
  obtain ⟨x, hx, rfl⟩ := hd
  have hx0 : x ≠ 0 := by linarith
  rw [Ideal.div_coe hx0, Ideal.div_coe hx0, one_mul]

theorem poolKer_eq_poolRef {n g h c : ℕ} (H : Mat n h) (oh : Mat n g) (ic : Fin g → EReal)
    (sel : Fin n → Fin g → Prop) [∀ i p, Decidable (sel i p)] (d : Fin g → EReal) (wc : Mat h c) (bc : Fin c → EReal)
    (hoh : ∀ i p, oh i p = if sel i p then 1 else 0)
    (hd : ∀ p, ∃ x : ℝ, 1 ≤ x ∧ d p = (x : EReal))
    (hic : ∀ p, ic p = Ideal.div 1 (d p)) :
    poolKer H oh ic wc bc = poolRef H sel d wc bc := by
  funext p k
  unfold poolKer poolRef
  congr 1
  refine Finset.sum_congr rfl fun q _ => ?_
  congr 1
  have hsum : (∑ i, oh i p * H i q) = ∑ i ∈ Finset.univ.filter (fun i => sel i p), H i q := by
    rw [← sum_indicator_mul (fun i => sel i p) (fun i => H i q)]
    exact Finset.sum_congr rfl fun i _ => by rw [hoh i p]
  rw [hsum, hic p, mul_div_one_eq_div _ _ (hd p)]

theorem sum_fin_blocks (f : Fin 50000 → EReal) :
    (∑ r : Fin 50000, f r) = ∑ t : Fin 5, ∑ y : Fin 10000, f ⟨t.val * 10000 + y.val, by omega⟩ := by
  have e := Equiv.sum_comp (finProdFinEquiv : Fin 5 × Fin 10000 ≃ Fin (5 * 10000)) f
  rw [← e, Fintype.sum_prod_type]
  refine Finset.sum_congr rfl fun t _ => Finset.sum_congr rfl fun y _ => ?_
  congr 1
  apply Fin.ext
  show y.val + 10000 * t.val = t.val * 10000 + y.val
  omega

theorem sum_fin5 (f : Fin 5 → EReal) : (∑ t : Fin 5, f t) = f 0 + f 1 + f 2 + f 3 + f 4 :=
  Fin.sum_univ_five f

theorem zero_add_blocks (f : Fin 50000 → EReal) :
    ((((0 + ∑ y : Fin 10000, f ⟨0 * 10000 + y.val, by omega⟩) + ∑ y : Fin 10000, f ⟨1 * 10000 + y.val, by omega⟩)
      + ∑ y : Fin 10000, f ⟨2 * 10000 + y.val, by omega⟩) + ∑ y : Fin 10000, f ⟨3 * 10000 + y.val, by omega⟩)
      + ∑ y : Fin 10000, f ⟨4 * 10000 + y.val, by omega⟩ = ∑ r : Fin 50000, f r := by
  rw [sum_fin_blocks, sum_fin5, zero_add]
  rfl

end Cert.Spec

end
-- ==== Proof.KernelIdeal.Val1.lean ====
import proofs.«425307_j45586782880378_1_alg».proof.Proof.KernelIdeal.Reg1
import proofs.«425307_j45586782880378_1_alg».proof.Proof.Spec
import proofs.«425307_j45586782880378_1_alg».proof.Proof.PoolAlgebra
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Val

open Cert.KernelIdeal Cert.KernelIdeal.Gen Cert.KernelIdeal.Hand Idealize.ShloMosaic Idealize.ShloMosaic.TcCoe Idealize.ShloMosaic.ValueIdx
open Idealize.ShloMosaic.Pipeline (Dat)

theorem rowPlusBias1_apply (x : Vec Ideal S10000x128 .f32) (b : Vec Ideal S1x128 .f32) (y : Fin 10000) (j : Fin 128) :
    k1_pay1 x b (ix2 y j) = x (ix2 y j) + b (ix2 0 j) := by
  unfold k1_pay1
  refine (addf_apply _ _ _).trans ?_
  rw [shapeCast_self, shapeCast_self]
  exact congrArg (x (ix2 y j) + ·) (broadcastTo_1b_ab_apply b _ y j)

theorem colSum1_apply (src : FVec Ideal S10000x128 .f32) (hφ : FKind.Formats .f32)
    (hacc : (0x00000000#32 : BitVec 32) = FKind.add.neutral .f32 hφ) (j : Fin 128) :
    multiReduction (F := Ideal) .add [0] S128 src 0x00000000#32 reduces_S10000x128_S128 hφ hacc (ix1 j)
      = ∑ y : Fin 10000, src (ix2 y j) := by
  refine (Ideal.multiReduction_add_single src 0x00000000#32 reduces_S10000x128_S128 hφ hacc (ix1 j)).trans ?_
  refine Finset.sum_congr rfl fun y _ => congrArg src ?_
  funext a
  match a with
  | ⟨0, _⟩ => rfl
  | ⟨1, _⟩ => rfl

theorem addColSum1_apply (x : Vec Ideal S10000x128 .f32) (b a : Vec Ideal S1x128 .f32) (j : Fin 128) :
    k1_pay4 x b a (ix2 0 j) = a (ix2 0 j) + ∑ y : Fin 10000, (x (ix2 y j) + b (ix2 0 j)) := by
  unfold k1_pay4
  refine (addf_apply _ _ _).trans ?_
  rw [shapeCast_self]
  refine congrArg (a (ix2 0 j) + ·) ?_
  refine (shapeCast_a_1a_apply _ _ 0 j).trans ?_
  refine (colSum1_apply _ _ _ j).trans ?_
  exact Finset.sum_congr rfl fun y _ => rowPlusBias1_apply x b y j

theorem addColSumSq1_apply (x : Vec Ideal S10000x128 .f32) (b a : Vec Ideal S1x128 .f32) (j : Fin 128) :
    k1_pay5 x b a (ix2 0 j)
      = a (ix2 0 j) + ∑ y : Fin 10000, (x (ix2 y j) + b (ix2 0 j)) * (x (ix2 y j) + b (ix2 0 j)) := by
  unfold k1_pay5
  refine (addf_apply _ _ _).trans ?_
  rw [shapeCast_self]
  refine congrArg (a (ix2 0 j) + ·) ?_
  refine (shapeCast_a_1a_apply _ _ 0 j).trans ?_
  refine (colSum1_apply _ _ _ j).trans ?_
  refine Finset.sum_congr rfl fun y _ => ?_
  refine (mulf_apply _ _ _).trans ?_
  rw [rowPlusBias1_apply x b y j]

theorem zeroRow1_apply (j : Fin 128) : (k1_pay2 (F := Ideal)) (ix2 0 j) = 0 := by
  unfold k1_pay2
  exact Ideal.ofBits_zero_f32

theorem zeroRowSq1_apply (j : Fin 128) : (k1_pay3 (F := Ideal)) (ix2 0 j) = 0 := by
  unfold k1_pay3
  exact Ideal.ofBits_zero_f32

variable (V : (c : Dev nD) → (b : Ref sig .tc) → Buf (Elt Ideal) ((c : Thread nD τ).loc b))

abbrev xArr1 (c : Dev nD) : Vec Ideal S50000x128 .f32 := V c (Pipeline.arrRef spec1 0)

abbrev bRow1 (c : Dev nD) : Vec Ideal S1x128 .f32 := V c (Pipeline.arrRef spec1 1)

theorem idx_facts1 : ∀ t : Fin cfg1.N, win1_0.index t (0 : Fin 2) = t.val ∧ win1_0.index t (1 : Fin 2) = 0
    ∧ win1_1.index t (0 : Fin 2) = 0 ∧ win1_1.index t (1 : Fin 2) = 0 :=
  (by decide +kernel : ∀ t : Fin grid1.N, _)

theorem blockRow1_apply (c : Dev nD) (t : Fin cfg1.N) (y : Fin 10000) (j : Fin 128) (r : Fin 50000)
    (hr : r.val = t.val * 10000 + y.val) :
    (iblk1 V c 0 t : Vec Ideal S10000x128 .f32) (ix2 y j)
      = xArr1 V c (ix2 r j) := by
  obtain ⟨e0, e1, -, -⟩ := idx_facts1 t
  unfold iblk1
  rw [View.read_apply]
  show V c (Pipeline.arrRef spec1 0) _ = V c (Pipeline.arrRef spec1 0) _
  congr 1
  funext a
  apply Fin.ext
  match a with
  | ⟨0, _⟩ => show win1_0.index t (0 : Fin 2) * 10000 + 1 * y.val = r.val; rw [e0, hr]; omega
  | ⟨1, _⟩ => show win1_0.index t (1 : Fin 2) * 128 + 1 * j.val = j.val; rw [e1]; omega

theorem biasRow1_apply (c : Dev nD) (t : Fin cfg1.N) (j : Fin 128) :
    (iblk1 V c 1 t : Vec Ideal S1x128 .f32) (ix2 0 j)
      = bRow1 V c (ix2 0 j) := by
  obtain ⟨-, -, e0, e1⟩ := idx_facts1 t
  unfold iblk1
  rw [View.read_apply]
  show V c (Pipeline.arrRef spec1 1) _ = V c (Pipeline.arrRef spec1 1) _
  congr 1
  funext a
  apply Fin.ext
  match a with
  | ⟨0, _⟩ => show win1_1.index t (0 : Fin 2) * 1 + 1 * 0 = 0; rw [e0]
  | ⟨1, _⟩ => show win1_1.index t (1 : Fin 2) * 128 + 1 * j.val = j.val; rw [e1]; omega

theorem points1 : cfg1.N = 5 := N_1
theorem lastPoint1 : 4 < cfg1.N := by rw [points1]; decide
theorem point1_lt (t : Fin cfg1.N) : t.val < 5 := lt_of_lt_of_eq t.isLt points1

def tileSum1 (c : Dev nD) (j : Fin 128) (n : ℕ) (h : n < 5) : EReal :=
  ∑ y : Fin 10000, (xArr1 V c (ix2 (⟨n * 10000 + y.val, by omega⟩ : Fin 50000) j)
    + bRow1 V c (ix2 0 j))

def tileSumSq1 (c : Dev nD) (j : Fin 128) (n : ℕ) (h : n < 5) : EReal :=
  ∑ y : Fin 10000, (xArr1 V c (ix2 (⟨n * 10000 + y.val, by omega⟩ : Fin 50000) j)
      + bRow1 V c (ix2 0 j))
    * (xArr1 V c (ix2 (⟨n * 10000 + y.val, by omega⟩ : Fin 50000) j)
      + bRow1 V c (ix2 0 j))

def partSum1 (c : Dev nD) (j : Fin 128) : (n : ℕ) → n < 5 → EReal
  | 0, h => 0 + tileSum1 V c j 0 h
  | n + 1, h => partSum1 c j n (by omega) + tileSum1 V c j (n + 1) h

def partSumSq1 (c : Dev nD) (j : Fin 128) : (n : ℕ) → n < 5 → EReal
  | 0, h => 0 + tileSumSq1 V c j 0 h
  | n + 1, h => partSumSq1 c j n (by omega) + tileSumSq1 V c j (n + 1) h

theorem step1_sum (c : Dev nD) (t : Fin cfg1.N) (a : Vec Ideal S1x128 .f32) (j : Fin 128) :
    k1_pay4 (iblk1 V c 0 t) (iblk1 V c 1 t) a (ix2 0 j)
      = a (ix2 0 j) + tileSum1 V c j t.val (point1_lt t) := by
  refine (addColSum1_apply (iblk1 V c 0 t) (iblk1 V c 1 t) a j).trans ?_
  refine congrArg (a (ix2 0 j) + ·) ?_
  unfold tileSum1
  refine Finset.sum_congr rfl fun y _ => ?_
  rw [blockRow1_apply V c t y j ⟨t.val * 10000 + y.val, by have := point1_lt t; omega⟩ rfl,
    biasRow1_apply V c t j]

theorem step1_sumSq (c : Dev nD) (t : Fin cfg1.N) (a : Vec Ideal S1x128 .f32) (j : Fin 128) :
    k1_pay5 (iblk1 V c 0 t) (iblk1 V c 1 t) a (ix2 0 j)
      = a (ix2 0 j) + tileSumSq1 V c j t.val (point1_lt t) := by
  refine (addColSumSq1_apply (iblk1 V c 0 t) (iblk1 V c 1 t) a j).trans ?_
  refine congrArg (a (ix2 0 j) + ·) ?_
  unfold tileSumSq1
  refine Finset.sum_congr rfl fun y _ => ?_
  rw [blockRow1_apply V c t y j ⟨t.val * 10000 + y.val, by have := point1_lt t; omega⟩ rfl,
    biasRow1_apply V c t j]

theorem accFst1 (c : Dev nD) (j : Fin 128) : ∀ (n : ℕ) (h : n < cfg1.N),
    (acc1 V c n h).1 (ix2 0 j) = partSum1 V c j n (by rw [points1] at h; exact h)
  | 0, h => by
    rw [acc1_zero]
    dsimp only
    refine (step1_sum V c ⟨0, h⟩ (k1_pay2 (F := Ideal)) j).trans ?_
    rw [zeroRow1_apply]
    rfl
  | n + 1, h => by
    rw [acc1_succ]
    dsimp only
    refine (step1_sum V c ⟨n + 1, h⟩ _ j).trans ?_
    rw [accFst1 c j n (by omega)]
    rfl

theorem accSnd1 (c : Dev nD) (j : Fin 128) : ∀ (n : ℕ) (h : n < cfg1.N),
    (acc1 V c n h).2 (ix2 0 j) = partSumSq1 V c j n (by rw [points1] at h; exact h)
  | 0, h => by
    rw [acc1_zero]
    dsimp only
    refine (step1_sumSq V c ⟨0, h⟩ (k1_pay3 (F := Ideal)) j).trans ?_
    rw [zeroRowSq1_apply]
    rfl
  | n + 1, h => by
    rw [acc1_succ]
    dsimp only
    refine (step1_sumSq V c ⟨n + 1, h⟩ _ j).trans ?_
    rw [accSnd1 c j n (by omega)]
    rfl

abbrev sumRow1 (c : Dev nD) : Buf (Elt Ideal) ((c : Thread nD τ).loc (Pipeline.arrRef spec1 2)) := (acc1 V c 4 lastPoint1).1

abbrev sumSqRow1 (c : Dev nD) : Buf (Elt Ideal) ((c : Thread nD τ).loc (Pipeline.arrRef spec1 3)) := (acc1 V c 4 lastPoint1).2

theorem flushedSum1_eq (c : Dev nD) (t : Fin cfg1.N) (hf : (cfg1.win 2).flush t = true) :
    (dat1 V c).flushed 2 t = ((cfg1.win 2).blk t).view.read (Elt Ideal) (sumRow1 V c) := by
  have hN : cfg1.N = 5 := points1
  have h1 : t.val = 4 := by have := (flush1_2 t).mp hf; have := t.isLt; omega
  obtain rfl : t = t1_4 := Fin.ext h1
  show (cfg1.win 2).cut (grid1.coords t1_4) ((dat1 V c).after 2 t1_4) = _
  rw [after1_2]
  have hz' : (fun a => win1_2.index t1_4 a * (Pipeline.arrRef spec1 2).ty.shape.size a) = fun _ => 0 :=
    funext fun a => by fin_cases a <;> decide
  exact (Memref.read_access_unit_zero (Elt Ideal) (Pipeline.arrRef spec1 2) hz' (fun a => by rw [congrFun hz' a]; simp) (sumRow1 V c)).symm

theorem flushedSumSq1_eq (c : Dev nD) (t : Fin cfg1.N) (hf : (cfg1.win 3).flush t = true) :
    (dat1 V c).flushed 3 t = ((cfg1.win 3).blk t).view.read (Elt Ideal) (sumSqRow1 V c) := by
  have hN : cfg1.N = 5 := points1
  have h1 : t.val = 4 := by have := (flush1_3 t).mp hf; have := t.isLt; omega
  obtain rfl : t = t1_4 := Fin.ext h1
  show (cfg1.win 3).cut (grid1.coords t1_4) ((dat1 V c).after 3 t1_4) = _
  rw [after1_3]
  have hz' : (fun a => win1_3.index t1_4 a * (Pipeline.arrRef spec1 3).ty.shape.size a) = fun _ => 0 :=
    funext fun a => by fin_cases a <;> decide
  exact (Memref.read_access_unit_zero (Elt Ideal) (Pipeline.arrRef spec1 3) hz' (fun a => by rw [congrFun hz' a]; simp) (sumSqRow1 V c)).symm

theorem wholeRow {lo sz : Fin 2 → ℕ} (h : ∀ a, lo a = 0 ∧ sz a = S1x128.size a) (i : S1x128.Idx) (a : Fin 2) :
    lo a ≤ (i a).val ∧ (i a).val < lo a + sz a := by
  rw [(h a).1, (h a).2, Nat.zero_add]
  exact ⟨Nat.zero_le _, (i a).isLt⟩

theorem finalSum1 (c : Dev nD) : (dat1 V c).arrAt 2 cfg1.N = sumRow1 V c :=
  (dat1 V c).arrAt_eq_of_cover 2 (sumRow1 V c) (flushedSum1_eq V c) fun i =>
    ⟨t1_4, (flush1_2 t1_4).mpr rfl, by
      show i ∈ ((View.whole (Pipeline.arrRef spec1 2)).slice (win1_2.rect t1_4)).set
      rw [View.set_slice_whole, Rect.mem_set_unit]
      exact wholeRow (lo := fun a => win1_2.index t1_4 a * win1_2.size a) (sz := win1_2.xsize (grid1.coords t1_4))
        (by decide +kernel) i⟩

theorem finalSumSq1 (c : Dev nD) : (dat1 V c).arrAt 3 cfg1.N = sumSqRow1 V c :=
  (dat1 V c).arrAt_eq_of_cover 3 (sumSqRow1 V c) (flushedSumSq1_eq V c) fun i =>
    ⟨t1_4, (flush1_3 t1_4).mpr rfl, by
      show i ∈ ((View.whole (Pipeline.arrRef spec1 3)).slice (win1_3.rect t1_4)).set
      rw [View.set_slice_whole, Rect.mem_set_unit]
      exact wholeRow (lo := fun a => win1_3.index t1_4 a * win1_3.size a) (sz := win1_3.xsize (grid1.coords t1_4))
        (by decide +kernel) i⟩

theorem val1_sum (c : Dev nD) (j : Fin 128) :
    (dat1 V c).arrAt 2 cfg1.N (ix2 0 j)
      = ∑ r : Fin 50000, (xArr1 V c (ix2 r j)
          + bRow1 V c (ix2 0 j)) := by
  rw [finalSum1 V c]
  show (acc1 V c 4 lastPoint1).1 (ix2 0 j) = _
  rw [accFst1 V c j 4 lastPoint1]
  exact Cert.Spec.zero_add_blocks fun r => xArr1 V c (ix2 r j)
    + bRow1 V c (ix2 0 j)

theorem val1_sq (c : Dev nD) (j : Fin 128) :
    (dat1 V c).arrAt 3 cfg1.N (ix2 0 j)
      = ∑ r : Fin 50000, (xArr1 V c (ix2 r j)
            + bRow1 V c (ix2 0 j))
          * (xArr1 V c (ix2 r j)
            + bRow1 V c (ix2 0 j)) := by
  rw [finalSumSq1 V c]
  show (acc1 V c 4 lastPoint1).2 (ix2 0 j) = _
  rw [accSnd1 V c j 4 lastPoint1]
  exact Cert.Spec.zero_add_blocks fun r => (xArr1 V c (ix2 r j)
      + bRow1 V c (ix2 0 j))
    * (xArr1 V c (ix2 r j)
      + bRow1 V c (ix2 0 j))

end Cert.KernelIdeal.Val

end
-- ==== Proof.KernelIdeal.Val2.lean ====
import proofs.«425307_j45586782880378_1_alg».proof.Proof.KernelIdeal.Reg2
import proofs.«425307_j45586782880378_1_alg».proof.Proof.KernelIdeal.Val0
import proofs.«425307_j45586782880378_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Hand Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

abbrev lane2 (i : S50000x128.Idx) : S1x128.Idx := ix2 (0 : Fin 1) (i 1 : Fin 128)

def norm2 (A : Vec Ideal S50000x128 .f32) (b μ s γ β : Vec Ideal S1x128 .f32) : Vec Ideal S50000x128 .f32 := fun i =>
  max ((((A i + b (lane2 i)) - μ (lane2 i)) * s (lane2 i)) * γ (lane2 i) + β (lane2 i)) 0

theorem norm2_apply (A : Vec Ideal S50000x128 .f32) (b μ s γ β : Vec Ideal S1x128 .f32) (r : Fin 50000) (j : Fin 128) :
    norm2 A b μ s γ β (ix2 r j)
      = max ((((A (ix2 r j) + b (ix2 0 j)) - μ (ix2 0 j)) * s (ix2 0 j)) * γ (ix2 0 j) + β (ix2 0 j)) 0 := rfl

theorem pay2_apply (x : Vec Ideal S10000x128 .f32) (b μ s γ β : Vec Ideal S1x128 .f32) (p : Fin 10000) (q : Fin 128) :
    k2_pay1 x b μ s γ β (ix2 p q)
      = max ((((x (ix2 p q) + b (ix2 0 q)) - μ (ix2 0 q)) * s (ix2 0 q)) * γ (ix2 0 q) + β (ix2 0 q)) 0 := by
  unfold k2_pay1
  simp only [maximumf_apply, addf_apply, mulf_apply, subf_apply, broadcast_apply, shapeCast_self, broadcastTo_1b_ab_apply]
  exact congrArg (max _) Ideal.ofBits_zero_f32

theorem block2_apply (A : Vec Ideal S50000x128 .f32) (b μ s γ β : Vec Ideal S1x128 .f32) (x : Vec Ideal S10000x128 .f32)
    (b' μ' s' γ' β' : Vec Ideal S1x128 .f32) (hb : b' = b) (hμ : μ' = μ) (hs : s' = s) (hγ : γ' = γ) (hβ : β' = β)
    (y : S10000x128.Idx) (i : S50000x128.Idx) (hx : x y = A i) (hl : (i 1).val = (y 1).val) :
    k2_pay1 x b' μ' s' γ' β' y = norm2 A b μ s γ β i := by
  subst hb hμ hs hγ hβ
  obtain ⟨p, q, rfl⟩ : ∃ (p : Fin 10000) (q : Fin 128), y = ix2 p q := ⟨y 0, y 1, eq_ix2 y⟩
  have hq : lane2 i = ix2 0 q := by
    funext a
    match a with
    | ⟨0, _⟩ => rfl
    | ⟨1, _⟩ => exact Fin.ext hl
  rw [pay2_apply, hx]
  unfold norm2
  rw [hq]

abbrev rows2 (c : Dev nD) : Vec Ideal S50000x128 .f32 := V c (Pipeline.arrRef spec2 0)

abbrev bias2 (c : Dev nD) : Vec Ideal S1x128 .f32 := V c (Pipeline.arrRef spec2 1)

abbrev mean2 (c : Dev nD) : Vec Ideal S1x128 .f32 := V c (Pipeline.arrRef spec2 2)

abbrev istd2 (c : Dev nD) : Vec Ideal S1x128 .f32 := V c (Pipeline.arrRef spec2 3)

abbrev scale2 (c : Dev nD) : Vec Ideal S1x128 .f32 := V c (Pipeline.arrRef spec2 4)

abbrev shift2 (c : Dev nD) : Vec Ideal S1x128 .f32 := V c (Pipeline.arrRef spec2 5)

abbrev out2 (c : Dev nD) : Vec Ideal S50000x128 .f32 := (dat2 V c).arrAt 6 cfg2.N

theorem indexFacts2 : ∀ t : Fin cfg2.N,
    win2_0.index t (0 : Fin 2) = t.val ∧ win2_0.index t (1 : Fin 2) = 0
    ∧ win2_6.index t (0 : Fin 2) = t.val ∧ win2_6.index t (1 : Fin 2) = 0 :=
  (by decide +kernel : ∀ t : Fin grid2.N, _)

theorem zeroIdx2 : ∀ (t : Fin cfg2.N) (a : Fin 2), win2_1.index t a = 0 ∧ win2_2.index t a = 0
    ∧ win2_3.index t a = 0 ∧ win2_4.index t a = 0 ∧ win2_5.index t a = 0 :=
  (by decide +kernel : ∀ t : Fin grid2.N, _)

theorem embId {ix : Fin 2 → ℕ} (h : ∀ a, ix a = 0) (q : S1x128.Idx) (a : Fin 2) :
    ix a * S1x128.size a + 1 * (q a).val = (q a).val := by
  rw [h a, Nat.zero_mul, Nat.zero_add, Nat.one_mul]

theorem rowBlock2_1 (c : Dev nD) (t : Fin cfg2.N) : iblk2 V c 1 t = bias2 V c := by
  funext q
  show V c (Pipeline.arrRef spec2 1) (((cfg2.win 1).blk t).view.emb q) = V c (Pipeline.arrRef spec2 1) q
  exact congrArg _ (funext fun a => Fin.ext (embId (ix := win2_1.index t) (fun a => (zeroIdx2 t a).1) q a))

theorem rowBlock2_2 (c : Dev nD) (t : Fin cfg2.N) : iblk2 V c 2 t = mean2 V c := by
  funext q
  show V c (Pipeline.arrRef spec2 2) (((cfg2.win 2).blk t).view.emb q) = V c (Pipeline.arrRef spec2 2) q
  exact congrArg _ (funext fun a => Fin.ext (embId (ix := win2_2.index t) (fun a => (zeroIdx2 t a).2.1) q a))

theorem rowBlock2_3 (c : Dev nD) (t : Fin cfg2.N) : iblk2 V c 3 t = istd2 V c := by
  funext q
  show V c (Pipeline.arrRef spec2 3) (((cfg2.win 3).blk t).view.emb q) = V c (Pipeline.arrRef spec2 3) q
  exact congrArg _ (funext fun a => Fin.ext (embId (ix := win2_3.index t) (fun a => (zeroIdx2 t a).2.2.1) q a))

theorem rowBlock2_4 (c : Dev nD) (t : Fin cfg2.N) : iblk2 V c 4 t = scale2 V c := by
  funext q
  show V c (Pipeline.arrRef spec2 4) (((cfg2.win 4).blk t).view.emb q) = V c (Pipeline.arrRef spec2 4) q
  exact congrArg _ (funext fun a => Fin.ext (embId (ix := win2_4.index t) (fun a => (zeroIdx2 t a).2.2.2.1) q a))

theorem rowBlock2_5 (c : Dev nD) (t : Fin cfg2.N) : iblk2 V c 5 t = shift2 V c := by
  funext q
  show V c (Pipeline.arrRef spec2 5) (((cfg2.win 5).blk t).view.emb q) = V c (Pipeline.arrRef spec2 5) q
  exact congrArg _ (funext fun a => Fin.ext (embId (ix := win2_5.index t) (fun a => (zeroIdx2 t a).2.2.2.2) q a))

set_option maxHeartbeats 1000000 in

theorem flushed2_eq (c : Dev nD) (t : Fin cfg2.N) :
    (dat2 V c).flushed 6 t = ((cfg2.win 6).blk t).view.read (Elt Ideal) (norm2 (rows2 V c) (bias2 V c) (mean2 V c) (istd2 V c) (scale2 V c) (shift2 V c)) := by
  show (cfg2.win 6).cut (grid2.coords t) ((dat2 V c).after 6 t) = _
  rw [after2_6]
  obtain ⟨a0, a1, o0, o1⟩ := indexFacts2 t
  funext y
  show k2_pay1 (iblk2 V c 0 t) (iblk2 V c 1 t) (iblk2 V c 2 t) (iblk2 V c 3 t) (iblk2 V c 4 t) (iblk2 V c 5 t) y
    = norm2 (rows2 V c) (bias2 V c) (mean2 V c) (istd2 V c) (scale2 V c) (shift2 V c) (((cfg2.win 6).blk t).view.emb y)
  refine block2_apply (rows2 V c) (bias2 V c) (mean2 V c) (istd2 V c) (scale2 V c) (shift2 V c) (iblk2 V c 0 t)
    (iblk2 V c 1 t) (iblk2 V c 2 t) (iblk2 V c 3 t) (iblk2 V c 4 t) (iblk2 V c 5 t)
    (rowBlock2_1 V c t) (rowBlock2_2 V c t) (rowBlock2_3 V c t) (rowBlock2_4 V c t) (rowBlock2_5 V c t) y
    (((cfg2.win 6).blk t).view.emb y) ?_ ?_
  · show V c (Pipeline.arrRef spec2 0) (((cfg2.win 0).blk t).view.emb y) = V c (Pipeline.arrRef spec2 0) (((cfg2.win 6).blk t).view.emb y)
    refine congrArg (V c (Pipeline.arrRef spec2 0)) (funext fun a => Fin.ext ?_)
    match a with
    | ⟨0, _⟩ => show win2_0.index t (0 : Fin 2) * 10000 + 1 * (y 0).val = win2_6.index t (0 : Fin 2) * 10000 + 1 * (y 0).val; omega
    | ⟨1, _⟩ => show win2_0.index t (1 : Fin 2) * 128 + 1 * (y 1).val = win2_6.index t (1 : Fin 2) * 128 + 1 * (y 1).val; omega
  · show win2_6.index t (1 : Fin 2) * 128 + 1 * (y 1).val = (y 1).val
    omega

theorem mem_blk2 (t : Fin cfg2.N) (i : S50000x128.Idx) :
    i ∈ ((cfg2.win 6).blk t).view.set ↔ ∀ a : Fin 2, win2_6.index t a * S10000x128.size a ≤ (i a).val ∧ (i a).val < win2_6.index t a * S10000x128.size a + S10000x128.size a := by
  show i ∈ ((View.whole (Pipeline.arrRef spec2 6)).slice (win2_6.rect t)).set ↔ _
  rw [View.set_slice_whole, Rect.mem_set_unit]
  exact Iff.rfl

theorem covered2 (i : S50000x128.Idx) :
    ∃ t : Fin cfg2.N, (cfg2.win 6).flush t = true ∧ i ∈ ((cfg2.win 6).blk t).view.set :=
  (coverRows N_2 (ix := win2_6.index) (fun t => (indexFacts2 t).2.2) i).imp fun t h =>
    ⟨flush2_6 t, (mem_blk2 t i).mpr h⟩

set_option maxHeartbeats 1000000 in

theorem final2 (c : Dev nD) : (dat2 V c).arrAt 6 cfg2.N = norm2 (rows2 V c) (bias2 V c) (mean2 V c) (istd2 V c) (scale2 V c) (shift2 V c) :=
  (dat2 V c).arrAt_eq_of_cover 6 _ (fun t _ => flushed2_eq V c t) covered2

set_option maxHeartbeats 1000000 in

theorem val2 (c : Dev nD) (r : Fin 50000) (j : Fin 128) :
    out2 V c (ix2 r j)
      = max ((((rows2 V c (ix2 r j) + bias2 V c (ix2 0 j)) - mean2 V c (ix2 0 j)) * istd2 V c (ix2 0 j))
          * scale2 V c (ix2 0 j) + shift2 V c (ix2 0 j)) 0 :=
  (congrFun (final2 V c) (ix2 r j)).trans (norm2_apply (rows2 V c) (bias2 V c) (mean2 V c) (istd2 V c) (scale2 V c) (shift2 V c) r j)

end Cert.KernelIdeal.Val
-- ==== Proof.KernelIdeal.KLayer1.lean ====
import proofs.«425307_j45586782880378_1_alg».proof.Proof.KernelIdeal.Chain
import proofs.«425307_j45586782880378_1_alg».proof.Proof.KernelIdeal.HostAgg
import proofs.«425307_j45586782880378_1_alg».proof.Proof.KernelIdeal.HostStats
import proofs.«425307_j45586782880378_1_alg».proof.Proof.KernelIdeal.Val0
import proofs.«425307_j45586782880378_1_alg».proof.Proof.KernelIdeal.Val1
import proofs.«425307_j45586782880378_1_alg».proof.Proof.KernelIdeal.Val2
import proofs.«425307_j45586782880378_1_alg».proof.Proof.Spec
import Idealize.ShloMosaic.Lib.Pipeline.FrameSuffix
import Idealize.ShloMosaic.Lib.ValueIdx

set_option maxRecDepth 16384

noncomputable section

namespace Cert.KernelIdeal.KVal

open Cert.KernelIdeal Cert.KernelIdeal.Gen Cert.KernelIdeal.Hand Cert.KernelIdeal.HostVal Cert.KernelIdeal.Val
  Idealize.ShloMosaic Idealize.ShloMosaic.TcCoe Idealize.ShloMosaic.ValueIdx

variable (m : (ℓ : Loc nD τ sig) → Buf (Elt Ideal) ℓ) (c : Dev nD)

abbrev edges : (⟨S2x800000, .i32⟩ : BufTy).Contents (Elt Ideal) := m ((c.tc : Thread nD τ).loc main_arg1)

theorem bnOf {A : Cert.Spec.Mat 50000 128} {bv gv ev : Fin 128 → EReal} {r : Fin 50000} {j : Fin 128}
    {a b μ s γ β : EReal} (hA : a = A r j) (hb : b = bv j) (hm : μ = Cert.Spec.colMean A bv j)
    (hs : s = Ideal.rsqrt (Cert.Spec.varKer A bv j + Cert.Spec.bnEps)) (hg : γ = gv j) (he : β = ev j) :
    max ((((a + b) - μ) * s) * γ + β) 0 = Cert.Spec.bnKer A bv gv ev r j := by
  subst hA hb hm hs hg he
  rfl

theorem sumCongr {f g : Fin 50000 → EReal} (h : ∀ r, f r = g r) : ∑ r, f r = ∑ r, g r :=
  Finset.sum_congr rfl fun r _ => h r

namespace L0

theorem srcOut : Z3 m c main_v5 = srcOf (edges m c) := pre_v5 (V0 m c)
theorem dstOut : Z3 m c main_v6 = dstOf (edges m c) := pre_v6 (V0 m c)
theorem nrmOut : Z3 m c main_v32 = nrmOf (edges m c) := pre_v32 (V0 m c)

end L0

namespace L1

abbrev xwArr : S50000x128.Idx → EReal :=
  Cert.Spec.ofMat (Cert.Spec.mm (Cert.Spec.toMat (Z3 m c main_arg0)) (Cert.Spec.toMat (Z3 m c main_arg3)))

abbrev aggArr : S50000x128.Idx → EReal :=
  aggOf (srcOf (edges m c)) (dstOf (edges m c)) (nrmOf (edges m c)) (xwArr m c)

abbrev biasVec : Fin 128 → EReal := fun j => (Z3 m c main_arg4 : S128.Idx → EReal) (ix1 j)
abbrev scaleVec : Fin 128 → EReal := fun j => (Z3 m c main_arg5 : S128.Idx → EReal) (ix1 j)
abbrev shiftVec : Fin 128 → EReal := fun j => (Z3 m c main_arg6 : S128.Idx → EReal) (ix1 j)

theorem xw : Z4 m c main_v33 = xwArr m c := by
  refine (Function.update_self _ _ _).trans ?_
  unfold Y4
  refine (Pipeline.withArrays_arr spec0 launch0.win.arr_inj c _ _ (2 : Fin cfg0.W)).trans ?_
  funext i
  rw [eq_ix2 i]
  exact val0 (atRefs (Z3 m)) c (i 0) (i 1)

theorem srcA : Z4 m c main_v5 = srcOf (edges m c) := (V4_of m (outs m) c main_v5 (by decide)).trans (L0.srcOut m c)
theorem dstA : Z4 m c main_v6 = dstOf (edges m c) := (V4_of m (outs m) c main_v6 (by decide)).trans (L0.dstOut m c)
theorem nrmA : Z4 m c main_v32 = nrmOf (edges m c) := (V4_of m (outs m) c main_v32 (by decide)).trans (L0.nrmOut m c)

theorem srcOut : Z8 m c main_v5 = srcOf (edges m c) :=
  (V8_of m (outs m) c main_v5 (by decide)).trans <| (V7_of m (outs m) c main_v5 (by decide)).trans <|
    (V6_of m (outs m) c main_v5 (by decide)).trans <| (V5_of m (outs m) c main_v5 (by decide)).trans (srcA m c)
theorem dstOut : Z8 m c main_v6 = dstOf (edges m c) :=
  (V8_of m (outs m) c main_v6 (by decide)).trans <| (V7_of m (outs m) c main_v6 (by decide)).trans <|
    (V6_of m (outs m) c main_v6 (by decide)).trans <| (V5_of m (outs m) c main_v6 (by decide)).trans (dstA m c)
theorem nrmOut : Z8 m c main_v32 = nrmOf (edges m c) :=
  (V8_of m (outs m) c main_v32 (by decide)).trans <| (V7_of m (outs m) c main_v32 (by decide)).trans <|
    (V6_of m (outs m) c main_v32 (by decide)).trans <| (V5_of m (outs m) c main_v32 (by decide)).trans (nrmA m c)

theorem agg : Z5 m c main_v45 = aggArr m c := by
  refine (host1_v45 (Z4 m c)).trans ?_
  rw [srcA, dstA, nrmA, xw]

theorem biasRow (j : Fin 128) : Z5 m c main_v46 (ix2 0 j) = biasVec m c j :=
  (host1_v46 (Z4 m c) j).trans (congrFun (V4_of m (outs m) c main_arg4 (by decide)) (ix1 j))

theorem rowPlus (r : Fin 50000) (j : Fin 128) :
    (xArr1 (atRefs (Z5 m)) c (ix2 r j) + bRow1 (atRefs (Z5 m)) c (ix2 0 j) : EReal)
      = Cert.Spec.toMat (aggArr m c) r j + biasVec m c j :=
  congrArg₂ (· + ·) (congrFun (agg m c) (ix2 r j)) (biasRow m c j)

theorem colSum (j : Fin 128) :
    Z6 m c main_v47_0 (ix2 0 j) = ∑ r : Fin 50000, (Cert.Spec.toMat (aggArr m c) r j + biasVec m c j) := by
  have e : Z6 m c main_v47_0 = (dat1 (atRefs (Z5 m)) c).arrAt 2 cfg1.N := by
    refine (Function.update_of_ne (StableHlo.devRef_ne_of_ne (by decide)) _ _).trans ?_
    refine (Function.update_self _ _ _).trans ?_
    unfold Y6
    exact Pipeline.withArrays_arr spec1 launch1.win.arr_inj c _ _ (2 : Fin cfg1.W)
  rw [e]
  exact (val1_sum (atRefs (Z5 m)) c j).trans (sumCongr fun r => rowPlus m c r j)

theorem colSumSq (j : Fin 128) :
    Z6 m c main_v47_1 (ix2 0 j)
      = ∑ r : Fin 50000, (Cert.Spec.toMat (aggArr m c) r j + biasVec m c j) * (Cert.Spec.toMat (aggArr m c) r j + biasVec m c j) := by
  have e : Z6 m c main_v47_1 = (dat1 (atRefs (Z5 m)) c).arrAt 3 cfg1.N := by
    refine (Function.update_self _ _ _).trans ?_
    unfold Y6
    exact Pipeline.withArrays_arr spec1 launch1.win.arr_inj c _ _ (3 : Fin cfg1.W)
  rw [e]
  exact (val1_sq (atRefs (Z5 m)) c j).trans
    (sumCongr fun r => congrArg₂ (· * ·) (rowPlus m c r j) (rowPlus m c r j))

theorem rowsN : Z7 m c main_v45 = aggArr m c :=
  (V7_of m (outs m) c main_v45 (by decide)).trans <| (V6_of m (outs m) c main_v45 (by decide)).trans (agg m c)

theorem biasKept : Z6 m c main_arg4 = Z3 m c main_arg4 :=
  (V6_of m (outs m) c main_arg4 (by decide)).trans <| (V5_of m (outs m) c main_arg4 (by decide)).trans
    (V4_of m (outs m) c main_arg4 (by decide))
theorem scaleKept : Z6 m c main_arg5 = Z3 m c main_arg5 :=
  (V6_of m (outs m) c main_arg5 (by decide)).trans <| (V5_of m (outs m) c main_arg5 (by decide)).trans
    (V4_of m (outs m) c main_arg5 (by decide))
theorem shiftKept : Z6 m c main_arg6 = Z3 m c main_arg6 :=
  (V6_of m (outs m) c main_arg6 (by decide)).trans <| (V5_of m (outs m) c main_arg6 (by decide)).trans
    (V4_of m (outs m) c main_arg6 (by decide))

theorem biasN (j : Fin 128) : Z7 m c main_v59 (ix2 0 j) = biasVec m c j :=
  (host2_v59 (Z6 m c) j).trans (congrFun (biasKept m c) (ix1 j))
theorem scaleN (j : Fin 128) : Z7 m c main_v62 (ix2 0 j) = scaleVec m c j :=
  (host2_v62 (Z6 m c) j).trans (congrFun (scaleKept m c) (ix1 j))
theorem shiftN (j : Fin 128) : Z7 m c main_v63 (ix2 0 j) = shiftVec m c j :=
  (host2_v63 (Z6 m c) j).trans (congrFun (shiftKept m c) (ix1 j))

theorem meanN (j : Fin 128) :
    Z7 m c main_v60 (ix2 0 j) = Cert.Spec.colMean (Cert.Spec.toMat (aggArr m c)) (biasVec m c) j := by
  refine (host2_v60 (Z6 m c) j).trans ?_
  rw [colSum]
  rfl

theorem istdN (j : Fin 128) :
    Z7 m c main_v61 (ix2 0 j)
      = Ideal.rsqrt (Cert.Spec.varKer (Cert.Spec.toMat (aggArr m c)) (biasVec m c) j + Cert.Spec.bnEps) := by
  refine (host2_v61 (Z6 m c) j).trans ?_
  rw [colSum, colSumSq]
  rfl

theorem left : Z8 m c main_v64 = (dat2 (atRefs (Z7 m)) c).arrAt 6 cfg2.N := by
  refine (Function.update_self _ _ _).trans ?_
  unfold Y8
  exact Pipeline.withArrays_arr spec2 launch2.win.arr_inj c _ _ (6 : Fin cfg2.W)

theorem layer (r : Fin 50000) (j : Fin 128) :
    (Z8 m c main_v64 : S50000x128.Idx → EReal) (ix2 r j)
      = Cert.Spec.bnKer (Cert.Spec.toMat (aggArr m c)) (biasVec m c) (scaleVec m c) (shiftVec m c) r j := by
  rw [left]
  exact (val2 (atRefs (Z7 m)) c r j).trans (bnOf (congrFun (rowsN m c) (ix2 r j)) (biasN m c j) (meanN m c j)
    (istdN m c j) (scaleN m c j) (shiftN m c j))

end L1

theorem klayer1 (r : Fin 50000) (j : Fin 128) :
    (Z8 m c main_v64 : S50000x128.Idx → EReal) (ix2 r j)
      = Cert.Spec.bnKer (Cert.Spec.toMat (aggOf (srcOf (m ((c.tc : Thread nD τ).loc main_arg1))) (dstOf (m ((c.tc : Thread nD τ).loc main_arg1))) (nrmOf (m ((c.tc : Thread nD τ).loc main_arg1)))
            (Cert.Spec.ofMat (Cert.Spec.mm (Cert.Spec.toMat (Z3 m c main_arg0)) (Cert.Spec.toMat (Z3 m c main_arg3))))))
          (fun j => (Z3 m c main_arg4 : S128.Idx → EReal) (ix1 j)) (fun j => (Z3 m c main_arg5 : S128.Idx → EReal) (ix1 j)) (fun j => (Z3 m c main_arg6 : S128.Idx → EReal) (ix1 j)) r j :=
  L1.layer m c r j

end Cert.KernelIdeal.KVal
-- ==== Proof.KernelIdeal.Val3.lean ====
import proofs.«425307_j45586782880378_1_alg».proof.Proof.KernelIdeal.Reg3
import proofs.«425307_j45586782880378_1_alg».proof.Proof.KernelIdeal.Val0

set_option maxRecDepth 16384

noncomputable section

namespace Cert.KernelIdeal.Val

open Cert.KernelIdeal Cert.KernelIdeal.Gen Cert.KernelIdeal.Hand Idealize.ShloMosaic Idealize.ShloMosaic.TcCoe
  Idealize.ShloMosaic.ValueIdx
open Idealize.ShloMosaic.Pipeline (Dat)

variable (V : (c : Dev nD) → (b : Ref sig .tc) → Buf (Elt Ideal) ((c : Thread nD τ).loc b))

theorem product3_apply (x : Vec Ideal S10000x128 .f32) (w : Vec Ideal S128x128 .f32) (y : Fin 10000) (j : Fin 128) :
    k3_pay1 x w (ix2 y j) = ∑ k : Fin 128, x (ix2 y k) * w (ix2 k j) := by
  unfold k3_pay1
  rw [shapeCast_self]
  exact product0_apply x w y j

abbrev arr3_0 (c : Dev nD) : Vec Ideal S50000x128 .f32 := V c (Pipeline.arrRef spec3 0)
abbrev arr3_1 (c : Dev nD) : Vec Ideal S128x128 .f32 := V c (Pipeline.arrRef spec3 1)

theorem index_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

theorem rowBlock3_apply (c : Dev nD) (t : Fin cfg3.N) (x : S10000x128.Idx) (i : S50000x128.Idx)
    (h0 : (i 0).val = t.val * 10000 + (x 0).val) (h1 : (i 1).val = (x 1).val) :
    (iblk3 V c 0 t : Vec Ideal S10000x128 .f32) x = arr3_0 V c i := by
  obtain ⟨e0, e1, -, -, -, -⟩ := index_facts3 t
  have h : (((cfg3.win 0).blk t).view.emb x : S50000x128.Idx) = i := by
    funext a
    apply Fin.ext
    match a with
    | ⟨0, _⟩ => show win3_0.index t (0 : Fin 2) * 10000 + 1 * (x 0).val = (i 0).val; omega
    | ⟨1, _⟩ => show win3_0.index t (1 : Fin 2) * 128 + 1 * (x 1).val = (i 1).val; omega
  unfold iblk3
  rw [View.read_apply]
  exact congrArg (arr3_0 V c) h

theorem weightBlock3_apply (c : Dev nD) (t : Fin cfg3.N) (x : S128x128.Idx) :
    (iblk3 V c 1 t : Vec Ideal S128x128 .f32) x = arr3_1 V c x := by
  obtain ⟨-, -, e0, e1, -, -⟩ := index_facts3 t
  have h : (((cfg3.win 1).blk t).view.emb x : S128x128.Idx) = x := by
    funext a
    apply Fin.ext
    match a with
    | ⟨0, _⟩ => show win3_1.index t (0 : Fin 2) * 128 + 1 * (x 0).val = (x 0).val; omega
    | ⟨1, _⟩ => show win3_1.index t (1 : Fin 2) * 128 + 1 * (x 1).val = (x 1).val; omega
  unfold iblk3
  rw [View.read_apply]
  exact congrArg (arr3_1 V c) h

theorem flushed3_eq (c : Dev nD) (t : Fin cfg3.N) :
    (dat3 V c).flushed 2 t = ((cfg3.win 2).blk t).view.read (Elt Ideal)
      (product0 (arr3_0 V c) (arr3_1 V c)) := by
  show (cfg3.win 2).cut (grid3.coords t) ((dat3 V c).after 2 t) = _
  rw [after3_2]
  obtain ⟨-, -, -, -, e0, e1⟩ := index_facts3 t
  funext y
  obtain ⟨p, q, rfl⟩ : ∃ (p : Fin 10000) (q : Fin 128), y = ix2 p q := ⟨y 0, y 1, eq_ix2 y⟩
  show k3_pay1 (iblk3 V c 0 t) (iblk3 V c 1 t) (ix2 p q)
    = ∑ k : Fin 128, arr3_0 V c (ix2 ((((cfg3.win 2).blk t).view.emb (ix2 p q)) 0) k)
        * arr3_1 V c (ix2 k ((((cfg3.win 2).blk t).view.emb (ix2 p q)) 1))
  rw [product3_apply]
  refine Finset.sum_congr rfl fun k _ => ?_
  have hr : ((((cfg3.win 2).blk t).view.emb (ix2 p q)) 0).val = t.val * 10000 + p.val := by
    show win3_2.index t (0 : Fin 2) * 10000 + 1 * p.val = _; omega
  have hc : ((((cfg3.win 2).blk t).view.emb (ix2 p q)) 1) = q := Fin.ext (by
    show win3_2.index t (1 : Fin 2) * 128 + 1 * q.val = _; omega)
  rw [rowBlock3_apply V c t (ix2 p k) (ix2 ((((cfg3.win 2).blk t).view.emb (ix2 p q)) 0) k) hr rfl,
    weightBlock3_apply V c t (ix2 k q), hc]

theorem mem_outBlock3 (t : Fin cfg3.N) (i : S50000x128.Idx) :
    i ∈ ((cfg3.win 2).blk t).view.set ↔ ∀ a : Fin 2, win3_2.index t a * S10000x128.size a ≤ (i a).val
      ∧ (i a).val < win3_2.index t a * S10000x128.size a + S10000x128.size a := by
  show i ∈ ((View.whole (Pipeline.arrRef spec3 2)).slice (win3_2.rect t)).set ↔ _
  rw [View.set_slice_whole, Rect.mem_set_unit]
  exact Iff.rfl

theorem covered3 (i : S50000x128.Idx) :
    ∃ t : Fin cfg3.N, (cfg3.win 2).flush t = true ∧ i ∈ ((cfg3.win 2).blk t).view.set :=
  (coverRows N_3 (ix := win3_2.index) (fun t => (index_facts3 t).2.2.2.2) i).imp fun t h =>
    ⟨flush3_2 t, (mem_outBlock3 t i).mpr h⟩

theorem final3 (c : Dev nD) : (dat3 V c).arrAt 2 cfg3.N
    = product0 (arr3_0 V c) (arr3_1 V c) :=
  (dat3 V c).arrAt_eq_of_cover 2 _ (fun t _ => flushed3_eq V c t) covered3

theorem val3 (c : Dev nD) (r : Fin 50000) (j : Fin 128) :
    (dat3 V c).arrAt 2 cfg3.N (ix2 r j)
      = (∑ k : Fin 128, arr3_0 V c (ix2 r k) * arr3_1 V c (ix2 k j) : EReal) := by
  rw [final3]

end Cert.KernelIdeal.Val
-- ==== Proof.KernelIdeal.Val4.lean ====
import proofs.«425307_j45586782880378_1_alg».proof.Proof.KernelIdeal.Reg4
import proofs.«425307_j45586782880378_1_alg».proof.Proof.KernelIdeal.Val1

noncomputable section

open scoped BigOperators

namespace Cert.KernelIdeal.Val

open Cert.KernelIdeal Cert.KernelIdeal.Gen Cert.KernelIdeal.Hand Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

abbrev xArr4 (c : Dev nD) : Vec Ideal S50000x128 .f32 := V c (Pipeline.arrRef spec4 0)

abbrev bRow4 (c : Dev nD) : Vec Ideal S1x128 .f32 := V c (Pipeline.arrRef spec4 1)

theorem idx_facts4 : ∀ t : Fin cfg4.N, win4_0.index t (0 : Fin 2) = t.val ∧ win4_0.index t (1 : Fin 2) = 0
    ∧ win4_1.index t (0 : Fin 2) = 0 ∧ win4_1.index t (1 : Fin 2) = 0 :=
  (by decide +kernel : ∀ t : Fin grid4.N, _)

theorem blockRow4_apply (c : Dev nD) (t : Fin cfg4.N) (y : Fin 10000) (j : Fin 128) (r : Fin 50000)
    (hr : r.val = t.val * 10000 + y.val) :
    (iblk4 V c 0 t : Vec Ideal S10000x128 .f32) (ix2 y j)
      = xArr4 V c (ix2 r j) := by
  obtain ⟨e0, e1, -, -⟩ := idx_facts4 t
  unfold iblk4
  rw [View.read_apply]
  show V c (Pipeline.arrRef spec4 0) _ = V c (Pipeline.arrRef spec4 0) _
  congr 1
  funext a
  apply Fin.ext
  match a with
  | ⟨0, _⟩ => show win4_0.index t (0 : Fin 2) * 10000 + 1 * y.val = r.val; rw [e0, hr]; omega
  | ⟨1, _⟩ => show win4_0.index t (1 : Fin 2) * 128 + 1 * j.val = j.val; rw [e1]; omega

theorem biasRow4_apply (c : Dev nD) (t : Fin cfg4.N) (j : Fin 128) :
    (iblk4 V c 1 t : Vec Ideal S1x128 .f32) (ix2 0 j)
      = bRow4 V c (ix2 0 j) := by
  obtain ⟨-, -, e0, e1⟩ := idx_facts4 t
  unfold iblk4
  rw [View.read_apply]
  show V c (Pipeline.arrRef spec4 1) _ = V c (Pipeline.arrRef spec4 1) _
  congr 1
  funext a
  apply Fin.ext
  match a with
  | ⟨0, _⟩ => show win4_1.index t (0 : Fin 2) * 1 + 1 * 0 = 0; rw [e0]
  | ⟨1, _⟩ => show win4_1.index t (1 : Fin 2) * 128 + 1 * j.val = j.val; rw [e1]; omega

theorem points4 : cfg4.N = 5 := N_4
theorem lastPoint4 : 4 < cfg4.N := by rw [points4]; decide
theorem point4_lt (t : Fin cfg4.N) : t.val < 5 := lt_of_lt_of_eq t.isLt points4

def tileSum4 (c : Dev nD) (j : Fin 128) (n : ℕ) (h : n < 5) : EReal :=
  ∑ y : Fin 10000, (xArr4 V c (ix2 (⟨n * 10000 + y.val, by omega⟩ : Fin 50000) j)
    + bRow4 V c (ix2 0 j))

def tileSumSq4 (c : Dev nD) (j : Fin 128) (n : ℕ) (h : n < 5) : EReal :=
  ∑ y : Fin 10000, (xArr4 V c (ix2 (⟨n * 10000 + y.val, by omega⟩ : Fin 50000) j)
      + bRow4 V c (ix2 0 j))
    * (xArr4 V c (ix2 (⟨n * 10000 + y.val, by omega⟩ : Fin 50000) j)
      + bRow4 V c (ix2 0 j))

def partSum4 (c : Dev nD) (j : Fin 128) : (n : ℕ) → n < 5 → EReal
  | 0, h => 0 + tileSum4 V c j 0 h
  | n + 1, h => partSum4 c j n (by omega) + tileSum4 V c j (n + 1) h

def partSumSq4 (c : Dev nD) (j : Fin 128) : (n : ℕ) → n < 5 → EReal
  | 0, h => 0 + tileSumSq4 V c j 0 h
  | n + 1, h => partSumSq4 c j n (by omega) + tileSumSq4 V c j (n + 1) h

theorem step4_sum (c : Dev nD) (t : Fin cfg4.N) (a : Vec Ideal S1x128 .f32) (j : Fin 128) :
    k4_pay4 (iblk4 V c 0 t) (iblk4 V c 1 t) a (ix2 0 j)
      = a (ix2 0 j) + tileSum4 V c j t.val (point4_lt t) := by
  refine (addColSum1_apply (iblk4 V c 0 t) (iblk4 V c 1 t) a j).trans ?_
  refine congrArg (a (ix2 0 j) + ·) ?_
  unfold tileSum4
  refine Finset.sum_congr rfl fun y _ => ?_
  rw [blockRow4_apply V c t y j ⟨t.val * 10000 + y.val, by have := point4_lt t; omega⟩ rfl,
    biasRow4_apply V c t j]

theorem step4_sumSq (c : Dev nD) (t : Fin cfg4.N) (a : Vec Ideal S1x128 .f32) (j : Fin 128) :
    k4_pay5 (iblk4 V c 0 t) (iblk4 V c 1 t) a (ix2 0 j)
      = a (ix2 0 j) + tileSumSq4 V c j t.val (point4_lt t) := by
  refine (addColSumSq1_apply (iblk4 V c 0 t) (iblk4 V c 1 t) a j).trans ?_
  refine congrArg (a (ix2 0 j) + ·) ?_
  unfold tileSumSq4
  refine Finset.sum_congr rfl fun y _ => ?_
  rw [blockRow4_apply V c t y j ⟨t.val * 10000 + y.val, by have := point4_lt t; omega⟩ rfl,
    biasRow4_apply V c t j]

theorem accFst4 (c : Dev nD) (j : Fin 128) : ∀ (n : ℕ) (h : n < cfg4.N),
    (acc4 V c n h).1 (ix2 0 j) = partSum4 V c j n (by rw [points4] at h; exact h)
  | 0, h => by
    rw [acc4_zero]
    dsimp only
    refine (step4_sum V c ⟨0, h⟩ (k1_pay2 (F := Ideal)) j).trans ?_
    rw [zeroRow1_apply]
    rfl
  | n + 1, h => by
    rw [acc4_succ]
    dsimp only
    refine (step4_sum V c ⟨n + 1, h⟩ _ j).trans ?_
    rw [accFst4 c j n (by omega)]
    rfl

theorem accSnd4 (c : Dev nD) (j : Fin 128) : ∀ (n : ℕ) (h : n < cfg4.N),
    (acc4 V c n h).2 (ix2 0 j) = partSumSq4 V c j n (by rw [points4] at h; exact h)
  | 0, h => by
    rw [acc4_zero]
    dsimp only
    refine (step4_sumSq V c ⟨0, h⟩ (k1_pay3 (F := Ideal)) j).trans ?_
    rw [zeroRowSq1_apply]
    rfl
  | n + 1, h => by
    rw [acc4_succ]
    dsimp only
    refine (step4_sumSq V c ⟨n + 1, h⟩ _ j).trans ?_
    rw [accSnd4 c j n (by omega)]
    rfl

abbrev sumRow4 (c : Dev nD) : Buf (Elt Ideal) ((c : Thread nD τ).loc (Pipeline.arrRef spec4 2)) := (acc4 V c 4 lastPoint4).1

abbrev sumSqRow4 (c : Dev nD) : Buf (Elt Ideal) ((c : Thread nD τ).loc (Pipeline.arrRef spec4 3)) := (acc4 V c 4 lastPoint4).2

theorem flushedSum4_eq (c : Dev nD) (t : Fin cfg4.N) (hf : (cfg4.win 2).flush t = true) :
    (dat4 V c).flushed 2 t = ((cfg4.win 2).blk t).view.read (Elt Ideal) (sumRow4 V c) := by
  have hN : cfg4.N = 5 := points4
  have h1 : t.val = 4 := by have := (flush4_2 t).mp hf; have := t.isLt; omega
  obtain rfl : t = t4_4 := Fin.ext h1
  show (cfg4.win 2).cut (grid4.coords t4_4) ((dat4 V c).after 2 t4_4) = _
  rw [after4_2]
  have hz' : (fun a => win4_2.index t4_4 a * (Pipeline.arrRef spec4 2).ty.shape.size a) = fun _ => 0 :=
    funext fun a => by fin_cases a <;> decide
  exact (Memref.read_access_unit_zero (Elt Ideal) (Pipeline.arrRef spec4 2) hz' (fun a => by rw [congrFun hz' a]; simp) (sumRow4 V c)).symm

theorem flushedSumSq4_eq (c : Dev nD) (t : Fin cfg4.N) (hf : (cfg4.win 3).flush t = true) :
    (dat4 V c).flushed 3 t = ((cfg4.win 3).blk t).view.read (Elt Ideal) (sumSqRow4 V c) := by
  have hN : cfg4.N = 5 := points4
  have h1 : t.val = 4 := by have := (flush4_3 t).mp hf; have := t.isLt; omega
  obtain rfl : t = t4_4 := Fin.ext h1
  show (cfg4.win 3).cut (grid4.coords t4_4) ((dat4 V c).after 3 t4_4) = _
  rw [after4_3]
  have hz' : (fun a => win4_3.index t4_4 a * (Pipeline.arrRef spec4 3).ty.shape.size a) = fun _ => 0 :=
    funext fun a => by fin_cases a <;> decide
  exact (Memref.read_access_unit_zero (Elt Ideal) (Pipeline.arrRef spec4 3) hz' (fun a => by rw [congrFun hz' a]; simp) (sumSqRow4 V c)).symm

theorem finalSum4 (c : Dev nD) : (dat4 V c).arrAt 2 cfg4.N = sumRow4 V c :=
  (dat4 V c).arrAt_eq_of_cover 2 (sumRow4 V c) (flushedSum4_eq V c) fun i =>
    ⟨t4_4, (flush4_2 t4_4).mpr rfl, by
      show i ∈ ((View.whole (Pipeline.arrRef spec4 2)).slice (win4_2.rect t4_4)).set
      rw [View.set_slice_whole, Rect.mem_set_unit]
      exact wholeRow (lo := fun a => win4_2.index t4_4 a * win4_2.size a) (sz := win4_2.xsize (grid4.coords t4_4))
        (by decide +kernel) i⟩

theorem finalSumSq4 (c : Dev nD) : (dat4 V c).arrAt 3 cfg4.N = sumSqRow4 V c :=
  (dat4 V c).arrAt_eq_of_cover 3 (sumSqRow4 V c) (flushedSumSq4_eq V c) fun i =>
    ⟨t4_4, (flush4_3 t4_4).mpr rfl, by
      show i ∈ ((View.whole (Pipeline.arrRef spec4 3)).slice (win4_3.rect t4_4)).set
      rw [View.set_slice_whole, Rect.mem_set_unit]
      exact wholeRow (lo := fun a => win4_3.index t4_4 a * win4_3.size a) (sz := win4_3.xsize (grid4.coords t4_4))
        (by decide +kernel) i⟩

theorem val4_sum (c : Dev nD) (j : Fin 128) :
    (dat4 V c).arrAt 2 cfg4.N (ix2 0 j)
      = ∑ r : Fin 50000, (xArr4 V c (ix2 r j)
          + bRow4 V c (ix2 0 j)) := by
  rw [finalSum4 V c]
  show (acc4 V c 4 lastPoint4).1 (ix2 0 j) = _
  rw [accFst4 V c j 4 lastPoint4]
  exact Cert.Spec.zero_add_blocks fun r => xArr4 V c (ix2 r j)
    + bRow4 V c (ix2 0 j)

theorem val4_sq (c : Dev nD) (j : Fin 128) :
    (dat4 V c).arrAt 3 cfg4.N (ix2 0 j)
      = ∑ r : Fin 50000, (xArr4 V c (ix2 r j)
            + bRow4 V c (ix2 0 j))
          * (xArr4 V c (ix2 r j)
            + bRow4 V c (ix2 0 j)) := by
  rw [finalSumSq4 V c]
  show (acc4 V c 4 lastPoint4).2 (ix2 0 j) = _
  rw [accSnd4 V c j 4 lastPoint4]
  exact Cert.Spec.zero_add_blocks fun r => (xArr4 V c (ix2 r j)
      + bRow4 V c (ix2 0 j))
    * (xArr4 V c (ix2 r j)
      + bRow4 V c (ix2 0 j))

end Cert.KernelIdeal.Val

end
-- ==== Proof.KernelIdeal.Val5.lean ====
import proofs.«425307_j45586782880378_1_alg».proof.Proof.KernelIdeal.Reg5
import proofs.«425307_j45586782880378_1_alg».proof.Proof.KernelIdeal.Val2

set_option maxRecDepth 16384

noncomputable section

namespace Cert.KernelIdeal.Val

open Cert.KernelIdeal Cert.KernelIdeal.Gen Cert.KernelIdeal.Hand Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

abbrev rows5 (c : Dev nD) : Vec Ideal S50000x128 .f32 := V c (Pipeline.arrRef spec5 0)

abbrev bias5 (c : Dev nD) : Vec Ideal S1x128 .f32 := V c (Pipeline.arrRef spec5 1)

abbrev mean5 (c : Dev nD) : Vec Ideal S1x128 .f32 := V c (Pipeline.arrRef spec5 2)

abbrev istd5 (c : Dev nD) : Vec Ideal S1x128 .f32 := V c (Pipeline.arrRef spec5 3)

abbrev scale5 (c : Dev nD) : Vec Ideal S1x128 .f32 := V c (Pipeline.arrRef spec5 4)

abbrev shift5 (c : Dev nD) : Vec Ideal S1x128 .f32 := V c (Pipeline.arrRef spec5 5)

abbrev out5 (c : Dev nD) : Vec Ideal S50000x128 .f32 := (dat5 V c).arrAt 6 cfg5.N

theorem indexFacts5 : ∀ t : Fin cfg5.N,
    win5_0.index t (0 : Fin 2) = t.val ∧ win5_0.index t (1 : Fin 2) = 0
    ∧ win5_6.index t (0 : Fin 2) = t.val ∧ win5_6.index t (1 : Fin 2) = 0 :=
  (by decide +kernel : ∀ t : Fin grid5.N, _)

theorem zeroIdx5 : ∀ (t : Fin cfg5.N) (a : Fin 2), win5_1.index t a = 0 ∧ win5_2.index t a = 0
    ∧ win5_3.index t a = 0 ∧ win5_4.index t a = 0 ∧ win5_5.index t a = 0 :=
  (by decide +kernel : ∀ t : Fin grid5.N, _)

theorem rowBlock5_1 (c : Dev nD) (t : Fin cfg5.N) : iblk5 V c 1 t = bias5 V c := by
  funext q
  show V c (Pipeline.arrRef spec5 1) (((cfg5.win 1).blk t).view.emb q) = V c (Pipeline.arrRef spec5 1) q
  exact congrArg _ (funext fun a => Fin.ext (embId (ix := win5_1.index t) (fun a => (zeroIdx5 t a).1) q a))

theorem rowBlock5_2 (c : Dev nD) (t : Fin cfg5.N) : iblk5 V c 2 t = mean5 V c := by
  funext q
  show V c (Pipeline.arrRef spec5 2) (((cfg5.win 2).blk t).view.emb q) = V c (Pipeline.arrRef spec5 2) q
  exact congrArg _ (funext fun a => Fin.ext (embId (ix := win5_2.index t) (fun a => (zeroIdx5 t a).2.1) q a))

theorem rowBlock5_3 (c : Dev nD) (t : Fin cfg5.N) : iblk5 V c 3 t = istd5 V c := by
  funext q
  show V c (Pipeline.arrRef spec5 3) (((cfg5.win 3).blk t).view.emb q) = V c (Pipeline.arrRef spec5 3) q
  exact congrArg _ (funext fun a => Fin.ext (embId (ix := win5_3.index t) (fun a => (zeroIdx5 t a).2.2.1) q a))

theorem rowBlock5_4 (c : Dev nD) (t : Fin cfg5.N) : iblk5 V c 4 t = scale5 V c := by
  funext q
  show V c (Pipeline.arrRef spec5 4) (((cfg5.win 4).blk t).view.emb q) = V c (Pipeline.arrRef spec5 4) q
  exact congrArg _ (funext fun a => Fin.ext (embId (ix := win5_4.index t) (fun a => (zeroIdx5 t a).2.2.2.1) q a))

theorem rowBlock5_5 (c : Dev nD) (t : Fin cfg5.N) : iblk5 V c 5 t = shift5 V c := by
  funext q
  show V c (Pipeline.arrRef spec5 5) (((cfg5.win 5).blk t).view.emb q) = V c (Pipeline.arrRef spec5 5) q
  exact congrArg _ (funext fun a => Fin.ext (embId (ix := win5_5.index t) (fun a => (zeroIdx5 t a).2.2.2.2) q a))

set_option maxHeartbeats 1000000 in

theorem flushed5_eq (c : Dev nD) (t : Fin cfg5.N) :
    (dat5 V c).flushed 6 t = ((cfg5.win 6).blk t).view.read (Elt Ideal) (norm2 (rows5 V c) (bias5 V c) (mean5 V c) (istd5 V c) (scale5 V c) (shift5 V c)) := by
  show (cfg5.win 6).cut (grid5.coords t) ((dat5 V c).after 6 t) = _
  rw [after5_6]
  obtain ⟨a0, a1, o0, o1⟩ := indexFacts5 t
  funext y
  show k5_pay1 (iblk5 V c 0 t) (iblk5 V c 1 t) (iblk5 V c 2 t) (iblk5 V c 3 t) (iblk5 V c 4 t) (iblk5 V c 5 t) y
    = norm2 (rows5 V c) (bias5 V c) (mean5 V c) (istd5 V c) (scale5 V c) (shift5 V c) (((cfg5.win 6).blk t).view.emb y)
  refine block2_apply (rows5 V c) (bias5 V c) (mean5 V c) (istd5 V c) (scale5 V c) (shift5 V c) (iblk5 V c 0 t)
    (iblk5 V c 1 t) (iblk5 V c 2 t) (iblk5 V c 3 t) (iblk5 V c 4 t) (iblk5 V c 5 t)
    (rowBlock5_1 V c t) (rowBlock5_2 V c t) (rowBlock5_3 V c t) (rowBlock5_4 V c t) (rowBlock5_5 V c t) y
    (((cfg5.win 6).blk t).view.emb y) ?_ ?_
  · show V c (Pipeline.arrRef spec5 0) (((cfg5.win 0).blk t).view.emb y) = V c (Pipeline.arrRef spec5 0) (((cfg5.win 6).blk t).view.emb y)
    refine congrArg (V c (Pipeline.arrRef spec5 0)) (funext fun a => Fin.ext ?_)
    match a with
    | ⟨0, _⟩ => show win5_0.index t (0 : Fin 2) * 10000 + 1 * (y 0).val = win5_6.index t (0 : Fin 2) * 10000 + 1 * (y 0).val; omega
    | ⟨1, _⟩ => show win5_0.index t (1 : Fin 2) * 128 + 1 * (y 1).val = win5_6.index t (1 : Fin 2) * 128 + 1 * (y 1).val; omega
  · show win5_6.index t (1 : Fin 2) * 128 + 1 * (y 1).val = (y 1).val
    omega

theorem mem_blk5 (t : Fin cfg5.N) (i : S50000x128.Idx) :
    i ∈ ((cfg5.win 6).blk t).view.set ↔ ∀ a : Fin 2, win5_6.index t a * S10000x128.size a ≤ (i a).val ∧ (i a).val < win5_6.index t a * S10000x128.size a + S10000x128.size a := by
  show i ∈ ((View.whole (Pipeline.arrRef spec5 6)).slice (win5_6.rect t)).set ↔ _
  rw [View.set_slice_whole, Rect.mem_set_unit]
  exact Iff.rfl

theorem covered5 (i : S50000x128.Idx) :
    ∃ t : Fin cfg5.N, (cfg5.win 6).flush t = true ∧ i ∈ ((cfg5.win 6).blk t).view.set :=
  (coverRows N_5 (ix := win5_6.index) (fun t => (indexFacts5 t).2.2) i).imp fun t h =>
    ⟨flush5_6 t, (mem_blk5 t i).mpr h⟩

set_option maxHeartbeats 1000000 in

theorem final5 (c : Dev nD) : (dat5 V c).arrAt 6 cfg5.N = norm2 (rows5 V c) (bias5 V c) (mean5 V c) (istd5 V c) (scale5 V c) (shift5 V c) :=
  (dat5 V c).arrAt_eq_of_cover 6 _ (fun t _ => flushed5_eq V c t) covered5

set_option maxHeartbeats 1000000 in

theorem val5 (c : Dev nD) (r : Fin 50000) (j : Fin 128) :
    out5 V c (ix2 r j)
      = max ((((rows5 V c (ix2 r j) + bias5 V c (ix2 0 j)) - mean5 V c (ix2 0 j)) * istd5 V c (ix2 0 j))
          * scale5 V c (ix2 0 j) + shift5 V c (ix2 0 j)) 0 :=
  (congrFun (final5 V c) (ix2 r j)).trans (norm2_apply (rows5 V c) (bias5 V c) (mean5 V c) (istd5 V c) (scale5 V c) (shift5 V c) r j)

end Cert.KernelIdeal.Val
-- ==== Proof.KernelIdeal.KLayer2.lean ====
import proofs.«425307_j45586782880378_1_alg».proof.Proof.KernelIdeal.Chain
import proofs.«425307_j45586782880378_1_alg».proof.Proof.KernelIdeal.KLayer1
import proofs.«425307_j45586782880378_1_alg».proof.Proof.KernelIdeal.HostAgg
import proofs.«425307_j45586782880378_1_alg».proof.Proof.KernelIdeal.HostStats
import proofs.«425307_j45586782880378_1_alg».proof.Proof.KernelIdeal.Val3
import proofs.«425307_j45586782880378_1_alg».proof.Proof.KernelIdeal.Val4
import proofs.«425307_j45586782880378_1_alg».proof.Proof.KernelIdeal.Val5
import proofs.«425307_j45586782880378_1_alg».proof.Proof.Spec
import Idealize.ShloMosaic.Lib.Pipeline.FrameSuffix
import Idealize.ShloMosaic.Lib.ValueIdx

set_option maxRecDepth 16384

noncomputable section

namespace Cert.KernelIdeal.KVal

open Cert.KernelIdeal Cert.KernelIdeal.Gen Cert.KernelIdeal.Hand Cert.KernelIdeal.HostVal Cert.KernelIdeal.Val
  Idealize.ShloMosaic Idealize.ShloMosaic.TcCoe Idealize.ShloMosaic.ValueIdx

variable (m : (ℓ : Loc nD τ sig) → Buf (Elt Ideal) ℓ) (c : Dev nD)

namespace L2

abbrev xwArr : S50000x128.Idx → EReal :=
  Cert.Spec.ofMat (Cert.Spec.mm (Cert.Spec.toMat (Z8 m c main_v64)) (Cert.Spec.toMat (Z8 m c main_arg7)))

abbrev aggArr : S50000x128.Idx → EReal :=
  aggOf (srcOf (edges m c)) (dstOf (edges m c)) (nrmOf (edges m c)) (xwArr m c)

abbrev biasVec : Fin 128 → EReal := fun j => (Z8 m c main_arg8 : S128.Idx → EReal) (ix1 j)
abbrev scaleVec : Fin 128 → EReal := fun j => (Z8 m c main_arg9 : S128.Idx → EReal) (ix1 j)
abbrev shiftVec : Fin 128 → EReal := fun j => (Z8 m c main_arg10 : S128.Idx → EReal) (ix1 j)

theorem xw : Z9 m c main_v65 = xwArr m c := by
  refine (Function.update_self _ _ _).trans ?_
  unfold Y9
  refine (Pipeline.withArrays_arr spec3 launch3.win.arr_inj c _ _ (2 : Fin cfg3.W)).trans ?_
  funext i
  rw [eq_ix2 i]
  exact val3 (atRefs (Z8 m)) c (i 0) (i 1)

theorem srcA : Z9 m c main_v5 = srcOf (edges m c) := (V9_of m (outs m) c main_v5 (by decide)).trans (L1.srcOut m c)
theorem dstA : Z9 m c main_v6 = dstOf (edges m c) := (V9_of m (outs m) c main_v6 (by decide)).trans (L1.dstOut m c)
theorem nrmA : Z9 m c main_v32 = nrmOf (edges m c) := (V9_of m (outs m) c main_v32 (by decide)).trans (L1.nrmOut m c)

theorem srcOut : Z13 m c main_v5 = srcOf (edges m c) :=
  (V13_of m (outs m) c main_v5 (by decide)).trans <| (V12_of m (outs m) c main_v5 (by decide)).trans <|
    (V11_of m (outs m) c main_v5 (by decide)).trans <| (V10_of m (outs m) c main_v5 (by decide)).trans (srcA m c)
theorem dstOut : Z13 m c main_v6 = dstOf (edges m c) :=
  (V13_of m (outs m) c main_v6 (by decide)).trans <| (V12_of m (outs m) c main_v6 (by decide)).trans <|
    (V11_of m (outs m) c main_v6 (by decide)).trans <| (V10_of m (outs m) c main_v6 (by decide)).trans (dstA m c)
theorem nrmOut : Z13 m c main_v32 = nrmOf (edges m c) :=
  (V13_of m (outs m) c main_v32 (by decide)).trans <| (V12_of m (outs m) c main_v32 (by decide)).trans <|
    (V11_of m (outs m) c main_v32 (by decide)).trans <| (V10_of m (outs m) c main_v32 (by decide)).trans (nrmA m c)

theorem agg : Z10 m c main_v77 = aggArr m c := by
  refine (host4_v77 (Z9 m c)).trans ?_
  rw [srcA, dstA, nrmA, xw]

theorem biasRow (j : Fin 128) : Z10 m c main_v78 (ix2 0 j) = biasVec m c j :=
  (host4_v78 (Z9 m c) j).trans (congrFun (V9_of m (outs m) c main_arg8 (by decide)) (ix1 j))

theorem rowPlus (r : Fin 50000) (j : Fin 128) :
    (xArr4 (atRefs (Z10 m)) c (ix2 r j) + bRow4 (atRefs (Z10 m)) c (ix2 0 j) : EReal)
      = Cert.Spec.toMat (aggArr m c) r j + biasVec m c j :=
  congrArg₂ (· + ·) (congrFun (agg m c) (ix2 r j)) (biasRow m c j)

theorem colSum (j : Fin 128) :
    Z11 m c main_v79_0 (ix2 0 j) = ∑ r : Fin 50000, (Cert.Spec.toMat (aggArr m c) r j + biasVec m c j) := by
  have e : Z11 m c main_v79_0 = (dat4 (atRefs (Z10 m)) c).arrAt 2 cfg4.N := by
    refine (Function.update_of_ne (StableHlo.devRef_ne_of_ne (by decide)) _ _).trans ?_
    refine (Function.update_self _ _ _).trans ?_
    unfold Y11
    exact Pipeline.withArrays_arr spec4 launch4.win.arr_inj c _ _ (2 : Fin cfg4.W)
  rw [e]
  exact (val4_sum (atRefs (Z10 m)) c j).trans (sumCongr fun r => rowPlus m c r j)

theorem colSumSq (j : Fin 128) :
    Z11 m c main_v79_1 (ix2 0 j)
      = ∑ r : Fin 50000, (Cert.Spec.toMat (aggArr m c) r j + biasVec m c j) * (Cert.Spec.toMat (aggArr m c) r j + biasVec m c j) := by
  have e : Z11 m c main_v79_1 = (dat4 (atRefs (Z10 m)) c).arrAt 3 cfg4.N := by
    refine (Function.update_self _ _ _).trans ?_
    unfold Y11
    exact Pipeline.withArrays_arr spec4 launch4.win.arr_inj c _ _ (3 : Fin cfg4.W)
  rw [e]
  exact (val4_sq (atRefs (Z10 m)) c j).trans
    (sumCongr fun r => congrArg₂ (· * ·) (rowPlus m c r j) (rowPlus m c r j))

theorem rowsN : Z12 m c main_v77 = aggArr m c :=
  (V12_of m (outs m) c main_v77 (by decide)).trans <| (V11_of m (outs m) c main_v77 (by decide)).trans (agg m c)

theorem biasKept : Z11 m c main_arg8 = Z8 m c main_arg8 :=
  (V11_of m (outs m) c main_arg8 (by decide)).trans <| (V10_of m (outs m) c main_arg8 (by decide)).trans
    (V9_of m (outs m) c main_arg8 (by decide))
theorem scaleKept : Z11 m c main_arg9 = Z8 m c main_arg9 :=
  (V11_of m (outs m) c main_arg9 (by decide)).trans <| (V10_of m (outs m) c main_arg9 (by decide)).trans
    (V9_of m (outs m) c main_arg9 (by decide))
theorem shiftKept : Z11 m c main_arg10 = Z8 m c main_arg10 :=
  (V11_of m (outs m) c main_arg10 (by decide)).trans <| (V10_of m (outs m) c main_arg10 (by decide)).trans
    (V9_of m (outs m) c main_arg10 (by decide))

theorem biasN (j : Fin 128) : Z12 m c main_v91 (ix2 0 j) = biasVec m c j :=
  (host5_v91 (Z11 m c) j).trans (congrFun (biasKept m c) (ix1 j))
theorem scaleN (j : Fin 128) : Z12 m c main_v94 (ix2 0 j) = scaleVec m c j :=
  (host5_v94 (Z11 m c) j).trans (congrFun (scaleKept m c) (ix1 j))
theorem shiftN (j : Fin 128) : Z12 m c main_v95 (ix2 0 j) = shiftVec m c j :=
  (host5_v95 (Z11 m c) j).trans (congrFun (shiftKept m c) (ix1 j))

theorem meanN (j : Fin 128) :
    Z12 m c main_v92 (ix2 0 j) = Cert.Spec.colMean (Cert.Spec.toMat (aggArr m c)) (biasVec m c) j := by
  refine (host5_v92 (Z11 m c) j).trans ?_
  rw [colSum]
  rfl

theorem istdN (j : Fin 128) :
    Z12 m c main_v93 (ix2 0 j)
      = Ideal.rsqrt (Cert.Spec.varKer (Cert.Spec.toMat (aggArr m c)) (biasVec m c) j + Cert.Spec.bnEps) := by
  refine (host5_v93 (Z11 m c) j).trans ?_
  rw [colSum, colSumSq]
  rfl

theorem left : Z13 m c main_v96 = (dat5 (atRefs (Z12 m)) c).arrAt 6 cfg5.N := by
  refine (Function.update_self _ _ _).trans ?_
  unfold Y13
  exact Pipeline.withArrays_arr spec5 launch5.win.arr_inj c _ _ (6 : Fin cfg5.W)

theorem layer (r : Fin 50000) (j : Fin 128) :
    (Z13 m c main_v96 : S50000x128.Idx → EReal) (ix2 r j)
      = Cert.Spec.bnKer (Cert.Spec.toMat (aggArr m c)) (biasVec m c) (scaleVec m c) (shiftVec m c) r j := by
  rw [left]
  exact (val5 (atRefs (Z12 m)) c r j).trans (bnOf (congrFun (rowsN m c) (ix2 r j)) (biasN m c j) (meanN m c j)
    (istdN m c j) (scaleN m c j) (shiftN m c j))

end L2

theorem klayer2 (r : Fin 50000) (j : Fin 128) :
    (Z13 m c main_v96 : S50000x128.Idx → EReal) (ix2 r j)
      = Cert.Spec.bnKer (Cert.Spec.toMat (aggOf (srcOf (m ((c.tc : Thread nD τ).loc main_arg1))) (dstOf (m ((c.tc : Thread nD τ).loc main_arg1))) (nrmOf (m ((c.tc : Thread nD τ).loc main_arg1)))
            (Cert.Spec.ofMat (Cert.Spec.mm (Cert.Spec.toMat (Z8 m c main_v64)) (Cert.Spec.toMat (Z8 m c main_arg7))))))
          (fun j => (Z8 m c main_arg8 : S128.Idx → EReal) (ix1 j)) (fun j => (Z8 m c main_arg9 : S128.Idx → EReal) (ix1 j)) (fun j => (Z8 m c main_arg10 : S128.Idx → EReal) (ix1 j)) r j :=
  L2.layer m c r j

end Cert.KernelIdeal.KVal
-- ==== Proof.KernelIdeal.Val6.lean ====
import proofs.«425307_j45586782880378_1_alg».proof.Proof.KernelIdeal.Reg6
import proofs.«425307_j45586782880378_1_alg».proof.Proof.KernelIdeal.Val3

set_option maxRecDepth 16384

noncomputable section

namespace Cert.KernelIdeal.Val

open Cert.KernelIdeal Cert.KernelIdeal.Gen Cert.KernelIdeal.Hand Idealize.ShloMosaic Idealize.ShloMosaic.TcCoe
  Idealize.ShloMosaic.ValueIdx
open Idealize.ShloMosaic.Pipeline (Dat)

variable (V : (c : Dev nD) → (b : Ref sig .tc) → Buf (Elt Ideal) ((c : Thread nD τ).loc b))

theorem product6_apply (x : Vec Ideal S10000x128 .f32) (w : Vec Ideal S128x128 .f32) (y : Fin 10000) (j : Fin 128) :
    k6_pay1 x w (ix2 y j) = ∑ k : Fin 128, x (ix2 y k) * w (ix2 k j) :=
  product3_apply x w y j

abbrev arr6_0 (c : Dev nD) : Vec Ideal S50000x128 .f32 := V c (Pipeline.arrRef spec6 0)
abbrev arr6_1 (c : Dev nD) : Vec Ideal S128x128 .f32 := V c (Pipeline.arrRef spec6 1)

theorem index_facts6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

theorem rowBlock6_apply (c : Dev nD) (t : Fin cfg6.N) (x : S10000x128.Idx) (i : S50000x128.Idx)
    (h0 : (i 0).val = t.val * 10000 + (x 0).val) (h1 : (i 1).val = (x 1).val) :
    (iblk6 V c 0 t : Vec Ideal S10000x128 .f32) x = arr6_0 V c i := by
  obtain ⟨e0, e1, -, -, -, -⟩ := index_facts6 t
  have h : (((cfg6.win 0).blk t).view.emb x : S50000x128.Idx) = i := by
    funext a
    apply Fin.ext
    match a with
    | ⟨0, _⟩ => show win6_0.index t (0 : Fin 2) * 10000 + 1 * (x 0).val = (i 0).val; omega
    | ⟨1, _⟩ => show win6_0.index t (1 : Fin 2) * 128 + 1 * (x 1).val = (i 1).val; omega
  unfold iblk6
  rw [View.read_apply]
  exact congrArg (arr6_0 V c) h

theorem weightBlock6_apply (c : Dev nD) (t : Fin cfg6.N) (x : S128x128.Idx) :
    (iblk6 V c 1 t : Vec Ideal S128x128 .f32) x = arr6_1 V c x := by
  obtain ⟨-, -, e0, e1, -, -⟩ := index_facts6 t
  have h : (((cfg6.win 1).blk t).view.emb x : S128x128.Idx) = x := by
    funext a
    apply Fin.ext
    match a with
    | ⟨0, _⟩ => show win6_1.index t (0 : Fin 2) * 128 + 1 * (x 0).val = (x 0).val; omega
    | ⟨1, _⟩ => show win6_1.index t (1 : Fin 2) * 128 + 1 * (x 1).val = (x 1).val; omega
  unfold iblk6
  rw [View.read_apply]
  exact congrArg (arr6_1 V c) h

theorem flushed6_eq (c : Dev nD) (t : Fin cfg6.N) :
    (dat6 V c).flushed 2 t = ((cfg6.win 2).blk t).view.read (Elt Ideal)
      (product0 (arr6_0 V c) (arr6_1 V c)) := by
  show (cfg6.win 2).cut (grid6.coords t) ((dat6 V c).after 2 t) = _
  rw [after6_2]
  obtain ⟨-, -, -, -, e0, e1⟩ := index_facts6 t
  funext y
  obtain ⟨p, q, rfl⟩ : ∃ (p : Fin 10000) (q : Fin 128), y = ix2 p q := ⟨y 0, y 1, eq_ix2 y⟩
  show k6_pay1 (iblk6 V c 0 t) (iblk6 V c 1 t) (ix2 p q)
    = ∑ k : Fin 128, arr6_0 V c (ix2 ((((cfg6.win 2).blk t).view.emb (ix2 p q)) 0) k)
        * arr6_1 V c (ix2 k ((((cfg6.win 2).blk t).view.emb (ix2 p q)) 1))
  rw [product6_apply]
  refine Finset.sum_congr rfl fun k _ => ?_
  have hr : ((((cfg6.win 2).blk t).view.emb (ix2 p q)) 0).val = t.val * 10000 + p.val := by
    show win6_2.index t (0 : Fin 2) * 10000 + 1 * p.val = _; omega
  have hc : ((((cfg6.win 2).blk t).view.emb (ix2 p q)) 1) = q := Fin.ext (by
    show win6_2.index t (1 : Fin 2) * 128 + 1 * q.val = _; omega)
  rw [rowBlock6_apply V c t (ix2 p k) (ix2 ((((cfg6.win 2).blk t).view.emb (ix2 p q)) 0) k) hr rfl,
    weightBlock6_apply V c t (ix2 k q), hc]

theorem mem_outBlock6 (t : Fin cfg6.N) (i : S50000x128.Idx) :
    i ∈ ((cfg6.win 2).blk t).view.set ↔ ∀ a : Fin 2, win6_2.index t a * S10000x128.size a ≤ (i a).val
      ∧ (i a).val < win6_2.index t a * S10000x128.size a + S10000x128.size a := by
  show i ∈ ((View.whole (Pipeline.arrRef spec6 2)).slice (win6_2.rect t)).set ↔ _
  rw [View.set_slice_whole, Rect.mem_set_unit]
  exact Iff.rfl

theorem covered6 (i : S50000x128.Idx) :
    ∃ t : Fin cfg6.N, (cfg6.win 2).flush t = true ∧ i ∈ ((cfg6.win 2).blk t).view.set :=
  (coverRows N_6 (ix := win6_2.index) (fun t => (index_facts6 t).2.2.2.2) i).imp fun t h =>
    ⟨flush6_2 t, (mem_outBlock6 t i).mpr h⟩

theorem final6 (c : Dev nD) : (dat6 V c).arrAt 2 cfg6.N
    = product0 (arr6_0 V c) (arr6_1 V c) :=
  (dat6 V c).arrAt_eq_of_cover 2 _ (fun t _ => flushed6_eq V c t) covered6

theorem val6 (c : Dev nD) (r : Fin 50000) (j : Fin 128) :
    (dat6 V c).arrAt 2 cfg6.N (ix2 r j)
      = (∑ k : Fin 128, arr6_0 V c (ix2 r k) * arr6_1 V c (ix2 k j) : EReal) := by
  rw [final6]

end Cert.KernelIdeal.Val
-- ==== Proof.KernelIdeal.Val7.lean ====
import proofs.«425307_j45586782880378_1_alg».proof.Proof.KernelIdeal.Reg7
import proofs.«425307_j45586782880378_1_alg».proof.Proof.KernelIdeal.Val1

noncomputable section

open scoped BigOperators

namespace Cert.KernelIdeal.Val

open Cert.KernelIdeal Cert.KernelIdeal.Gen Cert.KernelIdeal.Hand Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

abbrev xArr7 (c : Dev nD) : Vec Ideal S50000x128 .f32 := V c (Pipeline.arrRef spec7 0)

abbrev bRow7 (c : Dev nD) : Vec Ideal S1x128 .f32 := V c (Pipeline.arrRef spec7 1)

theorem idx_facts7 : ∀ t : Fin cfg7.N, win7_0.index t (0 : Fin 2) = t.val ∧ win7_0.index t (1 : Fin 2) = 0
    ∧ win7_1.index t (0 : Fin 2) = 0 ∧ win7_1.index t (1 : Fin 2) = 0 :=
  (by decide +kernel : ∀ t : Fin grid7.N, _)

theorem blockRow7_apply (c : Dev nD) (t : Fin cfg7.N) (y : Fin 10000) (j : Fin 128) (r : Fin 50000)
    (hr : r.val = t.val * 10000 + y.val) :
    (iblk7 V c 0 t : Vec Ideal S10000x128 .f32) (ix2 y j)
      = xArr7 V c (ix2 r j) := by
  obtain ⟨e0, e1, -, -⟩ := idx_facts7 t
  unfold iblk7
  rw [View.read_apply]
  show V c (Pipeline.arrRef spec7 0) _ = V c (Pipeline.arrRef spec7 0) _
  congr 1
  funext a
  apply Fin.ext
  match a with
  | ⟨0, _⟩ => show win7_0.index t (0 : Fin 2) * 10000 + 1 * y.val = r.val; rw [e0, hr]; omega
  | ⟨1, _⟩ => show win7_0.index t (1 : Fin 2) * 128 + 1 * j.val = j.val; rw [e1]; omega

theorem biasRow7_apply (c : Dev nD) (t : Fin cfg7.N) (j : Fin 128) :
    (iblk7 V c 1 t : Vec Ideal S1x128 .f32) (ix2 0 j)
      = bRow7 V c (ix2 0 j) := by
  obtain ⟨-, -, e0, e1⟩ := idx_facts7 t
  unfold iblk7
  rw [View.read_apply]
  show V c (Pipeline.arrRef spec7 1) _ = V c (Pipeline.arrRef spec7 1) _
  congr 1
  funext a
  apply Fin.ext
  match a with
  | ⟨0, _⟩ => show win7_1.index t (0 : Fin 2) * 1 + 1 * 0 = 0; rw [e0]
  | ⟨1, _⟩ => show win7_1.index t (1 : Fin 2) * 128 + 1 * j.val = j.val; rw [e1]; omega

theorem points7 : cfg7.N = 5 := N_7
theorem lastPoint7 : 4 < cfg7.N := by rw [points7]; decide
theorem point7_lt (t : Fin cfg7.N) : t.val < 5 := lt_of_lt_of_eq t.isLt points7

def tileSum7 (c : Dev nD) (j : Fin 128) (n : ℕ) (h : n < 5) : EReal :=
  ∑ y : Fin 10000, (xArr7 V c (ix2 (⟨n * 10000 + y.val, by omega⟩ : Fin 50000) j)
    + bRow7 V c (ix2 0 j))

def tileSumSq7 (c : Dev nD) (j : Fin 128) (n : ℕ) (h : n < 5) : EReal :=
  ∑ y : Fin 10000, (xArr7 V c (ix2 (⟨n * 10000 + y.val, by omega⟩ : Fin 50000) j)
      + bRow7 V c (ix2 0 j))
    * (xArr7 V c (ix2 (⟨n * 10000 + y.val, by omega⟩ : Fin 50000) j)
      + bRow7 V c (ix2 0 j))

def partSum7 (c : Dev nD) (j : Fin 128) : (n : ℕ) → n < 5 → EReal
  | 0, h => 0 + tileSum7 V c j 0 h
  | n + 1, h => partSum7 c j n (by omega) + tileSum7 V c j (n + 1) h

def partSumSq7 (c : Dev nD) (j : Fin 128) : (n : ℕ) → n < 5 → EReal
  | 0, h => 0 + tileSumSq7 V c j 0 h
  | n + 1, h => partSumSq7 c j n (by omega) + tileSumSq7 V c j (n + 1) h

theorem step7_sum (c : Dev nD) (t : Fin cfg7.N) (a : Vec Ideal S1x128 .f32) (j : Fin 128) :
    k7_pay4 (iblk7 V c 0 t) (iblk7 V c 1 t) a (ix2 0 j)
      = a (ix2 0 j) + tileSum7 V c j t.val (point7_lt t) := by
  refine (addColSum1_apply (iblk7 V c 0 t) (iblk7 V c 1 t) a j).trans ?_
  refine congrArg (a (ix2 0 j) + ·) ?_
  unfold tileSum7
  refine Finset.sum_congr rfl fun y _ => ?_
  rw [blockRow7_apply V c t y j ⟨t.val * 10000 + y.val, by have := point7_lt t; omega⟩ rfl,
    biasRow7_apply V c t j]

theorem step7_sumSq (c : Dev nD) (t : Fin cfg7.N) (a : Vec Ideal S1x128 .f32) (j : Fin 128) :
    k7_pay5 (iblk7 V c 0 t) (iblk7 V c 1 t) a (ix2 0 j)
      = a (ix2 0 j) + tileSumSq7 V c j t.val (point7_lt t) := by
  refine (addColSumSq1_apply (iblk7 V c 0 t) (iblk7 V c 1 t) a j).trans ?_
  refine congrArg (a (ix2 0 j) + ·) ?_
  unfold tileSumSq7
  refine Finset.sum_congr rfl fun y _ => ?_
  rw [blockRow7_apply V c t y j ⟨t.val * 10000 + y.val, by have := point7_lt t; omega⟩ rfl,
    biasRow7_apply V c t j]

theorem accFst7 (c : Dev nD) (j : Fin 128) : ∀ (n : ℕ) (h : n < cfg7.N),
    (acc7 V c n h).1 (ix2 0 j) = partSum7 V c j n (by rw [points7] at h; exact h)
  | 0, h => by
    rw [acc7_zero]
    dsimp only
    refine (step7_sum V c ⟨0, h⟩ (k1_pay2 (F := Ideal)) j).trans ?_
    rw [zeroRow1_apply]
    rfl
  | n + 1, h => by
    rw [acc7_succ]
    dsimp only
    refine (step7_sum V c ⟨n + 1, h⟩ _ j).trans ?_
    rw [accFst7 c j n (by omega)]
    rfl

theorem accSnd7 (c : Dev nD) (j : Fin 128) : ∀ (n : ℕ) (h : n < cfg7.N),
    (acc7 V c n h).2 (ix2 0 j) = partSumSq7 V c j n (by rw [points7] at h; exact h)
  | 0, h => by
    rw [acc7_zero]
    dsimp only
    refine (step7_sumSq V c ⟨0, h⟩ (k1_pay3 (F := Ideal)) j).trans ?_
    rw [zeroRowSq1_apply]
    rfl
  | n + 1, h => by
    rw [acc7_succ]
    dsimp only
    refine (step7_sumSq V c ⟨n + 1, h⟩ _ j).trans ?_
    rw [accSnd7 c j n (by omega)]
    rfl

abbrev sumRow7 (c : Dev nD) : Buf (Elt Ideal) ((c : Thread nD τ).loc (Pipeline.arrRef spec7 2)) := (acc7 V c 4 lastPoint7).1

abbrev sumSqRow7 (c : Dev nD) : Buf (Elt Ideal) ((c : Thread nD τ).loc (Pipeline.arrRef spec7 3)) := (acc7 V c 4 lastPoint7).2

theorem flushedSum7_eq (c : Dev nD) (t : Fin cfg7.N) (hf : (cfg7.win 2).flush t = true) :
    (dat7 V c).flushed 2 t = ((cfg7.win 2).blk t).view.read (Elt Ideal) (sumRow7 V c) := by
  have hN : cfg7.N = 5 := points7
  have h1 : t.val = 4 := by have := (flush7_2 t).mp hf; have := t.isLt; omega
  obtain rfl : t = t7_4 := Fin.ext h1
  show (cfg7.win 2).cut (grid7.coords t7_4) ((dat7 V c).after 2 t7_4) = _
  rw [after7_2]
  have hz' : (fun a => win7_2.index t7_4 a * (Pipeline.arrRef spec7 2).ty.shape.size a) = fun _ => 0 :=
    funext fun a => by fin_cases a <;> decide
  exact (Memref.read_access_unit_zero (Elt Ideal) (Pipeline.arrRef spec7 2) hz' (fun a => by rw [congrFun hz' a]; simp) (sumRow7 V c)).symm

theorem flushedSumSq7_eq (c : Dev nD) (t : Fin cfg7.N) (hf : (cfg7.win 3).flush t = true) :
    (dat7 V c).flushed 3 t = ((cfg7.win 3).blk t).view.read (Elt Ideal) (sumSqRow7 V c) := by
  have hN : cfg7.N = 5 := points7
  have h1 : t.val = 4 := by have := (flush7_3 t).mp hf; have := t.isLt; omega
  obtain rfl : t = t7_4 := Fin.ext h1
  show (cfg7.win 3).cut (grid7.coords t7_4) ((dat7 V c).after 3 t7_4) = _
  rw [after7_3]
  have hz' : (fun a => win7_3.index t7_4 a * (Pipeline.arrRef spec7 3).ty.shape.size a) = fun _ => 0 :=
    funext fun a => by fin_cases a <;> decide
  exact (Memref.read_access_unit_zero (Elt Ideal) (Pipeline.arrRef spec7 3) hz' (fun a => by rw [congrFun hz' a]; simp) (sumSqRow7 V c)).symm

theorem finalSum7 (c : Dev nD) : (dat7 V c).arrAt 2 cfg7.N = sumRow7 V c :=
  (dat7 V c).arrAt_eq_of_cover 2 (sumRow7 V c) (flushedSum7_eq V c) fun i =>
    ⟨t7_4, (flush7_2 t7_4).mpr rfl, by
      show i ∈ ((View.whole (Pipeline.arrRef spec7 2)).slice (win7_2.rect t7_4)).set
      rw [View.set_slice_whole, Rect.mem_set_unit]
      exact wholeRow (lo := fun a => win7_2.index t7_4 a * win7_2.size a) (sz := win7_2.xsize (grid7.coords t7_4))
        (by decide +kernel) i⟩

theorem finalSumSq7 (c : Dev nD) : (dat7 V c).arrAt 3 cfg7.N = sumSqRow7 V c :=
  (dat7 V c).arrAt_eq_of_cover 3 (sumSqRow7 V c) (flushedSumSq7_eq V c) fun i =>
    ⟨t7_4, (flush7_3 t7_4).mpr rfl, by
      show i ∈ ((View.whole (Pipeline.arrRef spec7 3)).slice (win7_3.rect t7_4)).set
      rw [View.set_slice_whole, Rect.mem_set_unit]
      exact wholeRow (lo := fun a => win7_3.index t7_4 a * win7_3.size a) (sz := win7_3.xsize (grid7.coords t7_4))
        (by decide +kernel) i⟩

theorem val7_sum (c : Dev nD) (j : Fin 128) :
    (dat7 V c).arrAt 2 cfg7.N (ix2 0 j)
      = ∑ r : Fin 50000, (xArr7 V c (ix2 r j)
          + bRow7 V c (ix2 0 j)) := by
  rw [finalSum7 V c]
  show (acc7 V c 4 lastPoint7).1 (ix2 0 j) = _
  rw [accFst7 V c j 4 lastPoint7]
  exact Cert.Spec.zero_add_blocks fun r => xArr7 V c (ix2 r j)
    + bRow7 V c (ix2 0 j)

theorem val7_sq (c : Dev nD) (j : Fin 128) :
    (dat7 V c).arrAt 3 cfg7.N (ix2 0 j)
      = ∑ r : Fin 50000, (xArr7 V c (ix2 r j)
            + bRow7 V c (ix2 0 j))
          * (xArr7 V c (ix2 r j)
            + bRow7 V c (ix2 0 j)) := by
  rw [finalSumSq7 V c]
  show (acc7 V c 4 lastPoint7).2 (ix2 0 j) = _
  rw [accSnd7 V c j 4 lastPoint7]
  exact Cert.Spec.zero_add_blocks fun r => (xArr7 V c (ix2 r j)
      + bRow7 V c (ix2 0 j))
    * (xArr7 V c (ix2 r j)
      + bRow7 V c (ix2 0 j))

end Cert.KernelIdeal.Val

end
-- ==== Proof.KernelIdeal.Val8.lean ====
import proofs.«425307_j45586782880378_1_alg».proof.Proof.KernelIdeal.Reg8
import proofs.«425307_j45586782880378_1_alg».proof.Proof.KernelIdeal.Val2

set_option maxRecDepth 16384

noncomputable section

namespace Cert.KernelIdeal.Val

open Cert.KernelIdeal Cert.KernelIdeal.Gen Cert.KernelIdeal.Hand Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

abbrev rows8 (c : Dev nD) : Vec Ideal S50000x128 .f32 := V c (Pipeline.arrRef spec8 0)

abbrev bias8 (c : Dev nD) : Vec Ideal S1x128 .f32 := V c (Pipeline.arrRef spec8 1)

abbrev mean8 (c : Dev nD) : Vec Ideal S1x128 .f32 := V c (Pipeline.arrRef spec8 2)

abbrev istd8 (c : Dev nD) : Vec Ideal S1x128 .f32 := V c (Pipeline.arrRef spec8 3)

abbrev scale8 (c : Dev nD) : Vec Ideal S1x128 .f32 := V c (Pipeline.arrRef spec8 4)

abbrev shift8 (c : Dev nD) : Vec Ideal S1x128 .f32 := V c (Pipeline.arrRef spec8 5)

abbrev out8 (c : Dev nD) : Vec Ideal S50000x128 .f32 := (dat8 V c).arrAt 6 cfg8.N

theorem indexFacts8 : ∀ t : Fin cfg8.N,
    win8_0.index t (0 : Fin 2) = t.val ∧ win8_0.index t (1 : Fin 2) = 0
    ∧ win8_6.index t (0 : Fin 2) = t.val ∧ win8_6.index t (1 : Fin 2) = 0 :=
  (by decide +kernel : ∀ t : Fin grid8.N, _)

theorem zeroIdx8 : ∀ (t : Fin cfg8.N) (a : Fin 2), win8_1.index t a = 0 ∧ win8_2.index t a = 0
    ∧ win8_3.index t a = 0 ∧ win8_4.index t a = 0 ∧ win8_5.index t a = 0 :=
  (by decide +kernel : ∀ t : Fin grid8.N, _)

theorem rowBlock8_1 (c : Dev nD) (t : Fin cfg8.N) : iblk8 V c 1 t = bias8 V c := by
  funext q
  show V c (Pipeline.arrRef spec8 1) (((cfg8.win 1).blk t).view.emb q) = V c (Pipeline.arrRef spec8 1) q
  exact congrArg _ (funext fun a => Fin.ext (embId (ix := win8_1.index t) (fun a => (zeroIdx8 t a).1) q a))

theorem rowBlock8_2 (c : Dev nD) (t : Fin cfg8.N) : iblk8 V c 2 t = mean8 V c := by
  funext q
  show V c (Pipeline.arrRef spec8 2) (((cfg8.win 2).blk t).view.emb q) = V c (Pipeline.arrRef spec8 2) q
  exact congrArg _ (funext fun a => Fin.ext (embId (ix := win8_2.index t) (fun a => (zeroIdx8 t a).2.1) q a))

theorem rowBlock8_3 (c : Dev nD) (t : Fin cfg8.N) : iblk8 V c 3 t = istd8 V c := by
  funext q
  show V c (Pipeline.arrRef spec8 3) (((cfg8.win 3).blk t).view.emb q) = V c (Pipeline.arrRef spec8 3) q
  exact congrArg _ (funext fun a => Fin.ext (embId (ix := win8_3.index t) (fun a => (zeroIdx8 t a).2.2.1) q a))

theorem rowBlock8_4 (c : Dev nD) (t : Fin cfg8.N) : iblk8 V c 4 t = scale8 V c := by
  funext q
  show V c (Pipeline.arrRef spec8 4) (((cfg8.win 4).blk t).view.emb q) = V c (Pipeline.arrRef spec8 4) q
  exact congrArg _ (funext fun a => Fin.ext (embId (ix := win8_4.index t) (fun a => (zeroIdx8 t a).2.2.2.1) q a))

theorem rowBlock8_5 (c : Dev nD) (t : Fin cfg8.N) : iblk8 V c 5 t = shift8 V c := by
  funext q
  show V c (Pipeline.arrRef spec8 5) (((cfg8.win 5).blk t).view.emb q) = V c (Pipeline.arrRef spec8 5) q
  exact congrArg _ (funext fun a => Fin.ext (embId (ix := win8_5.index t) (fun a => (zeroIdx8 t a).2.2.2.2) q a))

set_option maxHeartbeats 1000000 in

theorem flushed8_eq (c : Dev nD) (t : Fin cfg8.N) :
    (dat8 V c).flushed 6 t = ((cfg8.win 6).blk t).view.read (Elt Ideal) (norm2 (rows8 V c) (bias8 V c) (mean8 V c) (istd8 V c) (scale8 V c) (shift8 V c)) := by
  show (cfg8.win 6).cut (grid8.coords t) ((dat8 V c).after 6 t) = _
  rw [after8_6]
  obtain ⟨a0, a1, o0, o1⟩ := indexFacts8 t
  funext y
  show k8_pay1 (iblk8 V c 0 t) (iblk8 V c 1 t) (iblk8 V c 2 t) (iblk8 V c 3 t) (iblk8 V c 4 t) (iblk8 V c 5 t) y
    = norm2 (rows8 V c) (bias8 V c) (mean8 V c) (istd8 V c) (scale8 V c) (shift8 V c) (((cfg8.win 6).blk t).view.emb y)
  refine block2_apply (rows8 V c) (bias8 V c) (mean8 V c) (istd8 V c) (scale8 V c) (shift8 V c) (iblk8 V c 0 t)
    (iblk8 V c 1 t) (iblk8 V c 2 t) (iblk8 V c 3 t) (iblk8 V c 4 t) (iblk8 V c 5 t)
    (rowBlock8_1 V c t) (rowBlock8_2 V c t) (rowBlock8_3 V c t) (rowBlock8_4 V c t) (rowBlock8_5 V c t) y
    (((cfg8.win 6).blk t).view.emb y) ?_ ?_
  · show V c (Pipeline.arrRef spec8 0) (((cfg8.win 0).blk t).view.emb y) = V c (Pipeline.arrRef spec8 0) (((cfg8.win 6).blk t).view.emb y)
    refine congrArg (V c (Pipeline.arrRef spec8 0)) (funext fun a => Fin.ext ?_)
    match a with
    | ⟨0, _⟩ => show win8_0.index t (0 : Fin 2) * 10000 + 1 * (y 0).val = win8_6.index t (0 : Fin 2) * 10000 + 1 * (y 0).val; omega
    | ⟨1, _⟩ => show win8_0.index t (1 : Fin 2) * 128 + 1 * (y 1).val = win8_6.index t (1 : Fin 2) * 128 + 1 * (y 1).val; omega
  · show win8_6.index t (1 : Fin 2) * 128 + 1 * (y 1).val = (y 1).val
    omega

theorem mem_blk8 (t : Fin cfg8.N) (i : S50000x128.Idx) :
    i ∈ ((cfg8.win 6).blk t).view.set ↔ ∀ a : Fin 2, win8_6.index t a * S10000x128.size a ≤ (i a).val ∧ (i a).val < win8_6.index t a * S10000x128.size a + S10000x128.size a := by
  show i ∈ ((View.whole (Pipeline.arrRef spec8 6)).slice (win8_6.rect t)).set ↔ _
  rw [View.set_slice_whole, Rect.mem_set_unit]
  exact Iff.rfl

theorem covered8 (i : S50000x128.Idx) :
    ∃ t : Fin cfg8.N, (cfg8.win 6).flush t = true ∧ i ∈ ((cfg8.win 6).blk t).view.set :=
  (coverRows N_8 (ix := win8_6.index) (fun t => (indexFacts8 t).2.2) i).imp fun t h =>
    ⟨flush8_6 t, (mem_blk8 t i).mpr h⟩

set_option maxHeartbeats 1000000 in

theorem final8 (c : Dev nD) : (dat8 V c).arrAt 6 cfg8.N = norm2 (rows8 V c) (bias8 V c) (mean8 V c) (istd8 V c) (scale8 V c) (shift8 V c) :=
  (dat8 V c).arrAt_eq_of_cover 6 _ (fun t _ => flushed8_eq V c t) covered8

set_option maxHeartbeats 1000000 in

theorem val8 (c : Dev nD) (r : Fin 50000) (j : Fin 128) :
    out8 V c (ix2 r j)
      = max ((((rows8 V c (ix2 r j) + bias8 V c (ix2 0 j)) - mean8 V c (ix2 0 j)) * istd8 V c (ix2 0 j))
          * scale8 V c (ix2 0 j) + shift8 V c (ix2 0 j)) 0 :=
  (congrFun (final8 V c) (ix2 r j)).trans (norm2_apply (rows8 V c) (bias8 V c) (mean8 V c) (istd8 V c) (scale8 V c) (shift8 V c) r j)

end Cert.KernelIdeal.Val
-- ==== Proof.KernelIdeal.KLayer3.lean ====
import proofs.«425307_j45586782880378_1_alg».proof.Proof.KernelIdeal.Chain
import proofs.«425307_j45586782880378_1_alg».proof.Proof.KernelIdeal.KLayer2
import proofs.«425307_j45586782880378_1_alg».proof.Proof.KernelIdeal.HostAgg
import proofs.«425307_j45586782880378_1_alg».proof.Proof.KernelIdeal.HostStats
import proofs.«425307_j45586782880378_1_alg».proof.Proof.KernelIdeal.Val6
import proofs.«425307_j45586782880378_1_alg».proof.Proof.KernelIdeal.Val7
import proofs.«425307_j45586782880378_1_alg».proof.Proof.KernelIdeal.Val8
import proofs.«425307_j45586782880378_1_alg».proof.Proof.Spec
import Idealize.ShloMosaic.Lib.Pipeline.FrameSuffix
import Idealize.ShloMosaic.Lib.ValueIdx

set_option maxRecDepth 16384

noncomputable section

namespace Cert.KernelIdeal.KVal

open Cert.KernelIdeal Cert.KernelIdeal.Gen Cert.KernelIdeal.Hand Cert.KernelIdeal.HostVal Cert.KernelIdeal.Val
  Idealize.ShloMosaic Idealize.ShloMosaic.TcCoe Idealize.ShloMosaic.ValueIdx

variable (m : (ℓ : Loc nD τ sig) → Buf (Elt Ideal) ℓ) (c : Dev nD)

namespace L3

abbrev xwArr : S50000x128.Idx → EReal :=
  Cert.Spec.ofMat (Cert.Spec.mm (Cert.Spec.toMat (Z13 m c main_v96)) (Cert.Spec.toMat (Z13 m c main_arg11)))

abbrev aggArr : S50000x128.Idx → EReal :=
  aggOf (srcOf (edges m c)) (dstOf (edges m c)) (nrmOf (edges m c)) (xwArr m c)

abbrev biasVec : Fin 128 → EReal := fun j => (Z13 m c main_arg12 : S128.Idx → EReal) (ix1 j)
abbrev scaleVec : Fin 128 → EReal := fun j => (Z13 m c main_arg13 : S128.Idx → EReal) (ix1 j)
abbrev shiftVec : Fin 128 → EReal := fun j => (Z13 m c main_arg14 : S128.Idx → EReal) (ix1 j)

theorem xw : Z14 m c main_v97 = xwArr m c := by
  refine (Function.update_self _ _ _).trans ?_
  unfold Y14
  refine (Pipeline.withArrays_arr spec6 launch6.win.arr_inj c _ _ (2 : Fin cfg6.W)).trans ?_
  funext i
  rw [eq_ix2 i]
  exact val6 (atRefs (Z13 m)) c (i 0) (i 1)

theorem srcA : Z14 m c main_v5 = srcOf (edges m c) := (V14_of m (outs m) c main_v5 (by decide)).trans (L2.srcOut m c)
theorem dstA : Z14 m c main_v6 = dstOf (edges m c) := (V14_of m (outs m) c main_v6 (by decide)).trans (L2.dstOut m c)
theorem nrmA : Z14 m c main_v32 = nrmOf (edges m c) := (V14_of m (outs m) c main_v32 (by decide)).trans (L2.nrmOut m c)

theorem agg : Z15 m c main_v109 = aggArr m c := by
  refine (host7_v109 (Z14 m c)).trans ?_
  rw [srcA, dstA, nrmA, xw]

theorem biasRow (j : Fin 128) : Z15 m c main_v110 (ix2 0 j) = biasVec m c j :=
  (host7_v110 (Z14 m c) j).trans (congrFun (V14_of m (outs m) c main_arg12 (by decide)) (ix1 j))

theorem rowPlus (r : Fin 50000) (j : Fin 128) :
    (xArr7 (atRefs (Z15 m)) c (ix2 r j) + bRow7 (atRefs (Z15 m)) c (ix2 0 j) : EReal)
      = Cert.Spec.toMat (aggArr m c) r j + biasVec m c j :=
  congrArg₂ (· + ·) (congrFun (agg m c) (ix2 r j)) (biasRow m c j)

theorem colSum (j : Fin 128) :
    Z16 m c main_v111_0 (ix2 0 j) = ∑ r : Fin 50000, (Cert.Spec.toMat (aggArr m c) r j + biasVec m c j) := by
  have e : Z16 m c main_v111_0 = (dat7 (atRefs (Z15 m)) c).arrAt 2 cfg7.N := by
    refine (Function.update_of_ne (StableHlo.devRef_ne_of_ne (by decide)) _ _).trans ?_
    refine (Function.update_self _ _ _).trans ?_
    unfold Y16
    exact Pipeline.withArrays_arr spec7 launch7.win.arr_inj c _ _ (2 : Fin cfg7.W)
  rw [e]
  exact (val7_sum (atRefs (Z15 m)) c j).trans (sumCongr fun r => rowPlus m c r j)

theorem colSumSq (j : Fin 128) :
    Z16 m c main_v111_1 (ix2 0 j)
      = ∑ r : Fin 50000, (Cert.Spec.toMat (aggArr m c) r j + biasVec m c j) * (Cert.Spec.toMat (aggArr m c) r j + biasVec m c j) := by
  have e : Z16 m c main_v111_1 = (dat7 (atRefs (Z15 m)) c).arrAt 3 cfg7.N := by
    refine (Function.update_self _ _ _).trans ?_
    unfold Y16
    exact Pipeline.withArrays_arr spec7 launch7.win.arr_inj c _ _ (3 : Fin cfg7.W)
  rw [e]
  exact (val7_sq (atRefs (Z15 m)) c j).trans
    (sumCongr fun r => congrArg₂ (· * ·) (rowPlus m c r j) (rowPlus m c r j))

theorem rowsN : Z17 m c main_v109 = aggArr m c :=
  (V17_of m (outs m) c main_v109 (by decide)).trans <| (V16_of m (outs m) c main_v109 (by decide)).trans (agg m c)

theorem biasKept : Z16 m c main_arg12 = Z13 m c main_arg12 :=
  (V16_of m (outs m) c main_arg12 (by decide)).trans <| (V15_of m (outs m) c main_arg12 (by decide)).trans
    (V14_of m (outs m) c main_arg12 (by decide))
theorem scaleKept : Z16 m c main_arg13 = Z13 m c main_arg13 :=
  (V16_of m (outs m) c main_arg13 (by decide)).trans <| (V15_of m (outs m) c main_arg13 (by decide)).trans
    (V14_of m (outs m) c main_arg13 (by decide))
theorem shiftKept : Z16 m c main_arg14 = Z13 m c main_arg14 :=
  (V16_of m (outs m) c main_arg14 (by decide)).trans <| (V15_of m (outs m) c main_arg14 (by decide)).trans
    (V14_of m (outs m) c main_arg14 (by decide))

theorem biasN (j : Fin 128) : Z17 m c main_v123 (ix2 0 j) = biasVec m c j :=
  (host8_v123 (Z16 m c) j).trans (congrFun (biasKept m c) (ix1 j))
theorem scaleN (j : Fin 128) : Z17 m c main_v126 (ix2 0 j) = scaleVec m c j :=
  (host8_v126 (Z16 m c) j).trans (congrFun (scaleKept m c) (ix1 j))
theorem shiftN (j : Fin 128) : Z17 m c main_v127 (ix2 0 j) = shiftVec m c j :=
  (host8_v127 (Z16 m c) j).trans (congrFun (shiftKept m c) (ix1 j))

theorem meanN (j : Fin 128) :
    Z17 m c main_v124 (ix2 0 j) = Cert.Spec.colMean (Cert.Spec.toMat (aggArr m c)) (biasVec m c) j := by
  refine (host8_v124 (Z16 m c) j).trans ?_
  rw [colSum]
  rfl

theorem istdN (j : Fin 128) :
    Z17 m c main_v125 (ix2 0 j)
      = Ideal.rsqrt (Cert.Spec.varKer (Cert.Spec.toMat (aggArr m c)) (biasVec m c) j + Cert.Spec.bnEps) := by
  refine (host8_v125 (Z16 m c) j).trans ?_
  rw [colSum, colSumSq]
  rfl

theorem left : Z18 m c main_v128 = (dat8 (atRefs (Z17 m)) c).arrAt 6 cfg8.N := by
  refine (Function.update_self _ _ _).trans ?_
  unfold Y18
  exact Pipeline.withArrays_arr spec8 launch8.win.arr_inj c _ _ (6 : Fin cfg8.W)

theorem layer (r : Fin 50000) (j : Fin 128) :
    (Z18 m c main_v128 : S50000x128.Idx → EReal) (ix2 r j)
      = Cert.Spec.bnKer (Cert.Spec.toMat (aggArr m c)) (biasVec m c) (scaleVec m c) (shiftVec m c) r j := by
  rw [left]
  exact (val8 (atRefs (Z17 m)) c r j).trans (bnOf (congrFun (rowsN m c) (ix2 r j)) (biasN m c j) (meanN m c j)
    (istdN m c j) (scaleN m c j) (shiftN m c j))

end L3

theorem klayer3 (r : Fin 50000) (j : Fin 128) :
    (Z18 m c main_v128 : S50000x128.Idx → EReal) (ix2 r j)
      = Cert.Spec.bnKer (Cert.Spec.toMat (aggOf (srcOf (m ((c.tc : Thread nD τ).loc main_arg1))) (dstOf (m ((c.tc : Thread nD τ).loc main_arg1))) (nrmOf (m ((c.tc : Thread nD τ).loc main_arg1)))
            (Cert.Spec.ofMat (Cert.Spec.mm (Cert.Spec.toMat (Z13 m c main_v96)) (Cert.Spec.toMat (Z13 m c main_arg11))))))
          (fun j => (Z13 m c main_arg12 : S128.Idx → EReal) (ix1 j)) (fun j => (Z13 m c main_arg13 : S128.Idx → EReal) (ix1 j)) (fun j => (Z13 m c main_arg14 : S128.Idx → EReal) (ix1 j)) r j :=
  L3.layer m c r j

end Cert.KernelIdeal.KVal
-- ==== Proof.KernelIdeal.HostPool.lean ====
import proofs.«425307_j45586782880378_1_alg».proof.Proof.Gen.KernelIdeal.Launch
import Idealize.ShloMosaic.Lib.StableHlo.Run
import Idealize.ShloMosaic.Lib.StableHlo.Predicate
import Idealize.ShloMosaic.Lib.ValueIdx
import Idealize.ShloMosaic.Lib.ValueIdxRank1
import Idealize.ShloMosaic.Lib.ValueLayout
import Idealize.ShloMosaic.Lib.Pipeline.Value
import Idealize.ShloMosaic.Lib.IdealHost
import Idealize.ShloMosaic.PureOps.Ideal.Laws

set_option maxRecDepth 16384

noncomputable section

namespace Cert.KernelIdeal.HostVal

open Cert.KernelIdeal Cert.KernelIdeal.Gen Idealize.ShloMosaic Idealize.ShloMosaic.TcCoe Idealize.ShloMosaic.ValueIdx
open scoped BigOperators

def sel (bt : (⟨S50000, .i32⟩ : BufTy).Contents (Elt Ideal)) (i : Fin 50000) (p : Fin 128) : Prop :=
  (bt (ix1 i)).toInt = (p.val : ℤ)

instance (bt : (⟨S50000, .i32⟩ : BufTy).Contents (Elt Ideal)) (i : Fin 50000) (p : Fin 128) : Decidable (sel bt i p) := by
  unfold sel; infer_instance

theorem word_eq_iff_toInt (b : BitVec 32) (p : ℕ) (hp : p < 128) : b = BitVec.ofNat 32 p ↔ b.toInt = (p : ℤ) := by
  have e : (BitVec.ofNat 32 p).toInt = (p : ℤ) := StableHlo.Predicate.toInt_ofNat_small p (by omega)
  constructor
  · intro h; rw [h, e]
  · intro h; exact BitVec.eq_of_toInt_eq (h.trans e.symm)

theorem onehot_apply (bt : (⟨S50000, .i32⟩ : BufTy).Contents (Elt Ideal)) (i : Fin 50000) (p : Fin 128) :
    (uitofp (F := Ideal) .bf16
      (cmpi .eq
        (broadcastInDim S50000x128 ![0, 1] bcast_S50000x1_S50000x128_0_1 (broadcastInDim S50000x1 ![0] bcast_S50000_S50000x1_0 bt))
        (broadcastInDim S50000x128 ![0, 1] bcast_S1x128_S50000x128_0_1 (iotaInDim S1x128 32 1)))) (ix2 i p)
      = if sel bt i p then 1 else 0 := by
  have e1 : broadcastInDim S50000x128 ![0, 1] bcast_S50000x1_S50000x128_0_1 (broadcastInDim S50000x1 ![0] bcast_S50000_S50000x1_0 bt) (ix2 i p)
      = bt (ix1 i) := by
    rw [broadcastInDim_apply _ _ _ (ix2 i p) (ix2 i (0 : Fin 1)) (fun a => match a with | ⟨0, _⟩ => rfl | ⟨1, _⟩ => rfl)]
    rw [broadcastInDim_apply _ _ _ (ix2 i (0 : Fin 1)) (ix1 i) (fun a => match a with | ⟨0, _⟩ => rfl)]
  have e2 : broadcastInDim S50000x128 ![0, 1] bcast_S1x128_S50000x128_0_1 (iotaInDim S1x128 32 1) (ix2 i p)
      = BitVec.ofNat 32 p.val := by
    rw [broadcastInDim_apply _ _ _ (ix2 i p) (ix2 (0 : Fin 1) p) (fun a => match a with | ⟨0, _⟩ => rfl | ⟨1, _⟩ => rfl)]
    rfl
  show FloatOps.uitofp (F := Ideal) .bf16 (IntOp.cmpi .eq _ _) = _
  rw [e1, e2]
  by_cases h : sel bt i p
  · rw [if_pos h]
    have hw : bt (ix1 i) = BitVec.ofNat 32 p.val := (word_eq_iff_toInt _ _ p.isLt).2 h
    rw [hw, (StableHlo.Predicate.cmpi_eq_iff (a := BitVec.ofNat 32 p.val) (b := BitVec.ofNat 32 p.val)).2 rfl]
    show (((1#1 : BitVec 1).toNat : ℝ) : EReal) = 1
    norm_num
  · rw [if_neg h]
    have hne : IntOp.cmpi .eq (bt (ix1 i)) (BitVec.ofNat 32 p.val) = 0#1 :=
      eq_zero_of_ne_one (fun hc => h ((word_eq_iff_toInt _ _ p.isLt).1 (StableHlo.Predicate.cmpi_eq_iff.1 hc)))
    rw [hne]
    show (((0#1 : BitVec 1).toNat : ℝ) : EReal) = 0
    norm_num

theorem resultIdx?_eq_some_iff {s si u : Shape} (d : ScatterDims s si u) {w : Nat} (j : u.Idx) (idx : IVec si w) (k : s.Idx) :
    d.resultIdx? j idx = some k ↔ ∀ a, d.start j idx a + (d.window j a : ℤ) = ((k a).val : ℤ) := by
  unfold ScatterDims.resultIdx?
  split
  · rename_i h
    constructor
    · intro e a
      have hv := congrArg Fin.val (congrFun (Option.some.inj e) a)
      simp only at hv
      have := h a
      omega
    · intro e
      congr 1
      funext a
      apply Fin.ext
      have := e a
      have := h a
      simp only
      omega
  · rename_i h
    constructor
    · intro e; cases e
    · intro e
      exfalso
      apply h
      intro a
      have := e a
      have := (k a).isLt
      omega

theorem sum_filter_ix1 {M : Type*} [AddCommMonoid M] {n : ℕ} (P : (⟨1, ![n]⟩ : Shape).Idx → Prop) [DecidablePred P]
    (f : (⟨1, ![n]⟩ : Shape).Idx → M) :
    ∑ j ∈ Finset.univ.filter P, f j = ∑ i ∈ Finset.univ.filter (fun i : Fin n => P (ix1 i)), f (ix1 i) := by
  rw [Finset.sum_filter, Finset.sum_filter]
  exact (Equiv.sum_comp (idxEquiv1 (n := n)).symm (fun j => if P j then f j else 0)).symm

theorem cnt_start (bt : (⟨S50000, .i32⟩ : BufTy).Contents (Elt Ideal)) (i : Fin 50000) :
    scatter_S128_S50000x1_S50000_n_0_0_1.start (ix1 i) (broadcastInDim S50000x1 ![0] bcast_S50000_S50000x1_0 bt) 0 = (bt (ix1 i)).toInt := by
  unfold ScatterDims.start
  rw [dif_pos (by decide)]
  congr 1
  exact broadcastInDim_apply _ _ _ _ (ix1 i) (fun a => match a with | ⟨0, _⟩ => rfl)

theorem cnt_window (i : Fin 50000) : scatter_S128_S50000x1_S50000_n_0_0_1.window (ix1 i) 0 = 0 := by
  unfold ScatterDims.window
  rw [dif_neg (by decide)]

theorem cnt_lands (bt : (⟨S50000, .i32⟩ : BufTy).Contents (Elt Ideal)) (i : Fin 50000) (p : Fin 128) :
    scatter_S128_S50000x1_S50000_n_0_0_1.resultIdx? (ix1 i) (broadcastInDim S50000x1 ![0] bcast_S50000_S50000x1_0 bt) = some (ix1 p)
      ↔ sel bt i p := by
  have hs := cnt_start bt i
  have hw := cnt_window i
  rw [resultIdx?_eq_some_iff]
  constructor
  · intro h
    have h0 : scatter_S128_S50000x1_S50000_n_0_0_1.start (ix1 i) (broadcastInDim S50000x1 ![0] bcast_S50000_S50000x1_0 bt) 0
        + ((scatter_S128_S50000x1_S50000_n_0_0_1.window (ix1 i) 0 : ℕ) : ℤ) = ((p.val : ℕ) : ℤ) := h 0
    rw [hs, hw] at h0
    show (bt (ix1 i)).toInt = (p.val : ℤ)
    omega
  · intro h a
    match a with
    | ⟨0, _⟩ =>
      show scatter_S128_S50000x1_S50000_n_0_0_1.start (ix1 i) (broadcastInDim S50000x1 ![0] bcast_S50000_S50000x1_0 bt) 0
        + ((scatter_S128_S50000x1_S50000_n_0_0_1.window (ix1 i) 0 : ℕ) : ℤ) = ((p.val : ℕ) : ℤ)
      rw [hs, hw]
      unfold sel at h
      omega

theorem counts_apply (bt : (⟨S50000, .i32⟩ : BufTy).Contents (Elt Ideal)) (p : Fin 128) :
    Host.scatterAdd (F := Ideal) scatter_S128_S50000x1_S50000_n_0_0_1
        (broadcastInDim S128 ![] bcast_S_S128 (constant S_ .f32 0x00000000#32))
        (broadcastInDim S50000x1 ![0] bcast_S50000_S50000x1_0 bt)
        (broadcastInDim S50000 ![] bcast_S_S50000 (constant S_ .f32 0x3F800000#32)) (ix1 p)
      = (((Finset.univ.filter (fun i : Fin 50000 => sel bt i p)).card : ℝ) : EReal) := by
  show Ideal.hostScatterAdd _ _ _ _ (ix1 p) = _
  unfold Ideal.hostScatterAdd
  rw [broadcastInDim_scalar_apply, constant_apply, Ideal.ofBits_zero_f32, zero_add]
  rw [sum_filter_ix1]
  rw [Finset.filter_congr (fun i _ => cnt_lands bt i p)]
  rw [Finset.sum_congr rfl (fun i _ => (broadcastInDim_scalar_apply bcast_S_S50000 _ (ix1 i)).trans
    ((constant_apply _ _).trans Ideal.ofBits_one_f32))]
  rw [Finset.sum_const, nsmul_one]
  norm_cast

def cnt (bt : (⟨S50000, .i32⟩ : BufTy).Contents (Elt Ideal)) (p : Fin 128) : EReal :=
  max (((Finset.univ.filter (fun i : Fin 50000 => sel bt i p)).card : ℝ) : EReal) 1

theorem cnt_ge_one (bt : (⟨S50000, .i32⟩ : BufTy).Contents (Elt Ideal)) (p : Fin 128) :
    ∃ x : ℝ, 1 ≤ x ∧ cnt bt p = (x : EReal) :=
  ⟨max ((Finset.univ.filter (fun i : Fin 50000 => sel bt i p)).card : ℝ) 1, le_max_right _ _, by
    unfold cnt; rw [EReal.coe_strictMono.monotone.map_max, EReal.coe_one]⟩

variable (W : Valuation τ sig (Elt Ideal))

theorem host9_v129 (i : Fin 50000) (p : Fin 128) :
    (StableHlo.after hostOps9_1 (StableHlo.after hostOps9 W) (Proc.devRef .tc main_v129) : S50000x128.Idx → EReal) (ix2 i p)
      = (if sel (W main_arg2) i p then (1 : EReal) else 0) := by
  have e : StableHlo.after hostOps9_1 (StableHlo.after hostOps9 W) (Proc.devRef .tc main_v129)
      = (uitofp (F := Ideal) .bf16
          (cmpi .eq
            (broadcastInDim S50000x128 ![0, 1] bcast_S50000x1_S50000x128_0_1 (broadcastInDim S50000x1 ![0] bcast_S50000_S50000x1_0 (W main_arg2)))
            (broadcastInDim S50000x128 ![0, 1] bcast_S1x128_S50000x128_0_1 (iotaInDim S1x128 32 1))) : (⟨S50000x128, .bf16⟩ : BufTy).Contents (Elt Ideal)) := by
    after_results
    after_results
    rfl
  rw [e]
  exact onehot_apply (W main_arg2) i p

theorem host9_v138 (p : Fin 128) :
    (StableHlo.after hostOps9_1 (StableHlo.after hostOps9 W) (Proc.devRef .tc main_v138) : S128x1.Idx → EReal) (ix2 p (0 : Fin 1))
      = Ideal.div 1 (cnt (W main_arg2) p) := by
  have e : StableHlo.after hostOps9_1 (StableHlo.after hostOps9 W) (Proc.devRef .tc main_v138)
      = (shapeCast S128x1
          (Host.divf (F := Ideal) (broadcastInDim S128 ![] bcast_S_S128 (constant S_ .f32 0x3F800000#32))
            (maximumf
              (Host.scatterAdd scatter_S128_S50000x1_S50000_n_0_0_1
                (broadcastInDim S128 ![] bcast_S_S128 (constant S_ .f32 0x00000000#32))
                (broadcastInDim S50000x1 ![0] bcast_S50000_S50000x1_0 (W main_arg2))
                (broadcastInDim S50000 ![] bcast_S_S50000 (constant S_ .f32 0x3F800000#32)))
              (broadcastInDim S128 ![] bcast_S_S128 (constant S_ .f32 0x3F800000#32))))
          shapeCasts_S128_S128x1 : (⟨S128x1, .f32⟩ : BufTy).Contents (Elt Ideal)) := by
    after_results
    rfl
  rw [e]
  rw [shapeCast_apply _ _ (ix2 p (0 : Fin 1)) (ix1 p) (by
    rw [Shape.rowMajor_val_two, Shape.rowMajor_val_one]
    show p.val = p.val * 1 + 0
    omega)]
  rw [hostDivf_apply, maximumf_apply, counts_apply, broadcastInDim_scalar_apply, constant_apply, Ideal.ofBits_one_f32]
  rfl

theorem host9_v139 (k : Fin 10) :
    (StableHlo.after hostOps9_1 (StableHlo.after hostOps9 W) (Proc.devRef .tc main_v139) : S1x10.Idx → EReal) (ix2 (0 : Fin 1) k)
      = (W main_arg16 : S10.Idx → EReal) (ix1 k) := by
  have e : StableHlo.after hostOps9_1 (StableHlo.after hostOps9 W) (Proc.devRef .tc main_v139)
      = (shapeCast S1x10 (W main_arg16 : (⟨S10, .f32⟩ : BufTy).Contents (Elt Ideal)) shapeCasts_S10_S1x10
          : (⟨S1x10, .f32⟩ : BufTy).Contents (Elt Ideal)) := by
    after_results
    rfl
  rw [e]
  exact shapeCast_a_1a_apply _ _ (0 : Fin 1) k

end Cert.KernelIdeal.HostVal
-- ==== Proof.KernelIdeal.Val9.lean ====
import proofs.«425307_j45586782880378_1_alg».proof.Proof.KernelIdeal.Reg9
import proofs.«425307_j45586782880378_1_alg».proof.Proof.Spec
import proofs.«425307_j45586782880378_1_alg».proof.Proof.PoolAlgebra
import Idealize.ShloMosaic.Lib.Pipeline.Value
import Idealize.ShloMosaic.Lib.ValueIdx
import Idealize.ShloMosaic.Lib.ValueLayout
import Idealize.ShloMosaic.Lib.StackMember
import Idealize.ShloMosaic.PureOps.Ideal.Laws

set_option maxRecDepth 16384

noncomputable section

open scoped BigOperators

namespace Cert.KernelIdeal.Val

open Cert.KernelIdeal Cert.KernelIdeal.Gen Cert.KernelIdeal.Hand Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem reset_apply (p q : Fin 128) : (k9_pay1 (F := Ideal)) (ix2 p q) = (0 : EReal) := by
  unfold k9_pay1
  refine (congrFun (shapeCast_self _ _) (ix2 p q)).trans ?_
  exact Ideal.ofBits_zero_f32

theorem poolL_1 (j : S128x128.Idx) (r : dot_S10000x128_S10000x128_S128x128_0_0_1_1_n_n.contr.Idx) :
    (dot_S10000x128_S10000x128_S128x128_0_0_1_1_n_n.lhsIdx j r 1).val = (j 0).val := by
  unfold DotDims.lhsIdx
  rw [dif_neg (show ¬(1 : Fin S10000x128.rank) ∈ dot_S10000x128_S10000x128_S128x128_0_0_1_1_n_n.lhsBatch by decide), dif_pos (show (1 : Fin S10000x128.rank) ∈ dot_S10000x128_S10000x128_S128x128_0_0_1_1_n_n.lhsNonContracting by decide)]
  rfl

theorem poolR_1 (j : S128x128.Idx) (r : dot_S10000x128_S10000x128_S128x128_0_0_1_1_n_n.contr.Idx) :
    (dot_S10000x128_S10000x128_S128x128_0_0_1_1_n_n.rhsIdx j r 1).val = (j 1).val := by
  unfold DotDims.rhsIdx
  rw [dif_neg (show ¬(1 : Fin S10000x128.rank) ∈ dot_S10000x128_S10000x128_S128x128_0_0_1_1_n_n.rhsBatch by decide), dif_pos (show (1 : Fin S10000x128.rank) ∈ dot_S10000x128_S10000x128_S128x128_0_0_1_1_n_n.rhsNonContracting by decide)]
  rfl

theorem update_apply (x0 : Vec Ideal S10000x128 .f32) (x1 : Vec Ideal S10000x128 .bf16) (s : Vec Ideal S128x128 .f32)
    (p q : Fin 128) :
    k9_pay2 x0 x1 s (ix2 p q) = (s (ix2 p q) : EReal) + ∑ y : Fin 10000, (x1 (ix2 y p) : EReal) * (x0 (ix2 y q) : EReal) := by
  unfold k9_pay2
  refine (congrFun (shapeCast_self _ _) (ix2 p q)).trans ?_
  refine congrArg (fun z : EReal => (s (ix2 p q) : EReal) + z) ?_
  refine (Ideal.matmul_constant_zero_apply dot_S10000x128_S10000x128_S128x128_0_0_1_1_n_n none _ _ (ix2 p q)).trans ?_
  rw [← Equiv.sum_comp (contrEquiv1 dot_S10000x128_S10000x128_S128x128_0_0_1_1_n_n 10000 rfl rfl).symm]
  refine Finset.sum_congr rfl fun y _ => ?_
  have hy := contrEquiv1_symm_val dot_S10000x128_S10000x128_S128x128_0_0_1_1_n_n 10000 rfl rfl y
  have el : dot_S10000x128_S10000x128_S128x128_0_0_1_1_n_n.lhsIdx (ix2 p q) ((contrEquiv1 dot_S10000x128_S10000x128_S128x128_0_0_1_1_n_n 10000 rfl rfl).symm y) = ix2 y p := funext fun a => Fin.ext (by
    match a with
    | ⟨0, _⟩ => exact (dot_S10000x128_S10000x128_S128x128_0_0_1_1_n_n.lhsIdx_val_of_single rfl _ _).trans hy
    | ⟨1, _⟩ => exact poolL_1 _ _)
  have er : dot_S10000x128_S10000x128_S128x128_0_0_1_1_n_n.rhsIdx (ix2 p q) ((contrEquiv1 dot_S10000x128_S10000x128_S128x128_0_0_1_1_n_n 10000 rfl rfl).symm y) = ix2 y q := funext fun a => Fin.ext (by
    match a with
    | ⟨0, _⟩ => exact (dot_S10000x128_S10000x128_S128x128_0_0_1_1_n_n.rhsIdx_val_of_single rfl _ _).trans hy
    | ⟨1, _⟩ => exact poolR_1 _ _)
  rw [el, er]
  refine congrArg₂ (fun a b : EReal => a * b) ?_ ?_
  · exact congrFun (shapeCast_self x1 _) (ix2 y p)
  · exact congrFun (shapeCast_self x0 _) (ix2 y q)

theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem classifier_apply (s : Vec Ideal S128x128 .f32) (x2 : Vec Ideal S128x1 .f32) (x3 : Vec Ideal S128x10 .f32)
    (x4 : Vec Ideal S1x10 .f32) (p : Fin 128) (k : Fin 10) :
    k9_pay3 s x2 x3 x4 (ix2 p k)
      = (∑ q : Fin 128, ((s (ix2 p q) : EReal) * (x2 (ix2 p (0 : Fin 1)) : EReal)) * (x3 (ix2 q k) : EReal)) + (x4 (ix2 (0 : Fin 1) k) : EReal) := by
  unfold k9_pay3
  refine congrArg₂ (fun a b : EReal => a + b) ?_ ?_
  · refine (Ideal.matmul_constant_zero_apply dot_S128x128_S128x10_S128x10_1_0_0_1_n_n none _ _ (ix2 p k)).trans ?_
    refine ((Ideal.dotGeneral_apply dot_S128x128_S128x10_S128x10_1_0_0_1_n_n none .single _ _ (ix2 p k)).symm.trans
      (StackMember.dotGeneral_plain_apply (m := 128) (n := 10) none _ _ p k)).trans ?_
    refine Finset.sum_congr rfl fun q _ => ?_
    refine congrArg (fun z : EReal => ((s (ix2 p q) : EReal) * z) * (x3 (ix2 q k) : EReal)) ?_
    refine (broadcastTo_a1_ab_apply _ _ p q).trans ?_
    exact congrFun (shapeCast_self x2 _) (ix2 p (0 : Fin 1))
  · refine (broadcastTo_1b_ab_apply _ _ p k).trans ?_
    exact congrFun (shapeCast_self x4 _) (ix2 (0 : Fin 1) k)

abbrev feat (c : Dev nD) : Vec Ideal S50000x128 .f32 := V c (Pipeline.arrRef spec9 0)

abbrev member (c : Dev nD) : Vec Ideal S50000x128 .bf16 := V c (Pipeline.arrRef spec9 1)

abbrev scale (c : Dev nD) : Vec Ideal S128x1 .f32 := V c (Pipeline.arrRef spec9 2)

abbrev clsW (c : Dev nD) : Vec Ideal S128x10 .f32 := V c (Pipeline.arrRef spec9 3)

abbrev clsB (c : Dev nD) : Vec Ideal S1x10 .f32 := V c (Pipeline.arrRef spec9 4)

theorem block_index : ∀ t : Fin cfg9.N,
    win9_0.index t (0 : Fin 2) = t.val ∧ win9_0.index t (1 : Fin 2) = 0
    ∧ win9_1.index t (0 : Fin 2) = t.val ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0
    ∧ win9_5.index t (0 : Fin 2) = 0 ∧ win9_5.index t (1 : Fin 2) = 0 :=
  (by decide +kernel : ∀ t : Fin grid9.N, _)

theorem featBlock_apply (c : Dev nD) (t : Fin cfg9.N) (y : Fin 10000) (q : Fin 128) (r : Fin 50000)
    (hr : r.val = t.val * 10000 + y.val) :
    (iblk9 V c 0 t : Vec Ideal S10000x128 .f32) (ix2 y q) = feat V c (ix2 r q) := by
  obtain ⟨e0, e1, -⟩ := block_index t
  unfold iblk9
  rw [View.read_apply]
  show V c (Pipeline.arrRef spec9 0) _ = V c (Pipeline.arrRef spec9 0) _
  congr 1
  funext a
  apply Fin.ext
  match a with
  | ⟨0, _⟩ => show win9_0.index t (0 : Fin 2) * 10000 + 1 * y.val = r.val; rw [e0, hr]; omega
  | ⟨1, _⟩ => show win9_0.index t (1 : Fin 2) * 128 + 1 * q.val = q.val; rw [e1]; omega

theorem memberBlock_apply (c : Dev nD) (t : Fin cfg9.N) (y : Fin 10000) (p : Fin 128) (r : Fin 50000)
    (hr : r.val = t.val * 10000 + y.val) :
    (iblk9 V c 1 t : Vec Ideal S10000x128 .bf16) (ix2 y p) = member V c (ix2 r p) := by
  obtain ⟨-, -, e0, e1, -⟩ := block_index t
  unfold iblk9
  rw [View.read_apply]
  show V c (Pipeline.arrRef spec9 1) _ = V c (Pipeline.arrRef spec9 1) _
  congr 1
  funext a
  apply Fin.ext
  match a with
  | ⟨0, _⟩ => show win9_1.index t (0 : Fin 2) * 10000 + 1 * y.val = r.val; rw [e0, hr]; omega
  | ⟨1, _⟩ => show win9_1.index t (1 : Fin 2) * 128 + 1 * p.val = p.val; rw [e1]; omega

theorem scaleBlock_apply (c : Dev nD) (t : Fin cfg9.N) (p : Fin 128) (z : Fin 1) :
    (iblk9 V c 2 t : Vec Ideal S128x1 .f32) (ix2 p z) = scale V c (ix2 p z) := by
  obtain ⟨-, -, -, -, e0, e1, -⟩ := block_index t
  unfold iblk9
  rw [View.read_apply]
  show V c (Pipeline.arrRef spec9 2) _ = V c (Pipeline.arrRef spec9 2) _
  congr 1
  funext a
  apply Fin.ext
  match a with
  | ⟨0, _⟩ => show win9_2.index t (0 : Fin 2) * 128 + 1 * p.val = p.val; rw [e0]; omega
  | ⟨1, _⟩ => show win9_2.index t (1 : Fin 2) * 1 + 1 * z.val = z.val; rw [e1]; omega

theorem clsWBlock_apply (c : Dev nD) (t : Fin cfg9.N) (q : Fin 128) (k : Fin 10) :
    (iblk9 V c 3 t : Vec Ideal S128x10 .f32) (ix2 q k) = clsW V c (ix2 q k) := by
  obtain ⟨-, -, -, -, -, -, e0, e1, -⟩ := block_index t
  unfold iblk9
  rw [View.read_apply]
  show V c (Pipeline.arrRef spec9 3) _ = V c (Pipeline.arrRef spec9 3) _
  congr 1
  funext a
  apply Fin.ext
  match a with
  | ⟨0, _⟩ => show win9_3.index t (0 : Fin 2) * 128 + 1 * q.val = q.val; rw [e0]; omega
  | ⟨1, _⟩ => show win9_3.index t (1 : Fin 2) * 10 + 1 * k.val = k.val; rw [e1]; omega

theorem clsBBlock_apply (c : Dev nD) (t : Fin cfg9.N) (z : Fin 1) (k : Fin 10) :
    (iblk9 V c 4 t : Vec Ideal S1x10 .f32) (ix2 z k) = clsB V c (ix2 z k) := by
  obtain ⟨-, -, -, -, -, -, -, -, e0, e1, -⟩ := block_index t
  unfold iblk9
  rw [View.read_apply]
  show V c (Pipeline.arrRef spec9 4) _ = V c (Pipeline.arrRef spec9 4) _
  congr 1
  funext a
  apply Fin.ext
  match a with
  | ⟨0, _⟩ => show win9_4.index t (0 : Fin 2) * 1 + 1 * z.val = z.val; rw [e0]; omega
  | ⟨1, _⟩ => show win9_4.index t (1 : Fin 2) * 10 + 1 * k.val = k.val; rw [e1]; omega

abbrev term (c : Dev nD) (p q : Fin 128) (i : Fin 50000) : EReal :=
  (member V c (ix2 i p) : EReal) * (feat V c (ix2 i q) : EReal)

theorem rowBound (t : Fin cfg9.N) (y : Fin 10000) : t.val * 10000 + y.val < 50000 := by
  have h := t.isLt; have h5 : cfg9.N = 5 := N_9; have := y.isLt; omega

theorem step_apply (c : Dev nD) (t : Fin cfg9.N) (s : Vec Ideal S128x128 .f32) (p q : Fin 128) :
    k9_pay2 (iblk9 V c 0 t) (iblk9 V c 1 t) s (ix2 p q)
      = (s (ix2 p q) : EReal) + ∑ y : Fin 10000, term V c p q ⟨t.val * 10000 + y.val, rowBound t y⟩ :=
  (update_apply (iblk9 V c 0 t) (iblk9 V c 1 t) s p q).trans
    (congrArg (fun z : EReal => (s (ix2 p q) : EReal) + z) (Finset.sum_congr rfl fun y _ =>
      congrArg₂ (fun a b : EReal => a * b) (memberBlock_apply V c t y p _ rfl) (featBlock_apply V c t y q _ rfl)))

theorem sums_apply (c : Dev nD) (h : 4 < cfg9.N) (p q : Fin 128) :
    acc9 V c 4 h (ix2 p q) = ∑ i : Fin 50000, term V c p q i := by
  have h5 : cfg9.N = 5 := N_9
  rw [← Cert.Spec.zero_add_blocks (term V c p q)]
  refine (step_apply V c ⟨4, h⟩ (acc9 V c 3 (by omega)) p q).trans (congrArg₂ (fun a b : EReal => a + b) ?_ rfl)
  refine (step_apply V c ⟨3, by omega⟩ (acc9 V c 2 (by omega)) p q).trans (congrArg₂ (fun a b : EReal => a + b) ?_ rfl)
  refine (step_apply V c ⟨2, by omega⟩ (acc9 V c 1 (by omega)) p q).trans (congrArg₂ (fun a b : EReal => a + b) ?_ rfl)
  refine (step_apply V c ⟨1, by omega⟩ (acc9 V c 0 (by omega)) p q).trans (congrArg₂ (fun a b : EReal => a + b) ?_ rfl)
  exact (step_apply V c ⟨0, by omega⟩ (k9_pay1 (F := Ideal)) p q).trans (congrArg₂ (fun a b : EReal => a + b) (reset_apply p q) rfl)

def readout (c : Dev nD) : Vec Ideal S128x10 .f32 := fun i =>
  Cert.Spec.poolKer (Cert.Spec.toMat (feat V c)) (Cert.Spec.toMat (member V c)) (fun p => scale V c (ix2 p (0 : Fin 1)))
    (Cert.Spec.toMat (clsW V c)) (fun k => clsB V c (ix2 (0 : Fin 1) k)) (i 0) (i 1)

theorem stored_apply (c : Dev nD) (t : Fin cfg9.N) (ht : t.val = 4) (p : Fin 128) (k : Fin 10) :
    k9_pay3 (acc9 V c t.val t.isLt) (iblk9 V c 2 t) (iblk9 V c 3 t) (iblk9 V c 4 t) (ix2 p k) = readout V c (ix2 p k) := by
  obtain ⟨n, hn⟩ := t
  obtain rfl : n = 4 := ht
  refine (classifier_apply (acc9 V c 4 hn) (iblk9 V c 2 ⟨4, hn⟩) (iblk9 V c 3 ⟨4, hn⟩) (iblk9 V c 4 ⟨4, hn⟩) p k).trans ?_
  refine congrArg₂ (fun a b : EReal => a + b) (Finset.sum_congr rfl fun q _ => ?_) (clsBBlock_apply V c ⟨4, hn⟩ 0 k)
  refine congrArg₂ (fun a b : EReal => a * b) (congrArg₂ (fun a b : EReal => a * b) (sums_apply V c hn p q) (scaleBlock_apply V c ⟨4, hn⟩ p 0))
    (clsWBlock_apply V c ⟨4, hn⟩ q k)

theorem zeros2' : (fun a => win9_5.index t9_4 a * main_v140.ty.shape.size a) = fun _ => 0 :=
  funext fun a => by fin_cases a <;> decide +kernel

theorem flushed_eq (c : Dev nD) (t : Fin cfg9.N) (hf : (cfg9.win 5).flush t = true) :
    (dat9 V c).flushed 5 t = ((cfg9.win 5).blk t).view.read (Elt Ideal) (readout V c) := by
  have h5 : cfg9.N = 5 := N_9
  have h4 : t.val = 4 := by have := (flush9_5 t).mp hf; have := t.isLt; omega
  obtain rfl : t = t9_4 := Fin.ext h4
  show (cfg9.win 5).cut (grid9.coords t9_4) ((dat9 V c).after 5 t9_4) = _
  rw [after9_5]
  refine Eq.trans ?_ (Memref.read_access_unit_zero (Elt Ideal) main_v140 zeros2' (fun a => by rw [congrFun zeros2' a]; simp) (readout V c)).symm
  funext j
  obtain ⟨p, k, rfl⟩ : ∃ (p : Fin 128) (k : Fin 10), j = ix2 p k := ⟨j 0, j 1, eq_ix2 j⟩
  exact stored_apply V c t9_4 rfl p k

theorem final9 (c : Dev nD) : (dat9 V c).arrAt 5 cfg9.N = readout V c :=
  (dat9 V c).arrAt_eq_of_cover 5 (readout V c) (flushed_eq V c) fun i =>
    ⟨t9_4, (flush9_5 t9_4).mpr rfl, by
      show i ∈ ((View.whole main_v140).slice (win9_5.rect t9_4)).set
      rw [View.set_slice_whole, Rect.mem_set_unit]
      intro a
      have h := (by decide +kernel : ∀ a : Fin 2, win9_5.index t9_4 a * win9_5.size a = 0
        ∧ win9_5.xsize (grid9.coords t9_4) a = S128x10.size a) a
      show win9_5.index t9_4 a * win9_5.size a ≤ (i a : Nat)
        ∧ (i a : Nat) < win9_5.index t9_4 a * win9_5.size a + win9_5.xsize (grid9.coords t9_4) a
      rw [h.1, h.2, Nat.zero_add]
      exact ⟨Nat.zero_le _, (i a).isLt⟩⟩

theorem val9 (c : Dev nD) (p : Fin 128) (k : Fin 10) :
    (dat9 V c).arrAt 5 cfg9.N (ix2 p k)
      = Cert.Spec.poolKer (Cert.Spec.toMat (feat V c)) (Cert.Spec.toMat (member V c)) (fun p => scale V c (ix2 p (0 : Fin 1)))
          (Cert.Spec.toMat (clsW V c)) (fun k => clsB V c (ix2 (0 : Fin 1) k)) p k :=
  congrFun (final9 V c) (ix2 p k)

end Cert.KernelIdeal.Val

end
-- ==== Proof.KernelIdeal.KPool.lean ====
import proofs.«425307_j45586782880378_1_alg».proof.Proof.KernelIdeal.Chain
import proofs.«425307_j45586782880378_1_alg».proof.Proof.KernelIdeal.HostPool
import proofs.«425307_j45586782880378_1_alg».proof.Proof.KernelIdeal.Val9
import proofs.«425307_j45586782880378_1_alg».proof.Proof.PoolAlgebra
import proofs.«425307_j45586782880378_1_alg».proof.Proof.Spec
import Idealize.ShloMosaic.Lib.Pipeline.FrameSuffix
import Idealize.ShloMosaic.Lib.ValueIdx

set_option maxRecDepth 16384

noncomputable section

namespace Cert.KernelIdeal.KVal

open Cert.KernelIdeal Cert.KernelIdeal.Gen Cert.KernelIdeal.Hand Cert.KernelIdeal.HostVal Cert.KernelIdeal.Val
  Idealize.ShloMosaic Idealize.ShloMosaic.TcCoe Idealize.ShloMosaic.ValueIdx

variable (m : (ℓ : Loc nD τ sig) → Buf (Elt Ideal) ℓ) (c : Dev nD)

theorem graphNumbers_kept : Z18 m c main_arg2 = m ((c.tc : Thread nD τ).loc main_arg2) :=
  ((V21_of m (outs m) c main_arg2 (by decide)).trans <| (V20_of m (outs m) c main_arg2 (by decide)).trans <|
    V19_of m (outs m) c main_arg2 (by decide)).symm.trans (V21_main_arg2 m (outs m) c)

theorem bias_kept : Z18 m c main_arg16 = m ((c.tc : Thread nD τ).loc main_arg16) :=
  ((V21_of m (outs m) c main_arg16 (by decide)).trans <| (V20_of m (outs m) c main_arg16 (by decide)).trans <|
    V19_of m (outs m) c main_arg16 (by decide)).symm.trans (V21_main_arg16 m (outs m) c)

theorem weight_kept : Z20 m c main_arg15 = m ((c.tc : Thread nD τ).loc main_arg15) :=
  (V21_of m (outs m) c main_arg15 (by decide)).symm.trans (V21_main_arg15 m (outs m) c)

theorem features_kept : Z20 m c main_v128 = Z18 m c main_v128 :=
  (V20_of m (outs m) c main_v128 (by decide)).trans (V19_of m (outs m) c main_v128 (by decide))

theorem result_eq : Z21 m c main_v140 = (dat9 (atRefs (Z20 m)) c).arrAt 5 cfg9.N :=
  (Function.update_self _ _ _).trans (by
    unfold Y21
    exact Pipeline.withArrays_arr spec9 launch9.win.arr_inj c _ _ (5 : Fin cfg9.W))

theorem kpool (p : Fin 128) (k : Fin 10) :
    (Z21 m c main_v140 : S128x10.Idx → EReal) (ix2 p k)
      = Cert.Spec.poolKer (Cert.Spec.toMat (Z18 m c main_v128 : S50000x128.Idx → EReal))
          (fun i p => if sel (m ((c.tc : Thread nD τ).loc main_arg2)) i p then (1 : EReal) else 0)
          (fun p => Ideal.div 1 (cnt (m ((c.tc : Thread nD τ).loc main_arg2)) p))
          (Cert.Spec.toMat (m ((c.tc : Thread nD τ).loc main_arg15) : S128x10.Idx → EReal))
          (fun k => (m ((c.tc : Thread nD τ).loc main_arg16) : S10.Idx → EReal) (ix1 k)) p k := by
  rw [result_eq]
  refine (val9 (atRefs (Z20 m)) c p k).trans ?_
  show Cert.Spec.poolKer (Cert.Spec.toMat (Z20 m c main_v128 : S50000x128.Idx → EReal))
      (Cert.Spec.toMat (Z20 m c main_v129 : S50000x128.Idx → EReal))
      (fun p => (Z20 m c main_v138 : S128x1.Idx → EReal) (ix2 p 0))
      (Cert.Spec.toMat (Z20 m c main_arg15 : S128x10.Idx → EReal))
      (fun k => (Z20 m c main_v139 : S1x10.Idx → EReal) (ix2 0 k)) p k = _
  have hOH : Cert.Spec.toMat (Z20 m c main_v129 : S50000x128.Idx → EReal)
      = fun i p => if sel (m ((c.tc : Thread nD τ).loc main_arg2)) i p then (1 : EReal) else 0 := by
    funext i p
    rw [← graphNumbers_kept m c]
    exact host9_v129 (Z18 m c) i p
  have hIC : (fun p => (Z20 m c main_v138 : S128x1.Idx → EReal) (ix2 p 0))
      = fun p => Ideal.div 1 (cnt (m ((c.tc : Thread nD τ).loc main_arg2)) p) := by
    funext p
    rw [← graphNumbers_kept m c]
    exact host9_v138 (Z18 m c) p
  have hBC : (fun k => (Z20 m c main_v139 : S1x10.Idx → EReal) (ix2 0 k))
      = fun k => (m ((c.tc : Thread nD τ).loc main_arg16) : S10.Idx → EReal) (ix1 k) := by
    funext k
    rw [← bias_kept m c]
    exact host9_v139 (Z18 m c) k
  rw [hOH, hIC, hBC, features_kept m c, weight_kept m c]

theorem kpool_ref (p : Fin 128) (k : Fin 10) :
    (Z21 m c main_v140 : S128x10.Idx → EReal) (ix2 p k)
      = Cert.Spec.poolRef (Cert.Spec.toMat (Z18 m c main_v128 : S50000x128.Idx → EReal))
          (sel (m ((c.tc : Thread nD τ).loc main_arg2))) (cnt (m ((c.tc : Thread nD τ).loc main_arg2)))
          (Cert.Spec.toMat (m ((c.tc : Thread nD τ).loc main_arg15) : S128x10.Idx → EReal))
          (fun k => (m ((c.tc : Thread nD τ).loc main_arg16) : S10.Idx → EReal) (ix1 k)) p k :=
  (kpool m c p k).trans (congrFun (congrFun (Cert.Spec.poolKer_eq_poolRef _ _ _
    (sel (m ((c.tc : Thread nD τ).loc main_arg2))) (cnt (m ((c.tc : Thread nD τ).loc main_arg2))) _ _
    (fun _ _ => rfl) (cnt_ge_one _) (fun _ => rfl)) p) k)

end Cert.KernelIdeal.KVal
-- ==== Proof.FinOps.lean ====
import proofs.«425307_j45586782880378_1_alg».proof.Proof.BnAlgebra
import Idealize.ShloMosaic.PureOps.Ideal
import Idealize.ShloMosaic.PureOps.Ideal.Laws
import Idealize.ShloMosaic.PureOps.ShapeOps
import Idealize.ShloMosaic.PureOps.Vector
import Idealize.ShloMosaic.PureOps.Contract

noncomputable section

open scoped BigOperators

namespace Cert.Spec

open Idealize.ShloMosaic

def FinArr {s : Shape} (v : s.Idx → EReal) : Prop := ∀ i, ∃ x : ℝ, v i = (x : EReal)

def NonnegArr {s : Shape} (v : s.Idx → EReal) : Prop := ∀ i, ∃ x : ℝ, 0 ≤ x ∧ v i = (x : EReal)

theorem NonnegArr.fin {s : Shape} {v : s.Idx → EReal} (hv : NonnegArr v) : FinArr v := fun i =>
  let ⟨x, _, hx⟩ := hv i; ⟨x, hx⟩

theorem add_sum_fin {ι : Type*} (a : EReal) (ha : ∃ x : ℝ, a = (x : EReal)) (f : ι → EReal)
    (hf : ∀ j, ∃ x : ℝ, f j = (x : EReal)) (s : Finset ι) : ∃ x : ℝ, a + ∑ j ∈ s, f j = (x : EReal) := by
  obtain ⟨a', rfl⟩ := ha
  choose u hu using hf
  exact ⟨a' + ∑ j ∈ s, u j, by simp only [hu, coe_sum, EReal.coe_add]⟩

theorem add_sum_nonneg {ι : Type*} (a : EReal) (ha : ∃ x : ℝ, 0 ≤ x ∧ a = (x : EReal)) (f : ι → EReal)
    (hf : ∀ j, ∃ x : ℝ, 0 ≤ x ∧ f j = (x : EReal)) (s : Finset ι) :
    ∃ x : ℝ, 0 ≤ x ∧ a + ∑ j ∈ s, f j = (x : EReal) := by
  obtain ⟨a', ha0, rfl⟩ := ha
  choose u hu0 hu using hf
  exact ⟨a' + ∑ j ∈ s, u j, add_nonneg ha0 (Finset.sum_nonneg fun j _ => hu0 j),
    by simp only [hu, coe_sum, EReal.coe_add]⟩

section Arrays

variable {φ : FTy}

theorem scatterAdd_fin {s si su : Shape} (d : ScatterDims s si su) {w : ℕ} (x : FVec Ideal s φ) (idx : IVec si w)
    (upd : FVec Ideal su φ) (hx : FinArr x) (hu : FinArr upd) : FinArr (Host.scatterAdd d x idx upd) := by
  intro i
  show ∃ r : ℝ, Ideal.hostScatterAdd d x idx upd i = (r : EReal)
  unfold Ideal.hostScatterAdd
  exact add_sum_fin _ (hx i) upd hu _

theorem scatterAdd_nonneg {s si su : Shape} (d : ScatterDims s si su) {w : ℕ} (x : FVec Ideal s φ) (idx : IVec si w)
    (upd : FVec Ideal su φ) (hx : NonnegArr x) (hu : NonnegArr upd) : NonnegArr (Host.scatterAdd d x idx upd) := by
  intro i
  show ∃ r : ℝ, 0 ≤ r ∧ Ideal.hostScatterAdd d x idx upd i = (r : EReal)
  unfold Ideal.hostScatterAdd
  exact add_sum_nonneg _ (hx i) upd hu _

theorem scatterAdd_ones_nonneg {s si su : Shape} (d : ScatterDims s si su) {w : ℕ} (x : FVec Ideal s φ)
    (idx : IVec si w) (upd : FVec Ideal su φ) (hx : ∀ i, x i = 0) (hu : ∀ j, upd j = 1) :
    NonnegArr (Host.scatterAdd d x idx upd) :=
  scatterAdd_nonneg d x idx upd (fun i => ⟨0, le_rfl, by rw [hx i, EReal.coe_zero]⟩)
    (fun j => ⟨1, zero_le_one, by rw [hu j, EReal.coe_one]⟩)

theorem gather_fin {s si t : Shape} (d : GatherDims s si t) {w : ℕ} (x : s.Idx → EReal) (idx : IVec si w)
    (hx : FinArr x) : FinArr (Host.gather d x idx) := fun _ => hx _

theorem gather_nonneg {s si t : Shape} (d : GatherDims s si t) {w : ℕ} (x : s.Idx → EReal) (idx : IVec si w)
    (hx : NonnegArr x) : NonnegArr (Host.gather d x idx) := fun _ => hx _

theorem broadcastInDim_fin {s : Shape} (t : Shape) (dims : Fin s.rank → Fin t.rank) (h : s.BroadcastsInDim t dims)
    (x : s.Idx → EReal) (hx : FinArr x) : FinArr (broadcastInDim t dims h x) := fun _ => hx _

theorem broadcastInDim_nonneg {s : Shape} (t : Shape) (dims : Fin s.rank → Fin t.rank) (h : s.BroadcastsInDim t dims)
    (x : s.Idx → EReal) (hx : NonnegArr x) : NonnegArr (broadcastInDim t dims h x) := fun _ => hx _

theorem mulf_fin {s : Shape} (x y : FVec Ideal s φ) (hx : FinArr x) (hy : FinArr y) : FinArr (mulf x y) := by
  intro i
  obtain ⟨a, ha⟩ := hx i
  obtain ⟨b, hb⟩ := hy i
  exact ⟨a * b, by show x i * y i = _; rw [ha, hb, EReal.coe_mul]⟩

theorem mulf_nonneg {s : Shape} (x y : FVec Ideal s φ) (hx : NonnegArr x) (hy : NonnegArr y) :
    NonnegArr (mulf x y) := by
  intro i
  obtain ⟨a, ha0, ha⟩ := hx i
  obtain ⟨b, hb0, hb⟩ := hy i
  exact ⟨a * b, mul_nonneg ha0 hb0, by show x i * y i = _; rw [ha, hb, EReal.coe_mul]⟩

end Arrays

theorem ofBits_one : Ideal.ofBits .f32 0x3F800000#32 = 1 := by
  simp [Ideal.ofBits, Ideal.ieee, -EReal.coe_mul]; norm_num

theorem constant_zero_apply (s : Shape) (i : s.Idx) : constant (F := Ideal) s .f32 0x00000000#32 i = 0 := Ideal.ofBits_zero_f32

theorem constant_zero_nonneg (s : Shape) : NonnegArr (constant (F := Ideal) s .f32 0x00000000#32) := fun i =>
  ⟨0, le_rfl, by rw [constant_zero_apply, EReal.coe_zero]⟩

theorem constant_fin_zero (s : Shape) : FinArr (constant (F := Ideal) s .f32 0x00000000#32) := (constant_zero_nonneg s).fin
theorem broadcast_zero_apply {s : Shape} (t : Shape) (dims : Fin s.rank → Fin t.rank) (h : s.BroadcastsInDim t dims)
    (i : t.Idx) : broadcastInDim t dims h (constant (F := Ideal) s .f32 0x00000000#32) i = 0 := Ideal.ofBits_zero_f32

theorem broadcast_one_apply {s : Shape} (t : Shape) (dims : Fin s.rank → Fin t.rank) (h : s.BroadcastsInDim t dims)
    (i : t.Idx) : broadcastInDim t dims h (constant (F := Ideal) s .f32 0x3F800000#32) i = 1 := ofBits_one

theorem sqrt_coe_nonneg {r : ℝ} (hr : 0 ≤ r) : Ideal.sqrt (r : EReal) = ((Real.sqrt r : ℝ) : EReal) := by
  rw [Ideal.sqrt_coe, if_neg (not_lt.mpr hr)]

section Arrays2

variable {φ : FTy}

theorem sqrt_nonneg {s : Shape} (x : FVec Ideal s φ) (hx : NonnegArr x) : NonnegArr (Host.sqrt x) := by
  intro i
  obtain ⟨r, hr, hxi⟩ := hx i
  exact ⟨Real.sqrt r, Real.sqrt_nonneg r, by show Ideal.sqrt (x i) = _; rw [hxi, sqrt_coe_nonneg hr]⟩

theorem dinv_point (r : ℝ) (hr : 0 ≤ r) :
    ∃ x : ℝ, 0 ≤ x ∧
      Scalar.select (Ideal.cmp .ogt (r : EReal) 0) (Ideal.div 1 (Ideal.sqrt (r : EReal))) (0 : EReal) = (x : EReal) := by
  by_cases h : 0 < r
  · have hs : Real.sqrt r ≠ 0 := (Real.sqrt_pos.mpr h).ne'
    refine ⟨1 / Real.sqrt r, by positivity, ?_⟩
    have hc : Ideal.cmp .ogt (r : EReal) 0 = 1 := by
      simp [Ideal.cmp, h]
    rw [hc, sqrt_coe_nonneg hr, Ideal.div_coe hs, one_mul]
    rfl
  · have h0 : r = 0 := le_antisymm (not_lt.mp h) hr
    refine ⟨0, le_rfl, ?_⟩
    subst h0
    simp [Ideal.cmp, Scalar.select]

theorem dinv_nonneg {s : Shape} (deg zeros ones : FVec Ideal s φ) (hz : ∀ i, zeros i = 0) (ho : ∀ i, ones i = 1)
    (hd : NonnegArr deg) :
    NonnegArr (select (cmpf .ogt deg zeros) (Host.divf ones (Host.sqrt deg)) zeros) := by
  intro i
  obtain ⟨r, hr, hdi⟩ := hd i
  show ∃ x : ℝ, 0 ≤ x ∧
    Scalar.select (Ideal.cmp .ogt (deg i) (zeros i)) (Ideal.div (ones i) (Ideal.sqrt (deg i))) (zeros i) = (x : EReal)
  rw [hz i, ho i, hdi]
  exact dinv_point r hr

end Arrays2

end Cert.Spec

end
-- ==== Proof.FinAgg.lean ====
import proofs.«425307_j45586782880378_1_alg».proof.Proof.FinOps
import proofs.«425307_j45586782880378_1_alg».proof.Proof.KernelIdeal.HostAgg

noncomputable section

namespace Cert.Spec

open Idealize.ShloMosaic

theorem finArr_iff_finMat_toMat {a b : ℕ} (v : (⟨2, ![a, b]⟩ : Shape).Idx → EReal) : FinArr v ↔ FinMat (toMat v) :=
  ⟨fun h _ _ => h _, fun h i => by rw [ValueIdx.eq_ix2 i]; exact h (i 0) (i 1)⟩

theorem FinArr.toMat {a b : ℕ} {v : (⟨2, ![a, b]⟩ : Shape).Idx → EReal} (h : FinArr v) : FinMat (toMat v) :=
  (finArr_iff_finMat_toMat v).mp h

theorem FinMat.ofMat {a b : ℕ} {f : Mat a b} (h : FinMat f) : FinArr (ofMat f) := fun i => h (i 0) (i 1)

theorem finArr_iff_finVec {a : ℕ} (v : (⟨1, ![a]⟩ : Shape).Idx → EReal) :
    FinArr v ↔ FinVec (fun j => v (ValueIdx.ix1 j)) :=
  ⟨fun h _ => h _, fun h i => by rw [ValueIdx.eq_ix1 i]; exact h (i 0)⟩

end Cert.Spec

namespace Cert.KernelIdeal.HostVal

open Cert.Spec Cert.KernelIdeal Cert.KernelIdeal.Gen Idealize.ShloMosaic Idealize.ShloMosaic.TcCoe Idealize.ShloMosaic.ValueIdx

theorem aggOf_fin (src dst : (⟨S850000, .i32⟩ : BufTy).Contents (Elt Ideal))
    (nrm : (⟨S850000x1, .f32⟩ : BufTy).Contents (Elt Ideal)) (xw : (⟨S50000x128, .f32⟩ : BufTy).Contents (Elt Ideal))
    (hn : FinArr nrm) (hx : FinArr xw) : FinArr (aggOf (F := Ideal) src dst nrm xw) :=
  scatterAdd_fin _ _ _ _ (broadcastInDim_fin _ _ _ _ (constant_fin_zero _))
    (mulf_fin _ _ (gather_fin _ _ _ hx) (broadcastInDim_fin _ _ _ _ hn))

theorem degOf_nonneg (dst : (⟨S850000, .i32⟩ : BufTy).Contents (Elt Ideal)) : NonnegArr (degOf (F := Ideal) dst) :=
  scatterAdd_ones_nonneg _ _ _ _ (fun i => broadcast_zero_apply _ _ _ i) (fun j => broadcast_one_apply _ _ _ j)

theorem dinvOf_nonneg (dst : (⟨S850000, .i32⟩ : BufTy).Contents (Elt Ideal)) : NonnegArr (dinvOf (F := Ideal) dst) :=
  dinv_nonneg _ _ _ (fun i => broadcast_zero_apply _ _ _ i) (fun i => broadcast_one_apply _ _ _ i) (degOf_nonneg dst)

theorem edgeNorm_nonneg (src dst : (⟨S850000, .i32⟩ : BufTy).Contents (Elt Ideal)) :
    NonnegArr (edgeNorm (F := Ideal) src dst) :=
  broadcastInDim_nonneg _ _ _ _
    (mulf_nonneg _ _ (gather_nonneg _ _ _ (dinvOf_nonneg dst)) (gather_nonneg _ _ _ (dinvOf_nonneg dst)))

theorem nrmOf_nonneg (e : (⟨S2x800000, .i32⟩ : BufTy).Contents (Elt Ideal)) : NonnegArr (nrmOf (F := Ideal) e) :=
  edgeNorm_nonneg _ _

theorem nrmOf_fin (e : (⟨S2x800000, .i32⟩ : BufTy).Contents (Elt Ideal)) : FinArr (nrmOf (F := Ideal) e) :=
  (nrmOf_nonneg e).fin

end Cert.KernelIdeal.HostVal

end
-- ==== Proof.LayersEq.lean ====
import proofs.«425307_j45586782880378_1_alg».proof.Proof.Spec
import proofs.«425307_j45586782880378_1_alg».proof.Proof.BnAlgebra
import proofs.«425307_j45586782880378_1_alg».proof.Proof.FinOps
import proofs.«425307_j45586782880378_1_alg».proof.Proof.FinAgg
import proofs.«425307_j45586782880378_1_alg».proof.Proof.KernelIdeal.HostAgg

noncomputable section

namespace Cert.Spec

open Idealize.ShloMosaic Cert.KernelIdeal Cert.KernelIdeal.Gen Cert.KernelIdeal.HostVal

abbrev EdgeList : Type := (⟨S2x800000, .i32⟩ : BufTy).Contents (Elt Ideal)

def aggM (e : EdgeList) (X : Mat 50000 128) : Mat 50000 128 :=
  toMat (aggOf (F := Ideal) (srcOf e) (dstOf e) (nrmOf e) (ofMat X))

def layerK (e : EdgeList) (h : Mat 50000 128) (w : Mat 128 128) (b g be : Fin 128 → EReal) : Mat 50000 128 :=
  bnKer (aggM e (mm h w)) b g be

def layerR (e : EdgeList) (h : Mat 50000 128) (w : Mat 128 128) (b g be : Fin 128 → EReal) : Mat 50000 128 :=
  bnRef (aggM e (mm h w)) b g be

theorem aggM_fin (e : EdgeList) (X : Mat 50000 128) (hX : FinMat X) : FinMat (aggM e X) :=
  (aggOf_fin _ _ _ _ (nrmOf_fin e) hX.ofMat).toMat

theorem layerK_eq_layerR (e : EdgeList) (h : Mat 50000 128) (w : Mat 128 128) (b g be : Fin 128 → EReal)
    (hh : FinMat h) (hw : FinMat w) (hb : FinVec b) : layerK e h w b g be = layerR e h w b g be :=
  bnKer_eq_bnRef (aggM e (mm h w)) b g be (aggM_fin e _ (mm_fin h w hh hw)) hb

theorem layerR_fin (e : EdgeList) (h : Mat 50000 128) (w : Mat 128 128) (b g be : Fin 128 → EReal)
    (hh : FinMat h) (hw : FinMat w) (hb : FinVec b) (hg : FinVec g) (hbe : FinVec be) : FinMat (layerR e h w b g be) :=
  bnRef_fin (aggM e (mm h w)) b g be (aggM_fin e _ (mm_fin h w hh hw)) hb hg hbe

theorem layers3_eq (e : EdgeList) (x : Mat 50000 128) (w1 w2 w3 : Mat 128 128)
    (b1 g1 be1 b2 g2 be2 b3 g3 be3 : Fin 128 → EReal)
    (hx : FinMat x) (hw1 : FinMat w1) (hw2 : FinMat w2) (hw3 : FinMat w3)
    (hb1 : FinVec b1) (hg1 : FinVec g1) (hbe1 : FinVec be1)
    (hb2 : FinVec b2) (hg2 : FinVec g2) (hbe2 : FinVec be2) (hb3 : FinVec b3) :
    layerK e (layerK e (layerK e x w1 b1 g1 be1) w2 b2 g2 be2) w3 b3 g3 be3
      = layerR e (layerR e (layerR e x w1 b1 g1 be1) w2 b2 g2 be2) w3 b3 g3 be3 := by
  have f1 := layerR_fin e x w1 b1 g1 be1 hx hw1 hb1 hg1 hbe1
  have f2 := layerR_fin e _ w2 b2 g2 be2 f1 hw2 hb2 hg2 hbe2
  rw [layerK_eq_layerR e x w1 b1 g1 be1 hx hw1 hb1, layerK_eq_layerR e _ w2 b2 g2 be2 f1 hw2 hb2]
  exact layerK_eq_layerR e _ w3 b3 g3 be3 f2 hw3 hb3

end Cert.Spec

end
-- ==== Proof.KernelIdeal.KResult.lean ====
import proofs.«425307_j45586782880378_1_alg».proof.Proof.KernelIdeal.Chain
import proofs.«425307_j45586782880378_1_alg».proof.Proof.KernelIdeal.ArgsKept
import proofs.«425307_j45586782880378_1_alg».proof.Proof.KernelIdeal.KLayer1
import proofs.«425307_j45586782880378_1_alg».proof.Proof.KernelIdeal.KLayer2
import proofs.«425307_j45586782880378_1_alg».proof.Proof.KernelIdeal.KLayer3
import proofs.«425307_j45586782880378_1_alg».proof.Proof.KernelIdeal.KPool
import proofs.«425307_j45586782880378_1_alg».proof.Proof.LayersEq
import proofs.«425307_j45586782880378_1_alg».proof.Proof.Spec
import Idealize.ShloMosaic.Lib.ValueIdx

set_option maxRecDepth 16384

noncomputable section

namespace Cert.KernelIdeal.KVal

open Cert.KernelIdeal Cert.KernelIdeal.Gen Cert.KernelIdeal.Hand Cert.KernelIdeal.HostVal
  Idealize.ShloMosaic Idealize.ShloMosaic.TcCoe Idealize.ShloMosaic.ValueIdx

variable (m : (ℓ : Loc nD τ sig) → Buf (Elt Ideal) ℓ) (c : Dev nD)

namespace Res

abbrev x : S50000x128.Idx → EReal := m ((c.tc : Thread nD τ).loc main_arg0)

abbrev e : Cert.Spec.EdgeList := m ((c.tc : Thread nD τ).loc main_arg1)

abbrev bt : (⟨S50000, .i32⟩ : BufTy).Contents (Elt Ideal) := m ((c.tc : Thread nD τ).loc main_arg2)

abbrev w1 : S128x128.Idx → EReal := m ((c.tc : Thread nD τ).loc main_arg3)
abbrev b1 : Fin 128 → EReal := fun j => (m ((c.tc : Thread nD τ).loc main_arg4) : S128.Idx → EReal) (ix1 j)
abbrev g1 : Fin 128 → EReal := fun j => (m ((c.tc : Thread nD τ).loc main_arg5) : S128.Idx → EReal) (ix1 j)
abbrev be1 : Fin 128 → EReal := fun j => (m ((c.tc : Thread nD τ).loc main_arg6) : S128.Idx → EReal) (ix1 j)

abbrev w2 : S128x128.Idx → EReal := m ((c.tc : Thread nD τ).loc main_arg7)
abbrev b2 : Fin 128 → EReal := fun j => (m ((c.tc : Thread nD τ).loc main_arg8) : S128.Idx → EReal) (ix1 j)
abbrev g2 : Fin 128 → EReal := fun j => (m ((c.tc : Thread nD τ).loc main_arg9) : S128.Idx → EReal) (ix1 j)
abbrev be2 : Fin 128 → EReal := fun j => (m ((c.tc : Thread nD τ).loc main_arg10) : S128.Idx → EReal) (ix1 j)

abbrev w3 : S128x128.Idx → EReal := m ((c.tc : Thread nD τ).loc main_arg11)
abbrev b3 : Fin 128 → EReal := fun j => (m ((c.tc : Thread nD τ).loc main_arg12) : S128.Idx → EReal) (ix1 j)
abbrev g3 : Fin 128 → EReal := fun j => (m ((c.tc : Thread nD τ).loc main_arg13) : S128.Idx → EReal) (ix1 j)
abbrev be3 : Fin 128 → EReal := fun j => (m ((c.tc : Thread nD τ).loc main_arg14) : S128.Idx → EReal) (ix1 j)

abbrev wc : S128x10.Idx → EReal := m ((c.tc : Thread nD τ).loc main_arg15)
abbrev bc : Fin 10 → EReal := fun k => (m ((c.tc : Thread nD τ).loc main_arg16) : S10.Idx → EReal) (ix1 k)

end Res

theorem layer1_mat :
    Cert.Spec.toMat (Z8 m c main_v64 : S50000x128.Idx → EReal)
      = Cert.Spec.layerK (Res.e m c) (Cert.Spec.toMat (Res.x m c)) (Cert.Spec.toMat (Res.w1 m c)) (Res.b1 m c) (Res.g1 m c) (Res.be1 m c) := by
  funext r j
  refine (klayer1 m c r j).trans ?_
  rw [kept3 m c main_arg0 (by decide), kept3 m c main_arg3 (by decide), kept3 m c main_arg4 (by decide),
    kept3 m c main_arg5 (by decide), kept3 m c main_arg6 (by decide)]
  rfl

theorem layer2_mat :
    Cert.Spec.toMat (Z13 m c main_v96 : S50000x128.Idx → EReal)
      = Cert.Spec.layerK (Res.e m c)
          (Cert.Spec.layerK (Res.e m c) (Cert.Spec.toMat (Res.x m c)) (Cert.Spec.toMat (Res.w1 m c)) (Res.b1 m c) (Res.g1 m c) (Res.be1 m c))
          (Cert.Spec.toMat (Res.w2 m c)) (Res.b2 m c) (Res.g2 m c) (Res.be2 m c) := by
  rw [← layer1_mat m c]
  funext r j
  refine (klayer2 m c r j).trans ?_
  rw [kept8 m c main_arg7 (by decide), kept8 m c main_arg8 (by decide), kept8 m c main_arg9 (by decide),
    kept8 m c main_arg10 (by decide)]
  rfl

theorem layer3_mat :
    Cert.Spec.toMat (Z18 m c main_v128 : S50000x128.Idx → EReal)
      = Cert.Spec.layerK (Res.e m c)
          (Cert.Spec.layerK (Res.e m c)
            (Cert.Spec.layerK (Res.e m c) (Cert.Spec.toMat (Res.x m c)) (Cert.Spec.toMat (Res.w1 m c)) (Res.b1 m c) (Res.g1 m c) (Res.be1 m c))
            (Cert.Spec.toMat (Res.w2 m c)) (Res.b2 m c) (Res.g2 m c) (Res.be2 m c))
          (Cert.Spec.toMat (Res.w3 m c)) (Res.b3 m c) (Res.g3 m c) (Res.be3 m c) := by
  rw [← layer2_mat m c]
  funext r j
  refine (klayer3 m c r j).trans ?_
  rw [kept13 m c main_arg11 (by decide), kept13 m c main_arg12 (by decide), kept13 m c main_arg13 (by decide),
    kept13 m c main_arg14 (by decide)]
  rfl

theorem kresult (p : Fin 128) (k : Fin 10) :
    (Z21 m c main_v140 : S128x10.Idx → EReal) (ix2 p k)
      = Cert.Spec.poolRef
          (Cert.Spec.layerK (Res.e m c)
            (Cert.Spec.layerK (Res.e m c)
              (Cert.Spec.layerK (Res.e m c) (Cert.Spec.toMat (Res.x m c)) (Cert.Spec.toMat (Res.w1 m c)) (Res.b1 m c) (Res.g1 m c) (Res.be1 m c))
              (Cert.Spec.toMat (Res.w2 m c)) (Res.b2 m c) (Res.g2 m c) (Res.be2 m c))
            (Cert.Spec.toMat (Res.w3 m c)) (Res.b3 m c) (Res.g3 m c) (Res.be3 m c))
          (sel (Res.bt m c)) (cnt (Res.bt m c)) (Cert.Spec.toMat (Res.wc m c)) (Res.bc m c) p k := by
  rw [← layer3_mat m c]
  exact kpool_ref m c p k

end Cert.KernelIdeal.KVal

end
-- ==== Proof.AggShared.lean ====
import proofs.«425307_j45586782880378_1_alg».proof.Proof.KernelIdeal.HostAgg
import proofs.«425307_j45586782880378_1_alg».proof.Proof.RefLayer

set_option maxRecDepth 16384

noncomputable section

namespace Cert.AggShared

open Idealize.ShloMosaic
open Cert.KernelIdeal.HostVal (aggOf srcOf dstOf nrmOf)
open Cert.ReferenceIdeal.Layer (aggRef normRef withLoops srcEdges dstEdges)

variable {F : FTy → Type} [FloatOps F]

theorem aggRef_eq (e : (⟨Cert.ReferenceIdeal.S2x800000, .i32⟩ : BufTy).Contents (Elt F))
    (xw : (⟨Cert.ReferenceIdeal.S50000x128, .f32⟩ : BufTy).Contents (Elt F)) :
    aggRef e xw = aggOf (srcOf e) (dstOf e) (nrmOf e) xw := rfl

end Cert.AggShared
-- ==== Proof.PoolRefFacts.lean ====
import proofs.«425307_j45586782880378_1_alg».proof.Proof.KernelIdeal.HostPool
import proofs.«425307_j45586782880378_1_alg».proof.Proof.Gen.ReferenceIdeal

set_option maxRecDepth 16384

noncomputable section

namespace Cert.KernelIdeal.HostVal

open Cert.KernelIdeal Cert.KernelIdeal.Gen Idealize.ShloMosaic Idealize.ShloMosaic.TcCoe Idealize.ShloMosaic.ValueIdx
open scoped BigOperators

variable (hb : Cert.ReferenceIdeal.S50000.BroadcastsInDim Cert.ReferenceIdeal.S50000x1 (![0] : Fin 1 → Fin Cert.ReferenceIdeal.S50000x1.rank))

theorem sums_start0 (bt : (⟨S50000, .i32⟩ : BufTy).Contents (Elt Ideal)) (i : Fin 50000) (q : Fin 128) :
    Cert.ReferenceIdeal.scatter_S128x128_S50000x1_S50000x128_1_0_0_1.start (ix2 i q)
      (broadcastInDim Cert.ReferenceIdeal.S50000x1 ![0] hb bt) 0 = (bt (ix1 i)).toInt := by
  unfold ScatterDims.start
  rw [dif_pos (by decide)]
  congr 1
  exact broadcastInDim_apply _ _ _ _ (ix1 i) (fun a => match a with | ⟨0, _⟩ => rfl)

theorem sums_start1 (bt : (⟨S50000, .i32⟩ : BufTy).Contents (Elt Ideal)) (i : Fin 50000) (q : Fin 128) :
    Cert.ReferenceIdeal.scatter_S128x128_S50000x1_S50000x128_1_0_0_1.start (ix2 i q)
      (broadcastInDim Cert.ReferenceIdeal.S50000x1 ![0] hb bt) 1 = 0 := by
  unfold ScatterDims.start
  rw [dif_neg (by decide)]

theorem sums_window0 (i : Fin 50000) (q : Fin 128) :
    Cert.ReferenceIdeal.scatter_S128x128_S50000x1_S50000x128_1_0_0_1.window (ix2 i q) 0 = 0 := by
  unfold ScatterDims.window
  rw [dif_neg (by decide)]

theorem sums_window1 (i : Fin 50000) (q : Fin 128) :
    Cert.ReferenceIdeal.scatter_S128x128_S50000x1_S50000x128_1_0_0_1.window (ix2 i q) 1 = q.val := by
  unfold ScatterDims.window
  rw [dif_pos (by decide)]
  rfl

theorem sums_lands (bt : (⟨S50000, .i32⟩ : BufTy).Contents (Elt Ideal)) (i : Fin 50000) (q' : Fin 128) (p q : Fin 128) :
    Cert.ReferenceIdeal.scatter_S128x128_S50000x1_S50000x128_1_0_0_1.resultIdx? (ix2 i q')
        (broadcastInDim Cert.ReferenceIdeal.S50000x1 ![0] hb bt) = some (ix2 p q)
      ↔ sel bt i p ∧ q' = q := by
  have hs0 := sums_start0 hb bt i q'
  have hs1 := sums_start1 hb bt i q'
  have hw0 := sums_window0 i q'
  have hw1 := sums_window1 i q'
  rw [resultIdx?_eq_some_iff]
  constructor
  · intro h
    have h0 : Cert.ReferenceIdeal.scatter_S128x128_S50000x1_S50000x128_1_0_0_1.start (ix2 i q') (broadcastInDim Cert.ReferenceIdeal.S50000x1 ![0] hb bt) 0
        + ((Cert.ReferenceIdeal.scatter_S128x128_S50000x1_S50000x128_1_0_0_1.window (ix2 i q') 0 : ℕ) : ℤ) = ((p.val : ℕ) : ℤ) := h 0
    have h1 : Cert.ReferenceIdeal.scatter_S128x128_S50000x1_S50000x128_1_0_0_1.start (ix2 i q') (broadcastInDim Cert.ReferenceIdeal.S50000x1 ![0] hb bt) 1
        + ((Cert.ReferenceIdeal.scatter_S128x128_S50000x1_S50000x128_1_0_0_1.window (ix2 i q') 1 : ℕ) : ℤ) = ((q.val : ℕ) : ℤ) := h 1
    rw [hs0, hw0] at h0
    rw [hs1, hw1] at h1
    refine ⟨?_, Fin.ext (by omega)⟩
    show (bt (ix1 i)).toInt = (p.val : ℤ)
    omega
  · rintro ⟨h, rfl⟩ a
    unfold sel at h
    match a with
    | ⟨0, _⟩ =>
      show Cert.ReferenceIdeal.scatter_S128x128_S50000x1_S50000x128_1_0_0_1.start (ix2 i q') (broadcastInDim Cert.ReferenceIdeal.S50000x1 ![0] hb bt) 0
        + ((Cert.ReferenceIdeal.scatter_S128x128_S50000x1_S50000x128_1_0_0_1.window (ix2 i q') 0 : ℕ) : ℤ) = ((p.val : ℕ) : ℤ)
      rw [hs0, hw0]
      omega
    | ⟨1, _⟩ =>
      show Cert.ReferenceIdeal.scatter_S128x128_S50000x1_S50000x128_1_0_0_1.start (ix2 i q') (broadcastInDim Cert.ReferenceIdeal.S50000x1 ![0] hb bt) 1
        + ((Cert.ReferenceIdeal.scatter_S128x128_S50000x1_S50000x128_1_0_0_1.window (ix2 i q') 1 : ℕ) : ℤ) = ((q'.val : ℕ) : ℤ)
      rw [hs1, hw1]
      omega

theorem ref_sums (hz : Cert.ReferenceIdeal.S_.BroadcastsInDim Cert.ReferenceIdeal.S128x128 (![] : Fin 0 → Fin Cert.ReferenceIdeal.S128x128.rank))
    (H : (⟨S50000x128, .f32⟩ : BufTy).Contents (Elt Ideal)) (bt : (⟨S50000, .i32⟩ : BufTy).Contents (Elt Ideal)) (p q : Fin 128) :
    Host.scatterAdd (F := Ideal) Cert.ReferenceIdeal.scatter_S128x128_S50000x1_S50000x128_1_0_0_1
        (broadcastInDim Cert.ReferenceIdeal.S128x128 ![] hz (constant Cert.ReferenceIdeal.S_ .f32 0x00000000#32))
        (broadcastInDim Cert.ReferenceIdeal.S50000x1 ![0] hb bt) H (ix2 p q)
      = ∑ i ∈ Finset.univ.filter (fun i : Fin 50000 => sel bt i p), (H (ix2 i q) : EReal) := by
  show Ideal.hostScatterAdd _ _ _ _ (ix2 p q) = _
  unfold Ideal.hostScatterAdd
  rw [broadcastInDim_scalar_apply, constant_apply, Ideal.ofBits_zero_f32, zero_add]
  rw [Finset.sum_filter, sum_idx2, Finset.sum_filter]
  refine Finset.sum_congr rfl (fun i _ => ?_)
  rw [Finset.sum_eq_single q]
  · by_cases h : sel bt i p
    · rw [if_pos ((sums_lands hb bt i q p q).2 ⟨h, rfl⟩), if_pos h]
    · rw [if_neg (fun hc => h ((sums_lands hb bt i q p q).1 hc).1), if_neg h]
  · intro q' _ hne
    rw [if_neg (fun hc => hne ((sums_lands hb bt i q' p q).1 hc).2)]
  · intro hq; exact absurd (Finset.mem_univ q) hq

theorem ref_cnts (hz : Cert.ReferenceIdeal.S_.BroadcastsInDim Cert.ReferenceIdeal.S128 (![] : Fin 0 → Fin Cert.ReferenceIdeal.S128.rank))
    (ho : Cert.ReferenceIdeal.S_.BroadcastsInDim Cert.ReferenceIdeal.S50000 (![] : Fin 0 → Fin Cert.ReferenceIdeal.S50000.rank))
    (bt : (⟨S50000, .i32⟩ : BufTy).Contents (Elt Ideal)) (p : Fin 128) :
    max (Host.scatterAdd (F := Ideal) Cert.ReferenceIdeal.scatter_S128_S50000x1_S50000_n_0_0_1
        (broadcastInDim Cert.ReferenceIdeal.S128 ![] hz (constant Cert.ReferenceIdeal.S_ .f32 0x00000000#32))
        (broadcastInDim Cert.ReferenceIdeal.S50000x1 ![0] hb bt)
        (broadcastInDim Cert.ReferenceIdeal.S50000 ![] ho (constant Cert.ReferenceIdeal.S_ .f32 0x3F800000#32)) (ix1 p)) 1
      = cnt bt p := by
  unfold cnt
  exact congrArg (fun x : EReal => max x 1) (counts_apply bt p)

end Cert.KernelIdeal.HostVal
-- ==== Proof.RefPool.lean ====
import proofs.«425307_j45586782880378_1_alg».proof.Proof.RefLayer
import proofs.«425307_j45586782880378_1_alg».proof.Proof.KernelIdeal.HostPool
import proofs.«425307_j45586782880378_1_alg».proof.Proof.PoolRefFacts
import proofs.«425307_j45586782880378_1_alg».proof.Proof.Spec
import Idealize.ShloMosaic.Lib.ValueIdx
import Idealize.ShloMosaic.Lib.ValueLayout
import Idealize.ShloMosaic.Lib.Pipeline.Value
import Idealize.ShloMosaic.Lib.IdealHost
import Idealize.ShloMosaic.Lib.StackMember
import Idealize.ShloMosaic.PureOps.Ideal.Laws

set_option maxRecDepth 16384

noncomputable section

open scoped BigOperators

namespace Cert.ReferenceIdeal.Layer

open Cert.ReferenceIdeal Cert.ReferenceIdeal.Gen Idealize.ShloMosaic Idealize.ShloMosaic.ValueIdx
open Cert.KernelIdeal.HostVal (sel cnt)

theorem cntRefVec_apply (bt : IArr Ideal S50000) (p : Fin 128) :
    (cntRefVec (F := Ideal) bt : S128.Idx → EReal) (ix1 p) = cnt bt p := by
  unfold cntRefVec
  rw [maximumf_apply, broadcastInDim_scalar_apply, constant_apply, Ideal.ofBits_one_f32]
  exact Cert.KernelIdeal.HostVal.ref_cnts _ _ _ bt p

theorem sumRefVec_apply (bt : IArr Ideal S50000) (H : FArr Ideal S50000x128) (p q : Fin 128) :
    (sumRefVec (F := Ideal) bt H : S128x128.Idx → EReal) (ix2 p q)
      = ∑ i ∈ Finset.univ.filter (fun i : Fin 50000 => sel bt i p), (H (ix2 i q) : EReal) := by
  unfold sumRefVec
  exact Cert.KernelIdeal.HostVal.ref_sums _ _ H bt p q

theorem meanRef_apply (bt : IArr Ideal S50000) (H : FArr Ideal S50000x128) (p q : Fin 128) :
    (Host.divf (F := Ideal) (φ := .f32) (sumRefVec bt H)
        (broadcastInDim S128x128 ![0, 1] bcast_S128x1_S128x128_0_1 (broadcastInDim S128x1 ![0] bcast_S128_S128x1_0 (cntRefVec bt)))
      : S128x128.Idx → EReal) (ix2 p q)
      = Ideal.div (∑ i ∈ Finset.univ.filter (fun i : Fin 50000 => sel bt i p), (H (ix2 i q) : EReal)) (cnt bt p) := by
  rw [hostDivf_apply, sumRefVec_apply]
  rw [broadcastInDim_apply _ _ _ (ix2 p q) (ix2 p (0 : Fin 1)) (fun a => match a with | ⟨0, _⟩ => rfl | ⟨1, _⟩ => rfl)]
  rw [broadcastInDim_apply _ _ _ (ix2 p (0 : Fin 1)) (ix1 p) (fun a => match a with | ⟨0, _⟩ => rfl)]
  rw [cntRefVec_apply]

theorem biasRef_apply (bc : FArr Ideal S10) (p : Fin 128) (k : Fin 10) :
    (broadcastInDim S128x10 ![0, 1] bcast_S1x10_S128x10_0_1 (broadcastInDim S1x10 ![1] bcast_S10_S1x10_1 bc) : S128x10.Idx → EReal) (ix2 p k)
      = bc (ix1 k) := by
  rw [broadcastInDim_apply _ _ _ (ix2 p k) (ix2 (0 : Fin 1) k) (fun a => match a with | ⟨0, _⟩ => rfl | ⟨1, _⟩ => rfl)]
  rw [broadcastInDim_apply _ _ _ (ix2 (0 : Fin 1) k) (ix1 k) (fun a => match a with | ⟨0, _⟩ => rfl)]

theorem classRef_apply (A : FArr Ideal S128x128) (wc : FArr Ideal S128x10) (p : Fin 128) (k : Fin 10) :
    Host.dotGeneral (F := Ideal) (φ₁ := .f32) (φ₂ := .f32) dot_S128x128_S128x10_S128x10_1_0_0_1_n_n none A wc (ix2 p k)
      = ∑ q : Fin 128, (A (ix2 p q) : EReal) * wc (ix2 q k) :=
  StackMember.dotGeneral_plain_apply (m := 128) (n := 10) none A wc p k

theorem poolRef_apply (bt : IArr Ideal S50000) (H : FArr Ideal S50000x128) (wc : FArr Ideal S128x10) (bc : FArr Ideal S10)
    (p : Fin 128) (k : Fin 10) :
    (poolRefVec (F := Ideal) bt H wc bc : S128x10.Idx → EReal) (ix2 p k)
      = Cert.Spec.poolRef (Cert.Spec.toMat H) (sel bt) (cnt bt) (Cert.Spec.toMat wc) (fun k => bc (ix1 k)) p k := by
  unfold poolRefVec
  rw [addf_apply, biasRef_apply, classRef_apply]
  show _ = (∑ q : Fin 128, Ideal.div (∑ i ∈ Finset.univ.filter (fun i : Fin 50000 => sel bt i p), (H (ix2 i q) : EReal)) (cnt bt p)
      * (wc (ix2 q k) : EReal)) + (bc (ix1 k) : EReal)
  rw [Finset.sum_congr rfl (fun q _ => by rw [meanRef_apply])]

end Cert.ReferenceIdeal.Layer
-- ==== Proof.RefResult.lean ====
import proofs.«425307_j45586782880378_1_alg».proof.Proof.RefLayer
import proofs.«425307_j45586782880378_1_alg».proof.Proof.AggShared
import proofs.«425307_j45586782880378_1_alg».proof.Proof.RefPool
import proofs.«425307_j45586782880378_1_alg».proof.Proof.LayersEq

set_option maxRecDepth 16384

noncomputable section

namespace Cert.ReferenceIdeal.Layer

open Cert.ReferenceIdeal Cert.ReferenceIdeal.Gen Cert.ReferenceIdeal.Layer Cert.Spec Idealize.ShloMosaic Idealize.ShloMosaic.ValueIdx

theorem toMat_ofMat {a b : ℕ} (f : Mat a b) : toMat (ofMat f) = f := rfl

theorem layerRef_eq (e : IArr Ideal S2x800000) (h : FArr Ideal S50000x128) (w : FArr Ideal S128x128)
    (b g be : FArr Ideal S128) :
    layerRefVec (F := Ideal) e h w b g be
      = ofMat (layerR e (toMat h) (toMat w) (fun j => b (ix1 j)) (fun j => g (ix1 j)) (fun j => be (ix1 j))) := by
  funext i
  obtain ⟨r, j, rfl⟩ : ∃ (r : Fin 50000) (j : Fin 128), i = ix2 r j := ⟨i 0, i 1, eq_ix2 i⟩
  rw [layerRef_apply e h w b g be r j, Cert.AggShared.aggRef_eq]
  unfold Cert.Spec.layerR Cert.Spec.aggM
  rfl

theorem refResult_apply (e : IArr Ideal S2x800000) (bt : IArr Ideal S50000) (x : FArr Ideal S50000x128)
    (w1 : FArr Ideal S128x128) (b1 g1 be1 : FArr Ideal S128)
    (w2 : FArr Ideal S128x128) (b2 g2 be2 : FArr Ideal S128)
    (w3 : FArr Ideal S128x128) (b3 g3 be3 : FArr Ideal S128)
    (wc : FArr Ideal S128x10) (bc : FArr Ideal S10) (p : Fin 128) (k : Fin 10) :
    poolRefVec (F := Ideal) bt
        (layerRefVec e (layerRefVec e (layerRefVec e x w1 b1 g1 be1) w2 b2 g2 be2) w3 b3 g3 be3) wc bc (ix2 p k)
      = poolRef
          (layerR e
            (layerR e
              (layerR e (toMat x) (toMat w1) (fun j => b1 (ix1 j)) (fun j => g1 (ix1 j)) (fun j => be1 (ix1 j)))
              (toMat w2) (fun j => b2 (ix1 j)) (fun j => g2 (ix1 j)) (fun j => be2 (ix1 j)))
            (toMat w3) (fun j => b3 (ix1 j)) (fun j => g3 (ix1 j)) (fun j => be3 (ix1 j)))
          (Cert.KernelIdeal.HostVal.sel bt) (Cert.KernelIdeal.HostVal.cnt bt) (toMat wc) (fun k => bc (ix1 k)) p k := by
  have l1 := layerRef_eq e x w1 b1 g1 be1
  have l2 := layerRef_eq e (layerRefVec e x w1 b1 g1 be1) w2 b2 g2 be2
  have l3 := layerRef_eq e (layerRefVec e (layerRefVec e x w1 b1 g1 be1) w2 b2 g2 be2) w3 b3 g3 be3
  rw [poolRef_apply, l3, toMat_ofMat, l2, toMat_ofMat, l1, toMat_ofMat]

end Cert.ReferenceIdeal.Layer

end
-- ==== Proof.PreFin.lean ====
import proofs.«425307_j45586782880378_1_alg».proof.Defs
import proofs.«425307_j45586782880378_1_alg».proof.Proof.Gen.Pre_finite_inputs
import proofs.«425307_j45586782880378_1_alg».proof.Proof.Spec
import proofs.«425307_j45586782880378_1_alg».proof.Proof.FinOps
import Idealize.ShloMosaic.Lib.ReduceAll

noncomputable section

namespace Cert.PreFin

open Idealize.ShloMosaic

theorem top_bits : Ideal.ofBits .f32 0x7F800000#32 = (⊤ : EReal) := by
  simp [Ideal.ofBits, Ideal.ieee]

theorem real_of_abs_lt_top (a : EReal) (h : max a (-a) < ⊤) : ∃ r : ℝ, a = (r : EReal) := by
  induction a using EReal.rec with
  | bot => simp at h
  | coe r => exact ⟨r, rfl⟩
  | top => simp at h

theorem finArr_of_all {S T U : Shape} [Subsingleton T.Idx] {axes : List (Fin S.rank)} {dims : Fin T.rank → Fin S.rank}
    (hb : T.BroadcastsInDim S dims) (hr : S.ReducesTo axes T) (hu : 0 < U.numel)
    (x : FVec Ideal S .f32) (init : IVec U 1) (j : T.Idx)
    (h : Host.reduce IntOp.andi (cmpf .olt (Host.absf x) (broadcastInDim S dims hb (constant T .f32 0x7F800000#32))) init hr hu j = 1#1) :
    Cert.Spec.FinArr x := by
  intro i
  have hi := Host.reduce_andi_all _ init hr hu j h i
  have hi' : BitVec.ofBool (decide (max (x i) (-(x i)) < Ideal.ofBits .f32 0x7F800000#32)) = 1#1 := hi
  rw [top_bits] at hi'
  have hlt : max (x i) (-(x i)) < ⊤ := by
    by_contra hn
    rw [decide_eq_false hn] at hi'
    exact absurd hi' (by decide)
  exact real_of_abs_lt_top _ hlt

instance : Subsingleton Cert.Pre_finite_inputs.S_.Idx := ⟨fun a b => funext fun d => d.elim0⟩

open Cert.Pre_finite_inputs Cert.Pre_finite_inputs.Gen

variable (m : (ℓ : Loc Cert.KernelIdeal.nD Cert.KernelIdeal.τ Cert.KernelIdeal.sig) → Buf (Elt Ideal) ℓ)

theorem all_fin (h : Cert.Pre_KernelIdeal m) (c : Dev Cert.KernelIdeal.nD) :
    Cert.Spec.FinArr (s := S50000x128) (m ((c.tc : Thread Cert.KernelIdeal.nD Cert.KernelIdeal.τ).loc Cert.KernelIdeal.main_arg0))
      ∧ Cert.Spec.FinArr (s := S128x128) (m ((c.tc : Thread Cert.KernelIdeal.nD Cert.KernelIdeal.τ).loc Cert.KernelIdeal.main_arg3))
      ∧ Cert.Spec.FinArr (s := S128) (m ((c.tc : Thread Cert.KernelIdeal.nD Cert.KernelIdeal.τ).loc Cert.KernelIdeal.main_arg4))
      ∧ Cert.Spec.FinArr (s := S128) (m ((c.tc : Thread Cert.KernelIdeal.nD Cert.KernelIdeal.τ).loc Cert.KernelIdeal.main_arg5))
      ∧ Cert.Spec.FinArr (s := S128) (m ((c.tc : Thread Cert.KernelIdeal.nD Cert.KernelIdeal.τ).loc Cert.KernelIdeal.main_arg6))
      ∧ Cert.Spec.FinArr (s := S128x128) (m ((c.tc : Thread Cert.KernelIdeal.nD Cert.KernelIdeal.τ).loc Cert.KernelIdeal.main_arg7))
      ∧ Cert.Spec.FinArr (s := S128) (m ((c.tc : Thread Cert.KernelIdeal.nD Cert.KernelIdeal.τ).loc Cert.KernelIdeal.main_arg8))
      ∧ Cert.Spec.FinArr (s := S128) (m ((c.tc : Thread Cert.KernelIdeal.nD Cert.KernelIdeal.τ).loc Cert.KernelIdeal.main_arg9))
      ∧ Cert.Spec.FinArr (s := S128) (m ((c.tc : Thread Cert.KernelIdeal.nD Cert.KernelIdeal.τ).loc Cert.KernelIdeal.main_arg10))
      ∧ Cert.Spec.FinArr (s := S128x128) (m ((c.tc : Thread Cert.KernelIdeal.nD Cert.KernelIdeal.τ).loc Cert.KernelIdeal.main_arg11))
      ∧ Cert.Spec.FinArr (s := S128) (m ((c.tc : Thread Cert.KernelIdeal.nD Cert.KernelIdeal.τ).loc Cert.KernelIdeal.main_arg12)) := by
  have h0 := congrFun (h c) ValueIdx.ix0
  dsimp only [Cert.Pre_finite_inputs.fn, fn_part1, fn_part2, fn_part3, fn_part4] at h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, h12⟩ := IntOp.andi_eq_one.1 h0
  obtain ⟨h0, h11⟩ := IntOp.andi_eq_one.1 h0
  obtain ⟨h0, h10⟩ := IntOp.andi_eq_one.1 h0
  obtain ⟨h0, h9⟩ := IntOp.andi_eq_one.1 h0
  obtain ⟨h0, h8⟩ := IntOp.andi_eq_one.1 h0
  obtain ⟨h0, h7⟩ := IntOp.andi_eq_one.1 h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  exact ⟨finArr_of_all _ _ _ _ _ _ h0,
    finArr_of_all _ _ _ _ _ _ h3,
    finArr_of_all _ _ _ _ _ _ h4,
    finArr_of_all _ _ _ _ _ _ h5,
    finArr_of_all _ _ _ _ _ _ h6,
    finArr_of_all _ _ _ _ _ _ h7,
    finArr_of_all _ _ _ _ _ _ h8,
    finArr_of_all _ _ _ _ _ _ h9,
    finArr_of_all _ _ _ _ _ _ h10,
    finArr_of_all _ _ _ _ _ _ h11,
    finArr_of_all _ _ _ _ _ _ h12⟩

variable {m}

theorem fin_arg0 (h : Cert.Pre_KernelIdeal m) (c : Dev Cert.KernelIdeal.nD) :
    Cert.Spec.FinArr (s := S50000x128) (m ((c.tc : Thread Cert.KernelIdeal.nD Cert.KernelIdeal.τ).loc Cert.KernelIdeal.main_arg0)) := (all_fin m h c).1
theorem fin_arg3 (h : Cert.Pre_KernelIdeal m) (c : Dev Cert.KernelIdeal.nD) :
    Cert.Spec.FinArr (s := S128x128) (m ((c.tc : Thread Cert.KernelIdeal.nD Cert.KernelIdeal.τ).loc Cert.KernelIdeal.main_arg3)) := (all_fin m h c).2.1
theorem fin_arg4 (h : Cert.Pre_KernelIdeal m) (c : Dev Cert.KernelIdeal.nD) :
    Cert.Spec.FinArr (s := S128) (m ((c.tc : Thread Cert.KernelIdeal.nD Cert.KernelIdeal.τ).loc Cert.KernelIdeal.main_arg4)) := (all_fin m h c).2.2.1
theorem fin_arg5 (h : Cert.Pre_KernelIdeal m) (c : Dev Cert.KernelIdeal.nD) :
    Cert.Spec.FinArr (s := S128) (m ((c.tc : Thread Cert.KernelIdeal.nD Cert.KernelIdeal.τ).loc Cert.KernelIdeal.main_arg5)) := (all_fin m h c).2.2.2.1
theorem fin_arg6 (h : Cert.Pre_KernelIdeal m) (c : Dev Cert.KernelIdeal.nD) :
    Cert.Spec.FinArr (s := S128) (m ((c.tc : Thread Cert.KernelIdeal.nD Cert.KernelIdeal.τ).loc Cert.KernelIdeal.main_arg6)) := (all_fin m h c).2.2.2.2.1
theorem fin_arg7 (h : Cert.Pre_KernelIdeal m) (c : Dev Cert.KernelIdeal.nD) :
    Cert.Spec.FinArr (s := S128x128) (m ((c.tc : Thread Cert.KernelIdeal.nD Cert.KernelIdeal.τ).loc Cert.KernelIdeal.main_arg7)) := (all_fin m h c).2.2.2.2.2.1
theorem fin_arg8 (h : Cert.Pre_KernelIdeal m) (c : Dev Cert.KernelIdeal.nD) :
    Cert.Spec.FinArr (s := S128) (m ((c.tc : Thread Cert.KernelIdeal.nD Cert.KernelIdeal.τ).loc Cert.KernelIdeal.main_arg8)) := (all_fin m h c).2.2.2.2.2.2.1
theorem fin_arg9 (h : Cert.Pre_KernelIdeal m) (c : Dev Cert.KernelIdeal.nD) :
    Cert.Spec.FinArr (s := S128) (m ((c.tc : Thread Cert.KernelIdeal.nD Cert.KernelIdeal.τ).loc Cert.KernelIdeal.main_arg9)) := (all_fin m h c).2.2.2.2.2.2.2.1
theorem fin_arg10 (h : Cert.Pre_KernelIdeal m) (c : Dev Cert.KernelIdeal.nD) :
    Cert.Spec.FinArr (s := S128) (m ((c.tc : Thread Cert.KernelIdeal.nD Cert.KernelIdeal.τ).loc Cert.KernelIdeal.main_arg10)) := (all_fin m h c).2.2.2.2.2.2.2.2.1
theorem fin_arg11 (h : Cert.Pre_KernelIdeal m) (c : Dev Cert.KernelIdeal.nD) :
    Cert.Spec.FinArr (s := S128x128) (m ((c.tc : Thread Cert.KernelIdeal.nD Cert.KernelIdeal.τ).loc Cert.KernelIdeal.main_arg11)) := (all_fin m h c).2.2.2.2.2.2.2.2.2.1
theorem fin_arg12 (h : Cert.Pre_KernelIdeal m) (c : Dev Cert.KernelIdeal.nD) :
    Cert.Spec.FinArr (s := S128) (m ((c.tc : Thread Cert.KernelIdeal.nD Cert.KernelIdeal.τ).loc Cert.KernelIdeal.main_arg12)) := (all_fin m h c).2.2.2.2.2.2.2.2.2.2
end Cert.PreFin

end
-- ==== Proof.Algebraic.lean ====
import proofs.«425307_j45586782880378_1_alg».proof.Defs
import proofs.«425307_j45586782880378_1_alg».proof.Proof.Gen.KernelIdeal
import proofs.«425307_j45586782880378_1_alg».proof.Proof.Gen.ReferenceIdeal
import proofs.«425307_j45586782880378_1_alg».proof.Proof.Gen.Pre_finite_inputs
import proofs.«425307_j45586782880378_1_alg».proof.Proof.KernelIdeal.KRun
import proofs.«425307_j45586782880378_1_alg».proof.Proof.KernelIdeal.KResult
import proofs.«425307_j45586782880378_1_alg».proof.Proof.RefStages
import proofs.«425307_j45586782880378_1_alg».proof.Proof.RefResult
import proofs.«425307_j45586782880378_1_alg».proof.Proof.LayersEq
import proofs.«425307_j45586782880378_1_alg».proof.Proof.PreFin
import proofs.«425307_j45586782880378_1_alg».proof.Proof.FinAgg

set_option maxRecDepth 16384

noncomputable section

namespace Cert.Proof

open Idealize.ShloMosaic Idealize.ShloMosaic.TcCoe Idealize.SL.Sem Idealize.ShloMosaic.ValueIdx Cert.Spec
open Cert.ReferenceIdeal.Layer (poolRefVec layerRefVec refResult_apply)
open Cert.KernelIdeal (main_arg0 main_arg1 main_arg2 main_arg3 main_arg4 main_arg5 main_arg6 main_arg7 main_arg8 main_arg9 main_arg10 main_arg11 main_arg12 main_arg13 main_arg14 main_arg15 main_arg16 main_v140)
open Cert.KernelIdeal.Hand (Z21 outs mem_uc)

abbrev KMem : Type := (ℓ : Loc Cert.KernelIdeal.nD Cert.KernelIdeal.τ Cert.KernelIdeal.sig) → Buf (Elt Ideal) ℓ

section Values

variable (m : KMem) (c : Dev Cert.KernelIdeal.nD)

abbrev inp (r : Ref Cert.KernelIdeal.sig .tc) : Buf (Elt Ideal) ((c.tc : Thread Cert.KernelIdeal.nD Cert.KernelIdeal.τ).loc r) :=
  m ((c.tc : Thread Cert.KernelIdeal.nD Cert.KernelIdeal.τ).loc r)

def specOf (L : EdgeList → Mat 50000 128 → Mat 128 128 → (Fin 128 → EReal) → (Fin 128 → EReal) → (Fin 128 → EReal) → Mat 50000 128) :
    Mat 128 10 :=
  poolRef
    (L (inp m c main_arg1)
      (L (inp m c main_arg1)
        (L (inp m c main_arg1) (toMat (inp m c main_arg0)) (toMat (inp m c main_arg3)) (fun j => inp m c main_arg4 (ix1 j)) (fun j => inp m c main_arg5 (ix1 j)) (fun j => inp m c main_arg6 (ix1 j)))
        (toMat (inp m c main_arg7)) (fun j => inp m c main_arg8 (ix1 j)) (fun j => inp m c main_arg9 (ix1 j)) (fun j => inp m c main_arg10 (ix1 j)))
      (toMat (inp m c main_arg11)) (fun j => inp m c main_arg12 (ix1 j)) (fun j => inp m c main_arg13 (ix1 j)) (fun j => inp m c main_arg14 (ix1 j)))
    (Cert.KernelIdeal.HostVal.sel (inp m c main_arg2)) (Cert.KernelIdeal.HostVal.cnt (inp m c main_arg2)) (toMat (inp m c main_arg15)) (fun j => inp m c main_arg16 (ix1 j))

def refOf : (⟨2, ![128, 10]⟩ : Shape).Idx → EReal :=
  poolRefVec (F := Ideal) (inp m c main_arg2)
    (layerRefVec (inp m c main_arg1)
      (layerRefVec (inp m c main_arg1)
        (layerRefVec (inp m c main_arg1) (inp m c main_arg0) (inp m c main_arg3) (inp m c main_arg4) (inp m c main_arg5) (inp m c main_arg6))
        (inp m c main_arg7) (inp m c main_arg8) (inp m c main_arg9) (inp m c main_arg10))
      (inp m c main_arg11) (inp m c main_arg12) (inp m c main_arg13) (inp m c main_arg14))
    (inp m c main_arg15) (inp m c main_arg16)

theorem kval (p : Fin 128) (k : Fin 10) :
    (Z21 m c main_v140 : (⟨2, ![128, 10]⟩ : Shape).Idx → EReal) (ix2 p k) = specOf m c layerK p k :=
  Cert.KernelIdeal.KVal.kresult m c p k

theorem rval (p : Fin 128) (k : Fin 10) : refOf m c (ix2 p k) = specOf m c layerR p k :=
  refResult_apply _ _ _ _ _ _ _ _ _ _ _ _ _ _ _ _ _ p k

theorem spec_eq (hpre : Cert.Pre_KernelIdeal (hPre_finite_inputs := Cert.Pre_finite_inputs.Gen.facts) m) :
    specOf m c layerK = specOf m c layerR := by
  unfold specOf
  rw [layers3_eq _ _ _ _ _ _ _ _ _ _ _ _ _ _
    (Cert.PreFin.fin_arg0 hpre c).toMat (Cert.PreFin.fin_arg3 hpre c).toMat (Cert.PreFin.fin_arg7 hpre c).toMat
    (Cert.PreFin.fin_arg11 hpre c).toMat
    ((finArr_iff_finVec _).mp (Cert.PreFin.fin_arg4 hpre c)) ((finArr_iff_finVec _).mp (Cert.PreFin.fin_arg5 hpre c))
    ((finArr_iff_finVec _).mp (Cert.PreFin.fin_arg6 hpre c)) ((finArr_iff_finVec _).mp (Cert.PreFin.fin_arg8 hpre c))
    ((finArr_iff_finVec _).mp (Cert.PreFin.fin_arg9 hpre c)) ((finArr_iff_finVec _).mp (Cert.PreFin.fin_arg10 hpre c))
    ((finArr_iff_finVec _).mp (Cert.PreFin.fin_arg12 hpre c))]

theorem refOf_eq (hpre : Cert.Pre_KernelIdeal (hPre_finite_inputs := Cert.Pre_finite_inputs.Gen.facts) m) :
    refOf m c = Z21 m c main_v140 := by
  funext i
  obtain ⟨p, k, rfl⟩ : ∃ (p : Fin 128) (k : Fin 10), i = ix2 p k := ⟨i 0, i 1, eq_ix2 i⟩
  rw [rval, ← spec_eq m c hpre]
  exact (kval m c p k).symm

end Values

section Ends

variable (m : KMem) (c : Dev Cert.KernelIdeal.nD) (μ : KMem)

abbrev AtEnd : Prop :=
  ∀ b ∈ Pipeline.ucRefs Cert.KernelIdeal.τ Cert.KernelIdeal.sig, μ ((c : Thread Cert.KernelIdeal.nD Cert.KernelIdeal.τ).1, b) = Z21 m c b

theorem end_arg0 (h : AtEnd m c μ) : inp μ c main_arg0 = inp m c main_arg0 :=
  (h _ (mem_uc main_arg0 (by decide))).trans (Cert.KernelIdeal.Gen.V21_main_arg0 m (outs m) c)
theorem end_arg1 (h : AtEnd m c μ) : inp μ c main_arg1 = inp m c main_arg1 :=
  (h _ (mem_uc main_arg1 (by decide))).trans (Cert.KernelIdeal.Gen.V21_main_arg1 m (outs m) c)
theorem end_arg2 (h : AtEnd m c μ) : inp μ c main_arg2 = inp m c main_arg2 :=
  (h _ (mem_uc main_arg2 (by decide))).trans (Cert.KernelIdeal.Gen.V21_main_arg2 m (outs m) c)
theorem end_arg3 (h : AtEnd m c μ) : inp μ c main_arg3 = inp m c main_arg3 :=
  (h _ (mem_uc main_arg3 (by decide))).trans (Cert.KernelIdeal.Gen.V21_main_arg3 m (outs m) c)
theorem end_arg4 (h : AtEnd m c μ) : inp μ c main_arg4 = inp m c main_arg4 :=
  (h _ (mem_uc main_arg4 (by decide))).trans (Cert.KernelIdeal.Gen.V21_main_arg4 m (outs m) c)
theorem end_arg5 (h : AtEnd m c μ) : inp μ c main_arg5 = inp m c main_arg5 :=
  (h _ (mem_uc main_arg5 (by decide))).trans (Cert.KernelIdeal.Gen.V21_main_arg5 m (outs m) c)
theorem end_arg6 (h : AtEnd m c μ) : inp μ c main_arg6 = inp m c main_arg6 :=
  (h _ (mem_uc main_arg6 (by decide))).trans (Cert.KernelIdeal.Gen.V21_main_arg6 m (outs m) c)
theorem end_arg7 (h : AtEnd m c μ) : inp μ c main_arg7 = inp m c main_arg7 :=
  (h _ (mem_uc main_arg7 (by decide))).trans (Cert.KernelIdeal.Gen.V21_main_arg7 m (outs m) c)
theorem end_arg8 (h : AtEnd m c μ) : inp μ c main_arg8 = inp m c main_arg8 :=
  (h _ (mem_uc main_arg8 (by decide))).trans (Cert.KernelIdeal.Gen.V21_main_arg8 m (outs m) c)
theorem end_arg9 (h : AtEnd m c μ) : inp μ c main_arg9 = inp m c main_arg9 :=
  (h _ (mem_uc main_arg9 (by decide))).trans (Cert.KernelIdeal.Gen.V21_main_arg9 m (outs m) c)
theorem end_arg10 (h : AtEnd m c μ) : inp μ c main_arg10 = inp m c main_arg10 :=
  (h _ (mem_uc main_arg10 (by decide))).trans (Cert.KernelIdeal.Gen.V21_main_arg10 m (outs m) c)
theorem end_arg11 (h : AtEnd m c μ) : inp μ c main_arg11 = inp m c main_arg11 :=
  (h _ (mem_uc main_arg11 (by decide))).trans (Cert.KernelIdeal.Gen.V21_main_arg11 m (outs m) c)
theorem end_arg12 (h : AtEnd m c μ) : inp μ c main_arg12 = inp m c main_arg12 :=
  (h _ (mem_uc main_arg12 (by decide))).trans (Cert.KernelIdeal.Gen.V21_main_arg12 m (outs m) c)
theorem end_arg13 (h : AtEnd m c μ) : inp μ c main_arg13 = inp m c main_arg13 :=
  (h _ (mem_uc main_arg13 (by decide))).trans (Cert.KernelIdeal.Gen.V21_main_arg13 m (outs m) c)
theorem end_arg14 (h : AtEnd m c μ) : inp μ c main_arg14 = inp m c main_arg14 :=
  (h _ (mem_uc main_arg14 (by decide))).trans (Cert.KernelIdeal.Gen.V21_main_arg14 m (outs m) c)
theorem end_arg15 (h : AtEnd m c μ) : inp μ c main_arg15 = inp m c main_arg15 :=
  (h _ (mem_uc main_arg15 (by decide))).trans (Cert.KernelIdeal.Gen.V21_main_arg15 m (outs m) c)
theorem end_arg16 (h : AtEnd m c μ) : inp μ c main_arg16 = inp m c main_arg16 :=
  (h _ (mem_uc main_arg16 (by decide))).trans (Cert.KernelIdeal.Gen.V21_main_arg16 m (outs m) c)

end Ends

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Z21 m c main_v140, ?_, ?_⟩
  · exact (θ_run _ _ _).mono (fun r h c =>
      ⟨h c _ (mem_uc main_v140 (by decide)),
        end_arg0 m c r.2.mem (h c),
        end_arg1 m c r.2.mem (h c),
        end_arg2 m c r.2.mem (h c),
        end_arg3 m c r.2.mem (h c),
        end_arg4 m c r.2.mem (h c),
        end_arg5 m c r.2.mem (h c),
        end_arg6 m c r.2.mem (h c),
        end_arg7 m c r.2.mem (h c),
        end_arg8 m c r.2.mem (h c),
        end_arg9 m c r.2.mem (h c),
        end_arg10 m c r.2.mem (h c),
        end_arg11 m c r.2.mem (h c),
        end_arg12 m c r.2.mem (h c),
        end_arg13 m c r.2.mem (h c),
        end_arg14 m c r.2.mem (h c),
        end_arg15 m c r.2.mem (h c),
        end_arg16 m c r.2.mem (h c)⟩)
      (Cert.KernelIdeal.Hand.run_all m ρ)
  · refine (θ_run _ _ _).mono (fun r h c => ⟨(h c).1.trans ?_, (h c).2⟩)
      (Cert.ReferenceIdeal.ValueP.ref_run (F := Ideal) m' ρ')
    obtain ⟨h0, h1, h2, h3, h4, h5, h6, h7, h8, h9, h10, h11, h12, h13, h14, h15, h16⟩ := hagree c
    unfold Cert.ReferenceIdeal.ValueP.refResult
    rw [h0, h1, h2, h3, h4, h5, h6, h7, h8, h9, h10, h11, h12, h13, h14, h15, h16]
    exact refOf_eq m c hpre

end Cert.Proof

end
-- ==== Proof.lean ====
import proofs.«425307_j45586782880378_1_alg».proof.Defs
import proofs.«425307_j45586782880378_1_alg».proof.Proof.Gen.Kernel
import proofs.«425307_j45586782880378_1_alg».proof.Proof.Gen.KernelIdeal
import proofs.«425307_j45586782880378_1_alg».proof.Proof.Gen.ReferenceIdeal
import proofs.«425307_j45586782880378_1_alg».proof.Proof.Gen.Pre_finite_inputs
import proofs.«425307_j45586782880378_1_alg».proof.Proof.Kernel.KRun
import proofs.«425307_j45586782880378_1_alg».proof.Proof.KernelIdeal.KRun
import proofs.«425307_j45586782880378_1_alg».proof.Proof.RefStages
import proofs.«425307_j45586782880378_1_alg».proof.Proof.Algebraic
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Hand.frame_all (F := Bits) m ρ

theorem frame_ki : Cert.frame_KernelIdeal (hKernelIdeal := Cert.KernelIdeal.Gen.facts) (hPre_finite_inputs := Cert.Pre_finite_inputs.Gen.facts) :=
  fun m ρ _ => Cert.KernelIdeal.Hand.frame_all (F := Ideal) m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.ref_run (F := Ideal) m ρ)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
